-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v224) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x800000 : Shape := ⟨2, ![2, 800000]⟩
abbrev S800000x16 : Shape := ⟨2, ![800000, 16]⟩
abbrev S50000 : Shape := ⟨1, ![50000]⟩
abbrev S32x64 : Shape := ⟨2, ![32, 64]⟩
abbrev S64 : Shape := ⟨1, ![64]⟩
abbrev S144x64 : Shape := ⟨2, ![144, 64]⟩
abbrev S64x64 : Shape := ⟨2, ![64, 64]⟩
abbrev S192x64 : Shape := ⟨2, ![192, 64]⟩
abbrev S192 : Shape := ⟨1, ![192]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S144x64 : S_.BroadcastsInDim S144x64 (![] : Fin 0 → Fin S144x64.rank)
  reducesTo_S144x64_S_d0_1 : S144x64.ReducesTo [0, 1] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part5 {F : FTy → Type} [FloatOps F] (main_v78 : IVec S_ 1) (main_v84 : IVec S_ 1) : IVec S_ 1 :=
  let main_v85 : IVec S_ 1 := andi main_v78 main_v84
  main_v85

def fn_part4 {F : FTy → Type} [FloatOps F] (main_arg1 : IVec S2x800000 32) (main_arg16 : FVec F S64x1 .f32) (main_arg17 : FVec F S1 .f32) (main_v63 : IVec S_ 1) (main_v67 : IVec S_ 1) : IVec S_ 1 :=
  let main_v68 : IVec S_ 1 := andi main_v63 main_v67
  let main_v69 : FVec F S64x1 .f32 := Host.absf main_arg16
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_c_30 : IVec S_ 32 := constantI S_ 32 0#32
  let main_v79 : IVec S2x800000 32 := broadcastInDim S2x800000 ![] bcast_S_S2x800000 main_c_30
  let main_v80 : IVec S2x800000 1 := cmpi .sge main_arg1 main_v79
  let main_c_31 : IVec S_ 32 := constantI S_ 32 50000#32
  let main_v81 : IVec S2x800000 32 := broadcastInDim S2x800000 ![] bcast_S_S2x800000 main_c_31
  let main_v82 : IVec S2x800000 1 := cmpi .slt main_arg1 main_v81
  let main_v83 : IVec S2x800000 1 := andi main_v80 main_v82
  let main_c_32 : IVec S_ 1 := constantI S_ 1 1#1
  let main_v84 : IVec S_ 1 := (fun x v => Host.reduce IntOp.andi x v reducesTo_S2x800000_S_d0_1 h_S_) main_v83 main_c_32
  fn_part5 (F := F) main_v78 main_v84

def fn_part3 {F : FTy → Type} [FloatOps F] (main_arg1 : IVec S2x800000 32) (main_arg13 : FVec F S192 .f32) (main_arg14 : FVec F S128x64 .f32) (main_arg15 : FVec F S64 .f32) (main_arg16 : FVec F S64x1 .f32) (main_arg17 : FVec F S1 .f32) (main_v48 : IVec S_ 1) (main_v49 : FVec F S192x64 .f32) (main_v50 : FVec F S192x64 .f32) : IVec S_ 1 :=
  let main_v51 : IVec S192x64 1 := cmpf .olt main_v49 main_v50
  let main_c_19 : IVec S_ 1 := constantI S_ 1 1#1
  let main_v52 : IVec S_ 1 := (fun x v => Host.reduce IntOp.andi x v reducesTo_S192x64_S_d0_1 h_S_) main_v51 main_c_19
  let main_v53 : IVec S_ 1 := andi main_v48 main_v52
  let main_v54 : FVec F S192 .f32 := Host.absf main_arg13
  let main_cst_20 : FVec F S_ .f32 := constant S_ .f32 0x7F800000#32
  let main_v55 : FVec F S192 .f32 := broadcastInDim S192 ![] bcast_S_S192 main_cst_20
  let main_v56 : IVec S192 1 := cmpf .olt main_v54 main_v55
  let main_c_21 : IVec S_ 1 := constantI S_ 1 1#1
  let main_v57 : IVec S_ 1 := (fun x v => Host.reduce IntOp.andi x v reducesTo_S192_S_d0 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg1 main_arg16 main_arg17 main_v63 main_v67

def fn_part2 {F : FTy → Type} [FloatOps F] (main_arg1 : IVec S2x800000 32) (main_arg9 : FVec F S64 .f32) (main_arg10 : FVec F S192x64 .f32) (main_arg11 : FVec F S192 .f32) (main_arg12 : FVec F S192x64 .f32) (main_arg13 : FVec F S192 .f32) (main_arg14 : FVec F S128x64 .f32) (main_arg15 : FVec F S64 .f32) (main_arg16 : FVec F S64x1 .f32) (main_arg17 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S192x64 .f32 := Host.absf main_arg10
  let main_cst_14 : FVec F S_ .f32 := constant S_ .f32 0x7F800000#32
  let main_v40 : FVec F S192x64 .f32 := broadcastInDim S192x64 ![] bcast_S_S192x64 main_cst_14
  let main_v41 : IVec S192x64 1 := cmpf .olt main_v39 main_v40
  let main_c_15 : IVec S_ 1 := constantI S_ 1 1#1
  let main_v42 : IVec S_ 1 := (fun x v => Host.reduce IntOp.andi x v reducesTo_S192x64_S_d0_1 h_S_) main_v41 main_c_15
  let main_v43 : IVec S_ 1 := andi main_v38 main_v42
  let main_v44 : FVec F S192 .f32 := Host.absf main_arg11
  let main_cst_16 : FVec F S_ .f32 := constant S_ .f32 0x7F800000#32
  let main_v45 : FVec F S192 .f32 := broadcastInDim S192 ![] bcast_S_S192 main_cst_16
  let main_v46 : IVec S192 1 := cmpf .olt main_v44 main_v45
  let main_c_17 : IVec S_ 1 := constantI S_ 1 1#1
  let main_v47 : IVec S_ 1 := (fun x v => Host.reduce IntOp.andi x v reducesTo_S192_S_d0 h_S_) main_v46 main_c_17
  let main_v48 : IVec S_ 1 := andi main_v43 main_v47
  let main_v49 : FVec F S192x64 .f32 := Host.absf main_arg12
  let main_cst_18 : FVec F S_ .f32 := constant S_ .f32 0x7F800000#32
  let main_v50 : FVec F S192x64 .f32 := broadcastInDim S192x64 ![] bcast_S_S192x64 main_cst_18
  fn_part3 (F := F) main_arg1 main_arg13 main_arg14 main_arg15 main_arg16 main_arg17 main_v48 main_v49 main_v50

def fn_part1 {F : FTy → Type} [FloatOps F] (main_arg1 : IVec S2x800000 32) (main_arg6 : FVec F S144x64 .f32) (main_arg7 : FVec F S64 .f32) (main_arg8 : FVec F S64x64 .f32) (main_arg9 : FVec F S64 .f32) (main_arg10 : FVec F S192x64 .f32) (main_arg11 : FVec F S192 .f32) (main_arg12 : FVec F S192x64 .f32) (main_arg13 : FVec F S192 .f32) (main_arg14 : FVec F S128x64 .f32) (main_arg15 : FVec F S64 .f32) (main_arg16 : FVec F S64x1 .f32) (main_arg17 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S144x64 .f32 := Host.absf main_arg6
  let main_cst_6 : FVec F S_ .f32 := constant S_ .f32 0x7F800000#32
  let main_v20 : FVec F S144x64 .f32 := broadcastInDim S144x64 ![] bcast_S_S144x64 main_cst_6
  let main_v21 : IVec S144x64 1 := cmpf .olt main_v19 main_v20
  let main_c_7 : IVec S_ 1 := constantI S_ 1 1#1
  let main_v22 : IVec S_ 1 := (fun x v => Host.reduce IntOp.andi x v reducesTo_S144x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg9 main_arg10 main_arg11 main_arg12 main_arg13 main_arg14 main_arg15 main_arg16 main_arg17 main_v33

def fn {F : FTy → Type} [FloatOps F] (main_arg0 : FVec F S50000x32 .f32) (main_arg1 : IVec S2x800000 32) (main_arg2 : FVec F S800000x16 .f32) (main_arg3 : IVec S50000 32) (main_arg4 : FVec F S32x64 .f32) (main_arg5 : FVec F S64 .f32) (main_arg6 : FVec F S144x64 .f32) (main_arg7 : FVec F S64 .f32) (main_arg8 : FVec F S64x64 .f32) (main_arg9 : FVec F S64 .f32) (main_arg10 : FVec F S192x64 .f32) (main_arg11 : FVec F S192 .f32) (main_arg12 : FVec F S192x64 .f32) (main_arg13 : FVec F S192 .f32) (main_arg14 : FVec F S128x64 .f32) (main_arg15 : FVec F S64 .f32) (main_arg16 : FVec F S64x1 .f32) (main_arg17 : FVec F S1 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_arg7 main_arg8 main_arg9 main_arg10 main_arg11 main_arg12 main_arg13 main_arg14 main_arg15 main_arg16 main_arg17 main_v13 main_v16
-- ==== Kernel.lean ====
abbrev S50000x32 : Shape := ⟨2, ![50000, 32]⟩
abbrev S2x800000 : Shape := ⟨2, ![2, 800000]⟩
abbrev S800000x16 : Shape := ⟨2, ![800000, 16]⟩
abbrev S50000 : Shape := ⟨1, ![50000]⟩
abbrev S32x64 : Shape := ⟨2, ![32, 64]⟩
abbrev S64 : Shape := ⟨1, ![64]⟩
abbrev S144x64 : Shape := ⟨2, ![144, 64]⟩
abbrev S64x64 : Shape := ⟨2, ![64, 64]⟩
abbrev S192x64 : Shape := ⟨2, ![192, 64]⟩
abbrev S192 : Shape := ⟨1, ![192]⟩
abbrev S128x64 : Shape := ⟨2, ![128, 64]⟩
abbrev S64x1 : Shape := ⟨2, ![64, 1]⟩
abbrev S1 : Shape := ⟨1, ![1]⟩
abbrev S50000x64 : Shape := ⟨2, ![50000, 64]⟩
abbrev S1x64 : Shape := ⟨2, ![1, 64]⟩
abbrev S1x800000 : Shape := ⟨2, ![1, 800000]⟩
abbrev S800000 : Shape := ⟨1, ![800000]⟩
abbrev S16x64 : Shape := ⟨2, ![16, 64]⟩
abbrev S_ : Shape := ⟨0, ![]⟩
abbrev S800000x1 : Shape := ⟨2, ![800000, 1]⟩
abbrev S1x1 : Shape := ⟨2, ![1, 1]⟩
abbrev S800000x64 : Shape := ⟨2, ![800000, 64]⟩
abbrev S8000x64 : Shape := ⟨2, ![8000, 64]⟩
abbrev S8000x16 : Shape := ⟨2, ![8000, 16]⟩
abbrev S5000x64 : Shape := ⟨2, ![5000, 64]⟩
abbrev S256x64 : Shape := ⟨2, ![256, 64]⟩
abbrev S50000x1 : Shape := ⟨2, ![50000, 1]⟩
abbrev S256 : Shape := ⟨1, ![256]⟩
abbrev S256x1 : Shape := ⟨2, ![256, 1]⟩
abbrev S256x128 : Shape := ⟨2, ![256, 128]⟩

abbrev nBuf : Space → Nat
  | .hbm => 239
  | .vmem => 96
  | .smem => 0
  | _ => 0

abbrev hbmTy0_0 (i : Nat) : BufTy := match i % 128 with
  | 0 => ⟨S50000x32, .f32⟩
  | 1 => ⟨S2x800000, .i32⟩
  | 2 => ⟨S800000x16, .f32⟩
  | 3 => ⟨S50000, .i32⟩
  | 4 => ⟨S32x64, .f32⟩
  | 5 => ⟨S64, .f32⟩
  | 6 => ⟨S144x64, .f32⟩
  | 7 => ⟨S64, .f32⟩
  | 8 => ⟨S64x64, .f32⟩
  | 9 => ⟨S64, .f32⟩
  | 10 => ⟨S192x64, .f32⟩
  | 11 => ⟨S192, .f32⟩
  | 12 => ⟨S192x64, .f32⟩
  | 13 => ⟨S192, .f32⟩
  | 14 => ⟨S128x64, .f32⟩
  | 15 => ⟨S64, .f32⟩
  | 16 => ⟨S64x1, .f32⟩
  | 17 => ⟨S1, .f32⟩
  | 18 => ⟨S50000x64, .f32⟩
  | 19 => ⟨S1x64, .f32⟩
  | 20 => ⟨S50000x64, .f32⟩
  | 21 => ⟨S50000x64, .f32⟩
  | 22 => ⟨S1x800000, .i32⟩
  | 23 => ⟨S800000, .i32⟩
  | 24 => ⟨S1x800000, .i32⟩
  | 25 => ⟨S800000, .i32⟩
  | 26 => ⟨S64x64, .f32⟩
  | 27 => ⟨S64x64, .f32⟩
  | 28 => ⟨S16x64, .f32⟩
  | 29 => ⟨S1x64, .f32⟩
  | 30 => ⟨S1x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S64x64, .f32⟩
  | 42 => ⟨S64x64, .f32⟩
  | 43 => ⟨S64, .f32⟩
  | 44 => ⟨S1x64, .f32⟩
  | 45 => ⟨S64, .f32⟩
  | 46 => ⟨S1x64, .f32⟩
  | 47 => ⟨S64, .f32⟩
  | 48 => ⟨S1x64, .f32⟩
  | 49 => ⟨S64, .f32⟩
  | 50 => ⟨S1x64, .f32⟩
  | 51 => ⟨S64, .f32⟩
  | 52 => ⟨S1x64, .f32⟩
  | 53 => ⟨S64, .f32⟩
  | 54 => ⟨S1x64, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S1, .i32⟩
  | 64 => ⟨S_, .i32⟩
  | 65 => ⟨S800000x1, .i32⟩
  | 66 => ⟨S800000x1, .i1⟩
  | 67 => ⟨S1x1, .i32⟩
  | 68 => ⟨S800000x1, .i32⟩
  | 69 => ⟨S800000x1, .i1⟩
  | 70 => ⟨S800000x1, .i1⟩
  | 71 => ⟨S_, .i1⟩
  | 72 => ⟨S800000, .i1⟩
  | 73 => ⟨S800000x64, .f32⟩
  | 74 => ⟨S800000x64, .i1⟩
  | 75 => ⟨S_, .f32⟩
  | 76 => ⟨S800000x64, .f32⟩
  | 77 => ⟨S800000x64, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S1, .i32⟩
  | 87 => ⟨S_, .i32⟩
  | 88 => ⟨S800000x1, .i32⟩
  | 89 => ⟨S800000x1, .i1⟩
  | 90 => ⟨S1x1, .i32⟩
  | 91 => ⟨S800000x1, .i32⟩
  | 92 => ⟨S800000x1, .i1⟩
  | 93 => ⟨S800000x1, .i1⟩
  | 94 => ⟨S_, .i1⟩
  | 95 => ⟨S800000, .i1⟩
  | 96 => ⟨S800000x64, .f32⟩
  | 97 => ⟨S800000x64, .i1⟩
  | 98 => ⟨S_, .f32⟩
  | 99 => ⟨S800000x64, .f32⟩
  | 100 => ⟨S800000x64, .f32⟩
  | 101 => ⟨S800000x64, .f32⟩
  | 102 => ⟨S_, .f32⟩
  | 103 => ⟨S50000x64, .f32⟩
  | 104 => ⟨S800000x1, .i32⟩
  | 105 => ⟨S50000x64, .f32⟩
  | 106 => ⟨S50000x64, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S1, .i32⟩
  | 116 => ⟨S_, .i32⟩
  | 117 => ⟨S800000x1, .i32⟩
  | 118 => ⟨S800000x1, .i1⟩
  | 119 => ⟨S1x1, .i32⟩
  | 120 => ⟨S800000x1, .i32⟩
  | 121 => ⟨S800000x1, .i1⟩
  | 122 => ⟨S800000x1, .i1⟩
  | 123 => ⟨S_, .i1⟩
  | 124 => ⟨S800000, .i1⟩
  | 125 => ⟨S800000x64, .f32⟩
  | 126 => ⟨S800000x64, .i1⟩
  | 127 => ⟨S_, .f32⟩
  | _ => ⟨S50000x32, .f32⟩

abbrev hbmTy0_1 (i : Nat) : BufTy := match i % 128 with
  | 0 => ⟨S800000x64, .f32⟩
  | 1 => ⟨S800000x64, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S1, .i32⟩
  | 11 => ⟨S_, .i32⟩
  | 12 => ⟨S800000x1, .i32⟩
  | 13 => ⟨S800000x1, .i1⟩
  | 14 => ⟨S1x1, .i32⟩
  | 15 => ⟨S800000x1, .i32⟩
  | 16 => ⟨S800000x1, .i1⟩
  | 17 => ⟨S800000x1, .i1⟩
  | 18 => ⟨S_, .i1⟩
  | 19 => ⟨S800000, .i1⟩
  | 20 => ⟨S800000x64, .f32⟩
  | 21 => ⟨S800000x64, .i1⟩
  | 22 => ⟨S_, .f32⟩
  | 23 => ⟨S800000x64, .f32⟩
  | 24 => ⟨S800000x64, .f32⟩
  | 25 => ⟨S800000x64, .f32⟩
  | 26 => ⟨S_, .f32⟩
  | 27 => ⟨S50000x64, .f32⟩
  | 28 => ⟨S800000x1, .i32⟩
  | 29 => ⟨S50000x64, .f32⟩
  | 30 => ⟨S50000x64, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S1, .i32⟩
  | 40 => ⟨S_, .i32⟩
  | 41 => ⟨S800000x1, .i32⟩
  | 42 => ⟨S800000x1, .i1⟩
  | 43 => ⟨S1x1, .i32⟩
  | 44 => ⟨S800000x1, .i32⟩
  | 45 => ⟨S800000x1, .i1⟩
  | 46 => ⟨S800000x1, .i1⟩
  | 47 => ⟨S_, .i1⟩
  | 48 => ⟨S800000, .i1⟩
  | 49 => ⟨S800000x64, .f32⟩
  | 50 => ⟨S800000x64, .i1⟩
  | 51 => ⟨S_, .f32⟩
  | 52 => ⟨S800000x64, .f32⟩
  | 53 => ⟨S800000x64, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S1, .i32⟩
  | 63 => ⟨S_, .i32⟩
  | 64 => ⟨S800000x1, .i32⟩
  | 65 => ⟨S800000x1, .i1⟩
  | 66 => ⟨S1x1, .i32⟩
  | 67 => ⟨S800000x1, .i32⟩
  | 68 => ⟨S800000x1, .i1⟩
  | 69 => ⟨S800000x1, .i1⟩
  | 70 => ⟨S_, .i1⟩
  | 71 => ⟨S800000, .i1⟩
  | 72 => ⟨S800000x64, .f32⟩
  | 73 => ⟨S800000x64, .i1⟩
  | 74 => ⟨S_, .f32⟩
  | 75 => ⟨S800000x64, .f32⟩
  | 76 => ⟨S800000x64, .f32⟩
  | 77 => ⟨S800000x64, .f32⟩
  | 78 => ⟨S_, .f32⟩
  | 79 => ⟨S50000x64, .f32⟩
  | 80 => ⟨S800000x1, .i32⟩
  | 81 => ⟨S50000x64, .f32⟩
  | 82 => ⟨S50000x64, .f32⟩
  | 83 => ⟨S_, .f32⟩
  | 84 => ⟨S256x64, .f32⟩
  | 85 => ⟨S50000x1, .i32⟩
  | 86 => ⟨S256x64, .f32⟩
  | 87 => ⟨S_, .f32⟩
  | 88 => ⟨S50000, .f32⟩
  | 89 => ⟨S_, .f32⟩
  | 90 => ⟨S256, .f32⟩
  | 91 => ⟨S50000x1, .i32⟩
  | 92 => ⟨S256, .f32⟩
  | 93 => ⟨S_, .f32⟩
  | 94 => ⟨S256, .f32⟩
  | 95 => ⟨S256, .f32⟩
  | 96 => ⟨S256x1, .f32⟩
  | 97 => ⟨S256x64, .f32⟩
  | 98 => ⟨S256x64, .f32⟩
  | 99 => ⟨S256x128, .f32⟩
  | 100 => ⟨S256x64, .f32⟩
  | 101 => ⟨S1x64, .f32⟩
  | 102 => ⟨S256x64, .f32⟩
  | 103 => ⟨S256x64, .f32⟩
  | 104 => ⟨S_, .f32⟩
  | 105 => ⟨S256x64, .f32⟩
  | 106 => ⟨S256x64, .f32⟩
  | 107 => ⟨S256x1, .f32⟩
  | 108 => ⟨S1x1, .f32⟩
  | 109 => ⟨S256x1, .f32⟩
  | 110 => ⟨S256x1, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x16, .f32⟩
  | .local _ .vmem, ⟨5, _⟩ => ⟨S8000x16, .f32⟩
  | .local _ .vmem, ⟨6, _⟩ => ⟨S64x64, .f32⟩
  | .local _ .vmem, ⟨7, _⟩ => ⟨S64x64, .f32⟩
  | .local _ .vmem, ⟨8, _⟩ => ⟨S16x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S8000x64, .f32⟩
  | .local _ .vmem, ⟨13, _⟩ => ⟨S8000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S64x64, .f32⟩
  | .local _ .vmem, ⟨20, _⟩ => ⟨S64x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S64x64, .f32⟩
  | .local _ .vmem, ⟨25, _⟩ => ⟨S64x64, .f32⟩
  | .local _ .vmem, ⟨26, _⟩ => ⟨S64x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S8000x64, .f32⟩
  | .local _ .vmem, ⟨33, _⟩ => ⟨S8000x64, .f32⟩
  | .local _ .vmem, ⟨34, _⟩ => ⟨S8000x64, .f32⟩
  | .local _ .vmem, ⟨35, _⟩ => ⟨S8000x64, .f32⟩
  | .local _ .vmem, ⟨36, _⟩ => ⟨S8000x16, .f32⟩
  | .local _ .vmem, ⟨37, _⟩ => ⟨S8000x16, .f32⟩
  | .local _ .vmem, ⟨38, _⟩ => ⟨S64x64, .f32⟩
  | .local _ .vmem, ⟨39, _⟩ => ⟨S64x64, .f32⟩
  | .local _ .vmem, ⟨40, _⟩ => ⟨S16x64, .f32⟩
  | .local _ .vmem, ⟨41, _⟩ => ⟨S1x64, .f32⟩
  | .local _ .vmem, ⟨42, _⟩ => ⟨S64x64, .f32⟩
  | .local _ .vmem, ⟨43, _⟩ => ⟨S1x64, .f32⟩
  | .local _ .vmem, ⟨44, _⟩ => ⟨S8000x64, .f32⟩
  | .local _ .vmem, ⟨45, _⟩ => ⟨S8000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S64x64, .f32⟩
  | .local _ .vmem, ⟨51, _⟩ => ⟨S64x64, .f32⟩
  | .local _ .vmem, ⟨52, _⟩ => ⟨S64x64, .f32⟩
  | .local _ .vmem, ⟨53, _⟩ => ⟨S1x64, .f32⟩
  | .local _ .vmem, ⟨54, _⟩ => ⟨S1x64, .f32⟩
  | .local _ .vmem, ⟨55, _⟩ => ⟨S1x64, .f32⟩
  | .local _ .vmem, ⟨56, _⟩ => ⟨S64x64, .f32⟩
  | .local _ .vmem, ⟨57, _⟩ => ⟨S64x64, .f32⟩
  | .local _ .vmem, ⟨58, _⟩ => ⟨S64x64, .f32⟩
  | .local _ .vmem, ⟨59, _⟩ => ⟨S1x64, .f32⟩
  | .local _ .vmem, ⟨60, _⟩ => ⟨S1x64, .f32⟩
  | .local _ .vmem, ⟨61, _⟩ => ⟨S1x64, .f32⟩
  | .local _ .vmem, ⟨62, _⟩ => ⟨S5000x64, .f32⟩
  | .local _ .vmem, ⟨63, _⟩ => ⟨S5000x64, .f32⟩
  | .local _ .vmem, ⟨64, _⟩ => ⟨S8000x64, .f32⟩
  | .local _ .vmem, ⟨65, _⟩ => ⟨S8000x64, .f32⟩
  | .local _ .vmem, ⟨66, _⟩ => ⟨S8000x64, .f32⟩
  | .local _ .vmem, ⟨67, _⟩ => ⟨S8000x64, .f32⟩
  | .local _ .vmem, ⟨68, _⟩ => ⟨S8000x16, .f32⟩
  | .local _ .vmem, ⟨69, _⟩ => ⟨S8000x16, .f32⟩
  | .local _ .vmem, ⟨70, _⟩ => ⟨S64x64, .f32⟩
  | .local _ .vmem, ⟨71, _⟩ => ⟨S64x64, .f32⟩
  | .local _ .vmem, ⟨72, _⟩ => ⟨S16x64, .f32⟩
  | .local _ .vmem, ⟨73, _⟩ => ⟨S1x64, .f32⟩
  | .local _ .vmem, ⟨74, _⟩ => ⟨S64x64, .f32⟩
  | .local _ .vmem, ⟨75, _⟩ => ⟨S1x64, .f32⟩
  | .local _ .vmem, ⟨76, _⟩ => ⟨S8000x64, .f32⟩
  | .local _ .vmem, ⟨77, _⟩ => ⟨S8000x64, .f32⟩
  | .local _ .vmem, ⟨78, _⟩ => ⟨S5000x64, .f32⟩
  | .local _ .vmem, ⟨79, _⟩ => ⟨S5000x64, .f32⟩
  | .local _ .vmem, ⟨80, _⟩ => ⟨S5000x64, .f32⟩
  | .local _ .vmem, ⟨81, _⟩ => ⟨S5000x64, .f32⟩
  | .local _ .vmem, ⟨82, _⟩ => ⟨S64x64, .f32⟩
  | .local _ .vmem, ⟨83, _⟩ => ⟨S64x64, .f32⟩
  | .local _ .vmem, ⟨84, _⟩ => ⟨S64x64, .f32⟩
  | .local _ .vmem, ⟨85, _⟩ => ⟨S1x64, .f32⟩
  | .local _ .vmem, ⟨86, _⟩ => ⟨S1x64, .f32⟩
  | .local _ .vmem, ⟨87, _⟩ => ⟨S1x64, .f32⟩
  | .local _ .vmem, ⟨88, _⟩ => ⟨S64x64, .f32⟩
  | .local _ .vmem, ⟨89, _⟩ => ⟨S64x64, .f32⟩
  | .local _ .vmem, ⟨90, _⟩ => ⟨S64x64, .f32⟩
  | .local _ .vmem, ⟨91, _⟩ => ⟨S1x64, .f32⟩
  | .local _ .vmem, ⟨92, _⟩ => ⟨S1x64, .f32⟩
  | .local _ .vmem, ⟨93, _⟩ => ⟨S1x64, .f32⟩
  | .local _ .vmem, ⟨94, _⟩ => ⟨S5000x64, .f32⟩
  | .local _ .vmem, ⟨95, _⟩ => ⟨S5000x64, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call0_c : Ref sig .tc := ⟨.hbm, 55, rfl⟩
abbrev main_call0_v0 : Ref sig .tc := ⟨.hbm, 56, rfl⟩
abbrev main_call0_v1 : Ref sig .tc := ⟨.hbm, 57, rfl⟩
abbrev main_call0_c_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_c_1 : Ref sig .tc := ⟨.hbm, 63, rfl⟩
abbrev main_call0_c_2 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_c_3 : Ref sig .tc := ⟨.hbm, 71, rfl⟩
abbrev main_call0_v12 : Ref sig .tc := ⟨.hbm, 72, rfl⟩
abbrev main_call0_v13 : Ref sig .tc := ⟨.hbm, 73, rfl⟩
abbrev main_call0_v14 : Ref sig .tc := ⟨.hbm, 74, rfl⟩
abbrev main_call0_cst : Ref sig .tc := ⟨.hbm, 75, rfl⟩
abbrev main_call0_v15 : Ref sig .tc := ⟨.hbm, 76, rfl⟩
abbrev main_v37 : Ref sig .tc := ⟨.hbm, 77, rfl⟩
abbrev main_call1_c : Ref sig .tc := ⟨.hbm, 78, rfl⟩
abbrev main_call1_v0 : Ref sig .tc := ⟨.hbm, 79, rfl⟩
abbrev main_call1_v1 : Ref sig .tc := ⟨.hbm, 80, rfl⟩
abbrev main_call1_c_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_c_1 : Ref sig .tc := ⟨.hbm, 86, rfl⟩
abbrev main_call1_c_2 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_c_3 : Ref sig .tc := ⟨.hbm, 94, rfl⟩
abbrev main_call1_v12 : Ref sig .tc := ⟨.hbm, 95, rfl⟩
abbrev main_call1_v13 : Ref sig .tc := ⟨.hbm, 96, rfl⟩
abbrev main_call1_v14 : Ref sig .tc := ⟨.hbm, 97, rfl⟩
abbrev main_call1_cst : Ref sig .tc := ⟨.hbm, 98, rfl⟩
abbrev main_call1_v15 : Ref sig .tc := ⟨.hbm, 99, rfl⟩
abbrev main_v38 : Ref sig .tc := ⟨.hbm, 100, rfl⟩
abbrev main_v39 : Ref sig .tc := ⟨.hbm, 101, rfl⟩
abbrev main_cst : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_call2_c : Ref sig .tc := ⟨.hbm, 107, rfl⟩
abbrev main_call2_v0 : Ref sig .tc := ⟨.hbm, 108, rfl⟩
abbrev main_call2_v1 : Ref sig .tc := ⟨.hbm, 109, rfl⟩
abbrev main_call2_c_0 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_call2_v5 : Ref sig .tc := ⟨.hbm, 114, rfl⟩
abbrev main_call2_c_1 : Ref sig .tc := ⟨.hbm, 115, rfl⟩
abbrev main_call2_c_2 : Ref sig .tc := ⟨.hbm, 116, rfl⟩
abbrev main_call2_v6 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_call2_v11 : Ref sig .tc := ⟨.hbm, 122, rfl⟩
abbrev main_call2_c_3 : Ref sig .tc := ⟨.hbm, 123, rfl⟩
abbrev main_call2_v12 : Ref sig .tc := ⟨.hbm, 124, rfl⟩
abbrev main_call2_v13 : Ref sig .tc := ⟨.hbm, 125, rfl⟩
abbrev main_call2_v14 : Ref sig .tc := ⟨.hbm, 126, rfl⟩
abbrev main_call2_cst : Ref sig .tc := ⟨.hbm, 127, rfl⟩
abbrev main_call2_v15 : Ref sig .tc := ⟨.hbm, 128, rfl⟩
abbrev main_v44 : Ref sig .tc := ⟨.hbm, 129, rfl⟩
abbrev main_call3_c : Ref sig .tc := ⟨.hbm, 130, rfl⟩
abbrev main_call3_v0 : Ref sig .tc := ⟨.hbm, 131, rfl⟩
abbrev main_call3_v1 : Ref sig .tc := ⟨.hbm, 132, rfl⟩
abbrev main_call3_c_0 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_call3_v5 : Ref sig .tc := ⟨.hbm, 137, rfl⟩
abbrev main_call3_c_1 : Ref sig .tc := ⟨.hbm, 138, rfl⟩
abbrev main_call3_c_2 : Ref sig .tc := ⟨.hbm, 139, rfl⟩
abbrev main_call3_v6 : Ref sig .tc := ⟨.hbm, 140, rfl⟩
abbrev main_call3_v7 : Ref sig .tc := ⟨.hbm, 141, rfl⟩
abbrev main_call3_v8 : Ref sig .tc := ⟨.hbm, 142, rfl⟩
abbrev main_call3_v9 : Ref sig .tc := ⟨.hbm, 143, rfl⟩
abbrev main_call3_v10 : Ref sig .tc := ⟨.hbm, 144, rfl⟩
abbrev main_call3_v11 : Ref sig .tc := ⟨.hbm, 145, rfl⟩
abbrev main_call3_c_3 : Ref sig .tc := ⟨.hbm, 146, rfl⟩
abbrev main_call3_v12 : Ref sig .tc := ⟨.hbm, 147, rfl⟩
abbrev main_call3_v13 : Ref sig .tc := ⟨.hbm, 148, rfl⟩
abbrev main_call3_v14 : Ref sig .tc := ⟨.hbm, 149, rfl⟩
abbrev main_call3_cst : Ref sig .tc := ⟨.hbm, 150, rfl⟩
abbrev main_call3_v15 : Ref sig .tc := ⟨.hbm, 151, rfl⟩
abbrev main_v45 : Ref sig .tc := ⟨.hbm, 152, rfl⟩
abbrev main_v46 : Ref sig .tc := ⟨.hbm, 153, rfl⟩
abbrev main_cst_0 : Ref sig .tc := ⟨.hbm, 154, rfl⟩
abbrev main_v47 : Ref sig .tc := ⟨.hbm, 155, rfl⟩
abbrev main_v48 : Ref sig .tc := ⟨.hbm, 156, rfl⟩
abbrev main_v49 : Ref sig .tc := ⟨.hbm, 157, rfl⟩
abbrev main_v50 : Ref sig .tc := ⟨.hbm, 158, rfl⟩
abbrev main_call4_c : Ref sig .tc := ⟨.hbm, 159, rfl⟩
abbrev main_call4_v0 : Ref sig .tc := ⟨.hbm, 160, rfl⟩
abbrev main_call4_v1 : Ref sig .tc := ⟨.hbm, 161, rfl⟩
abbrev main_call4_c_0 : Ref sig .tc := ⟨.hbm, 162, rfl⟩
abbrev main_call4_v2 : Ref sig .tc := ⟨.hbm, 163, rfl⟩
abbrev main_call4_v3 : Ref sig .tc := ⟨.hbm, 164, rfl⟩
abbrev main_call4_v4 : Ref sig .tc := ⟨.hbm, 165, rfl⟩
abbrev main_call4_v5 : Ref sig .tc := ⟨.hbm, 166, rfl⟩
abbrev main_call4_c_1 : Ref sig .tc := ⟨.hbm, 167, rfl⟩
abbrev main_call4_c_2 : Ref sig .tc := ⟨.hbm, 168, rfl⟩
abbrev main_call4_v6 : Ref sig .tc := ⟨.hbm, 169, rfl⟩
abbrev main_call4_v7 : Ref sig .tc := ⟨.hbm, 170, rfl⟩
abbrev main_call4_v8 : Ref sig .tc := ⟨.hbm, 171, rfl⟩
abbrev main_call4_v9 : Ref sig .tc := ⟨.hbm, 172, rfl⟩
abbrev main_call4_v10 : Ref sig .tc := ⟨.hbm, 173, rfl⟩
abbrev main_call4_v11 : Ref sig .tc := ⟨.hbm, 174, rfl⟩
abbrev main_call4_c_3 : Ref sig .tc := ⟨.hbm, 175, rfl⟩
abbrev main_call4_v12 : Ref sig .tc := ⟨.hbm, 176, rfl⟩
abbrev main_call4_v13 : Ref sig .tc := ⟨.hbm, 177, rfl⟩
abbrev main_call4_v14 : Ref sig .tc := ⟨.hbm, 178, rfl⟩
abbrev main_call4_cst : Ref sig .tc := ⟨.hbm, 179, rfl⟩
abbrev main_call4_v15 : Ref sig .tc := ⟨.hbm, 180, rfl⟩
abbrev main_v51 : Ref sig .tc := ⟨.hbm, 181, rfl⟩
abbrev main_call5_c : Ref sig .tc := ⟨.hbm, 182, rfl⟩
abbrev main_call5_v0 : Ref sig .tc := ⟨.hbm, 183, rfl⟩
abbrev main_call5_v1 : Ref sig .tc := ⟨.hbm, 184, rfl⟩
abbrev main_call5_c_0 : Ref sig .tc := ⟨.hbm, 185, rfl⟩
abbrev main_call5_v2 : Ref sig .tc := ⟨.hbm, 186, rfl⟩
abbrev main_call5_v3 : Ref sig .tc := ⟨.hbm, 187, rfl⟩
abbrev main_call5_v4 : Ref sig .tc := ⟨.hbm, 188, rfl⟩
abbrev main_call5_v5 : Ref sig .tc := ⟨.hbm, 189, rfl⟩
abbrev main_call5_c_1 : Ref sig .tc := ⟨.hbm, 190, rfl⟩
abbrev main_call5_c_2 : Ref sig .tc := ⟨.hbm, 191, rfl⟩
abbrev main_call5_v6 : Ref sig .tc := ⟨.hbm, 192, rfl⟩
abbrev main_call5_v7 : Ref sig .tc := ⟨.hbm, 193, rfl⟩
abbrev main_call5_v8 : Ref sig .tc := ⟨.hbm, 194, rfl⟩
abbrev main_call5_v9 : Ref sig .tc := ⟨.hbm, 195, rfl⟩
abbrev main_call5_v10 : Ref sig .tc := ⟨.hbm, 196, rfl⟩
abbrev main_call5_v11 : Ref sig .tc := ⟨.hbm, 197, rfl⟩
abbrev main_call5_c_3 : Ref sig .tc := ⟨.hbm, 198, rfl⟩
abbrev main_call5_v12 : Ref sig .tc := ⟨.hbm, 199, rfl⟩
abbrev main_call5_v13 : Ref sig .tc := ⟨.hbm, 200, rfl⟩
abbrev main_call5_v14 : Ref sig .tc := ⟨.hbm, 201, rfl⟩
abbrev main_call5_cst : Ref sig .tc := ⟨.hbm, 202, rfl⟩
abbrev main_call5_v15 : Ref sig .tc := ⟨.hbm, 203, rfl⟩
abbrev main_v52 : Ref sig .tc := ⟨.hbm, 204, rfl⟩
abbrev main_v53 : Ref sig .tc := ⟨.hbm, 205, rfl⟩
abbrev main_cst_1 : Ref sig .tc := ⟨.hbm, 206, rfl⟩
abbrev main_v54 : Ref sig .tc := ⟨.hbm, 207, rfl⟩
abbrev main_v55 : Ref sig .tc := ⟨.hbm, 208, rfl⟩
abbrev main_v56 : Ref sig .tc := ⟨.hbm, 209, rfl⟩
abbrev main_v57 : Ref sig .tc := ⟨.hbm, 210, rfl⟩
abbrev main_cst_2 : Ref sig .tc := ⟨.hbm, 211, rfl⟩
abbrev main_v58 : Ref sig .tc := ⟨.hbm, 212, rfl⟩
abbrev main_v59 : Ref sig .tc := ⟨.hbm, 213, rfl⟩
abbrev main_v60 : Ref sig .tc := ⟨.hbm, 214, rfl⟩
abbrev main_cst_3 : Ref sig .tc := ⟨.hbm, 215, rfl⟩
abbrev main_v61 : Ref sig .tc := ⟨.hbm, 216, rfl⟩
abbrev main_cst_4 : Ref sig .tc := ⟨.hbm, 217, rfl⟩
abbrev main_v62 : Ref sig .tc := ⟨.hbm, 218, rfl⟩
abbrev main_v63 : Ref sig .tc := ⟨.hbm, 219, rfl⟩
abbrev main_v64 : Ref sig .tc := ⟨.hbm, 220, rfl⟩
abbrev main_cst_5 : Ref sig .tc := ⟨.hbm, 221, rfl⟩
abbrev main_v65 : Ref sig .tc := ⟨.hbm, 222, rfl⟩
abbrev main_v66 : Ref sig .tc := ⟨.hbm, 223, rfl⟩
abbrev main_v67 : Ref sig .tc := ⟨.hbm, 224, rfl⟩
abbrev main_v68 : Ref sig .tc := ⟨.hbm, 225, rfl⟩
abbrev main_v69 : Ref sig .tc := ⟨.hbm, 226, rfl⟩
abbrev main_v70 : Ref sig .tc := ⟨.hbm, 227, rfl⟩
abbrev main_v71 : Ref sig .tc := ⟨.hbm, 228, rfl⟩
abbrev main_v72 : Ref sig .tc := ⟨.hbm, 229, rfl⟩
abbrev main_v73 : Ref sig .tc := ⟨.hbm, 230, rfl⟩
abbrev main_v74 : Ref sig .tc := ⟨.hbm, 231, rfl⟩
abbrev main_call6_cst : Ref sig .tc := ⟨.hbm, 232, rfl⟩
abbrev main_call6_v0 : Ref sig .tc := ⟨.hbm, 233, rfl⟩
abbrev main_v75 : Ref sig .tc := ⟨.hbm, 234, rfl⟩
abbrev main_v76 : Ref sig .tc := ⟨.hbm, 235, rfl⟩
abbrev main_v77 : Ref sig .tc := ⟨.hbm, 236, rfl⟩
abbrev main_v78 : Ref sig .tc := ⟨.hbm, 237, rfl⟩
abbrev main_v79 : Ref sig .tc := ⟨.hbm, 238, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg13_0 : Ref sig .tc := ⟨.vmem, 29, rfl⟩
abbrev cc1_stg14_0 : Ref sig .tc := ⟨.vmem, 30, rfl⟩
abbrev cc1_stg14_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg6_0 : Ref sig .tc := ⟨.vmem, 41, rfl⟩
abbrev cc2_stg7_0 : Ref sig .tc := ⟨.vmem, 42, rfl⟩
abbrev cc2_stg8_0 : Ref sig .tc := ⟨.vmem, 43, rfl⟩
abbrev cc2_stg9_0 : Ref sig .tc := ⟨.vmem, 44, rfl⟩
abbrev cc2_stg9_1 : Ref sig .tc := ⟨.vmem, 45, rfl⟩
abbrev cc3_stg0_0 : Ref sig .tc := ⟨.vmem, 46, rfl⟩
abbrev cc3_stg0_1 : Ref sig .tc := ⟨.vmem, 47, rfl⟩
abbrev cc3_stg1_0 : Ref sig .tc := ⟨.vmem, 48, rfl⟩
abbrev cc3_stg1_1 : Ref sig .tc := ⟨.vmem, 49, rfl⟩
abbrev cc3_stg2_0 : Ref sig .tc := ⟨.vmem, 50, rfl⟩
abbrev cc3_stg3_0 : Ref sig .tc := ⟨.vmem, 51, rfl⟩
abbrev cc3_stg4_0 : Ref sig .tc := ⟨.vmem, 52, rfl⟩
abbrev cc3_stg5_0 : Ref sig .tc := ⟨.vmem, 53, rfl⟩
abbrev cc3_stg6_0 : Ref sig .tc := ⟨.vmem, 54, rfl⟩
abbrev cc3_stg7_0 : Ref sig .tc := ⟨.vmem, 55, rfl⟩
abbrev cc3_stg8_0 : Ref sig .tc := ⟨.vmem, 56, rfl⟩
abbrev cc3_stg9_0 : Ref sig .tc := ⟨.vmem, 57, rfl⟩
abbrev cc3_stg10_0 : Ref sig .tc := ⟨.vmem, 58, rfl⟩
abbrev cc3_stg11_0 : Ref sig .tc := ⟨.vmem, 59, rfl⟩
abbrev cc3_stg12_0 : Ref sig .tc := ⟨.vmem, 60, rfl⟩
abbrev cc3_stg13_0 : Ref sig .tc := ⟨.vmem, 61, rfl⟩
abbrev cc3_stg14_0 : Ref sig .tc := ⟨.vmem, 62, rfl⟩
abbrev cc3_stg14_1 : Ref sig .tc := ⟨.vmem, 63, rfl⟩
abbrev cc4_stg0_0 : Ref sig .tc := ⟨.vmem, 64, rfl⟩
abbrev cc4_stg0_1 : Ref sig .tc := ⟨.vmem, 65, rfl⟩
abbrev cc4_stg1_0 : Ref sig .tc := ⟨.vmem, 66, rfl⟩
abbrev cc4_stg1_1 : Ref sig .tc := ⟨.vmem, 67, rfl⟩
abbrev cc4_stg2_0 : Ref sig .tc := ⟨.vmem, 68, rfl⟩
abbrev cc4_stg2_1 : Ref sig .tc := ⟨.vmem, 69, rfl⟩
abbrev cc4_stg3_0 : Ref sig .tc := ⟨.vmem, 70, rfl⟩
abbrev cc4_stg4_0 : Ref sig .tc := ⟨.vmem, 71, rfl⟩
abbrev cc4_stg5_0 : Ref sig .tc := ⟨.vmem, 72, rfl⟩
abbrev cc4_stg6_0 : Ref sig .tc := ⟨.vmem, 73, rfl⟩
abbrev cc4_stg7_0 : Ref sig .tc := ⟨.vmem, 74, rfl⟩
abbrev cc4_stg8_0 : Ref sig .tc := ⟨.vmem, 75, rfl⟩
abbrev cc4_stg9_0 : Ref sig .tc := ⟨.vmem, 76, rfl⟩
abbrev cc4_stg9_1 : Ref sig .tc := ⟨.vmem, 77, rfl⟩
abbrev cc5_stg0_0 : Ref sig .tc := ⟨.vmem, 78, rfl⟩
abbrev cc5_stg0_1 : Ref sig .tc := ⟨.vmem, 79, rfl⟩
abbrev cc5_stg1_0 : Ref sig .tc := ⟨.vmem, 80, rfl⟩
abbrev cc5_stg1_1 : Ref sig .tc := ⟨.vmem, 81, rfl⟩
abbrev cc5_stg2_0 : Ref sig .tc := ⟨.vmem, 82, rfl⟩
abbrev cc5_stg3_0 : Ref sig .tc := ⟨.vmem, 83, rfl⟩
abbrev cc5_stg4_0 : Ref sig .tc := ⟨.vmem, 84, rfl⟩
abbrev cc5_stg5_0 : Ref sig .tc := ⟨.vmem, 85, rfl⟩
abbrev cc5_stg6_0 : Ref sig .tc := ⟨.vmem, 86, rfl⟩
abbrev cc5_stg7_0 : Ref sig .tc := ⟨.vmem, 87, rfl⟩
abbrev cc5_stg8_0 : Ref sig .tc := ⟨.vmem, 88, rfl⟩
abbrev cc5_stg9_0 : Ref sig .tc := ⟨.vmem, 89, rfl⟩
abbrev cc5_stg10_0 : Ref sig .tc := ⟨.vmem, 90, rfl⟩
abbrev cc5_stg11_0 : Ref sig .tc := ⟨.vmem, 91, rfl⟩
abbrev cc5_stg12_0 : Ref sig .tc := ⟨.vmem, 92, rfl⟩
abbrev cc5_stg13_0 : Ref sig .tc := ⟨.vmem, 93, rfl⟩
abbrev cc5_stg14_0 : Ref sig .tc := ⟨.vmem, 94, rfl⟩
abbrev cc5_stg14_1 : Ref sig .tc := ⟨.vmem, 95, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem13_0 : DmaSem sig := 29
abbrev cc1_sem14_0 : DmaSem sig := 30
abbrev cc1_sem14_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem4_0 : DmaSem sig := 39
abbrev cc2_sem5_0 : DmaSem sig := 40
abbrev cc2_sem6_0 : DmaSem sig := 41
abbrev cc2_sem7_0 : DmaSem sig := 42
abbrev cc2_sem8_0 : DmaSem sig := 43
abbrev cc2_sem9_0 : DmaSem sig := 44
abbrev cc2_sem9_1 : DmaSem sig := 45
abbrev cc3_sem0_0 : DmaSem sig := 46
abbrev cc3_sem0_1 : DmaSem sig := 47
abbrev cc3_sem1_0 : DmaSem sig := 48
abbrev cc3_sem1_1 : DmaSem sig := 49
abbrev cc3_sem2_0 : DmaSem sig := 50
abbrev cc3_sem3_0 : DmaSem sig := 51
abbrev cc3_sem4_0 : DmaSem sig := 52
abbrev cc3_sem5_0 : DmaSem sig := 53
abbrev cc3_sem6_0 : DmaSem sig := 54
abbrev cc3_sem7_0 : DmaSem sig := 55
abbrev cc3_sem8_0 : DmaSem sig := 56
abbrev cc3_sem9_0 : DmaSem sig := 57
abbrev cc3_sem10_0 : DmaSem sig := 58
abbrev cc3_sem11_0 : DmaSem sig := 59
abbrev cc3_sem12_0 : DmaSem sig := 60
abbrev cc3_sem13_0 : DmaSem sig := 61
abbrev cc3_sem14_0 : DmaSem sig := 62
abbrev cc3_sem14_1 : DmaSem sig := 63
abbrev cc4_sem0_0 : DmaSem sig := 64
abbrev cc4_sem0_1 : DmaSem sig := 65
abbrev cc4_sem1_0 : DmaSem sig := 66
abbrev cc4_sem1_1 : DmaSem sig := 67
abbrev cc4_sem2_0 : DmaSem sig := 68
abbrev cc4_sem2_1 : DmaSem sig := 69
abbrev cc4_sem3_0 : DmaSem sig := 70
abbrev cc4_sem4_0 : DmaSem sig := 71
abbrev cc4_sem5_0 : DmaSem sig := 72
abbrev cc4_sem6_0 : DmaSem sig := 73
abbrev cc4_sem7_0 : DmaSem sig := 74
abbrev cc4_sem8_0 : DmaSem sig := 75
abbrev cc4_sem9_0 : DmaSem sig := 76
abbrev cc4_sem9_1 : DmaSem sig := 77
abbrev cc5_sem0_0 : DmaSem sig := 78
abbrev cc5_sem0_1 : DmaSem sig := 79
abbrev cc5_sem1_0 : DmaSem sig := 80
abbrev cc5_sem1_1 : DmaSem sig := 81
abbrev cc5_sem2_0 : DmaSem sig := 82
abbrev cc5_sem3_0 : DmaSem sig := 83
abbrev cc5_sem4_0 : DmaSem sig := 84
abbrev cc5_sem5_0 : DmaSem sig := 85
abbrev cc5_sem6_0 : DmaSem sig := 86
abbrev cc5_sem7_0 : DmaSem sig := 87
abbrev cc5_sem8_0 : DmaSem sig := 88
abbrev cc5_sem9_0 : DmaSem sig := 89
abbrev cc5_sem10_0 : DmaSem sig := 90
abbrev cc5_sem11_0 : DmaSem sig := 91
abbrev cc5_sem12_0 : DmaSem sig := 92
abbrev cc5_sem13_0 : DmaSem sig := 93
abbrev cc5_sem14_0 : DmaSem sig := 94
abbrev cc5_sem14_1 : DmaSem sig := 95

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S5000x64 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S8000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S64x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x64 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x64 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x64 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S5000x64 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S16x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S8000x64 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_14 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S64x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S64x64 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S64x64 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S1x64 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S1x64 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 1 → Memref sig .tc .vmem S1x64 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![false]

abbrev stage5_14 : Fin 2 → Memref sig .tc .vmem S5000x64 .f32 := fun | 0 => Memref.whole cc5_stg14_0 | 1 => Memref.whole cc5_stg14_1 | ⟨_ + 2, h⟩ => absurd h (Nat.not_lt.2 (Nat.le_add_left _ _))
abbrev sem5_14 : Fin 2 → DmaSem sig := fun | 0 => cc5_sem14_0 | 1 => cc5_sem14_1 | ⟨_ + 2, h⟩ => absurd h (Nat.not_lt.2 (Nat.le_add_left _ _))
abbrev reads5_14 : Fin grid5.rank → Bool := ![true]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S144x64_S64x64_0_0 : S144x64.Slices ![0, 0] S64x64
  slices_S144x64_S64x64_64_0 : S144x64.Slices ![64, 0] S64x64
  slices_S144x64_S16x64_128_0 : S144x64.Slices ![128, 0] S16x64
  shapeCasts_S64_S1x64 : S64.ShapeCasts S1x64
  slices_S192x64_S64x64_0_0 : S192x64.Slices ![0, 0] S64x64
  transposes_S64x64_S64x64_1_0 : S64x64.Transposes [1, 0] S64x64
  slices_S192x64_S64x64_64_0 : S192x64.Slices ![64, 0] S64x64
  slices_S192x64_S64x64_128_0 : S192x64.Slices ![128, 0] S64x64
  slices_S192_S64_0 : S192.Slices ![0] S64
  slices_S192_S64_64 : S192.Slices ![64] S64
  slices_S192_S64_128 : S192.Slices ![128] S64
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S8000x16_S8000x16_0_0 : ∀ a, (![0, 0] : Fin 2 → Nat) a + S8000x16.size a ≤ S8000x16.size a
  h_S8000x16 : 0 < S8000x16.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  bcast_S_S256x64 : S_.BroadcastsInDim S256x64 (![] : Fin 0 → Fin S256x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  concatenates_S256x64_S256x64_S256x128_d1 : Shape.Concatenates [S256x64, S256x64] S256x128 1
  bcast_S1x64_S256x64_0_1 : S1x64.BroadcastsInDim S256x64 (![0, 1] : Fin 2 → Fin S256x64.rank)
  bcast_S1x1_S256x1_0_1 : S1x1.BroadcastsInDim S256x1 (![0, 1] : Fin 2 → Fin S256x1.rank)
  dot_S50000x32_S32x64_S50000x64_1_0_0_1_n_n_wf : DotDims.WF S50000x32 S32x64 S50000x64 [1] [0] [0] [1] [] []
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  dot_S8000x16_S16x64_S8000x64_1_0_0_1_n_n_wf : DotDims.WF S8000x16 S16x64 S8000x64 [1] [0] [0] [1] [] []
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  scatter_S256x64_S50000x1_S50000x64_1_0_0_1_wf : ScatterDims.WF S256x64 S50000x1 S50000x64 [1] [0] [0] 1
  scatter_S256_S50000x1_S50000_n_0_0_1_wf : ScatterDims.WF S256 S50000x1 S50000 [] [0] [0] 1
  dot_S256x128_S128x64_S256x64_1_0_0_1_n_n_wf : DotDims.WF S256x128 S128x64 S256x64 [1] [0] [0] [1] [] []
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x16.size a ≤ S800000x16.size a
  hwx0_2 : ∀ i : grid0.Coords, EltTy.bits .f32 = 32 ∨ (Rect.block (s := S800000x16) S8000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S16x64.size a
  hwx0_5 : ∀ i : grid0.Coords, EltTy.bits .f32 = 32 ∨ (Rect.block (s := S16x64) S16x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x64.size a ≤ S800000x64.size a
  hwx0_9 : ∀ i : grid0.Coords, EltTy.bits .f32 = 32 ∨ (Rect.block (s := S800000x64) S8000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x64.size a ≤ S64x64.size a
  hwx1_9 : ∀ i : grid1.Coords, EltTy.bits .f32 = 32 ∨ (Rect.block (s := S64x64) S64x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x64.size a ≤ S64x64.size a
  hwx1_10 : ∀ i : grid1.Coords, EltTy.bits .f32 = 32 ∨ (Rect.block (s := S64x64) S64x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x64.size a ≤ S1x64.size a
  hwx1_11 : ∀ i : grid1.Coords, EltTy.bits .f32 = 32 ∨ (Rect.block (s := S1x64) S1x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x64.size a ≤ S1x64.size a
  hwx1_12 : ∀ i : grid1.Coords, EltTy.bits .f32 = 32 ∨ (Rect.block (s := S1x64) S1x64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x64.size a ≤ S1x64.size a
  hwx1_13 : ∀ i : grid1.Coords, EltTy.bits .f32 = 32 ∨ (Rect.block (s := S1x64) S1x64.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S5000x64.size a ≤ S50000x64.size a
  hwx1_14 : ∀ i : grid1.Coords, EltTy.bits .f32 = 32 ∨ (Rect.block (s := S50000x64) S5000x64.size (cc1_transform_14 i) (hinb1_14 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S800000x64.size a
  hwx2_0 : ∀ i : grid2.Coords, EltTy.bits .f32 = 32 ∨ (Rect.block (s := S800000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S800000x64.size a
  hwx2_1 : ∀ i : grid2.Coords, EltTy.bits .f32 = 32 ∨ (Rect.block (s := S800000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x16.size a ≤ S800000x16.size a
  hwx2_2 : ∀ i : grid2.Coords, EltTy.bits .f32 = 32 ∨ (Rect.block (s := S800000x16) S8000x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x64.size a ≤ S16x64.size a
  hwx2_5 : ∀ i : grid2.Coords, EltTy.bits .f32 = 32 ∨ (Rect.block (s := S16x64) S16x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S8000x64.size a ≤ S800000x64.size a
  hwx2_9 : ∀ i : grid2.Coords, EltTy.bits .f32 = 32 ∨ (Rect.block (s := S800000x64) S8000x64.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x64.size a ≤ S64x64.size a
  hwx3_8 : ∀ i : grid3.Coords, EltTy.bits .f32 = 32 ∨ (Rect.block (s := S64x64) S64x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64x64.size a ≤ S64x64.size a
  hwx3_9 : ∀ i : grid3.Coords, EltTy.bits .f32 = 32 ∨ (Rect.block (s := S64x64) S64x64.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S64x64.size a ≤ S64x64.size a
  hwx3_10 : ∀ i : grid3.Coords, EltTy.bits .f32 = 32 ∨ (Rect.block (s := S64x64) S64x64.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x64.size a ≤ S1x64.size a
  hwx3_11 : ∀ i : grid3.Coords, EltTy.bits .f32 = 32 ∨ (Rect.block (s := S1x64) S1x64.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x64.size a ≤ S1x64.size a
  hwx3_12 : ∀ i : grid3.Coords, EltTy.bits .f32 = 32 ∨ (Rect.block (s := S1x64) S1x64.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x64.size a ≤ S1x64.size a
  hwx3_13 : ∀ i : grid3.Coords, EltTy.bits .f32 = 32 ∨ (Rect.block (s := S1x64) S1x64.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S5000x64.size a ≤ S50000x64.size a
  hwx3_14 : ∀ i : grid3.Coords, EltTy.bits .f32 = 32 ∨ (Rect.block (s := S50000x64) S5000x64.size (cc3_transform_14 i) (hinb3_14 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S800000x64.size a
  hwx4_0 : ∀ i : grid4.Coords, EltTy.bits .f32 = 32 ∨ (Rect.block (s := S800000x64) S8000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x64.size a ≤ S800000x64.size a
  hwx4_1 : ∀ i : grid4.Coords, EltTy.bits .f32 = 32 ∨ (Rect.block (s := S800000x64) S8000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x16.size a ≤ S800000x16.size a
  hwx4_2 : ∀ i : grid4.Coords, EltTy.bits .f32 = 32 ∨ (Rect.block (s := S800000x16) S8000x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S16x64.size a ≤ S16x64.size a
  hwx4_5 : ∀ i : grid4.Coords, EltTy.bits .f32 = 32 ∨ (Rect.block (s := S16x64) S16x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x64.size a ≤ S64x64.size a
  hwx4_7 : ∀ i : grid4.Coords, EltTy.bits .f32 = 32 ∨ (Rect.block (s := S64x64) S64x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S8000x64.size a ≤ S800000x64.size a
  hwx4_9 : ∀ i : grid4.Coords, EltTy.bits .f32 = 32 ∨ (Rect.block (s := S800000x64) S8000x64.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x64.size a ≤ S1x64.size a
  hwx5_7 : ∀ i : grid5.Coords, EltTy.bits .f32 = 32 ∨ (Rect.block (s := S1x64) S1x64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S64x64.size a ≤ S64x64.size a
  hwx5_8 : ∀ i : grid5.Coords, EltTy.bits .f32 = 32 ∨ (Rect.block (s := S64x64) S64x64.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S64x64.size a ≤ S64x64.size a
  hwx5_9 : ∀ i : grid5.Coords, EltTy.bits .f32 = 32 ∨ (Rect.block (s := S64x64) S64x64.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S64x64.size a ≤ S64x64.size a
  hwx5_10 : ∀ i : grid5.Coords, EltTy.bits .f32 = 32 ∨ (Rect.block (s := S64x64) S64x64.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S1x64.size a ≤ S1x64.size a
  hwx5_11 : ∀ i : grid5.Coords, EltTy.bits .f32 = 32 ∨ (Rect.block (s := S1x64) S1x64.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S1x64.size a ≤ S1x64.size a
  hwx5_12 : ∀ i : grid5.Coords, EltTy.bits .f32 = 32 ∨ (Rect.block (s := S1x64) S1x64.size (cc5_transform_12 i) (hinb5_12 i)).WholeWords (EltTy.packing .f32)
  hstage5_13 : ∀ j, (stage5_13 j).IsWhole
  nbuf5_13 : grid5.bufCount reads5_13 true = 1
  hreads5_13 : ∀ i i' : grid5.Coords, (∀ a, reads5_13 a = true → i a = i' a) → cc5_transform_13 i = cc5_transform_13 i'
  hinb5_13 : ∀ (i : grid5.Coords) a, (cc5_transform_13 i a + 1) * S1x64.size a ≤ S1x64.size a
  hwx5_13 : ∀ i : grid5.Coords, EltTy.bits .f32 = 32 ∨ (Rect.block (s := S1x64) S1x64.size (cc5_transform_13 i) (hinb5_13 i)).WholeWords (EltTy.packing .f32)
  hstage5_14 : ∀ j, (stage5_14 j).IsWhole
  nbuf5_14 : grid5.bufCount reads5_14 false = 2
  hreads5_14 : ∀ i i' : grid5.Coords, (∀ a, reads5_14 a = true → i a = i' a) → cc5_transform_14 i = cc5_transform_14 i'
  hinb5_14 : ∀ (i : grid5.Coords) a, (cc5_transform_14 i a + 1) * S5000x64.size a ≤ S50000x64.size a
  hwx5_14 : ∀ i : grid5.Coords, EltTy.bits .f32 = 32 ∨ (Rect.block (s := S50000x64) S5000x64.size (cc5_transform_14 i) (hinb5_14 i)).WholeWords (EltTy.packing .f32)

variable [Facts₀]

def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x16_S16x64_S8000x64_1_0_0_1_n_n : DotDims S8000x16 S16x64 S8000x64 where
  lhsContracting := [1]
  rhsContracting := [0]
  lhsNonContracting := [0]
  rhsNonContracting := [1]
  lhsBatch := []
  rhsBatch := []
  wf := dot_S8000x16_S16x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_v37) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S16x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v39) S8000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v20) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v22) S64x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v24) S64x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v32) S1x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v34) S1x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v36) S1x64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v43) S5000x64.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_v44) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S8000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v8) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S16x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v11) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg8) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v12) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v46) S8000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v49) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v16) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v18) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v26) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v28) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v30) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v20) S64x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v22) S64x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v24) S64x64.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v32) S1x64.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v34) S1x64.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v36) S1x64.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v50) S5000x64.size cc3_transform_14 reads3_14 true false 2 stage3_14 sem3_14
    hrank3 hreads3_14 hinb3_14 nbuf3_14 (Memref.isWhole_whole _) hwx3_14 hstage3_14

abbrev win3 : Fin 15 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | ⟨_ + 15, h⟩ => absurd h (Nat.not_lt.2 (Nat.le_add_left _ _))
abbrev spec3 : Fin 15 → Pipeline.WinSpec sig grid3.rank := fun w => (win3 w).toWinSpec

abbrev win4_0 : Pipeline.Window sig grid4 :=
  Pipeline.Window.ofSpec (Memref.whole main_v51) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v52) S8000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg2) S8000x16.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v8) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v9) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v10) S16x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v11) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg8) S64x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v12) S1x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v53) S8000x64.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v56) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v50) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v14) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v16) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v18) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v26) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v28) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v30) S1x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v20) S64x64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v22) S64x64.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v24) S64x64.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v32) S1x64.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v34) S1x64.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_v36) S1x64.size cc5_transform_13 reads5_13 false true 1 stage5_13 sem5_13
    hrank5 hreads5_13 hinb5_13 nbuf5_13 (Memref.isWhole_whole _) hwx5_13 hstage5_13

abbrev win5_14 : Pipeline.Window sig grid5 :=
  Pipeline.Window.ofSpec (Memref.whole main_v57) S5000x64.size cc5_transform_14 reads5_14 true false 2 stage5_14 sem5_14
    hrank5 hreads5_14 hinb5_14 nbuf5_14 (Memref.isWhole_whole _) hwx5_14 hstage5_14

abbrev win5 : Fin 15 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | 14 => win5_14 | ⟨_ + 15, h⟩ => absurd h (Nat.not_lt.2 (Nat.le_add_left _ _))
abbrev spec5 : Fin 15 → Pipeline.WinSpec sig grid5.rank := fun w => (win5 w).toWinSpec

class Facts : Prop extends Facts₀ where

variable [Facts]
-- ==== ReferenceIdeal.lean ====
abbrev S50000x32 : Shape := ⟨2, ![50000, 32]⟩
abbrev S2x800000 : Shape := ⟨2, ![2, 800000]⟩
abbrev S800000x16 : Shape := ⟨2, ![800000, 16]⟩
abbrev S50000 : Shape := ⟨1, ![50000]⟩
abbrev S32x64 : Shape := ⟨2, ![32, 64]⟩
abbrev S64 : Shape := ⟨1, ![64]⟩
abbrev S144x64 : Shape := ⟨2, ![144, 64]⟩
abbrev S64x64 : Shape := ⟨2, ![64, 64]⟩
abbrev S192x64 : Shape := ⟨2, ![192, 64]⟩
abbrev S192 : Shape := ⟨1, ![192]⟩
abbrev S128x64 : Shape := ⟨2, ![128, 64]⟩
abbrev S64x1 : Shape := ⟨2, ![64, 1]⟩
abbrev S1 : Shape := ⟨1, ![1]⟩
abbrev S50000x64 : Shape := ⟨2, ![50000, 64]⟩
abbrev S1x64 : Shape := ⟨2, ![1, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x144 : Shape := ⟨2, ![800000, 144]⟩
abbrev S64x192 : Shape := ⟨2, ![64, 192]⟩
abbrev S50000x192 : Shape := ⟨2, ![50000, 192]⟩
abbrev S1x192 : Shape := ⟨2, ![1, 192]⟩
abbrev S256x64 : Shape := ⟨2, ![256, 64]⟩
abbrev S50000x1 : Shape := ⟨2, ![50000, 1]⟩
abbrev S256 : Shape := ⟨1, ![256]⟩
abbrev S256x1 : Shape := ⟨2, ![256, 1]⟩
abbrev S256x128 : Shape := ⟨2, ![256, 128]⟩
abbrev S1x1 : Shape := ⟨2, ![1, 1]⟩

abbrev nBuf : Space → Nat
  | .hbm => 285
  | .vmem => 0
  | .smem => 0
  | _ => 0

abbrev hbmTy0_0 (i : Nat) : BufTy := match i % 128 with
  | 0 => ⟨S50000x32, .f32⟩
  | 1 => ⟨S2x800000, .i32⟩
  | 2 => ⟨S800000x16, .f32⟩
  | 3 => ⟨S50000, .i32⟩
  | 4 => ⟨S32x64, .f32⟩
  | 5 => ⟨S64, .f32⟩
  | 6 => ⟨S144x64, .f32⟩
  | 7 => ⟨S64, .f32⟩
  | 8 => ⟨S64x64, .f32⟩
  | 9 => ⟨S64, .f32⟩
  | 10 => ⟨S192x64, .f32⟩
  | 11 => ⟨S192, .f32⟩
  | 12 => ⟨S192x64, .f32⟩
  | 13 => ⟨S192, .f32⟩
  | 14 => ⟨S128x64, .f32⟩
  | 15 => ⟨S64, .f32⟩
  | 16 => ⟨S64x1, .f32⟩
  | 17 => ⟨S1, .f32⟩
  | 18 => ⟨S50000x64, .f32⟩
  | 19 => ⟨S1x64, .f32⟩
  | 20 => ⟨S50000x64, .f32⟩
  | 21 => ⟨S50000x64, .f32⟩
  | 22 => ⟨S1x800000, .i32⟩
  | 23 => ⟨S800000, .i32⟩
  | 24 => ⟨S1x800000, .i32⟩
  | 25 => ⟨S800000, .i32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x64, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x64, .f32⟩
  | 44 => ⟨S800000x144, .f32⟩
  | 45 => ⟨S800000x64, .f32⟩
  | 46 => ⟨S1x64, .f32⟩
  | 47 => ⟨S800000x64, .f32⟩
  | 48 => ⟨S800000x64, .f32⟩
  | 49 => ⟨S_, .f32⟩
  | 50 => ⟨S800000x64, .f32⟩
  | 51 => ⟨S800000x64, .f32⟩
  | 52 => ⟨S800000x64, .f32⟩
  | 53 => ⟨S1x64, .f32⟩
  | 54 => ⟨S800000x64, .f32⟩
  | 55 => ⟨S800000x64, .f32⟩
  | 56 => ⟨S_, .f32⟩
  | 57 => ⟨S50000x64, .f32⟩
  | 58 => ⟨S800000x1, .i32⟩
  | 59 => ⟨S50000x64, .f32⟩
  | 60 => ⟨S64x192, .f32⟩
  | 61 => ⟨S50000x192, .f32⟩
  | 62 => ⟨S1x192, .f32⟩
  | 63 => ⟨S50000x192, .f32⟩
  | 64 => ⟨S50000x192, .f32⟩
  | 65 => ⟨S64x192, .f32⟩
  | 66 => ⟨S50000x192, .f32⟩
  | 67 => ⟨S1x192, .f32⟩
  | 68 => ⟨S50000x192, .f32⟩
  | 69 => ⟨S50000x192, .f32⟩
  | 70 => ⟨S50000x64, .f32⟩
  | 71 => ⟨S50000x64, .f32⟩
  | 72 => ⟨S50000x64, .f32⟩
  | 73 => ⟨S50000x64, .f32⟩
  | 74 => ⟨S50000x64, .f32⟩
  | 75 => ⟨S50000x64, .f32⟩
  | 76 => ⟨S50000x64, .f32⟩
  | 77 => ⟨S50000x64, .f32⟩
  | 78 => ⟨S50000x64, .f32⟩
  | 79 => ⟨S_, .f32⟩
  | 80 => ⟨S50000x64, .f32⟩
  | 81 => ⟨S50000x64, .f32⟩
  | 82 => ⟨S_, .f32⟩
  | 83 => ⟨S50000x64, .f32⟩
  | 84 => ⟨S50000x64, .f32⟩
  | 85 => ⟨S50000x64, .f32⟩
  | 86 => ⟨S50000x64, .f32⟩
  | 87 => ⟨S50000x64, .f32⟩
  | 88 => ⟨S_, .f32⟩
  | 89 => ⟨S50000x64, .f32⟩
  | 90 => ⟨S50000x64, .f32⟩
  | 91 => ⟨S_, .f32⟩
  | 92 => ⟨S50000x64, .f32⟩
  | 93 => ⟨S50000x64, .f32⟩
  | 94 => ⟨S50000x64, .f32⟩
  | 95 => ⟨S50000x64, .f32⟩
  | 96 => ⟨S50000x64, .f32⟩
  | 97 => ⟨S_, .f32⟩
  | 98 => ⟨S50000x64, .f32⟩
  | 99 => ⟨S50000x64, .f32⟩
  | 100 => ⟨S50000x64, .f32⟩
  | 101 => ⟨S50000x64, .f32⟩
  | 102 => ⟨S50000x64, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x64, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x64, .f32⟩
  | 121 => ⟨S800000x144, .f32⟩
  | 122 => ⟨S800000x64, .f32⟩
  | 123 => ⟨S1x64, .f32⟩
  | 124 => ⟨S800000x64, .f32⟩
  | 125 => ⟨S800000x64, .f32⟩
  | 126 => ⟨S_, .f32⟩
  | 127 => ⟨S800000x64, .f32⟩
  | _ => ⟨S50000x32, .f32⟩

abbrev hbmTy0_1 (i : Nat) : BufTy := match i % 128 with
  | 0 => ⟨S800000x64, .f32⟩
  | 1 => ⟨S800000x64, .f32⟩
  | 2 => ⟨S1x64, .f32⟩
  | 3 => ⟨S800000x64, .f32⟩
  | 4 => ⟨S800000x64, .f32⟩
  | 5 => ⟨S_, .f32⟩
  | 6 => ⟨S50000x64, .f32⟩
  | 7 => ⟨S800000x1, .i32⟩
  | 8 => ⟨S50000x64, .f32⟩
  | 9 => ⟨S64x192, .f32⟩
  | 10 => ⟨S50000x192, .f32⟩
  | 11 => ⟨S1x192, .f32⟩
  | 12 => ⟨S50000x192, .f32⟩
  | 13 => ⟨S50000x192, .f32⟩
  | 14 => ⟨S64x192, .f32⟩
  | 15 => ⟨S50000x192, .f32⟩
  | 16 => ⟨S1x192, .f32⟩
  | 17 => ⟨S50000x192, .f32⟩
  | 18 => ⟨S50000x192, .f32⟩
  | 19 => ⟨S50000x64, .f32⟩
  | 20 => ⟨S50000x64, .f32⟩
  | 21 => ⟨S50000x64, .f32⟩
  | 22 => ⟨S50000x64, .f32⟩
  | 23 => ⟨S50000x64, .f32⟩
  | 24 => ⟨S50000x64, .f32⟩
  | 25 => ⟨S50000x64, .f32⟩
  | 26 => ⟨S50000x64, .f32⟩
  | 27 => ⟨S50000x64, .f32⟩
  | 28 => ⟨S_, .f32⟩
  | 29 => ⟨S50000x64, .f32⟩
  | 30 => ⟨S50000x64, .f32⟩
  | 31 => ⟨S_, .f32⟩
  | 32 => ⟨S50000x64, .f32⟩
  | 33 => ⟨S50000x64, .f32⟩
  | 34 => ⟨S50000x64, .f32⟩
  | 35 => ⟨S50000x64, .f32⟩
  | 36 => ⟨S50000x64, .f32⟩
  | 37 => ⟨S_, .f32⟩
  | 38 => ⟨S50000x64, .f32⟩
  | 39 => ⟨S50000x64, .f32⟩
  | 40 => ⟨S_, .f32⟩
  | 41 => ⟨S50000x64, .f32⟩
  | 42 => ⟨S50000x64, .f32⟩
  | 43 => ⟨S50000x64, .f32⟩
  | 44 => ⟨S50000x64, .f32⟩
  | 45 => ⟨S50000x64, .f32⟩
  | 46 => ⟨S_, .f32⟩
  | 47 => ⟨S50000x64, .f32⟩
  | 48 => ⟨S50000x64, .f32⟩
  | 49 => ⟨S50000x64, .f32⟩
  | 50 => ⟨S50000x64, .f32⟩
  | 51 => ⟨S50000x64, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x64, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x64, .f32⟩
  | 70 => ⟨S800000x144, .f32⟩
  | 71 => ⟨S800000x64, .f32⟩
  | 72 => ⟨S1x64, .f32⟩
  | 73 => ⟨S800000x64, .f32⟩
  | 74 => ⟨S800000x64, .f32⟩
  | 75 => ⟨S_, .f32⟩
  | 76 => ⟨S800000x64, .f32⟩
  | 77 => ⟨S800000x64, .f32⟩
  | 78 => ⟨S800000x64, .f32⟩
  | 79 => ⟨S1x64, .f32⟩
  | 80 => ⟨S800000x64, .f32⟩
  | 81 => ⟨S800000x64, .f32⟩
  | 82 => ⟨S_, .f32⟩
  | 83 => ⟨S50000x64, .f32⟩
  | 84 => ⟨S800000x1, .i32⟩
  | 85 => ⟨S50000x64, .f32⟩
  | 86 => ⟨S64x192, .f32⟩
  | 87 => ⟨S50000x192, .f32⟩
  | 88 => ⟨S1x192, .f32⟩
  | 89 => ⟨S50000x192, .f32⟩
  | 90 => ⟨S50000x192, .f32⟩
  | 91 => ⟨S64x192, .f32⟩
  | 92 => ⟨S50000x192, .f32⟩
  | 93 => ⟨S1x192, .f32⟩
  | 94 => ⟨S50000x192, .f32⟩
  | 95 => ⟨S50000x192, .f32⟩
  | 96 => ⟨S50000x64, .f32⟩
  | 97 => ⟨S50000x64, .f32⟩
  | 98 => ⟨S50000x64, .f32⟩
  | 99 => ⟨S50000x64, .f32⟩
  | 100 => ⟨S50000x64, .f32⟩
  | 101 => ⟨S50000x64, .f32⟩
  | 102 => ⟨S50000x64, .f32⟩
  | 103 => ⟨S50000x64, .f32⟩
  | 104 => ⟨S50000x64, .f32⟩
  | 105 => ⟨S_, .f32⟩
  | 106 => ⟨S50000x64, .f32⟩
  | 107 => ⟨S50000x64, .f32⟩
  | 108 => ⟨S_, .f32⟩
  | 109 => ⟨S50000x64, .f32⟩
  | 110 => ⟨S50000x64, .f32⟩
  | 111 => ⟨S50000x64, .f32⟩
  | 112 => ⟨S50000x64, .f32⟩
  | 113 => ⟨S50000x64, .f32⟩
  | 114 => ⟨S_, .f32⟩
  | 115 => ⟨S50000x64, .f32⟩
  | 116 => ⟨S50000x64, .f32⟩
  | 117 => ⟨S_, .f32⟩
  | 118 => ⟨S50000x64, .f32⟩
  | 119 => ⟨S50000x64, .f32⟩
  | 120 => ⟨S50000x64, .f32⟩
  | 121 => ⟨S50000x64, .f32⟩
  | 122 => ⟨S50000x64, .f32⟩
  | 123 => ⟨S_, .f32⟩
  | 124 => ⟨S50000x64, .f32⟩
  | 125 => ⟨S50000x64, .f32⟩
  | 126 => ⟨S50000x64, .f32⟩
  | 127 => ⟨S50000x64, .f32⟩
  | _ => ⟨S50000x32, .f32⟩

abbrev hbmTy0_2 (i : Nat) : BufTy := match i % 128 with
  | 0 => ⟨S50000x64, .f32⟩
  | 1 => ⟨S_, .f32⟩
  | 2 => ⟨S256x64, .f32⟩
  | 3 => ⟨S50000x1, .i32⟩
  | 4 => ⟨S256x64, .f32⟩
  | 5 => ⟨S_, .f32⟩
  | 6 => ⟨S50000, .f32⟩
  | 7 => ⟨S_, .f32⟩
  | 8 => ⟨S256, .f32⟩
  | 9 => ⟨S50000x1, .i32⟩
  | 10 => ⟨S256, .f32⟩
  | 11 => ⟨S_, .f32⟩
  | 12 => ⟨S256, .f32⟩
  | 13 => ⟨S256, .f32⟩
  | 14 => ⟨S256x1, .f32⟩
  | 15 => ⟨S256x64, .f32⟩
  | 16 => ⟨S256x64, .f32⟩
  | 17 => ⟨S256x128, .f32⟩
  | 18 => ⟨S256x64, .f32⟩
  | 19 => ⟨S1x64, .f32⟩
  | 20 => ⟨S256x64, .f32⟩
  | 21 => ⟨S256x64, .f32⟩
  | 22 => ⟨S_, .f32⟩
  | 23 => ⟨S256x64, .f32⟩
  | 24 => ⟨S256x64, .f32⟩
  | 25 => ⟨S256x1, .f32⟩
  | 26 => ⟨S1x1, .f32⟩
  | 27 => ⟨S256x1, .f32⟩
  | 28 => ⟨S256x1, .f32⟩
  | _ => ⟨S50000x32, .f32⟩

abbrev hbmTy (i : Nat) : BufTy := match i / 128 with
  | 0 => hbmTy0_0 i
  | 1 => hbmTy0_1 i
  | 2 => hbmTy0_2 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_1 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call0_cst : Ref sig .tc := ⟨.hbm, 49, rfl⟩
abbrev main_call0_v0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_3 : Ref sig .tc := ⟨.hbm, 79, rfl⟩
abbrev main_v54 : Ref sig .tc := ⟨.hbm, 80, rfl⟩
abbrev main_v55 : Ref sig .tc := ⟨.hbm, 81, rfl⟩
abbrev main_cst_4 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_5 : Ref sig .tc := ⟨.hbm, 88, rfl⟩
abbrev main_v61 : Ref sig .tc := ⟨.hbm, 89, rfl⟩
abbrev main_v62 : Ref sig .tc := ⟨.hbm, 90, rfl⟩
abbrev main_cst_6 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_7 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_8 : Ref sig .tc := ⟨.hbm, 103, rfl⟩
abbrev main_v73 : Ref sig .tc := ⟨.hbm, 104, rfl⟩
abbrev main_v74 : Ref sig .tc := ⟨.hbm, 105, rfl⟩
abbrev main_c_9 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_10 : Ref sig .tc := ⟨.hbm, 112, rfl⟩
abbrev main_v80 : Ref sig .tc := ⟨.hbm, 113, rfl⟩
abbrev main_v81 : Ref sig .tc := ⟨.hbm, 114, rfl⟩
abbrev main_c_11 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_call1_cst : Ref sig .tc := ⟨.hbm, 126, rfl⟩
abbrev main_call1_v0 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_12 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_13 : Ref sig .tc := ⟨.hbm, 156, rfl⟩
abbrev main_v119 : Ref sig .tc := ⟨.hbm, 157, rfl⟩
abbrev main_v120 : Ref sig .tc := ⟨.hbm, 158, rfl⟩
abbrev main_cst_14 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_15 : Ref sig .tc := ⟨.hbm, 165, rfl⟩
abbrev main_v126 : Ref sig .tc := ⟨.hbm, 166, rfl⟩
abbrev main_v127 : Ref sig .tc := ⟨.hbm, 167, rfl⟩
abbrev main_cst_16 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_cst_17 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_c_18 : Ref sig .tc := ⟨.hbm, 180, rfl⟩
abbrev main_v138 : Ref sig .tc := ⟨.hbm, 181, rfl⟩
abbrev main_v139 : Ref sig .tc := ⟨.hbm, 182, rfl⟩
abbrev main_c_19 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_c_20 : Ref sig .tc := ⟨.hbm, 189, rfl⟩
abbrev main_v145 : Ref sig .tc := ⟨.hbm, 190, rfl⟩
abbrev main_v146 : Ref sig .tc := ⟨.hbm, 191, rfl⟩
abbrev main_c_21 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_call2_cst : Ref sig .tc := ⟨.hbm, 203, rfl⟩
abbrev main_call2_v0 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_cst_22 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_cst_23 : Ref sig .tc := ⟨.hbm, 233, rfl⟩
abbrev main_v184 : Ref sig .tc := ⟨.hbm, 234, rfl⟩
abbrev main_v185 : Ref sig .tc := ⟨.hbm, 235, rfl⟩
abbrev main_cst_24 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_cst_25 : Ref sig .tc := ⟨.hbm, 242, rfl⟩
abbrev main_v191 : Ref sig .tc := ⟨.hbm, 243, rfl⟩
abbrev main_v192 : Ref sig .tc := ⟨.hbm, 244, rfl⟩
abbrev main_cst_26 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_cst_27 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_cst_28 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_cst_29 : Ref sig .tc := ⟨.hbm, 261, rfl⟩
abbrev main_v206 : Ref sig .tc := ⟨.hbm, 262, rfl⟩
abbrev main_cst_30 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_cst_31 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_call3_cst : Ref sig .tc := ⟨.hbm, 278, rfl⟩
abbrev main_call3_v0 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x16_S800000x144_d1 : Shape.Concatenates [S800000x64, S800000x64, S800000x16] S800000x144 1
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  transposes_S192x64_S64x192_1_0 : S192x64.Transposes [1, 0] S64x192
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  slices_S50000x192_S50000x64_0_0 : S50000x192.Slices ![0, 0] S50000x64
  slices_S50000x192_S50000x64_0_64 : S50000x192.Slices ![0, 64] S50000x64
  slices_S50000x192_S50000x64_0_128 : S50000x192.Slices ![0, 128] S50000x64
  bcast_S_S256x64 : S_.BroadcastsInDim S256x64 (![] : Fin 0 → Fin S256x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  concatenates_S256x64_S256x64_S256x128_d1 : Shape.Concatenates [S256x64, S256x64] S256x128 1
  bcast_S1x64_S256x64_0_1 : S1x64.BroadcastsInDim S256x64 (![0, 1] : Fin 2 → Fin S256x64.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  dot_S50000x32_S32x64_S50000x64_1_0_0_1_n_n_wf : DotDims.WF S50000x32 S32x64 S50000x64 [1] [0] [0] [1] [] []
  gather_S50000x64_S800000x1_S800000x64_1_0_n_n_0_1_164_wf : GatherDims.WF S50000x64 S800000x1 S800000x64 [1] [0] [] [0] [] 1 ![1, 64]
  dot_S800000x144_S144x64_S800000x64_1_0_0_1_n_n_wf : DotDims.WF S800000x144 S144x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x64_S64x192_S50000x192_1_0_0_1_n_n_wf : DotDims.WF S50000x64 S64x192 S50000x192 [1] [0] [0] [1] [] []
  scatter_S256x64_S50000x1_S50000x64_1_0_0_1_wf : ScatterDims.WF S256x64 S50000x1 S50000x64 [1] [0] [0] 1
  scatter_S256_S50000x1_S50000_n_0_0_1_wf : ScatterDims.WF S256 S50000x1 S50000 [] [0] [0] 1
  dot_S256x128_S128x64_S256x64_1_0_0_1_n_n_wf : DotDims.WF S256x128 S128x64 S256x64 [1] [0] [0] [1] [] []
  dot_S256x64_S64x1_S256x1_1_0_0_1_n_n_wf : DotDims.WF S256x64 S64x1 S256x1 [1] [0] [0] [1] [] []

variable [Facts₀]

def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x144_S144x64_S800000x64_1_0_0_1_n_n : DotDims S800000x144 S144x64 S800000x64 where
  lhsContracting := [1]
  rhsContracting := [0]
  lhsNonContracting := [0]
  rhsNonContracting := [1]
  lhsBatch := []
  rhsBatch := []
  wf := dot_S800000x144_S144x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x192_S50000x192_1_0_0_1_n_n : DotDims S50000x64 S64x192 S50000x192 where
  lhsContracting := [1]
  rhsContracting := [0]
  lhsNonContracting := [0]
  rhsNonContracting := [1]
  lhsBatch := []
  rhsBatch := []
  wf := dot_S50000x64_S64x192_S50000x192_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.ReadP.lean ====
import proofs.«423451_j81475529605767_1_alg».proof.Proof.RunP
import Idealize.ShloMosaic.Lib.Pipeline.Value
import Idealize.ShloMosaic.Lib.ValueIdx
import Idealize.ShloMosaic.PureOps.Ideal.Laws
noncomputable section
namespace Cert.ReferenceIdeal.ReadP
open Cert.ReferenceIdeal Cert.ReferenceIdeal.Gen Idealize.ShloMosaic Idealize.ShloMosaic.TcCoe Idealize.SL.Sem Idealize.ShloMosaic.StableHlo
variable {F : FTy → Type} [FloatOps F]
variable (x0 : (⟨S50000x32, .f32⟩ : BufTy).Contents (Elt F)) (x1 : (⟨S2x800000, .i32⟩ : BufTy).Contents (Elt F)) (x2 : (⟨S800000x16, .f32⟩ : BufTy).Contents (Elt F)) (x3 : (⟨S50000, .i32⟩ : BufTy).Contents (Elt F)) (x4 : (⟨S32x64, .f32⟩ : BufTy).Contents (Elt F)) (x5 : (⟨S64, .f32⟩ : BufTy).Contents (Elt F)) (x6 : (⟨S144x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S192x64, .f32⟩ : BufTy).Contents (Elt F)) (x11 : (⟨S192, .f32⟩ : BufTy).Contents (Elt F)) (x12 : (⟨S192x64, .f32⟩ : BufTy).Contents (Elt F)) (x13 : (⟨S192, .f32⟩ : BufTy).Contents (Elt F)) (x14 : (⟨S128x64, .f32⟩ : BufTy).Contents (Elt F)) (x15 : (⟨S64, .f32⟩ : BufTy).Contents (Elt F)) (x16 : (⟨S64x1, .f32⟩ : BufTy).Contents (Elt F)) (x17 : (⟨S1, .f32⟩ : BufTy).Contents (Elt F))
def val_main_v0 : (⟨S50000x64, .f32⟩ : BufTy).Contents (Elt F) :=
  Host.dotGeneral dot_S50000x32_S32x64_S50000x64_1_0_0_1_n_n none (x0) (x4)
def val_main_v1 : (⟨S1x64, .f32⟩ : BufTy).Contents (Elt F) :=
  broadcastInDim S1x64 ![1] bcast_S64_S1x64_1 (x5)
def val_main_v2 : (⟨S50000x64, .f32⟩ : BufTy).Contents (Elt F) :=
  broadcastInDim S50000x64 ![0, 1] bcast_S1x64_S50000x64_0_1 (val_main_v1 (F := F) x5)
def val_main_v3 : (⟨S50000x64, .f32⟩ : BufTy).Contents (Elt F) :=
  addf (val_main_v0 (F := F) x0 x4) (val_main_v2 (F := F) x5)
def val_main_v4 : (⟨S1x800000, .i32⟩ : BufTy).Contents (Elt F) :=
  extractStridedSlice S1x800000 ![0, 0] (x1) slices_S2x800000_S1x800000_0_0
def val_main_v5 : (⟨S800000, .i32⟩ : BufTy).Contents (Elt F) :=
  shapeCast _ (val_main_v4 (F := F) x1) shapeCasts_S1x800000_S800000
def val_main_v6 : (⟨S1x800000, .i32⟩ : BufTy).Contents (Elt F) :=
  extractStridedSlice S1x800000 ![1, 0] (x1) slices_S2x800000_S1x800000_1_0
def val_main_v7 : (⟨S800000, .i32⟩ : BufTy).Contents (Elt F) :=
  shapeCast _ (val_main_v6 (F := F) x1) shapeCasts_S1x800000_S800000
def val_main_c : (⟨S_, .i32⟩ : BufTy).Contents (Elt F) :=
  constantI S_ 32 0#32
def val_main_v8 : (⟨S800000, .i32⟩ : BufTy).Contents (Elt F) :=
  broadcastInDim S800000 ![] bcast_S_S800000 (val_main_c (F := F))
def val_main_v9 : (⟨S800000, .i1⟩ : BufTy).Contents (Elt F) :=
  cmpi .slt (val_main_v5 (F := F) x1) (val_main_v8 (F := F))
def val_main_c_0 : (⟨S_, .i32⟩ : BufTy).Contents (Elt F) :=
  constantI S_ 32 50000#32
def val_main_v10 : (⟨S800000, .i32⟩ : BufTy).Contents (Elt F) :=
  broadcastInDim S800000 ![] bcast_S_S800000 (val_main_c_0 (F := F))
def val_main_v11 : (⟨S800000, .i32⟩ : BufTy).Contents (Elt F) :=
  addi (val_main_v5 (F := F) x1) (val_main_v10 (F := F))
def val_main_v12 : (⟨S800000, .i32⟩ : BufTy).Contents (Elt F) :=
  select (val_main_v9 (F := F) x1) (val_main_v11 (F := F) x1) (val_main_v5 (F := F) x1)
def val_main_v13 : (⟨S800000x1, .i32⟩ : BufTy).Contents (Elt F) :=
  broadcastInDim S800000x1 ![0] bcast_S800000_S800000x1_0 (val_main_v12 (F := F) x1)
def val_main_v14 : (⟨S800000x64, .f32⟩ : BufTy).Contents (Elt F) :=
  Host.gather gather_S50000x64_S800000x1_S800000x64_1_0_n_n_0_1_164 (val_main_v3 (F := F) x0 x4 x5) (val_main_v13 (F := F) x1)
def val_main_c_1 : (⟨S_, .i32⟩ : BufTy).Contents (Elt F) :=
  constantI S_ 32 0#32
def val_main_v15 : (⟨S800000, .i32⟩ : BufTy).Contents (Elt F) :=
  broadcastInDim S800000 ![] bcast_S_S800000 (val_main_c_1 (F := F))
def val_main_v16 : (⟨S800000, .i1⟩ : BufTy).Contents (Elt F) :=
  cmpi .slt (val_main_v7 (F := F) x1) (val_main_v15 (F := F))
def val_main_c_2 : (⟨S_, .i32⟩ : BufTy).Contents (Elt F) :=
  constantI S_ 32 50000#32
def val_main_v17 : (⟨S800000, .i32⟩ : BufTy).Contents (Elt F) :=
  broadcastInDim S800000 ![] bcast_S_S800000 (val_main_c_2 (F := F))
def val_main_v18 : (⟨S800000, .i32⟩ : BufTy).Contents (Elt F) :=
  addi (val_main_v7 (F := F) x1) (val_main_v17 (F := F))
def val_main_v19 : (⟨S800000, .i32⟩ : BufTy).Contents (Elt F) :=
  select (val_main_v16 (F := F) x1) (val_main_v18 (F := F) x1) (val_main_v7 (F := F) x1)
def val_main_v20 : (⟨S800000x1, .i32⟩ : BufTy).Contents (Elt F) :=
  broadcastInDim S800000x1 ![0] bcast_S800000_S800000x1_0 (val_main_v19 (F := F) x1)
def val_main_v21 : (⟨S800000x64, .f32⟩ : BufTy).Contents (Elt F) :=
  Host.gather gather_S50000x64_S800000x1_S800000x64_1_0_n_n_0_1_164 (val_main_v3 (F := F) x0 x4 x5) (val_main_v20 (F := F) x1)
def val_main_v22 : (⟨S800000x144, .f32⟩ : BufTy).Contents (Elt F) :=
  concatenate S800000x144 1 [⟨S800000x64, (val_main_v14 (F := F) x0 x1 x4 x5)⟩, ⟨S800000x64, (val_main_v21 (F := F) x0 x1 x4 x5)⟩, ⟨S800000x16, (x2)⟩] concatenates_S800000x64_S800000x64_S800000x16_S800000x144_d1
def val_main_v23 : (⟨S800000x64, .f32⟩ : BufTy).Contents (Elt F) :=
  Host.dotGeneral dot_S800000x144_S144x64_S800000x64_1_0_0_1_n_n none (val_main_v22 (F := F) x0 x1 x2 x4 x5) (x6)
def val_main_v24 : (⟨S1x64, .f32⟩ : BufTy).Contents (Elt F) :=
  broadcastInDim S1x64 ![1] bcast_S64_S1x64_1 (x7)
def val_main_v25 : (⟨S800000x64, .f32⟩ : BufTy).Contents (Elt F) :=
  broadcastInDim S800000x64 ![0, 1] bcast_S1x64_S800000x64_0_1 (val_main_v24 (F := F) x7)
def val_main_v26 : (⟨S800000x64, .f32⟩ : BufTy).Contents (Elt F) :=
  addf (val_main_v23 (F := F) x0 x1 x2 x4 x5 x6) (val_main_v25 (F := F) x7)
def val_main_call0_cst : (⟨S_, .f32⟩ : BufTy).Contents (Elt F) :=
  constant S_ .f32 0x00000000#32
def val_main_call0_v0 : (⟨S800000x64, .f32⟩ : BufTy).Contents (Elt F) :=
  broadcastInDim S800000x64 ![] bcast_S_S800000x64 (val_main_call0_cst (F := F))
def val_main_v27 : (⟨S800000x64, .f32⟩ : BufTy).Contents (Elt F) :=
  maximumf (val_main_v26 (F := F) x0 x1 x2 x4 x5 x6 x7) (val_main_call0_v0 (F := F))
def val_main_v28 : (⟨S800000x64, .f32⟩ : BufTy).Contents (Elt F) :=
  Host.dotGeneral dot_S800000x64_S64x64_S800000x64_1_0_0_1_n_n none (val_main_v27 (F := F) x0 x1 x2 x4 x5 x6 x7) (x8)
def val_main_v29 : (⟨S1x64, .f32⟩ : BufTy).Contents (Elt F) :=
  broadcastInDim S1x64 ![1] bcast_S64_S1x64_1 (x9)
def val_main_v30 : (⟨S800000x64, .f32⟩ : BufTy).Contents (Elt F) :=
  broadcastInDim S800000x64 ![0, 1] bcast_S1x64_S800000x64_0_1 (val_main_v29 (F := F) x9)
def val_main_v31 : (⟨S800000x64, .f32⟩ : BufTy).Contents (Elt F) :=
  addf (val_main_v28 (F := F) x0 x1 x2 x4 x5 x6 x7 x8) (val_main_v30 (F := F) x9)
def val_main_cst : (⟨S_, .f32⟩ : BufTy).Contents (Elt F) :=
  constant S_ .f32 0x00000000#32
def val_main_v32 : (⟨S50000x64, .f32⟩ : BufTy).Contents (Elt F) :=
  broadcastInDim S50000x64 ![] bcast_S_S50000x64 (val_main_cst (F := F))
def val_main_v33 : (⟨S800000x1, .i32⟩ : BufTy).Contents (Elt F) :=
  broadcastInDim S800000x1 ![0] bcast_S800000_S800000x1_0 (val_main_v7 (F := F) x1)
def val_main_v34 : (⟨S50000x64, .f32⟩ : BufTy).Contents (Elt F) :=
  Host.scatterAdd scatter_S50000x64_S800000x1_S800000x64_1_0_0_1 (val_main_v32 (F := F)) (val_main_v33 (F := F) x1) (val_main_v31 (F := F) x0 x1 x2 x4 x5 x6 x7 x8 x9)
def val_main_v35 : (⟨S64x192, .f32⟩ : BufTy).Contents (Elt F) :=
  transpose S64x192 [1, 0] (x10) transposes_S192x64_S64x192_1_0
def val_main_v36 : (⟨S50000x192, .f32⟩ : BufTy).Contents (Elt F) :=
  Host.dotGeneral dot_S50000x64_S64x192_S50000x192_1_0_0_1_n_n none (val_main_v34 (F := F) x0 x1 x2 x4 x5 x6 x7 x8 x9) (val_main_v35 (F := F) x10)
def val_main_v37 : (⟨S1x192, .f32⟩ : BufTy).Contents (Elt F) :=
  broadcastInDim S1x192 ![1] bcast_S192_S1x192_1 (x11)
def val_main_v38 : (⟨S50000x192, .f32⟩ : BufTy).Contents (Elt F) :=
  broadcastInDim S50000x192 ![0, 1] bcast_S1x192_S50000x192_0_1 (val_main_v37 (F := F) x11)
def val_main_v39 : (⟨S50000x192, .f32⟩ : BufTy).Contents (Elt F) :=
  addf (val_main_v36 (F := F) x0 x1 x2 x4 x5 x6 x7 x8 x9 x10) (val_main_v38 (F := F) x11)
def val_main_v40 : (⟨S64x192, .f32⟩ : BufTy).Contents (Elt F) :=
  transpose S64x192 [1, 0] (x12) transposes_S192x64_S64x192_1_0
def val_main_v41 : (⟨S50000x192, .f32⟩ : BufTy).Contents (Elt F) :=
  Host.dotGeneral dot_S50000x64_S64x192_S50000x192_1_0_0_1_n_n none (val_main_v3 (F := F) x0 x4 x5) (val_main_v40 (F := F) x12)
def val_main_v42 : (⟨S1x192, .f32⟩ : BufTy).Contents (Elt F) :=
  broadcastInDim S1x192 ![1] bcast_S192_S1x192_1 (x13)
def val_main_v43 : (⟨S50000x192, .f32⟩ : BufTy).Contents (Elt F) :=
  broadcastInDim S50000x192 ![0, 1] bcast_S1x192_S50000x192_0_1 (val_main_v42 (F := F) x13)
def val_main_v44 : (⟨S50000x192, .f32⟩ : BufTy).Contents (Elt F) :=
  addf (val_main_v41 (F := F) x0 x4 x5 x12) (val_main_v43 (F := F) x13)
def val_main_v45 : (⟨S50000x64, .f32⟩ : BufTy).Contents (Elt F) :=
  extractStridedSlice S50000x64 ![0, 0] (val_main_v39 (F := F) x0 x1 x2 x4 x5 x6 x7 x8 x9 x10 x11) slices_S50000x192_S50000x64_0_0
def val_main_v46 : (⟨S50000x64, .f32⟩ : BufTy).Contents (Elt F) :=
  extractStridedSlice S50000x64 ![0, 64] (val_main_v39 (F := F) x0 x1 x2 x4 x5 x6 x7 x8 x9 x10 x11) slices_S50000x192_S50000x64_0_64
def val_main_v47 : (⟨S50000x64, .f32⟩ : BufTy).Contents (Elt F) :=
  extractStridedSlice S50000x64 ![0, 128] (val_main_v39 (F := F) x0 x1 x2 x4 x5 x6 x7 x8 x9 x10 x11) slices_S50000x192_S50000x64_0_128
def val_main_v48 : (⟨S50000x64, .f32⟩ : BufTy).Contents (Elt F) :=
  extractStridedSlice S50000x64 ![0, 0] (val_main_v44 (F := F) x0 x4 x5 x12 x13) slices_S50000x192_S50000x64_0_0
def val_main_v49 : (⟨S50000x64, .f32⟩ : BufTy).Contents (Elt F) :=
  extractStridedSlice S50000x64 ![0, 64] (val_main_v44 (F := F) x0 x4 x5 x12 x13) slices_S50000x192_S50000x64_0_64
def val_main_v50 : (⟨S50000x64, .f32⟩ : BufTy).Contents (Elt F) :=
  extractStridedSlice S50000x64 ![0, 128] (val_main_v44 (F := F) x0 x4 x5 x12 x13) slices_S50000x192_S50000x64_0_128
def val_main_v51 : (⟨S50000x64, .f32⟩ : BufTy).Contents (Elt F) :=
  addf (val_main_v45 (F := F) x0 x1 x2 x4 x5 x6 x7 x8 x9 x10 x11) (val_main_v48 (F := F) x0 x4 x5 x12 x13)
def val_main_v52 : (⟨S50000x64, .f32⟩ : BufTy).Contents (Elt F) :=
  Host.negf (val_main_v51 (F := F) x0 x1 x2 x4 x5 x6 x7 x8 x9 x10 x11 x12 x13)
def val_main_v53 : (⟨S50000x64, .f32⟩ : BufTy).Contents (Elt F) :=
  Host.exp (val_main_v52 (F := F) x0 x1 x2 x4 x5 x6 x7 x8 x9 x10 x11 x12 x13)
def val_main_cst_3 : (⟨S_, .f32⟩ : BufTy).Contents (Elt F) :=
  constant S_ .f32 0x3F800000#32
def val_main_v54 : (⟨S50000x64, .f32⟩ : BufTy).Contents (Elt F) :=
  broadcastInDim S50000x64 ![] bcast_S_S50000x64 (val_main_cst_3 (F := F))
def val_main_v55 : (⟨S50000x64, .f32⟩ : BufTy).Contents (Elt F) :=
  addf (val_main_v54 (F := F)) (val_main_v53 (F := F) x0 x1 x2 x4 x5 x6 x7 x8 x9 x10 x11 x12 x13)
def val_main_cst_4 : (⟨S_, .f32⟩ : BufTy).Contents (Elt F) :=
  constant S_ .f32 0x3F800000#32
def val_main_v56 : (⟨S50000x64, .f32⟩ : BufTy).Contents (Elt F) :=
  broadcastInDim S50000x64 ![] bcast_S_S50000x64 (val_main_cst_4 (F := F))
def val_main_v57 : (⟨S50000x64, .f32⟩ : BufTy).Contents (Elt F) :=
  Host.divf (val_main_v56 (F := F)) (val_main_v55 (F := F) x0 x1 x2 x4 x5 x6 x7 x8 x9 x10 x11 x12 x13)
def val_main_v58 : (⟨S50000x64, .f32⟩ : BufTy).Contents (Elt F) :=
  addf (val_main_v46 (F := F) x0 x1 x2 x4 x5 x6 x7 x8 x9 x10 x11) (val_main_v49 (F := F) x0 x4 x5 x12 x13)
def val_main_v59 : (⟨S50000x64, .f32⟩ : BufTy).Contents (Elt F) :=
  Host.negf (val_main_v58 (F := F) x0 x1 x2 x4 x5 x6 x7 x8 x9 x10 x11 x12 x13)
def val_main_v60 : (⟨S50000x64, .f32⟩ : BufTy).Contents (Elt F) :=
  Host.exp (val_main_v59 (F := F) x0 x1 x2 x4 x5 x6 x7 x8 x9 x10 x11 x12 x13)
def val_main_cst_5 : (⟨S_, .f32⟩ : BufTy).Contents (Elt F) :=
  constant S_ .f32 0x3F800000#32
def val_main_v61 : (⟨S50000x64, .f32⟩ : BufTy).Contents (Elt F) :=
  broadcastInDim S50000x64 ![] bcast_S_S50000x64 (val_main_cst_5 (F := F))
def val_main_v62 : (⟨S50000x64, .f32⟩ : BufTy).Contents (Elt F) :=
  addf (val_main_v61 (F := F)) (val_main_v60 (F := F) x0 x1 x2 x4 x5 x6 x7 x8 x9 x10 x11 x12 x13)
def val_main_cst_6 : (⟨S_, .f32⟩ : BufTy).Contents (Elt F) :=
  constant S_ .f32 0x3F800000#32
def val_main_v63 : (⟨S50000x64, .f32⟩ : BufTy).Contents (Elt F) :=
  broadcastInDim S50000x64 ![] bcast_S_S50000x64 (val_main_cst_6 (F := F))
def val_main_v64 : (⟨S50000x64, .f32⟩ : BufTy).Contents (Elt F) :=
  Host.divf (val_main_v63 (F := F)) (val_main_v62 (F := F) x0 x1 x2 x4 x5 x6 x7 x8 x9 x10 x11 x12 x13)
def val_main_v65 : (⟨S50000x64, .f32⟩ : BufTy).Contents (Elt F) :=
  mulf (val_main_v57 (F := F) x0 x1 x2 x4 x5 x6 x7 x8 x9 x10 x11 x12 x13) (val_main_v50 (F := F) x0 x4 x5 x12 x13)
def val_main_v66 : (⟨S50000x64, .f32⟩ : BufTy).Contents (Elt F) :=
  addf (val_main_v47 (F := F) x0 x1 x2 x4 x5 x6 x7 x8 x9 x10 x11) (val_main_v65 (F := F) x0 x1 x2 x4 x5 x6 x7 x8 x9 x10 x11 x12 x13)
def val_main_v67 : (⟨S50000x64, .f32⟩ : BufTy).Contents (Elt F) :=
  Host.tanh (val_main_v66 (F := F) x0 x1 x2 x4 x5 x6 x7 x8 x9 x10 x11 x12 x13)
def val_main_cst_7 : (⟨S_, .f32⟩ : BufTy).Contents (Elt F) :=
  constant S_ .f32 0x3F800000#32
def val_main_v68 : (⟨S50000x64, .f32⟩ : BufTy).Contents (Elt F) :=
  broadcastInDim S50000x64 ![] bcast_S_S50000x64 (val_main_cst_7 (F := F))
def val_main_v69 : (⟨S50000x64, .f32⟩ : BufTy).Contents (Elt F) :=
  subf (val_main_v68 (F := F)) (val_main_v64 (F := F) x0 x1 x2 x4 x5 x6 x7 x8 x9 x10 x11 x12 x13)
def val_main_v70 : (⟨S50000x64, .f32⟩ : BufTy).Contents (Elt F) :=
  mulf (val_main_v69 (F := F) x0 x1 x2 x4 x5 x6 x7 x8 x9 x10 x11 x12 x13) (val_main_v67 (F := F) x0 x1 x2 x4 x5 x6 x7 x8 x9 x10 x11 x12 x13)
def val_main_v71 : (⟨S50000x64, .f32⟩ : BufTy).Contents (Elt F) :=
  mulf (val_main_v64 (F := F) x0 x1 x2 x4 x5 x6 x7 x8 x9 x10 x11 x12 x13) (val_main_v3 (F := F) x0 x4 x5)
def val_main_v72 : (⟨S50000x64, .f32⟩ : BufTy).Contents (Elt F) :=
  addf (val_main_v70 (F := F) x0 x1 x2 x4 x5 x6 x7 x8 x9 x10 x11 x12 x13) (val_main_v71 (F := F) x0 x1 x2 x4 x5 x6 x7 x8 x9 x10 x11 x12 x13)
def val_main_c_8 : (⟨S_, .i32⟩ : BufTy).Contents (Elt F) :=
  constantI S_ 32 0#32
def val_main_v73 : (⟨S800000, .i32⟩ : BufTy).Contents (Elt F) :=
  broadcastInDim S800000 ![] bcast_S_S800000 (val_main_c_8 (F := F))
def val_main_v74 : (⟨S800000, .i1⟩ : BufTy).Contents (Elt F) :=
  cmpi .slt (val_main_v5 (F := F) x1) (val_main_v73 (F := F))
def val_main_c_9 : (⟨S_, .i32⟩ : BufTy).Contents (Elt F) :=
  constantI S_ 32 50000#32
def val_main_v75 : (⟨S800000, .i32⟩ : BufTy).Contents (Elt F) :=
  broadcastInDim S800000 ![] bcast_S_S800000 (val_main_c_9 (F := F))
def val_main_v76 : (⟨S800000, .i32⟩ : BufTy).Contents (Elt F) :=
  addi (val_main_v5 (F := F) x1) (val_main_v75 (F := F))
def val_main_v77 : (⟨S800000, .i32⟩ : BufTy).Contents (Elt F) :=
  select (val_main_v74 (F := F) x1) (val_main_v76 (F := F) x1) (val_main_v5 (F := F) x1)
def val_main_v78 : (⟨S800000x1, .i32⟩ : BufTy).Contents (Elt F) :=
  broadcastInDim S800000x1 ![0] bcast_S800000_S800000x1_0 (val_main_v77 (F := F) x1)
def val_main_v79 : (⟨S800000x64, .f32⟩ : BufTy).Contents (Elt F) :=
  Host.gather gather_S50000x64_S800000x1_S800000x64_1_0_n_n_0_1_164 (val_main_v72 (F := F) x0 x1 x2 x4 x5 x6 x7 x8 x9 x10 x11 x12 x13) (val_main_v78 (F := F) x1)
def val_main_c_10 : (⟨S_, .i32⟩ : BufTy).Contents (Elt F) :=
  constantI S_ 32 0#32
def val_main_v80 : (⟨S800000, .i32⟩ : BufTy).Contents (Elt F) :=
  broadcastInDim S800000 ![] bcast_S_S800000 (val_main_c_10 (F := F))
def val_main_v81 : (⟨S800000, .i1⟩ : BufTy).Contents (Elt F) :=
  cmpi .slt (val_main_v7 (F := F) x1) (val_main_v80 (F := F))
def val_main_c_11 : (⟨S_, .i32⟩ : BufTy).Contents (Elt F) :=
  constantI S_ 32 50000#32
def val_main_v82 : (⟨S800000, .i32⟩ : BufTy).Contents (Elt F) :=
  broadcastInDim S800000 ![] bcast_S_S800000 (val_main_c_11 (F := F))
def val_main_v83 : (⟨S800000, .i32⟩ : BufTy).Contents (Elt F) :=
  addi (val_main_v7 (F := F) x1) (val_main_v82 (F := F))
def val_main_v84 : (⟨S800000, .i32⟩ : BufTy).Contents (Elt F) :=
  select (val_main_v81 (F := F) x1) (val_main_v83 (F := F) x1) (val_main_v7 (F := F) x1)
def val_main_v85 : (⟨S800000x1, .i32⟩ : BufTy).Contents (Elt F) :=
  broadcastInDim S800000x1 ![0] bcast_S800000_S800000x1_0 (val_main_v84 (F := F) x1)
def val_main_v86 : (⟨S800000x64, .f32⟩ : BufTy).Contents (Elt F) :=
  Host.gather gather_S50000x64_S800000x1_S800000x64_1_0_n_n_0_1_164 (val_main_v72 (F := F) x0 x1 x2 x4 x5 x6 x7 x8 x9 x10 x11 x12 x13) (val_main_v85 (F := F) x1)
def val_main_v87 : (⟨S800000x144, .f32⟩ : BufTy).Contents (Elt F) :=
  concatenate S800000x144 1 [⟨S800000x64, (val_main_v79 (F := F) x0 x1 x2 x4 x5 x6 x7 x8 x9 x10 x11 x12 x13)⟩, ⟨S800000x64, (val_main_v86 (F := F) x0 x1 x2 x4 x5 x6 x7 x8 x9 x10 x11 x12 x13)⟩, ⟨S800000x16, (x2)⟩] concatenates_S800000x64_S800000x64_S800000x16_S800000x144_d1
def val_main_v88 : (⟨S800000x64, .f32⟩ : BufTy).Contents (Elt F) :=
  Host.dotGeneral dot_S800000x144_S144x64_S800000x64_1_0_0_1_n_n none (val_main_v87 (F := F) x0 x1 x2 x4 x5 x6 x7 x8 x9 x10 x11 x12 x13) (x6)
def val_main_v89 : (⟨S1x64, .f32⟩ : BufTy).Contents (Elt F) :=
  broadcastInDim S1x64 ![1] bcast_S64_S1x64_1 (x7)
def val_main_v90 : (⟨S800000x64, .f32⟩ : BufTy).Contents (Elt F) :=
  broadcastInDim S800000x64 ![0, 1] bcast_S1x64_S800000x64_0_1 (val_main_v89 (F := F) x7)
def val_main_v91 : (⟨S800000x64, .f32⟩ : BufTy).Contents (Elt F) :=
  addf (val_main_v88 (F := F) x0 x1 x2 x4 x5 x6 x7 x8 x9 x10 x11 x12 x13) (val_main_v90 (F := F) x7)
def val_main_call1_cst : (⟨S_, .f32⟩ : BufTy).Contents (Elt F) :=
  constant S_ .f32 0x00000000#32
def val_main_call1_v0 : (⟨S800000x64, .f32⟩ : BufTy).Contents (Elt F) :=
  broadcastInDim S800000x64 ![] bcast_S_S800000x64 (val_main_call1_cst (F := F))
def val_main_v92 : (⟨S800000x64, .f32⟩ : BufTy).Contents (Elt F) :=
  maximumf (val_main_v91 (F := F) x0 x1 x2 x4 x5 x6 x7 x8 x9 x10 x11 x12 x13) (val_main_call1_v0 (F := F))
def val_main_v93 : (⟨S800000x64, .f32⟩ : BufTy).Contents (Elt F) :=
  Host.dotGeneral dot_S800000x64_S64x64_S800000x64_1_0_0_1_n_n none (val_main_v92 (F := F) x0 x1 x2 x4 x5 x6 x7 x8 x9 x10 x11 x12 x13) (x8)
def val_main_v94 : (⟨S1x64, .f32⟩ : BufTy).Contents (Elt F) :=
  broadcastInDim S1x64 ![1] bcast_S64_S1x64_1 (x9)
def val_main_v95 : (⟨S800000x64, .f32⟩ : BufTy).Contents (Elt F) :=
  broadcastInDim S800000x64 ![0, 1] bcast_S1x64_S800000x64_0_1 (val_main_v94 (F := F) x9)
def val_main_v96 : (⟨S800000x64, .f32⟩ : BufTy).Contents (Elt F) :=
  addf (val_main_v93 (F := F) x0 x1 x2 x4 x5 x6 x7 x8 x9 x10 x11 x12 x13) (val_main_v95 (F := F) x9)
def val_main_cst_12 : (⟨S_, .f32⟩ : BufTy).Contents (Elt F) :=
  constant S_ .f32 0x00000000#32
def val_main_v97 : (⟨S50000x64, .f32⟩ : BufTy).Contents (Elt F) :=
  broadcastInDim S50000x64 ![] bcast_S_S50000x64 (val_main_cst_12 (F := F))
def val_main_v98 : (⟨S800000x1, .i32⟩ : BufTy).Contents (Elt F) :=
  broadcastInDim S800000x1 ![0] bcast_S800000_S800000x1_0 (val_main_v7 (F := F) x1)
def val_main_v99 : (⟨S50000x64, .f32⟩ : BufTy).Contents (Elt F) :=
  Host.scatterAdd scatter_S50000x64_S800000x1_S800000x64_1_0_0_1 (val_main_v97 (F := F)) (val_main_v98 (F := F) x1) (val_main_v96 (F := F) x0 x1 x2 x4 x5 x6 x7 x8 x9 x10 x11 x12 x13)
def val_main_v100 : (⟨S64x192, .f32⟩ : BufTy).Contents (Elt F) :=
  transpose S64x192 [1, 0] (x10) transposes_S192x64_S64x192_1_0
def val_main_v101 : (⟨S50000x192, .f32⟩ : BufTy).Contents (Elt F) :=
  Host.dotGeneral dot_S50000x64_S64x192_S50000x192_1_0_0_1_n_n none (val_main_v99 (F := F) x0 x1 x2 x4 x5 x6 x7 x8 x9 x10 x11 x12 x13) (val_main_v100 (F := F) x10)
def val_main_v102 : (⟨S1x192, .f32⟩ : BufTy).Contents (Elt F) :=
  broadcastInDim S1x192 ![1] bcast_S192_S1x192_1 (x11)
def val_main_v103 : (⟨S50000x192, .f32⟩ : BufTy).Contents (Elt F) :=
  broadcastInDim S50000x192 ![0, 1] bcast_S1x192_S50000x192_0_1 (val_main_v102 (F := F) x11)
def val_main_v104 : (⟨S50000x192, .f32⟩ : BufTy).Contents (Elt F) :=
  addf (val_main_v101 (F := F) x0 x1 x2 x4 x5 x6 x7 x8 x9 x10 x11 x12 x13) (val_main_v103 (F := F) x11)
def val_main_v105 : (⟨S64x192, .f32⟩ : BufTy).Contents (Elt F) :=
  transpose S64x192 [1, 0] (x12) transposes_S192x64_S64x192_1_0
def val_main_v106 : (⟨S50000x192, .f32⟩ : BufTy).Contents (Elt F) :=
  Host.dotGeneral dot_S50000x64_S64x192_S50000x192_1_0_0_1_n_n none (val_main_v72 (F := F) x0 x1 x2 x4 x5 x6 x7 x8 x9 x10 x11 x12 x13) (val_main_v105 (F := F) x12)
def val_main_v107 : (⟨S1x192, .f32⟩ : BufTy).Contents (Elt F) :=
  broadcastInDim S1x192 ![1] bcast_S192_S1x192_1 (x13)
def val_main_v108 : (⟨S50000x192, .f32⟩ : BufTy).Contents (Elt F) :=
  broadcastInDim S50000x192 ![0, 1] bcast_S1x192_S50000x192_0_1 (val_main_v107 (F := F) x13)
def val_main_v109 : (⟨S50000x192, .f32⟩ : BufTy).Contents (Elt F) :=
  addf (val_main_v106 (F := F) x0 x1 x2 x4 x5 x6 x7 x8 x9 x10 x11 x12 x13) (val_main_v108 (F := F) x13)
def val_main_v110 : (⟨S50000x64, .f32⟩ : BufTy).Contents (Elt F) :=
  extractStridedSlice S50000x64 ![0, 0] (val_main_v104 (F := F) x0 x1 x2 x4 x5 x6 x7 x8 x9 x10 x11 x12 x13) slices_S50000x192_S50000x64_0_0
def val_main_v111 : (⟨S50000x64, .f32⟩ : BufTy).Contents (Elt F) :=
  extractStridedSlice S50000x64 ![0, 64] (val_main_v104 (F := F) x0 x1 x2 x4 x5 x6 x7 x8 x9 x10 x11 x12 x13) slices_S50000x192_S50000x64_0_64
def val_main_v112 : (⟨S50000x64, .f32⟩ : BufTy).Contents (Elt F) :=
  extractStridedSlice S50000x64 ![0, 128] (val_main_v104 (F := F) x0 x1 x2 x4 x5 x6 x7 x8 x9 x10 x11 x12 x13) slices_S50000x192_S50000x64_0_128
def val_main_v113 : (⟨S50000x64, .f32⟩ : BufTy).Contents (Elt F) :=
  extractStridedSlice S50000x64 ![0, 0] (val_main_v109 (F := F) x0 x1 x2 x4 x5 x6 x7 x8 x9 x10 x11 x12 x13) slices_S50000x192_S50000x64_0_0
def val_main_v114 : (⟨S50000x64, .f32⟩ : BufTy).Contents (Elt F) :=
  extractStridedSlice S50000x64 ![0, 64] (val_main_v109 (F := F) x0 x1 x2 x4 x5 x6 x7 x8 x9 x10 x11 x12 x13) slices_S50000x192_S50000x64_0_64
def val_main_v115 : (⟨S50000x64, .f32⟩ : BufTy).Contents (Elt F) :=
  extractStridedSlice S50000x64 ![0, 128] (val_main_v109 (F := F) x0 x1 x2 x4 x5 x6 x7 x8 x9 x10 x11 x12 x13) slices_S50000x192_S50000x64_0_128
def val_main_v116 : (⟨S50000x64, .f32⟩ : BufTy).Contents (Elt F) :=
  addf (val_main_v110 (F := F) x0 x1 x2 x4 x5 x6 x7 x8 x9 x10 x11 x12 x13) (val_main_v113 (F := F) x0 x1 x2 x4 x5 x6 x7 x8 x9 x10 x11 x12 x13)
def val_main_v117 : (⟨S50000x64, .f32⟩ : BufTy).Contents (Elt F) :=
  Host.negf (val_main_v116 (F := F) x0 x1 x2 x4 x5 x6 x7 x8 x9 x10 x11 x12 x13)
def val_main_v118 : (⟨S50000x64, .f32⟩ : BufTy).Contents (Elt F) :=
  Host.exp (val_main_v117 (F := F) x0 x1 x2 x4 x5 x6 x7 x8 x9 x10 x11 x12 x13)
def val_main_cst_13 : (⟨S_, .f32⟩ : BufTy).Contents (Elt F) :=
  constant S_ .f32 0x3F800000#32
def val_main_v119 : (⟨S50000x64, .f32⟩ : BufTy).Contents (Elt F) :=
  broadcastInDim S50000x64 ![] bcast_S_S50000x64 (val_main_cst_13 (F := F))
def val_main_v120 : (⟨S50000x64, .f32⟩ : BufTy).Contents (Elt F) :=
  addf (val_main_v119 (F := F)) (val_main_v118 (F := F) x0 x1 x2 x4 x5 x6 x7 x8 x9 x10 x11 x12 x13)
def val_main_cst_14 : (⟨S_, .f32⟩ : BufTy).Contents (Elt F) :=
  constant S_ .f32 0x3F800000#32
def val_main_v121 : (⟨S50000x64, .f32⟩ : BufTy).Contents (Elt F) :=
  broadcastInDim S50000x64 ![] bcast_S_S50000x64 (val_main_cst_14 (F := F))
def val_main_v122 : (⟨S50000x64, .f32⟩ : BufTy).Contents (Elt F) :=
  Host.divf (val_main_v121 (F := F)) (val_main_v120 (F := F) x0 x1 x2 x4 x5 x6 x7 x8 x9 x10 x11 x12 x13)
def val_main_v123 : (⟨S50000x64, .f32⟩ : BufTy).Contents (Elt F) :=
  addf (val_main_v111 (F := F) x0 x1 x2 x4 x5 x6 x7 x8 x9 x10 x11 x12 x13) (val_main_v114 (F := F) x0 x1 x2 x4 x5 x6 x7 x8 x9 x10 x11 x12 x13)
def val_main_v124 : (⟨S50000x64, .f32⟩ : BufTy).Contents (Elt F) :=
  Host.negf (val_main_v123 (F := F) x0 x1 x2 x4 x5 x6 x7 x8 x9 x10 x11 x12 x13)
def val_main_v125 : (⟨S50000x64, .f32⟩ : BufTy).Contents (Elt F) :=
  Host.exp (val_main_v124 (F := F) x0 x1 x2 x4 x5 x6 x7 x8 x9 x10 x11 x12 x13)
def val_main_cst_15 : (⟨S_, .f32⟩ : BufTy).Contents (Elt F) :=
  constant S_ .f32 0x3F800000#32
def val_main_v126 : (⟨S50000x64, .f32⟩ : BufTy).Contents (Elt F) :=
  broadcastInDim S50000x64 ![] bcast_S_S50000x64 (val_main_cst_15 (F := F))
def val_main_v127 : (⟨S50000x64, .f32⟩ : BufTy).Contents (Elt F) :=
  addf (val_main_v126 (F := F)) (val_main_v125 (F := F) x0 x1 x2 x4 x5 x6 x7 x8 x9 x10 x11 x12 x13)
def val_main_cst_16 : (⟨S_, .f32⟩ : BufTy).Contents (Elt F) :=
  constant S_ .f32 0x3F800000#32
def val_main_v128 : (⟨S50000x64, .f32⟩ : BufTy).Contents (Elt F) :=
  broadcastInDim S50000x64 ![] bcast_S_S50000x64 (val_main_cst_16 (F := F))
def val_main_v129 : (⟨S50000x64, .f32⟩ : BufTy).Contents (Elt F) :=
  Host.divf (val_main_v128 (F := F)) (val_main_v127 (F := F) x0 x1 x2 x4 x5 x6 x7 x8 x9 x10 x11 x12 x13)
def val_main_v130 : (⟨S50000x64, .f32⟩ : BufTy).Contents (Elt F) :=
  mulf (val_main_v122 (F := F) x0 x1 x2 x4 x5 x6 x7 x8 x9 x10 x11 x12 x13) (val_main_v115 (F := F) x0 x1 x2 x4 x5 x6 x7 x8 x9 x10 x11 x12 x13)
def val_main_v131 : (⟨S50000x64, .f32⟩ : BufTy).Contents (Elt F) :=
  addf (val_main_v112 (F := F) x0 x1 x2 x4 x5 x6 x7 x8 x9 x10 x11 x12 x13) (val_main_v130 (F := F) x0 x1 x2 x4 x5 x6 x7 x8 x9 x10 x11 x12 x13)
def val_main_v132 : (⟨S50000x64, .f32⟩ : BufTy).Contents (Elt F) :=
  Host.tanh (val_main_v131 (F := F) x0 x1 x2 x4 x5 x6 x7 x8 x9 x10 x11 x12 x13)
def val_main_cst_17 : (⟨S_, .f32⟩ : BufTy).Contents (Elt F) :=
  constant S_ .f32 0x3F800000#32
def val_main_v133 : (⟨S50000x64, .f32⟩ : BufTy).Contents (Elt F) :=
  broadcastInDim S50000x64 ![] bcast_S_S50000x64 (val_main_cst_17 (F := F))
def val_main_v134 : (⟨S50000x64, .f32⟩ : BufTy).Contents (Elt F) :=
  subf (val_main_v133 (F := F)) (val_main_v129 (F := F) x0 x1 x2 x4 x5 x6 x7 x8 x9 x10 x11 x12 x13)
def val_main_v135 : (⟨S50000x64, .f32⟩ : BufTy).Contents (Elt F) :=
  mulf (val_main_v134 (F := F) x0 x1 x2 x4 x5 x6 x7 x8 x9 x10 x11 x12 x13) (val_main_v132 (F := F) x0 x1 x2 x4 x5 x6 x7 x8 x9 x10 x11 x12 x13)
def val_main_v136 : (⟨S50000x64, .f32⟩ : BufTy).Contents (Elt F) :=
  mulf (val_main_v129 (F := F) x0 x1 x2 x4 x5 x6 x7 x8 x9 x10 x11 x12 x13) (val_main_v72 (F := F) x0 x1 x2 x4 x5 x6 x7 x8 x9 x10 x11 x12 x13)
def val_main_v137 : (⟨S50000x64, .f32⟩ : BufTy).Contents (Elt F) :=
  addf (val_main_v135 (F := F) x0 x1 x2 x4 x5 x6 x7 x8 x9 x10 x11 x12 x13) (val_main_v136 (F := F) x0 x1 x2 x4 x5 x6 x7 x8 x9 x10 x11 x12 x13)
def val_main_c_18 : (⟨S_, .i32⟩ : BufTy).Contents (Elt F) :=
  constantI S_ 32 0#32
def val_main_v138 : (⟨S800000, .i32⟩ : BufTy).Contents (Elt F) :=
  broadcastInDim S800000 ![] bcast_S_S800000 (val_main_c_18 (F := F))
def val_main_v139 : (⟨S800000, .i1⟩ : BufTy).Contents (Elt F) :=
  cmpi .slt (val_main_v5 (F := F) x1) (val_main_v138 (F := F))
def val_main_c_19 : (⟨S_, .i32⟩ : BufTy).Contents (Elt F) :=
  constantI S_ 32 50000#32
def val_main_v140 : (⟨S800000, .i32⟩ : BufTy).Contents (Elt F) :=
  broadcastInDim S800000 ![] bcast_S_S800000 (val_main_c_19 (F := F))
def val_main_v141 : (⟨S800000, .i32⟩ : BufTy).Contents (Elt F) :=
  addi (val_main_v5 (F := F) x1) (val_main_v140 (F := F))
def val_main_v142 : (⟨S800000, .i32⟩ : BufTy).Contents (Elt F) :=
  select (val_main_v139 (F := F) x1) (val_main_v141 (F := F) x1) (val_main_v5 (F := F) x1)
def val_main_v143 : (⟨S800000x1, .i32⟩ : BufTy).Contents (Elt F) :=
  broadcastInDim S800000x1 ![0] bcast_S800000_S800000x1_0 (val_main_v142 (F := F) x1)
def val_main_v144 : (⟨S800000x64, .f32⟩ : BufTy).Contents (Elt F) :=
  Host.gather gather_S50000x64_S800000x1_S800000x64_1_0_n_n_0_1_164 (val_main_v137 (F := F) x0 x1 x2 x4 x5 x6 x7 x8 x9 x10 x11 x12 x13) (val_main_v143 (F := F) x1)
def val_main_c_20 : (⟨S_, .i32⟩ : BufTy).Contents (Elt F) :=
  constantI S_ 32 0#32
def val_main_v145 : (⟨S800000, .i32⟩ : BufTy).Contents (Elt F) :=
  broadcastInDim S800000 ![] bcast_S_S800000 (val_main_c_20 (F := F))
def val_main_v146 : (⟨S800000, .i1⟩ : BufTy).Contents (Elt F) :=
  cmpi .slt (val_main_v7 (F := F) x1) (val_main_v145 (F := F))
def val_main_c_21 : (⟨S_, .i32⟩ : BufTy).Contents (Elt F) :=
  constantI S_ 32 50000#32
def val_main_v147 : (⟨S800000, .i32⟩ : BufTy).Contents (Elt F) :=
  broadcastInDim S800000 ![] bcast_S_S800000 (val_main_c_21 (F := F))
def val_main_v148 : (⟨S800000, .i32⟩ : BufTy).Contents (Elt F) :=
  addi (val_main_v7 (F := F) x1) (val_main_v147 (F := F))
def val_main_v149 : (⟨S800000, .i32⟩ : BufTy).Contents (Elt F) :=
  select (val_main_v146 (F := F) x1) (val_main_v148 (F := F) x1) (val_main_v7 (F := F) x1)
def val_main_v150 : (⟨S800000x1, .i32⟩ : BufTy).Contents (Elt F) :=
  broadcastInDim S800000x1 ![0] bcast_S800000_S800000x1_0 (val_main_v149 (F := F) x1)
def val_main_v151 : (⟨S800000x64, .f32⟩ : BufTy).Contents (Elt F) :=
  Host.gather gather_S50000x64_S800000x1_S800000x64_1_0_n_n_0_1_164 (val_main_v137 (F := F) x0 x1 x2 x4 x5 x6 x7 x8 x9 x10 x11 x12 x13) (val_main_v150 (F := F) x1)
def val_main_v152 : (⟨S800000x144, .f32⟩ : BufTy).Contents (Elt F) :=
  concatenate S800000x144 1 [⟨S800000x64, (val_main_v144 (F := F) x0 x1 x2 x4 x5 x6 x7 x8 x9 x10 x11 x12 x13)⟩, ⟨S800000x64, (val_main_v151 (F := F) x0 x1 x2 x4 x5 x6 x7 x8 x9 x10 x11 x12 x13)⟩, ⟨S800000x16, (x2)⟩] concatenates_S800000x64_S800000x64_S800000x16_S800000x144_d1
def val_main_v153 : (⟨S800000x64, .f32⟩ : BufTy).Contents (Elt F) :=
  Host.dotGeneral dot_S800000x144_S144x64_S800000x64_1_0_0_1_n_n none (val_main_v152 (F := F) x0 x1 x2 x4 x5 x6 x7 x8 x9 x10 x11 x12 x13) (x6)
def val_main_v154 : (⟨S1x64, .f32⟩ : BufTy).Contents (Elt F) :=
  broadcastInDim S1x64 ![1] bcast_S64_S1x64_1 (x7)
def val_main_v155 : (⟨S800000x64, .f32⟩ : BufTy).Contents (Elt F) :=
  broadcastInDim S800000x64 ![0, 1] bcast_S1x64_S800000x64_0_1 (val_main_v154 (F := F) x7)
def val_main_v156 : (⟨S800000x64, .f32⟩ : BufTy).Contents (Elt F) :=
  addf (val_main_v153 (F := F) x0 x1 x2 x4 x5 x6 x7 x8 x9 x10 x11 x12 x13) (val_main_v155 (F := F) x7)
def val_main_call2_cst : (⟨S_, .f32⟩ : BufTy).Contents (Elt F) :=
  constant S_ .f32 0x00000000#32
def val_main_call2_v0 : (⟨S800000x64, .f32⟩ : BufTy).Contents (Elt F) :=
  broadcastInDim S800000x64 ![] bcast_S_S800000x64 (val_main_call2_cst (F := F))
def val_main_v157 : (⟨S800000x64, .f32⟩ : BufTy).Contents (Elt F) :=
  maximumf (val_main_v156 (F := F) x0 x1 x2 x4 x5 x6 x7 x8 x9 x10 x11 x12 x13) (val_main_call2_v0 (F := F))
def val_main_v158 : (⟨S800000x64, .f32⟩ : BufTy).Contents (Elt F) :=
  Host.dotGeneral dot_S800000x64_S64x64_S800000x64_1_0_0_1_n_n none (val_main_v157 (F := F) x0 x1 x2 x4 x5 x6 x7 x8 x9 x10 x11 x12 x13) (x8)
def val_main_v159 : (⟨S1x64, .f32⟩ : BufTy).Contents (Elt F) :=
  broadcastInDim S1x64 ![1] bcast_S64_S1x64_1 (x9)
def val_main_v160 : (⟨S800000x64, .f32⟩ : BufTy).Contents (Elt F) :=
  broadcastInDim S800000x64 ![0, 1] bcast_S1x64_S800000x64_0_1 (val_main_v159 (F := F) x9)
def val_main_v161 : (⟨S800000x64, .f32⟩ : BufTy).Contents (Elt F) :=
  addf (val_main_v158 (F := F) x0 x1 x2 x4 x5 x6 x7 x8 x9 x10 x11 x12 x13) (val_main_v160 (F := F) x9)
def val_main_cst_22 : (⟨S_, .f32⟩ : BufTy).Contents (Elt F) :=
  constant S_ .f32 0x00000000#32
def val_main_v162 : (⟨S50000x64, .f32⟩ : BufTy).Contents (Elt F) :=
  broadcastInDim S50000x64 ![] bcast_S_S50000x64 (val_main_cst_22 (F := F))
def val_main_v163 : (⟨S800000x1, .i32⟩ : BufTy).Contents (Elt F) :=
  broadcastInDim S800000x1 ![0] bcast_S800000_S800000x1_0 (val_main_v7 (F := F) x1)
def val_main_v164 : (⟨S50000x64, .f32⟩ : BufTy).Contents (Elt F) :=
  Host.scatterAdd scatter_S50000x64_S800000x1_S800000x64_1_0_0_1 (val_main_v162 (F := F)) (val_main_v163 (F := F) x1) (val_main_v161 (F := F) x0 x1 x2 x4 x5 x6 x7 x8 x9 x10 x11 x12 x13)
def val_main_v165 : (⟨S64x192, .f32⟩ : BufTy).Contents (Elt F) :=
  transpose S64x192 [1, 0] (x10) transposes_S192x64_S64x192_1_0
def val_main_v166 : (⟨S50000x192, .f32⟩ : BufTy).Contents (Elt F) :=
  Host.dotGeneral dot_S50000x64_S64x192_S50000x192_1_0_0_1_n_n none (val_main_v164 (F := F) x0 x1 x2 x4 x5 x6 x7 x8 x9 x10 x11 x12 x13) (val_main_v165 (F := F) x10)
def val_main_v167 : (⟨S1x192, .f32⟩ : BufTy).Contents (Elt F) :=
  broadcastInDim S1x192 ![1] bcast_S192_S1x192_1 (x11)
def val_main_v168 : (⟨S50000x192, .f32⟩ : BufTy).Contents (Elt F) :=
  broadcastInDim S50000x192 ![0, 1] bcast_S1x192_S50000x192_0_1 (val_main_v167 (F := F) x11)
def val_main_v169 : (⟨S50000x192, .f32⟩ : BufTy).Contents (Elt F) :=
  addf (val_main_v166 (F := F) x0 x1 x2 x4 x5 x6 x7 x8 x9 x10 x11 x12 x13) (val_main_v168 (F := F) x11)
def val_main_v170 : (⟨S64x192, .f32⟩ : BufTy).Contents (Elt F) :=
  transpose S64x192 [1, 0] (x12) transposes_S192x64_S64x192_1_0
def val_main_v171 : (⟨S50000x192, .f32⟩ : BufTy).Contents (Elt F) :=
  Host.dotGeneral dot_S50000x64_S64x192_S50000x192_1_0_0_1_n_n none (val_main_v137 (F := F) x0 x1 x2 x4 x5 x6 x7 x8 x9 x10 x11 x12 x13) (val_main_v170 (F := F) x12)
def val_main_v172 : (⟨S1x192, .f32⟩ : BufTy).Contents (Elt F) :=
  broadcastInDim S1x192 ![1] bcast_S192_S1x192_1 (x13)
def val_main_v173 : (⟨S50000x192, .f32⟩ : BufTy).Contents (Elt F) :=
  broadcastInDim S50000x192 ![0, 1] bcast_S1x192_S50000x192_0_1 (val_main_v172 (F := F) x13)
def val_main_v174 : (⟨S50000x192, .f32⟩ : BufTy).Contents (Elt F) :=
  addf (val_main_v171 (F := F) x0 x1 x2 x4 x5 x6 x7 x8 x9 x10 x11 x12 x13) (val_main_v173 (F := F) x13)
def val_main_v175 : (⟨S50000x64, .f32⟩ : BufTy).Contents (Elt F) :=
  extractStridedSlice S50000x64 ![0, 0] (val_main_v169 (F := F) x0 x1 x2 x4 x5 x6 x7 x8 x9 x10 x11 x12 x13) slices_S50000x192_S50000x64_0_0
def val_main_v176 : (⟨S50000x64, .f32⟩ : BufTy).Contents (Elt F) :=
  extractStridedSlice S50000x64 ![0, 64] (val_main_v169 (F := F) x0 x1 x2 x4 x5 x6 x7 x8 x9 x10 x11 x12 x13) slices_S50000x192_S50000x64_0_64
def val_main_v177 : (⟨S50000x64, .f32⟩ : BufTy).Contents (Elt F) :=
  extractStridedSlice S50000x64 ![0, 128] (val_main_v169 (F := F) x0 x1 x2 x4 x5 x6 x7 x8 x9 x10 x11 x12 x13) slices_S50000x192_S50000x64_0_128
def val_main_v178 : (⟨S50000x64, .f32⟩ : BufTy).Contents (Elt F) :=
  extractStridedSlice S50000x64 ![0, 0] (val_main_v174 (F := F) x0 x1 x2 x4 x5 x6 x7 x8 x9 x10 x11 x12 x13) slices_S50000x192_S50000x64_0_0
def val_main_v179 : (⟨S50000x64, .f32⟩ : BufTy).Contents (Elt F) :=
  extractStridedSlice S50000x64 ![0, 64] (val_main_v174 (F := F) x0 x1 x2 x4 x5 x6 x7 x8 x9 x10 x11 x12 x13) slices_S50000x192_S50000x64_0_64
def val_main_v180 : (⟨S50000x64, .f32⟩ : BufTy).Contents (Elt F) :=
  extractStridedSlice S50000x64 ![0, 128] (val_main_v174 (F := F) x0 x1 x2 x4 x5 x6 x7 x8 x9 x10 x11 x12 x13) slices_S50000x192_S50000x64_0_128
def val_main_v181 : (⟨S50000x64, .f32⟩ : BufTy).Contents (Elt F) :=
  addf (val_main_v175 (F := F) x0 x1 x2 x4 x5 x6 x7 x8 x9 x10 x11 x12 x13) (val_main_v178 (F := F) x0 x1 x2 x4 x5 x6 x7 x8 x9 x10 x11 x12 x13)
def val_main_v182 : (⟨S50000x64, .f32⟩ : BufTy).Contents (Elt F) :=
  Host.negf (val_main_v181 (F := F) x0 x1 x2 x4 x5 x6 x7 x8 x9 x10 x11 x12 x13)
def val_main_v183 : (⟨S50000x64, .f32⟩ : BufTy).Contents (Elt F) :=
  Host.exp (val_main_v182 (F := F) x0 x1 x2 x4 x5 x6 x7 x8 x9 x10 x11 x12 x13)
def val_main_cst_23 : (⟨S_, .f32⟩ : BufTy).Contents (Elt F) :=
  constant S_ .f32 0x3F800000#32
def val_main_v184 : (⟨S50000x64, .f32⟩ : BufTy).Contents (Elt F) :=
  broadcastInDim S50000x64 ![] bcast_S_S50000x64 (val_main_cst_23 (F := F))
def val_main_v185 : (⟨S50000x64, .f32⟩ : BufTy).Contents (Elt F) :=
  addf (val_main_v184 (F := F)) (val_main_v183 (F := F) x0 x1 x2 x4 x5 x6 x7 x8 x9 x10 x11 x12 x13)
def val_main_cst_24 : (⟨S_, .f32⟩ : BufTy).Contents (Elt F) :=
  constant S_ .f32 0x3F800000#32
def val_main_v186 : (⟨S50000x64, .f32⟩ : BufTy).Contents (Elt F) :=
  broadcastInDim S50000x64 ![] bcast_S_S50000x64 (val_main_cst_24 (F := F))
def val_main_v187 : (⟨S50000x64, .f32⟩ : BufTy).Contents (Elt F) :=
  Host.divf (val_main_v186 (F := F)) (val_main_v185 (F := F) x0 x1 x2 x4 x5 x6 x7 x8 x9 x10 x11 x12 x13)
def val_main_v188 : (⟨S50000x64, .f32⟩ : BufTy).Contents (Elt F) :=
  addf (val_main_v176 (F := F) x0 x1 x2 x4 x5 x6 x7 x8 x9 x10 x11 x12 x13) (val_main_v179 (F := F) x0 x1 x2 x4 x5 x6 x7 x8 x9 x10 x11 x12 x13)
def val_main_v189 : (⟨S50000x64, .f32⟩ : BufTy).Contents (Elt F) :=
  Host.negf (val_main_v188 (F := F) x0 x1 x2 x4 x5 x6 x7 x8 x9 x10 x11 x12 x13)
def val_main_v190 : (⟨S50000x64, .f32⟩ : BufTy).Contents (Elt F) :=
  Host.exp (val_main_v189 (F := F) x0 x1 x2 x4 x5 x6 x7 x8 x9 x10 x11 x12 x13)
def val_main_cst_25 : (⟨S_, .f32⟩ : BufTy).Contents (Elt F) :=
  constant S_ .f32 0x3F800000#32
def val_main_v191 : (⟨S50000x64, .f32⟩ : BufTy).Contents (Elt F) :=
  broadcastInDim S50000x64 ![] bcast_S_S50000x64 (val_main_cst_25 (F := F))
def val_main_v192 : (⟨S50000x64, .f32⟩ : BufTy).Contents (Elt F) :=
  addf (val_main_v191 (F := F)) (val_main_v190 (F := F) x0 x1 x2 x4 x5 x6 x7 x8 x9 x10 x11 x12 x13)
def val_main_cst_26 : (⟨S_, .f32⟩ : BufTy).Contents (Elt F) :=
  constant S_ .f32 0x3F800000#32
def val_main_v193 : (⟨S50000x64, .f32⟩ : BufTy).Contents (Elt F) :=
  broadcastInDim S50000x64 ![] bcast_S_S50000x64 (val_main_cst_26 (F := F))
def val_main_v194 : (⟨S50000x64, .f32⟩ : BufTy).Contents (Elt F) :=
  Host.divf (val_main_v193 (F := F)) (val_main_v192 (F := F) x0 x1 x2 x4 x5 x6 x7 x8 x9 x10 x11 x12 x13)
def val_main_v195 : (⟨S50000x64, .f32⟩ : BufTy).Contents (Elt F) :=
  mulf (val_main_v187 (F := F) x0 x1 x2 x4 x5 x6 x7 x8 x9 x10 x11 x12 x13) (val_main_v180 (F := F) x0 x1 x2 x4 x5 x6 x7 x8 x9 x10 x11 x12 x13)
def val_main_v196 : (⟨S50000x64, .f32⟩ : BufTy).Contents (Elt F) :=
  addf (val_main_v177 (F := F) x0 x1 x2 x4 x5 x6 x7 x8 x9 x10 x11 x12 x13) (val_main_v195 (F := F) x0 x1 x2 x4 x5 x6 x7 x8 x9 x10 x11 x12 x13)
def val_main_v197 : (⟨S50000x64, .f32⟩ : BufTy).Contents (Elt F) :=
  Host.tanh (val_main_v196 (F := F) x0 x1 x2 x4 x5 x6 x7 x8 x9 x10 x11 x12 x13)
def val_main_cst_27 : (⟨S_, .f32⟩ : BufTy).Contents (Elt F) :=
  constant S_ .f32 0x3F800000#32
def val_main_v198 : (⟨S50000x64, .f32⟩ : BufTy).Contents (Elt F) :=
  broadcastInDim S50000x64 ![] bcast_S_S50000x64 (val_main_cst_27 (F := F))
def val_main_v199 : (⟨S50000x64, .f32⟩ : BufTy).Contents (Elt F) :=
  subf (val_main_v198 (F := F)) (val_main_v194 (F := F) x0 x1 x2 x4 x5 x6 x7 x8 x9 x10 x11 x12 x13)
def val_main_v200 : (⟨S50000x64, .f32⟩ : BufTy).Contents (Elt F) :=
  mulf (val_main_v199 (F := F) x0 x1 x2 x4 x5 x6 x7 x8 x9 x10 x11 x12 x13) (val_main_v197 (F := F) x0 x1 x2 x4 x5 x6 x7 x8 x9 x10 x11 x12 x13)
def val_main_v201 : (⟨S50000x64, .f32⟩ : BufTy).Contents (Elt F) :=
  mulf (val_main_v194 (F := F) x0 x1 x2 x4 x5 x6 x7 x8 x9 x10 x11 x12 x13) (val_main_v137 (F := F) x0 x1 x2 x4 x5 x6 x7 x8 x9 x10 x11 x12 x13)
def val_main_v202 : (⟨S50000x64, .f32⟩ : BufTy).Contents (Elt F) :=
  addf (val_main_v200 (F := F) x0 x1 x2 x4 x5 x6 x7 x8 x9 x10 x11 x12 x13) (val_main_v201 (F := F) x0 x1 x2 x4 x5 x6 x7 x8 x9 x10 x11 x12 x13)
def val_main_cst_28 : (⟨S_, .f32⟩ : BufTy).Contents (Elt F) :=
  constant S_ .f32 0x00000000#32
def val_main_v203 : (⟨S256x64, .f32⟩ : BufTy).Contents (Elt F) :=
  broadcastInDim S256x64 ![] bcast_S_S256x64 (val_main_cst_28 (F := F))
def val_main_v204 : (⟨S50000x1, .i32⟩ : BufTy).Contents (Elt F) :=
  broadcastInDim S50000x1 ![0] bcast_S50000_S50000x1_0 (x3)
def val_main_v205 : (⟨S256x64, .f32⟩ : BufTy).Contents (Elt F) :=
  Host.scatterAdd scatter_S256x64_S50000x1_S50000x64_1_0_0_1 (val_main_v203 (F := F)) (val_main_v204 (F := F) x3) (val_main_v202 (F := F) x0 x1 x2 x4 x5 x6 x7 x8 x9 x10 x11 x12 x13)
def val_main_cst_29 : (⟨S_, .f32⟩ : BufTy).Contents (Elt F) :=
  constant S_ .f32 0x3F800000#32
def val_main_v206 : (⟨S50000, .f32⟩ : BufTy).Contents (Elt F) :=
  broadcastInDim S50000 ![] bcast_S_S50000 (val_main_cst_29 (F := F))
def val_main_cst_30 : (⟨S_, .f32⟩ : BufTy).Contents (Elt F) :=
  constant S_ .f32 0x00000000#32
def val_main_v207 : (⟨S256, .f32⟩ : BufTy).Contents (Elt F) :=
  broadcastInDim S256 ![] bcast_S_S256 (val_main_cst_30 (F := F))
def val_main_v208 : (⟨S50000x1, .i32⟩ : BufTy).Contents (Elt F) :=
  broadcastInDim S50000x1 ![0] bcast_S50000_S50000x1_0 (x3)
def val_main_v209 : (⟨S256, .f32⟩ : BufTy).Contents (Elt F) :=
  Host.scatterAdd scatter_S256_S50000x1_S50000_n_0_0_1 (val_main_v207 (F := F)) (val_main_v208 (F := F) x3) (val_main_v206 (F := F))
def val_main_cst_31 : (⟨S_, .f32⟩ : BufTy).Contents (Elt F) :=
  constant S_ .f32 0x3F800000#32
def val_main_v210 : (⟨S256, .f32⟩ : BufTy).Contents (Elt F) :=
  broadcastInDim S256 ![] bcast_S_S256 (val_main_cst_31 (F := F))
def val_main_v211 : (⟨S256, .f32⟩ : BufTy).Contents (Elt F) :=
  maximumf (val_main_v209 (F := F) x3) (val_main_v210 (F := F))
def val_main_v212 : (⟨S256x1, .f32⟩ : BufTy).Contents (Elt F) :=
  broadcastInDim S256x1 ![0] bcast_S256_S256x1_0 (val_main_v211 (F := F) x3)
def val_main_v213 : (⟨S256x64, .f32⟩ : BufTy).Contents (Elt F) :=
  broadcastInDim S256x64 ![0, 1] bcast_S256x1_S256x64_0_1 (val_main_v212 (F := F) x3)
def val_main_v214 : (⟨S256x64, .f32⟩ : BufTy).Contents (Elt F) :=
  Host.divf (val_main_v205 (F := F) x0 x1 x2 x3 x4 x5 x6 x7 x8 x9 x10 x11 x12 x13) (val_main_v213 (F := F) x3)
def val_main_v215 : (⟨S256x128, .f32⟩ : BufTy).Contents (Elt F) :=
  concatenate S256x128 1 [⟨S256x64, (val_main_v205 (F := F) x0 x1 x2 x3 x4 x5 x6 x7 x8 x9 x10 x11 x12 x13)⟩, ⟨S256x64, (val_main_v214 (F := F) x0 x1 x2 x3 x4 x5 x6 x7 x8 x9 x10 x11 x12 x13)⟩] concatenates_S256x64_S256x64_S256x128_d1
def val_main_v216 : (⟨S256x64, .f32⟩ : BufTy).Contents (Elt F) :=
  Host.dotGeneral dot_S256x128_S128x64_S256x64_1_0_0_1_n_n none (val_main_v215 (F := F) x0 x1 x2 x3 x4 x5 x6 x7 x8 x9 x10 x11 x12 x13) (x14)
def val_main_v217 : (⟨S1x64, .f32⟩ : BufTy).Contents (Elt F) :=
  broadcastInDim S1x64 ![1] bcast_S64_S1x64_1 (x15)
def val_main_v218 : (⟨S256x64, .f32⟩ : BufTy).Contents (Elt F) :=
  broadcastInDim S256x64 ![0, 1] bcast_S1x64_S256x64_0_1 (val_main_v217 (F := F) x15)
def val_main_v219 : (⟨S256x64, .f32⟩ : BufTy).Contents (Elt F) :=
  addf (val_main_v216 (F := F) x0 x1 x2 x3 x4 x5 x6 x7 x8 x9 x10 x11 x12 x13 x14) (val_main_v218 (F := F) x15)
def val_main_call3_cst : (⟨S_, .f32⟩ : BufTy).Contents (Elt F) :=
  constant S_ .f32 0x00000000#32
def val_main_call3_v0 : (⟨S256x64, .f32⟩ : BufTy).Contents (Elt F) :=
  broadcastInDim S256x64 ![] bcast_S_S256x64 (val_main_call3_cst (F := F))
def val_main_v220 : (⟨S256x64, .f32⟩ : BufTy).Contents (Elt F) :=
  maximumf (val_main_v219 (F := F) x0 x1 x2 x3 x4 x5 x6 x7 x8 x9 x10 x11 x12 x13 x14 x15) (val_main_call3_v0 (F := F))
def val_main_v221 : (⟨S256x1, .f32⟩ : BufTy).Contents (Elt F) :=
  Host.dotGeneral dot_S256x64_S64x1_S256x1_1_0_0_1_n_n none (val_main_v220 (F := F) x0 x1 x2 x3 x4 x5 x6 x7 x8 x9 x10 x11 x12 x13 x14 x15) (x16)
def val_main_v222 : (⟨S1x1, .f32⟩ : BufTy).Contents (Elt F) :=
  broadcastInDim S1x1 ![1] bcast_S1_S1x1_1 (x17)
def val_main_v223 : (⟨S256x1, .f32⟩ : BufTy).Contents (Elt F) :=
  broadcastInDim S256x1 ![0, 1] bcast_S1x1_S256x1_0_1 (val_main_v222 (F := F) x17)
def val_main_v224 : (⟨S256x1, .f32⟩ : BufTy).Contents (Elt F) :=
  addf (val_main_v221 (F := F) x0 x1 x2 x3 x4 x5 x6 x7 x8 x9 x10 x11 x12 x13 x14 x15 x16) (val_main_v223 (F := F) x17)
end Cert.ReferenceIdeal.ReadP
end
-- ==== Proof.RefC0.lean ====
import proofs.«423451_j81475529605767_1_alg».proof.Proof.ReadP
import Idealize.ShloMosaic.Lib.StableHlo.Run

noncomputable section

namespace Cert.ReferenceIdeal.RefC0

open Cert.ReferenceIdeal Cert.ReferenceIdeal.Gen Idealize.ShloMosaic Idealize.ShloMosaic.TcCoe Idealize.SL.Sem Idealize.ShloMosaic.StableHlo

variable {F : FTy → Type} [FloatOps F]

abbrev c0 : List (HloOp τ sig (Elt F)) :=
  [ binary main_arg0 main_arg4 main_v0 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    unary main_arg5 main_v1 (broadcastInDim S1x64 ![1] bcast_S64_S1x64_1 : (⟨S64, .f32⟩ : BufTy).Contents (Elt F) → (⟨S1x64, .f32⟩ : BufTy).Contents (Elt F)),
    unary main_v1 main_v2 (broadcastInDim S50000x64 ![0, 1] bcast_S1x64_S50000x64_0_1 : (⟨S1x64, .f32⟩ : BufTy).Contents (Elt F) → (⟨S50000x64, .f32⟩ : BufTy).Contents (Elt F)),
    binary main_v0 main_v2 main_v3 (addf : (⟨S50000x64, .f32⟩ : BufTy).Contents (Elt F) → (⟨S50000x64, .f32⟩ : BufTy).Contents (Elt F) → (⟨S50000x64, .f32⟩ : BufTy).Contents (Elt F)),
    unary main_arg1 main_v4 ((extractStridedSlice S1x800000 ![0, 0] · slices_S2x800000_S1x800000_0_0) : (⟨S2x800000, .i32⟩ : BufTy).Contents (Elt F) → (⟨S1x800000, .i32⟩ : BufTy).Contents (Elt F)),
    reshape main_v4 main_v5 rfl shapeCasts_S1x800000_S800000,
    unary main_arg1 main_v6 ((extractStridedSlice S1x800000 ![1, 0] · slices_S2x800000_S1x800000_1_0) : (⟨S2x800000, .i32⟩ : BufTy).Contents (Elt F) → (⟨S1x800000, .i32⟩ : BufTy).Contents (Elt F)),
    reshape main_v6 main_v7 rfl shapeCasts_S1x800000_S800000 ]

abbrev w0 : List (Ref sig .tc) := [main_v0, main_v1, main_v2, main_v3, main_v4, main_v5, main_v6, main_v7]

theorem c0_writes : (c0 : List (HloOp τ sig (Elt F))).Forall fun op => op.writes ⊆ (w0.map (Proc.devRef (τ := τ) .tc)).toFinset := by
  simp only [c0, List.Forall, unary_writes, binary_writes, reshape_writes, Finset.singleton_subset_iff]
  repeat' apply And.intro
  all_goals exact List.mem_toFinset.mpr (List.mem_map.mpr ⟨_, by decide, rfl⟩)

section
variable (W : Valuation τ sig (Elt Ideal)) (x0 : (⟨S50000x32, .f32⟩ : BufTy).Contents (Elt Ideal)) (x1 : (⟨S2x800000, .i32⟩ : BufTy).Contents (Elt Ideal)) (x4 : (⟨S32x64, .f32⟩ : BufTy).Contents (Elt Ideal)) (x5 : (⟨S64, .f32⟩ : BufTy).Contents (Elt Ideal))

theorem v3 (ha0 : W (Proc.devRef .tc main_arg0) = x0) (ha4 : W (Proc.devRef .tc main_arg4) = x4) (ha5 : W (Proc.devRef .tc main_arg5) = x5) :
    after c0 W (Proc.devRef .tc main_v3) = ReadP.val_main_v3 (F := Ideal) x0 x4 x5 := by
  after_results_simp
  rw [ha0, ha4, ha5]
  rfl

theorem v5 (ha1 : W (Proc.devRef .tc main_arg1) = x1) : after c0 W (Proc.devRef .tc main_v5) = ReadP.val_main_v5 (F := Ideal) x1 := by
  after_results_simp
  rw [ha1]
  rfl

theorem v7 (ha1 : W (Proc.devRef .tc main_arg1) = x1) : after c0 W (Proc.devRef .tc main_v7) = ReadP.val_main_v7 (F := Ideal) x1 := by
  after_results_simp
  rw [ha1]
  rfl
end

end Cert.ReferenceIdeal.RefC0

end
-- ==== Proof.RefC1.lean ====
import proofs.«423451_j81475529605767_1_alg».proof.Proof.ReadP

noncomputable section

namespace Cert.ReferenceIdeal.RefC1

open Cert.ReferenceIdeal Cert.ReferenceIdeal.Gen Idealize.ShloMosaic Idealize.ShloMosaic.TcCoe Idealize.SL.Sem Idealize.ShloMosaic.StableHlo

variable {F : FTy → Type} [FloatOps F]

abbrev c1a : List (HloOp τ sig (Elt F)) :=
  [ nullary main_c (constantI S_ 32 0#32),
    unary main_c main_v8 (broadcastInDim S800000 ![] bcast_S_S800000 : (⟨S_, .i32⟩ : BufTy).Contents (Elt F) → (⟨S800000, .i32⟩ : BufTy).Contents (Elt F)),
    binary main_v5 main_v8 main_v9 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v10 (broadcastInDim S800000 ![] bcast_S_S800000 : (⟨S_, .i32⟩ : BufTy).Contents (Elt F) → (⟨S800000, .i32⟩ : BufTy).Contents (Elt F)),
    binary main_v5 main_v10 main_v11 (addi : (⟨S800000, .i32⟩ : BufTy).Contents (Elt F) → (⟨S800000, .i32⟩ : BufTy).Contents (Elt F) → (⟨S800000, .i32⟩ : BufTy).Contents (Elt F)),
    ternary main_v9 main_v11 main_v5 main_v12 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v12 main_v13 (broadcastInDim S800000x1 ![0] bcast_S800000_S800000x1_0 : (⟨S800000, .i32⟩ : BufTy).Contents (Elt F) → (⟨S800000x1, .i32⟩ : BufTy).Contents (Elt F)),
    binary main_v3 main_v13 main_v14 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_1 (constantI S_ 32 0#32),
    unary main_c_1 main_v15 (broadcastInDim S800000 ![] bcast_S_S800000 : (⟨S_, .i32⟩ : BufTy).Contents (Elt F) → (⟨S800000, .i32⟩ : BufTy).Contents (Elt F)),
    binary main_v7 main_v15 main_v16 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v17 (broadcastInDim S800000 ![] bcast_S_S800000 : (⟨S_, .i32⟩ : BufTy).Contents (Elt F) → (⟨S800000, .i32⟩ : BufTy).Contents (Elt F)),
    binary main_v7 main_v17 main_v18 (addi : (⟨S800000, .i32⟩ : BufTy).Contents (Elt F) → (⟨S800000, .i32⟩ : BufTy).Contents (Elt F) → (⟨S800000, .i32⟩ : BufTy).Contents (Elt F)),
    ternary main_v16 main_v18 main_v7 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v19 main_v20 (broadcastInDim S800000x1 ![0] bcast_S800000_S800000x1_0 : (⟨S800000, .i32⟩ : BufTy).Contents (Elt F) → (⟨S800000x1, .i32⟩ : BufTy).Contents (Elt F)),
    binary main_v3 main_v20 main_v21 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

abbrev c1b : List (HloOp τ sig (Elt F)) :=
  [ nary ![main_v14, main_v21, main_arg2] main_v22 (fun u => concatenate S800000x144 1 [⟨S800000x64, u 0⟩, ⟨S800000x64, u 1⟩, ⟨S800000x16, u 2⟩] concatenates_S800000x64_S800000x64_S800000x16_S800000x144_d1),
    binary main_v22 main_arg6 main_v23 ((fun l r => Host.dotGeneral dot_S800000x144_S144x64_S800000x64_1_0_0_1_n_n none l r) : (⟨S800000x144, .f32⟩ : BufTy).Contents (Elt F) → (⟨S144x64, .f32⟩ : BufTy).Contents (Elt F) → (⟨S800000x64, .f32⟩ : BufTy).Contents (Elt F)),
    unary main_arg7 main_v24 (broadcastInDim S1x64 ![1] bcast_S64_S1x64_1 : (⟨S64, .f32⟩ : BufTy).Contents (Elt F) → (⟨S1x64, .f32⟩ : BufTy).Contents (Elt F)),
    unary main_v24 main_v25 (broadcastInDim S800000x64 ![0, 1] bcast_S1x64_S800000x64_0_1 : (⟨S1x64, .f32⟩ : BufTy).Contents (Elt F) → (⟨S800000x64, .f32⟩ : BufTy).Contents (Elt F)),
    binary main_v23 main_v25 main_v26 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x64, .f32⟩) main_call0_v0) (broadcastInDim S800000x64 ![] bcast_S_S800000x64),
    TRef.binary (TRef.of (T := ⟨S800000x64, .f32⟩) main_v26) (TRef.of (T := ⟨S800000x64, .f32⟩) main_call0_v0) (TRef.of (T := ⟨S800000x64, .f32⟩) main_v27) maximumf,
    binary main_v27 main_arg8 main_v28 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg9 main_v29 (broadcastInDim S1x64 ![1] bcast_S64_S1x64_1 : (⟨S64, .f32⟩ : BufTy).Contents (Elt F) → (⟨S1x64, .f32⟩ : BufTy).Contents (Elt F)),
    unary main_v29 main_v30 (broadcastInDim S800000x64 ![0, 1] bcast_S1x64_S800000x64_0_1 : (⟨S1x64, .f32⟩ : BufTy).Contents (Elt F) → (⟨S800000x64, .f32⟩ : BufTy).Contents (Elt F)),
    binary main_v28 main_v30 main_v31 (addf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    unary main_cst main_v32 (broadcastInDim S50000x64 ![] bcast_S_S50000x64 : (⟨S_, .f32⟩ : BufTy).Contents (Elt F) → (⟨S50000x64, .f32⟩ : BufTy).Contents (Elt F)),
    unary main_v7 main_v33 (broadcastInDim S800000x1 ![0] bcast_S800000_S800000x1_0 : (⟨S800000, .i32⟩ : BufTy).Contents (Elt F) → (⟨S800000x1, .i32⟩ : BufTy).Contents (Elt F)),
    ternary main_v32 main_v33 main_v31 main_v34 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

abbrev c1c : List (HloOp τ sig (Elt F)) :=
  [ unary main_arg10 main_v35 ((transpose S64x192 [1, 0] · transposes_S192x64_S64x192_1_0) : (⟨S192x64, .f32⟩ : BufTy).Contents (Elt F) → (⟨S64x192, .f32⟩ : BufTy).Contents (Elt F)),
    binary main_v34 main_v35 main_v36 ((fun l r => Host.dotGeneral dot_S50000x64_S64x192_S50000x192_1_0_0_1_n_n none l r) : (⟨S50000x64, .f32⟩ : BufTy).Contents (Elt F) → (⟨S64x192, .f32⟩ : BufTy).Contents (Elt F) → (⟨S50000x192, .f32⟩ : BufTy).Contents (Elt F)),
    unary main_arg11 main_v37 (broadcastInDim S1x192 ![1] bcast_S192_S1x192_1 : (⟨S192, .f32⟩ : BufTy).Contents (Elt F) → (⟨S1x192, .f32⟩ : BufTy).Contents (Elt F)),
    unary main_v37 main_v38 (broadcastInDim S50000x192 ![0, 1] bcast_S1x192_S50000x192_0_1 : (⟨S1x192, .f32⟩ : BufTy).Contents (Elt F) → (⟨S50000x192, .f32⟩ : BufTy).Contents (Elt F)),
    binary main_v36 main_v38 main_v39 (addf : (⟨S50000x192, .f32⟩ : BufTy).Contents (Elt F) → (⟨S50000x192, .f32⟩ : BufTy).Contents (Elt F) → (⟨S50000x192, .f32⟩ : BufTy).Contents (Elt F)),
    unary main_arg12 main_v40 ((transpose S64x192 [1, 0] · transposes_S192x64_S64x192_1_0) : (⟨S192x64, .f32⟩ : BufTy).Contents (Elt F) → (⟨S64x192, .f32⟩ : BufTy).Contents (Elt F)),
    binary main_v3 main_v40 main_v41 ((fun l r => Host.dotGeneral dot_S50000x64_S64x192_S50000x192_1_0_0_1_n_n none l r) : (⟨S50000x64, .f32⟩ : BufTy).Contents (Elt F) → (⟨S64x192, .f32⟩ : BufTy).Contents (Elt F) → (⟨S50000x192, .f32⟩ : BufTy).Contents (Elt F)),
    unary main_arg13 main_v42 (broadcastInDim S1x192 ![1] bcast_S192_S1x192_1 : (⟨S192, .f32⟩ : BufTy).Contents (Elt F) → (⟨S1x192, .f32⟩ : BufTy).Contents (Elt F)),
    unary main_v42 main_v43 (broadcastInDim S50000x192 ![0, 1] bcast_S1x192_S50000x192_0_1 : (⟨S1x192, .f32⟩ : BufTy).Contents (Elt F) → (⟨S50000x192, .f32⟩ : BufTy).Contents (Elt F)),
    binary main_v41 main_v43 main_v44 (addf : (⟨S50000x192, .f32⟩ : BufTy).Contents (Elt F) → (⟨S50000x192, .f32⟩ : BufTy).Contents (Elt F) → (⟨S50000x192, .f32⟩ : BufTy).Contents (Elt F)),
    unary main_v39 main_v45 ((extractStridedSlice S50000x64 ![0, 0] · slices_S50000x192_S50000x64_0_0) : (⟨S50000x192, .f32⟩ : BufTy).Contents (Elt F) → (⟨S50000x64, .f32⟩ : BufTy).Contents (Elt F)),
    unary main_v39 main_v46 ((extractStridedSlice S50000x64 ![0, 64] · slices_S50000x192_S50000x64_0_64) : (⟨S50000x192, .f32⟩ : BufTy).Contents (Elt F) → (⟨S50000x64, .f32⟩ : BufTy).Contents (Elt F)),
    unary main_v39 main_v47 ((extractStridedSlice S50000x64 ![0, 128] · slices_S50000x192_S50000x64_0_128) : (⟨S50000x192, .f32⟩ : BufTy).Contents (Elt F) → (⟨S50000x64, .f32⟩ : BufTy).Contents (Elt F)),
    unary main_v44 main_v48 ((extractStridedSlice S50000x64 ![0, 0] · slices_S50000x192_S50000x64_0_0) : (⟨S50000x192, .f32⟩ : BufTy).Contents (Elt F) → (⟨S50000x64, .f32⟩ : BufTy).Contents (Elt F)),
    unary main_v44 main_v49 ((extractStridedSlice S50000x64 ![0, 64] · slices_S50000x192_S50000x64_0_64) : (⟨S50000x192, .f32⟩ : BufTy).Contents (Elt F) → (⟨S50000x64, .f32⟩ : BufTy).Contents (Elt F)),
    unary main_v44 main_v50 ((extractStridedSlice S50000x64 ![0, 128] · slices_S50000x192_S50000x64_0_128) : (⟨S50000x192, .f32⟩ : BufTy).Contents (Elt F) → (⟨S50000x64, .f32⟩ : BufTy).Contents (Elt F)),
    binary main_v45 main_v48 main_v51 (addf : (⟨S50000x64, .f32⟩ : BufTy).Contents (Elt F) → (⟨S50000x64, .f32⟩ : BufTy).Contents (Elt F) → (⟨S50000x64, .f32⟩ : BufTy).Contents (Elt F)),
    unary main_v51 main_v52 (Host.negf : (⟨S50000x64, .f32⟩ : BufTy).Contents (Elt F) → (⟨S50000x64, .f32⟩ : BufTy).Contents (Elt F)),
    unary main_v52 main_v53 (Host.exp : (⟨S50000x64, .f32⟩ : BufTy).Contents (Elt F) → (⟨S50000x64, .f32⟩ : BufTy).Contents (Elt F)),
    nullary main_cst_3 (constant S_ .f32 0x3F800000#32),
    unary main_cst_3 main_v54 (broadcastInDim S50000x64 ![] bcast_S_S50000x64 : (⟨S_, .f32⟩ : BufTy).Contents (Elt F) → (⟨S50000x64, .f32⟩ : BufTy).Contents (Elt F)),
    binary main_v54 main_v53 main_v55 (addf : (⟨S50000x64, .f32⟩ : BufTy).Contents (Elt F) → (⟨S50000x64, .f32⟩ : BufTy).Contents (Elt F) → (⟨S50000x64, .f32⟩ : BufTy).Contents (Elt F)),
    nullary main_cst_4 (constant S_ .f32 0x3F800000#32),
    unary main_cst_4 main_v56 (broadcastInDim S50000x64 ![] bcast_S_S50000x64 : (⟨S_, .f32⟩ : BufTy).Contents (Elt F) → (⟨S50000x64, .f32⟩ : BufTy).Contents (Elt F)),
    binary main_v56 main_v55 main_v57 (Host.divf : (⟨S50000x64, .f32⟩ : BufTy).Contents (Elt F) → (⟨S50000x64, .f32⟩ : BufTy).Contents (Elt F) → (⟨S50000x64, .f32⟩ : BufTy).Contents (Elt F)),
    binary main_v46 main_v49 main_v58 (addf : (⟨S50000x64, .f32⟩ : BufTy).Contents (Elt F) → (⟨S50000x64, .f32⟩ : BufTy).Contents (Elt F) → (⟨S50000x64, .f32⟩ : BufTy).Contents (Elt F)),
    unary main_v58 main_v59 (Host.negf : (⟨S50000x64, .f32⟩ : BufTy).Contents (Elt F) → (⟨S50000x64, .f32⟩ : BufTy).Contents (Elt F)),
    unary main_v59 main_v60 (Host.exp : (⟨S50000x64, .f32⟩ : BufTy).Contents (Elt F) → (⟨S50000x64, .f32⟩ : BufTy).Contents (Elt F)),
    nullary main_cst_5 (constant S_ .f32 0x3F800000#32),
    unary main_cst_5 main_v61 (broadcastInDim S50000x64 ![] bcast_S_S50000x64 : (⟨S_, .f32⟩ : BufTy).Contents (Elt F) → (⟨S50000x64, .f32⟩ : BufTy).Contents (Elt F)),
    binary main_v61 main_v60 main_v62 (addf : (⟨S50000x64, .f32⟩ : BufTy).Contents (Elt F) → (⟨S50000x64, .f32⟩ : BufTy).Contents (Elt F) → (⟨S50000x64, .f32⟩ : BufTy).Contents (Elt F)),
    nullary main_cst_6 (constant S_ .f32 0x3F800000#32),
    unary main_cst_6 main_v63 (broadcastInDim S50000x64 ![] bcast_S_S50000x64 : (⟨S_, .f32⟩ : BufTy).Contents (Elt F) → (⟨S50000x64, .f32⟩ : BufTy).Contents (Elt F)),
    binary main_v63 main_v62 main_v64 (Host.divf : (⟨S50000x64, .f32⟩ : BufTy).Contents (Elt F) → (⟨S50000x64, .f32⟩ : BufTy).Contents (Elt F) → (⟨S50000x64, .f32⟩ : BufTy).Contents (Elt F)),
    binary main_v57 main_v50 main_v65 (mulf : (⟨S50000x64, .f32⟩ : BufTy).Contents (Elt F) → (⟨S50000x64, .f32⟩ : BufTy).Contents (Elt F) → (⟨S50000x64, .f32⟩ : BufTy).Contents (Elt F)),
    binary main_v47 main_v65 main_v66 (addf : (⟨S50000x64, .f32⟩ : BufTy).Contents (Elt F) → (⟨S50000x64, .f32⟩ : BufTy).Contents (Elt F) → (⟨S50000x64, .f32⟩ : BufTy).Contents (Elt F)),
    unary main_v66 main_v67 (Host.tanh : (⟨S50000x64, .f32⟩ : BufTy).Contents (Elt F) → (⟨S50000x64, .f32⟩ : BufTy).Contents (Elt F)),
    nullary main_cst_7 (constant S_ .f32 0x3F800000#32),
    unary main_cst_7 main_v68 (broadcastInDim S50000x64 ![] bcast_S_S50000x64 : (⟨S_, .f32⟩ : BufTy).Contents (Elt F) → (⟨S50000x64, .f32⟩ : BufTy).Contents (Elt F)),
    binary main_v68 main_v64 main_v69 (subf : (⟨S50000x64, .f32⟩ : BufTy).Contents (Elt F) → (⟨S50000x64, .f32⟩ : BufTy).Contents (Elt F) → (⟨S50000x64, .f32⟩ : BufTy).Contents (Elt F)),
    binary main_v69 main_v67 main_v70 (mulf : (⟨S50000x64, .f32⟩ : BufTy).Contents (Elt F) → (⟨S50000x64, .f32⟩ : BufTy).Contents (Elt F) → (⟨S50000x64, .f32⟩ : BufTy).Contents (Elt F)),
    binary main_v64 main_v3 main_v71 (mulf : (⟨S50000x64, .f32⟩ : BufTy).Contents (Elt F) → (⟨S50000x64, .f32⟩ : BufTy).Contents (Elt F) → (⟨S50000x64, .f32⟩ : BufTy).Contents (Elt F)),
    binary main_v70 main_v71 main_v72 (addf : (⟨S50000x64, .f32⟩ : BufTy).Contents (Elt F) → (⟨S50000x64, .f32⟩ : BufTy).Contents (Elt F) → (⟨S50000x64, .f32⟩ : BufTy).Contents (Elt F)) ]

abbrev c1 : List (HloOp τ sig (Elt F)) := c1a ++ (c1b ++ c1c)

abbrev w1 : List (Ref sig .tc) := [main_c, main_v8, main_v9, main_c_0, main_v10, main_v11, main_v12, main_v13, main_v14, main_c_1, main_v15, main_v16, main_c_2, main_v17, main_v18, main_v19, main_v20, main_v21, main_v22, main_v23, main_v24, main_v25, main_v26, main_call0_cst, main_call0_v0, main_v27, main_v28, main_v29, main_v30, main_v31, main_cst, main_v32, main_v33, main_v34, main_v35, main_v36, main_v37, main_v38, main_v39, main_v40, main_v41, main_v42, main_v43, main_v44, main_v45, main_v46, main_v47, main_v48, main_v49, main_v50, main_v51, main_v52, main_v53, main_cst_3, main_v54, main_v55, main_cst_4, main_v56, main_v57, main_v58, main_v59, main_v60, main_cst_5, main_v61, main_v62, main_cst_6, main_v63, main_v64, main_v65, main_v66, main_v67, main_cst_7, main_v68, main_v69, main_v70, main_v71, main_v72]

theorem c1_writes : (c1 : List (HloOp τ sig (Elt F))).Forall fun op => op.writes ⊆ (w1.map (Proc.devRef (τ := τ) .tc)).toFinset := by
  simp only [c1, c1a, c1b, c1c, List.cons_append, List.nil_append, List.Forall, nullary_writes, unary_writes, binary_writes, ternary_writes, nary_writes, Finset.singleton_subset_iff]
  repeat' apply And.intro
  all_goals exact List.mem_toFinset.mpr (List.mem_map.mpr ⟨_, by decide, rfl⟩)

theorem nary3_result' {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

variable (V : Valuation τ sig (Elt F)) (x0 : (⟨S50000x32, .f32⟩ : BufTy).Contents (Elt F)) (x1 : (⟨S2x800000, .i32⟩ : BufTy).Contents (Elt F)) (x2 : (⟨S800000x16, .f32⟩ : BufTy).Contents (Elt F)) (x4 : (⟨S32x64, .f32⟩ : BufTy).Contents (Elt F)) (x5 : (⟨S64, .f32⟩ : BufTy).Contents (Elt F)) (x6 : (⟨S144x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S192x64, .f32⟩ : BufTy).Contents (Elt F)) (x11 : (⟨S192, .f32⟩ : BufTy).Contents (Elt F)) (x12 : (⟨S192x64, .f32⟩ : BufTy).Contents (Elt F)) (x13 : (⟨S192, .f32⟩ : BufTy).Contents (Elt F))

theorem c1a_v14 (hh : V (Proc.devRef .tc main_v3) = ReadP.val_main_v3 (F := F) x0 x4 x5) (h5 : V (Proc.devRef .tc main_v5) = ReadP.val_main_v5 (F := F) x1) :
    after c1a V (Proc.devRef .tc main_v14) = ReadP.val_main_v14 (F := F) x0 x1 x4 x5 := by
  after_results_simp
  rw [hh, h5]
  rfl

theorem c1a_v21 (hh : V (Proc.devRef .tc main_v3) = ReadP.val_main_v3 (F := F) x0 x4 x5) (h7 : V (Proc.devRef .tc main_v7) = ReadP.val_main_v7 (F := F) x1) :
    after c1a V (Proc.devRef .tc main_v21) = ReadP.val_main_v21 (F := F) x0 x1 x4 x5 := by
  after_results_simp
  rw [hh, h7]
  rfl

theorem c1b_v34 (h1 : V (Proc.devRef .tc main_v14) = ReadP.val_main_v14 (F := F) x0 x1 x4 x5) (h2 : V (Proc.devRef .tc main_v21) = ReadP.val_main_v21 (F := F) x0 x1 x4 x5) (h7 : V (Proc.devRef .tc main_v7) = ReadP.val_main_v7 (F := F) x1)
    (ha2 : V (Proc.devRef .tc main_arg2) = x2) (ha6 : V (Proc.devRef .tc main_arg6) = x6) (ha7 : V (Proc.devRef .tc main_arg7) = x7) (ha8 : V (Proc.devRef .tc main_arg8) = x8) (ha9 : V (Proc.devRef .tc main_arg9) = x9) :
    after c1b V (Proc.devRef .tc main_v34) = ReadP.val_main_v34 (F := F) x0 x1 x2 x4 x5 x6 x7 x8 x9 := by
  simp (disch := decide) only [after_cons, after_nil, nullary_result', unary_result', binary_result', ternary_result',
    nary3_result', nullary_result_ne', unary_result_ne', binary_result_ne', ternary_result_ne', nary_result_ne']
  rw [h1, h2, h7, ha2, ha6, ha7, ha8, ha9]
  rfl

theorem c1c_v72 (hs : V (Proc.devRef .tc main_v34) = ReadP.val_main_v34 (F := F) x0 x1 x2 x4 x5 x6 x7 x8 x9) (hh : V (Proc.devRef .tc main_v3) = ReadP.val_main_v3 (F := F) x0 x4 x5)
    (ha10 : V (Proc.devRef .tc main_arg10) = x10) (ha11 : V (Proc.devRef .tc main_arg11) = x11) (ha12 : V (Proc.devRef .tc main_arg12) = x12) (ha13 : V (Proc.devRef .tc main_arg13) = x13) :
    after c1c V (Proc.devRef .tc main_v72) = ReadP.val_main_v72 (F := F) x0 x1 x2 x4 x5 x6 x7 x8 x9 x10 x11 x12 x13 := by
  after_results_simp
  rw [hs, hh, ha10, ha11, ha12, ha13]
  rfl

/-- One message-passing step: each part leaves alone every buffer a later part still reads from the entry. -/
theorem h_next (hh : V (Proc.devRef .tc main_v3) = ReadP.val_main_v3 (F := F) x0 x4 x5) (h5 : V (Proc.devRef .tc main_v5) = ReadP.val_main_v5 (F := F) x1) (h7 : V (Proc.devRef .tc main_v7) = ReadP.val_main_v7 (F := F) x1)
    (ha2 : V (Proc.devRef .tc main_arg2) = x2) (ha6 : V (Proc.devRef .tc main_arg6) = x6) (ha7 : V (Proc.devRef .tc main_arg7) = x7) (ha8 : V (Proc.devRef .tc main_arg8) = x8) (ha9 : V (Proc.devRef .tc main_arg9) = x9) (ha10 : V (Proc.devRef .tc main_arg10) = x10) (ha11 : V (Proc.devRef .tc main_arg11) = x11) (ha12 : V (Proc.devRef .tc main_arg12) = x12) (ha13 : V (Proc.devRef .tc main_arg13) = x13) :
    after c1 V (Proc.devRef .tc main_v72) = ReadP.val_main_v72 (F := F) x0 x1 x2 x4 x5 x6 x7 x8 x9 x10 x11 x12 x13 := by
  rw [after_append, after_append]
  have kA : ∀ r : Ref sig .tc, r ∉ w1 → after c1a V (Proc.devRef .tc r) = V (Proc.devRef .tc r) :=
    fun r hr => after_of_writes_sub c1a V (List.forall_append.mp c1_writes).1 hr
  have kB : ∀ r : Ref sig .tc, r ∉ w1 → after c1b (after c1a V) (Proc.devRef .tc r) = after c1a V (Proc.devRef .tc r) :=
    fun r hr => after_of_writes_sub c1b _ (List.forall_append.mp (List.forall_append.mp c1_writes).2).1 hr
  refine c1c_v72 _ x0 x1 x2 x4 x5 x6 x7 x8 x9 x10 x11 x12 x13 ?_ ?_ ?_ ?_ ?_ ?_
  · refine c1b_v34 _ x0 x1 x2 x4 x5 x6 x7 x8 x9 (c1a_v14 V x0 x1 x4 x5 hh h5) (c1a_v21 V x0 x1 x4 x5 hh h7) ?_ ?_ ?_ ?_ ?_ ?_
    · exact (kA main_v7 (by decide)).trans h7
    · exact (kA main_arg2 (by decide)).trans ha2
    · exact (kA main_arg6 (by decide)).trans ha6
    · exact (kA main_arg7 (by decide)).trans ha7
    · exact (kA main_arg8 (by decide)).trans ha8
    · exact (kA main_arg9 (by decide)).trans ha9
  · exact ((kB main_v3 (by decide)).trans (kA main_v3 (by decide))).trans hh
  · exact ((kB main_arg10 (by decide)).trans (kA main_arg10 (by decide))).trans ha10
  · exact ((kB main_arg11 (by decide)).trans (kA main_arg11 (by decide))).trans ha11
  · exact ((kB main_arg12 (by decide)).trans (kA main_arg12 (by decide))).trans ha12
  · exact ((kB main_arg13 (by decide)).trans (kA main_arg13 (by decide))).trans ha13

end Cert.ReferenceIdeal.RefC1

end
-- ==== Proof.RefC2.lean ====
import proofs.«423451_j81475529605767_1_alg».proof.Proof.ReadP

noncomputable section

namespace Cert.ReferenceIdeal.RefC2

open Cert.ReferenceIdeal Cert.ReferenceIdeal.Gen Idealize.ShloMosaic Idealize.ShloMosaic.TcCoe Idealize.SL.Sem Idealize.ShloMosaic.StableHlo

variable {F : FTy → Type} [FloatOps F]

abbrev c2a : List (HloOp τ sig (Elt F)) :=
  [ nullary main_c_8 (constantI S_ 32 0#32),
    unary main_c_8 main_v73 (broadcastInDim S800000 ![] bcast_S_S800000 : (⟨S_, .i32⟩ : BufTy).Contents (Elt F) → (⟨S800000, .i32⟩ : BufTy).Contents (Elt F)),
    binary main_v5 main_v73 main_v74 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v75 (broadcastInDim S800000 ![] bcast_S_S800000 : (⟨S_, .i32⟩ : BufTy).Contents (Elt F) → (⟨S800000, .i32⟩ : BufTy).Contents (Elt F)),
    binary main_v5 main_v75 main_v76 (addi : (⟨S800000, .i32⟩ : BufTy).Contents (Elt F) → (⟨S800000, .i32⟩ : BufTy).Contents (Elt F) → (⟨S800000, .i32⟩ : BufTy).Contents (Elt F)),
    ternary main_v74 main_v76 main_v5 main_v77 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v77 main_v78 (broadcastInDim S800000x1 ![0] bcast_S800000_S800000x1_0 : (⟨S800000, .i32⟩ : BufTy).Contents (Elt F) → (⟨S800000x1, .i32⟩ : BufTy).Contents (Elt F)),
    binary main_v72 main_v78 main_v79 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_10 (constantI S_ 32 0#32),
    unary main_c_10 main_v80 (broadcastInDim S800000 ![] bcast_S_S800000 : (⟨S_, .i32⟩ : BufTy).Contents (Elt F) → (⟨S800000, .i32⟩ : BufTy).Contents (Elt F)),
    binary main_v7 main_v80 main_v81 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v82 (broadcastInDim S800000 ![] bcast_S_S800000 : (⟨S_, .i32⟩ : BufTy).Contents (Elt F) → (⟨S800000, .i32⟩ : BufTy).Contents (Elt F)),
    binary main_v7 main_v82 main_v83 (addi : (⟨S800000, .i32⟩ : BufTy).Contents (Elt F) → (⟨S800000, .i32⟩ : BufTy).Contents (Elt F) → (⟨S800000, .i32⟩ : BufTy).Contents (Elt F)),
    ternary main_v81 main_v83 main_v7 main_v84 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v84 main_v85 (broadcastInDim S800000x1 ![0] bcast_S800000_S800000x1_0 : (⟨S800000, .i32⟩ : BufTy).Contents (Elt F) → (⟨S800000x1, .i32⟩ : BufTy).Contents (Elt F)),
    binary main_v72 main_v85 main_v86 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

abbrev c2b : List (HloOp τ sig (Elt F)) :=
  [ nary ![main_v79, main_v86, main_arg2] main_v87 (fun u => concatenate S800000x144 1 [⟨S800000x64, u 0⟩, ⟨S800000x64, u 1⟩, ⟨S800000x16, u 2⟩] concatenates_S800000x64_S800000x64_S800000x16_S800000x144_d1),
    binary main_v87 main_arg6 main_v88 ((fun l r => Host.dotGeneral dot_S800000x144_S144x64_S800000x64_1_0_0_1_n_n none l r) : (⟨S800000x144, .f32⟩ : BufTy).Contents (Elt F) → (⟨S144x64, .f32⟩ : BufTy).Contents (Elt F) → (⟨S800000x64, .f32⟩ : BufTy).Contents (Elt F)),
    unary main_arg7 main_v89 (broadcastInDim S1x64 ![1] bcast_S64_S1x64_1 : (⟨S64, .f32⟩ : BufTy).Contents (Elt F) → (⟨S1x64, .f32⟩ : BufTy).Contents (Elt F)),
    unary main_v89 main_v90 (broadcastInDim S800000x64 ![0, 1] bcast_S1x64_S800000x64_0_1 : (⟨S1x64, .f32⟩ : BufTy).Contents (Elt F) → (⟨S800000x64, .f32⟩ : BufTy).Contents (Elt F)),
    binary main_v88 main_v90 main_v91 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S800000x64, .f32⟩) main_call1_v0) (broadcastInDim S800000x64 ![] bcast_S_S800000x64),
    TRef.binary (TRef.of (T := ⟨S800000x64, .f32⟩) main_v91) (TRef.of (T := ⟨S800000x64, .f32⟩) main_call1_v0) (TRef.of (T := ⟨S800000x64, .f32⟩) main_v92) maximumf,
    binary main_v92 main_arg8 main_v93 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg9 main_v94 (broadcastInDim S1x64 ![1] bcast_S64_S1x64_1 : (⟨S64, .f32⟩ : BufTy).Contents (Elt F) → (⟨S1x64, .f32⟩ : BufTy).Contents (Elt F)),
    unary main_v94 main_v95 (broadcastInDim S800000x64 ![0, 1] bcast_S1x64_S800000x64_0_1 : (⟨S1x64, .f32⟩ : BufTy).Contents (Elt F) → (⟨S800000x64, .f32⟩ : BufTy).Contents (Elt F)),
    binary main_v93 main_v95 main_v96 (addf : (⟨S800000x64, .f32⟩ : BufTy).Contents (Elt F) → (⟨S800000x64, .f32⟩ : BufTy).Contents (Elt F) → (⟨S800000x64, .f32⟩ : BufTy).Contents (Elt F)),
    nullary main_cst_12 (constant S_ .f32 0x00000000#32),
    unary main_cst_12 main_v97 (broadcastInDim S50000x64 ![] bcast_S_S50000x64 : (⟨S_, .f32⟩ : BufTy).Contents (Elt F) → (⟨S50000x64, .f32⟩ : BufTy).Contents (Elt F)),
    unary main_v7 main_v98 (broadcastInDim S800000x1 ![0] bcast_S800000_S800000x1_0 : (⟨S800000, .i32⟩ : BufTy).Contents (Elt F) → (⟨S800000x1, .i32⟩ : BufTy).Contents (Elt F)),
    ternary main_v97 main_v98 main_v96 main_v99 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

abbrev c2c : List (HloOp τ sig (Elt F)) :=
  [ unary main_arg10 main_v100 ((transpose S64x192 [1, 0] · transposes_S192x64_S64x192_1_0) : (⟨S192x64, .f32⟩ : BufTy).Contents (Elt F) → (⟨S64x192, .f32⟩ : BufTy).Contents (Elt F)),
    binary main_v99 main_v100 main_v101 ((fun l r => Host.dotGeneral dot_S50000x64_S64x192_S50000x192_1_0_0_1_n_n none l r) : (⟨S50000x64, .f32⟩ : BufTy).Contents (Elt F) → (⟨S64x192, .f32⟩ : BufTy).Contents (Elt F) → (⟨S50000x192, .f32⟩ : BufTy).Contents (Elt F)),
    unary main_arg11 main_v102 (broadcastInDim S1x192 ![1] bcast_S192_S1x192_1 : (⟨S192, .f32⟩ : BufTy).Contents (Elt F) → (⟨S1x192, .f32⟩ : BufTy).Contents (Elt F)),
    unary main_v102 main_v103 (broadcastInDim S50000x192 ![0, 1] bcast_S1x192_S50000x192_0_1 : (⟨S1x192, .f32⟩ : BufTy).Contents (Elt F) → (⟨S50000x192, .f32⟩ : BufTy).Contents (Elt F)),
    binary main_v101 main_v103 main_v104 (addf : (⟨S50000x192, .f32⟩ : BufTy).Contents (Elt F) → (⟨S50000x192, .f32⟩ : BufTy).Contents (Elt F) → (⟨S50000x192, .f32⟩ : BufTy).Contents (Elt F)),
    unary main_arg12 main_v105 ((transpose S64x192 [1, 0] · transposes_S192x64_S64x192_1_0) : (⟨S192x64, .f32⟩ : BufTy).Contents (Elt F) → (⟨S64x192, .f32⟩ : BufTy).Contents (Elt F)),
    binary main_v72 main_v105 main_v106 ((fun l r => Host.dotGeneral dot_S50000x64_S64x192_S50000x192_1_0_0_1_n_n none l r) : (⟨S50000x64, .f32⟩ : BufTy).Contents (Elt F) → (⟨S64x192, .f32⟩ : BufTy).Contents (Elt F) → (⟨S50000x192, .f32⟩ : BufTy).Contents (Elt F)),
    unary main_arg13 main_v107 (broadcastInDim S1x192 ![1] bcast_S192_S1x192_1 : (⟨S192, .f32⟩ : BufTy).Contents (Elt F) → (⟨S1x192, .f32⟩ : BufTy).Contents (Elt F)),
    unary main_v107 main_v108 (broadcastInDim S50000x192 ![0, 1] bcast_S1x192_S50000x192_0_1 : (⟨S1x192, .f32⟩ : BufTy).Contents (Elt F) → (⟨S50000x192, .f32⟩ : BufTy).Contents (Elt F)),
    binary main_v106 main_v108 main_v109 (addf : (⟨S50000x192, .f32⟩ : BufTy).Contents (Elt F) → (⟨S50000x192, .f32⟩ : BufTy).Contents (Elt F) → (⟨S50000x192, .f32⟩ : BufTy).Contents (Elt F)),
    unary main_v104 main_v110 ((extractStridedSlice S50000x64 ![0, 0] · slices_S50000x192_S50000x64_0_0) : (⟨S50000x192, .f32⟩ : BufTy).Contents (Elt F) → (⟨S50000x64, .f32⟩ : BufTy).Contents (Elt F)),
    unary main_v104 main_v111 ((extractStridedSlice S50000x64 ![0, 64] · slices_S50000x192_S50000x64_0_64) : (⟨S50000x192, .f32⟩ : BufTy).Contents (Elt F) → (⟨S50000x64, .f32⟩ : BufTy).Contents (Elt F)),
    unary main_v104 main_v112 ((extractStridedSlice S50000x64 ![0, 128] · slices_S50000x192_S50000x64_0_128) : (⟨S50000x192, .f32⟩ : BufTy).Contents (Elt F) → (⟨S50000x64, .f32⟩ : BufTy).Contents (Elt F)),
    unary main_v109 main_v113 ((extractStridedSlice S50000x64 ![0, 0] · slices_S50000x192_S50000x64_0_0) : (⟨S50000x192, .f32⟩ : BufTy).Contents (Elt F) → (⟨S50000x64, .f32⟩ : BufTy).Contents (Elt F)),
    unary main_v109 main_v114 ((extractStridedSlice S50000x64 ![0, 64] · slices_S50000x192_S50000x64_0_64) : (⟨S50000x192, .f32⟩ : BufTy).Contents (Elt F) → (⟨S50000x64, .f32⟩ : BufTy).Contents (Elt F)),
    unary main_v109 main_v115 ((extractStridedSlice S50000x64 ![0, 128] · slices_S50000x192_S50000x64_0_128) : (⟨S50000x192, .f32⟩ : BufTy).Contents (Elt F) → (⟨S50000x64, .f32⟩ : BufTy).Contents (Elt F)),
    binary main_v110 main_v113 main_v116 (addf : (⟨S50000x64, .f32⟩ : BufTy).Contents (Elt F) → (⟨S50000x64, .f32⟩ : BufTy).Contents (Elt F) → (⟨S50000x64, .f32⟩ : BufTy).Contents (Elt F)),
    unary main_v116 main_v117 (Host.negf : (⟨S50000x64, .f32⟩ : BufTy).Contents (Elt F) → (⟨S50000x64, .f32⟩ : BufTy).Contents (Elt F)),
    unary main_v117 main_v118 (Host.exp : (⟨S50000x64, .f32⟩ : BufTy).Contents (Elt F) → (⟨S50000x64, .f32⟩ : BufTy).Contents (Elt F)),
    nullary main_cst_13 (constant S_ .f32 0x3F800000#32),
    unary main_cst_13 main_v119 (broadcastInDim S50000x64 ![] bcast_S_S50000x64 : (⟨S_, .f32⟩ : BufTy).Contents (Elt F) → (⟨S50000x64, .f32⟩ : BufTy).Contents (Elt F)),
    binary main_v119 main_v118 main_v120 (addf : (⟨S50000x64, .f32⟩ : BufTy).Contents (Elt F) → (⟨S50000x64, .f32⟩ : BufTy).Contents (Elt F) → (⟨S50000x64, .f32⟩ : BufTy).Contents (Elt F)),
    nullary main_cst_14 (constant S_ .f32 0x3F800000#32),
    unary main_cst_14 main_v121 (broadcastInDim S50000x64 ![] bcast_S_S50000x64 : (⟨S_, .f32⟩ : BufTy).Contents (Elt F) → (⟨S50000x64, .f32⟩ : BufTy).Contents (Elt F)),
    binary main_v121 main_v120 main_v122 (Host.divf : (⟨S50000x64, .f32⟩ : BufTy).Contents (Elt F) → (⟨S50000x64, .f32⟩ : BufTy).Contents (Elt F) → (⟨S50000x64, .f32⟩ : BufTy).Contents (Elt F)),
    binary main_v111 main_v114 main_v123 (addf : (⟨S50000x64, .f32⟩ : BufTy).Contents (Elt F) → (⟨S50000x64, .f32⟩ : BufTy).Contents (Elt F) → (⟨S50000x64, .f32⟩ : BufTy).Contents (Elt F)),
    unary main_v123 main_v124 (Host.negf : (⟨S50000x64, .f32⟩ : BufTy).Contents (Elt F) → (⟨S50000x64, .f32⟩ : BufTy).Contents (Elt F)),
    unary main_v124 main_v125 (Host.exp : (⟨S50000x64, .f32⟩ : BufTy).Contents (Elt F) → (⟨S50000x64, .f32⟩ : BufTy).Contents (Elt F)),
    nullary main_cst_15 (constant S_ .f32 0x3F800000#32),
    unary main_cst_15 main_v126 (broadcastInDim S50000x64 ![] bcast_S_S50000x64 : (⟨S_, .f32⟩ : BufTy).Contents (Elt F) → (⟨S50000x64, .f32⟩ : BufTy).Contents (Elt F)),
    binary main_v126 main_v125 main_v127 (addf : (⟨S50000x64, .f32⟩ : BufTy).Contents (Elt F) → (⟨S50000x64, .f32⟩ : BufTy).Contents (Elt F) → (⟨S50000x64, .f32⟩ : BufTy).Contents (Elt F)),
    nullary main_cst_16 (constant S_ .f32 0x3F800000#32),
    unary main_cst_16 main_v128 (broadcastInDim S50000x64 ![] bcast_S_S50000x64 : (⟨S_, .f32⟩ : BufTy).Contents (Elt F) → (⟨S50000x64, .f32⟩ : BufTy).Contents (Elt F)),
    binary main_v128 main_v127 main_v129 (Host.divf : (⟨S50000x64, .f32⟩ : BufTy).Contents (Elt F) → (⟨S50000x64, .f32⟩ : BufTy).Contents (Elt F) → (⟨S50000x64, .f32⟩ : BufTy).Contents (Elt F)),
    binary main_v122 main_v115 main_v130 (mulf : (⟨S50000x64, .f32⟩ : BufTy).Contents (Elt F) → (⟨S50000x64, .f32⟩ : BufTy).Contents (Elt F) → (⟨S50000x64, .f32⟩ : BufTy).Contents (Elt F)),
    binary main_v112 main_v130 main_v131 (addf : (⟨S50000x64, .f32⟩ : BufTy).Contents (Elt F) → (⟨S50000x64, .f32⟩ : BufTy).Contents (Elt F) → (⟨S50000x64, .f32⟩ : BufTy).Contents (Elt F)),
    unary main_v131 main_v132 (Host.tanh : (⟨S50000x64, .f32⟩ : BufTy).Contents (Elt F) → (⟨S50000x64, .f32⟩ : BufTy).Contents (Elt F)),
    nullary main_cst_17 (constant S_ .f32 0x3F800000#32),
    unary main_cst_17 main_v133 (broadcastInDim S50000x64 ![] bcast_S_S50000x64 : (⟨S_, .f32⟩ : BufTy).Contents (Elt F) → (⟨S50000x64, .f32⟩ : BufTy).Contents (Elt F)),
    binary main_v133 main_v129 main_v134 (subf : (⟨S50000x64, .f32⟩ : BufTy).Contents (Elt F) → (⟨S50000x64, .f32⟩ : BufTy).Contents (Elt F) → (⟨S50000x64, .f32⟩ : BufTy).Contents (Elt F)),
    binary main_v134 main_v132 main_v135 (mulf : (⟨S50000x64, .f32⟩ : BufTy).Contents (Elt F) → (⟨S50000x64, .f32⟩ : BufTy).Contents (Elt F) → (⟨S50000x64, .f32⟩ : BufTy).Contents (Elt F)),
    binary main_v129 main_v72 main_v136 (mulf : (⟨S50000x64, .f32⟩ : BufTy).Contents (Elt F) → (⟨S50000x64, .f32⟩ : BufTy).Contents (Elt F) → (⟨S50000x64, .f32⟩ : BufTy).Contents (Elt F)),
    binary main_v135 main_v136 main_v137 (addf : (⟨S50000x64, .f32⟩ : BufTy).Contents (Elt F) → (⟨S50000x64, .f32⟩ : BufTy).Contents (Elt F) → (⟨S50000x64, .f32⟩ : BufTy).Contents (Elt F)) ]

abbrev c2 : List (HloOp τ sig (Elt F)) := c2a ++ (c2b ++ c2c)

abbrev w2 : List (Ref sig .tc) := [main_c_8, main_v73, main_v74, main_c_9, main_v75, main_v76, main_v77, main_v78, main_v79, main_c_10, main_v80, main_v81, main_c_11, main_v82, main_v83, main_v84, main_v85, main_v86, main_v87, main_v88, main_v89, main_v90, main_v91, main_call1_cst, main_call1_v0, main_v92, main_v93, main_v94, main_v95, main_v96, main_cst_12, main_v97, main_v98, main_v99, main_v100, main_v101, main_v102, main_v103, main_v104, main_v105, main_v106, main_v107, main_v108, main_v109, main_v110, main_v111, main_v112, main_v113, main_v114, main_v115, main_v116, main_v117, main_v118, main_cst_13, main_v119, main_v120, main_cst_14, main_v121, main_v122, main_v123, main_v124, main_v125, main_cst_15, main_v126, main_v127, main_cst_16, main_v128, main_v129, main_v130, main_v131, main_v132, main_cst_17, main_v133, main_v134, main_v135, main_v136, main_v137]

theorem c2_writes : (c2 : List (HloOp τ sig (Elt F))).Forall fun op => op.writes ⊆ (w2.map (Proc.devRef (τ := τ) .tc)).toFinset := by
  simp only [c2, c2a, c2b, c2c, List.cons_append, List.nil_append, List.Forall, nullary_writes, unary_writes, binary_writes, ternary_writes, nary_writes, Finset.singleton_subset_iff]
  repeat' apply And.intro
  all_goals exact List.mem_toFinset.mpr (List.mem_map.mpr ⟨_, by decide, rfl⟩)

theorem nary3_result' {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

variable (V : Valuation τ sig (Elt F)) (x0 : (⟨S50000x32, .f32⟩ : BufTy).Contents (Elt F)) (x1 : (⟨S2x800000, .i32⟩ : BufTy).Contents (Elt F)) (x2 : (⟨S800000x16, .f32⟩ : BufTy).Contents (Elt F)) (x4 : (⟨S32x64, .f32⟩ : BufTy).Contents (Elt F)) (x5 : (⟨S64, .f32⟩ : BufTy).Contents (Elt F)) (x6 : (⟨S144x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S192x64, .f32⟩ : BufTy).Contents (Elt F)) (x11 : (⟨S192, .f32⟩ : BufTy).Contents (Elt F)) (x12 : (⟨S192x64, .f32⟩ : BufTy).Contents (Elt F)) (x13 : (⟨S192, .f32⟩ : BufTy).Contents (Elt F))

theorem c2a_v79 (hh : V (Proc.devRef .tc main_v72) = ReadP.val_main_v72 (F := F) x0 x1 x2 x4 x5 x6 x7 x8 x9 x10 x11 x12 x13) (h5 : V (Proc.devRef .tc main_v5) = ReadP.val_main_v5 (F := F) x1) :
    after c2a V (Proc.devRef .tc main_v79) = ReadP.val_main_v79 (F := F) x0 x1 x2 x4 x5 x6 x7 x8 x9 x10 x11 x12 x13 := by
  after_results_simp
  rw [hh, h5]
  rfl

theorem c2a_v86 (hh : V (Proc.devRef .tc main_v72) = ReadP.val_main_v72 (F := F) x0 x1 x2 x4 x5 x6 x7 x8 x9 x10 x11 x12 x13) (h7 : V (Proc.devRef .tc main_v7) = ReadP.val_main_v7 (F := F) x1) :
    after c2a V (Proc.devRef .tc main_v86) = ReadP.val_main_v86 (F := F) x0 x1 x2 x4 x5 x6 x7 x8 x9 x10 x11 x12 x13 := by
  after_results_simp
  rw [hh, h7]
  rfl

theorem c2b_v99 (h1 : V (Proc.devRef .tc main_v79) = ReadP.val_main_v79 (F := F) x0 x1 x2 x4 x5 x6 x7 x8 x9 x10 x11 x12 x13) (h2 : V (Proc.devRef .tc main_v86) = ReadP.val_main_v86 (F := F) x0 x1 x2 x4 x5 x6 x7 x8 x9 x10 x11 x12 x13) (h7 : V (Proc.devRef .tc main_v7) = ReadP.val_main_v7 (F := F) x1)
    (ha2 : V (Proc.devRef .tc main_arg2) = x2) (ha6 : V (Proc.devRef .tc main_arg6) = x6) (ha7 : V (Proc.devRef .tc main_arg7) = x7) (ha8 : V (Proc.devRef .tc main_arg8) = x8) (ha9 : V (Proc.devRef .tc main_arg9) = x9) :
    after c2b V (Proc.devRef .tc main_v99) = ReadP.val_main_v99 (F := F) x0 x1 x2 x4 x5 x6 x7 x8 x9 x10 x11 x12 x13 := by
  simp (disch := decide) only [after_cons, after_nil, nullary_result', unary_result', binary_result', ternary_result',
    nary3_result', nullary_result_ne', unary_result_ne', binary_result_ne', ternary_result_ne', nary_result_ne']
  rw [h1, h2, h7, ha2, ha6, ha7, ha8, ha9]
  rfl

theorem c2c_v137 (hs : V (Proc.devRef .tc main_v99) = ReadP.val_main_v99 (F := F) x0 x1 x2 x4 x5 x6 x7 x8 x9 x10 x11 x12 x13) (hh : V (Proc.devRef .tc main_v72) = ReadP.val_main_v72 (F := F) x0 x1 x2 x4 x5 x6 x7 x8 x9 x10 x11 x12 x13)
    (ha10 : V (Proc.devRef .tc main_arg10) = x10) (ha11 : V (Proc.devRef .tc main_arg11) = x11) (ha12 : V (Proc.devRef .tc main_arg12) = x12) (ha13 : V (Proc.devRef .tc main_arg13) = x13) :
    after c2c V (Proc.devRef .tc main_v137) = ReadP.val_main_v137 (F := F) x0 x1 x2 x4 x5 x6 x7 x8 x9 x10 x11 x12 x13 := by
  after_results_simp
  rw [hs, hh, ha10, ha11, ha12, ha13]
  rfl

/-- One message-passing step: each part leaves alone every buffer a later part still reads from the entry. -/
theorem h_next (hh : V (Proc.devRef .tc main_v72) = ReadP.val_main_v72 (F := F) x0 x1 x2 x4 x5 x6 x7 x8 x9 x10 x11 x12 x13) (h5 : V (Proc.devRef .tc main_v5) = ReadP.val_main_v5 (F := F) x1) (h7 : V (Proc.devRef .tc main_v7) = ReadP.val_main_v7 (F := F) x1)
    (ha2 : V (Proc.devRef .tc main_arg2) = x2) (ha6 : V (Proc.devRef .tc main_arg6) = x6) (ha7 : V (Proc.devRef .tc main_arg7) = x7) (ha8 : V (Proc.devRef .tc main_arg8) = x8) (ha9 : V (Proc.devRef .tc main_arg9) = x9) (ha10 : V (Proc.devRef .tc main_arg10) = x10) (ha11 : V (Proc.devRef .tc main_arg11) = x11) (ha12 : V (Proc.devRef .tc main_arg12) = x12) (ha13 : V (Proc.devRef .tc main_arg13) = x13) :
    after c2 V (Proc.devRef .tc main_v137) = ReadP.val_main_v137 (F := F) x0 x1 x2 x4 x5 x6 x7 x8 x9 x10 x11 x12 x13 := by
  rw [after_append, after_append]
  have kA : ∀ r : Ref sig .tc, r ∉ w2 → after c2a V (Proc.devRef .tc r) = V (Proc.devRef .tc r) :=
    fun r hr => after_of_writes_sub c2a V (List.forall_append.mp c2_writes).1 hr
  have kB : ∀ r : Ref sig .tc, r ∉ w2 → after c2b (after c2a V) (Proc.devRef .tc r) = after c2a V (Proc.devRef .tc r) :=
    fun r hr => after_of_writes_sub c2b _ (List.forall_append.mp (List.forall_append.mp c2_writes).2).1 hr
  refine c2c_v137 _ x0 x1 x2 x4 x5 x6 x7 x8 x9 x10 x11 x12 x13 ?_ ?_ ?_ ?_ ?_ ?_
  · refine c2b_v99 _ x0 x1 x2 x4 x5 x6 x7 x8 x9 x10 x11 x12 x13 (c2a_v79 V x0 x1 x2 x4 x5 x6 x7 x8 x9 x10 x11 x12 x13 hh h5) (c2a_v86 V x0 x1 x2 x4 x5 x6 x7 x8 x9 x10 x11 x12 x13 hh h7) ?_ ?_ ?_ ?_ ?_ ?_
    · exact (kA main_v7 (by decide)).trans h7
    · exact (kA main_arg2 (by decide)).trans ha2
    · exact (kA main_arg6 (by decide)).trans ha6
    · exact (kA main_arg7 (by decide)).trans ha7
    · exact (kA main_arg8 (by decide)).trans ha8
    · exact (kA main_arg9 (by decide)).trans ha9
  · exact ((kB main_v72 (by decide)).trans (kA main_v72 (by decide))).trans hh
  · exact ((kB main_arg10 (by decide)).trans (kA main_arg10 (by decide))).trans ha10
  · exact ((kB main_arg11 (by decide)).trans (kA main_arg11 (by decide))).trans ha11
  · exact ((kB main_arg12 (by decide)).trans (kA main_arg12 (by decide))).trans ha12
  · exact ((kB main_arg13 (by decide)).trans (kA main_arg13 (by decide))).trans ha13

end Cert.ReferenceIdeal.RefC2

end
-- ==== Proof.RefC3.lean ====
import proofs.«423451_j81475529605767_1_alg».proof.Proof.ReadP

noncomputable section

namespace Cert.ReferenceIdeal.RefC3

open Cert.ReferenceIdeal Cert.ReferenceIdeal.Gen Idealize.ShloMosaic Idealize.ShloMosaic.TcCoe Idealize.SL.Sem Idealize.ShloMosaic.StableHlo

variable {F : FTy → Type} [FloatOps F]

abbrev cA : List (HloOp τ sig (Elt F)) :=
  [ nullary main_c_18 (constantI S_ 32 0#32),
    unary main_c_18 main_v138 (broadcastInDim S800000 ![] bcast_S_S800000 : (⟨S_, .i32⟩ : BufTy).Contents (Elt F) → (⟨S800000, .i32⟩ : BufTy).Contents (Elt F)),
    binary main_v5 main_v138 main_v139 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v140 (broadcastInDim S800000 ![] bcast_S_S800000 : (⟨S_, .i32⟩ : BufTy).Contents (Elt F) → (⟨S800000, .i32⟩ : BufTy).Contents (Elt F)),
    binary main_v5 main_v140 main_v141 (addi : (⟨S800000, .i32⟩ : BufTy).Contents (Elt F) → (⟨S800000, .i32⟩ : BufTy).Contents (Elt F) → (⟨S800000, .i32⟩ : BufTy).Contents (Elt F)),
    ternary main_v139 main_v141 main_v5 main_v142 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v142 main_v143 (broadcastInDim S800000x1 ![0] bcast_S800000_S800000x1_0 : (⟨S800000, .i32⟩ : BufTy).Contents (Elt F) → (⟨S800000x1, .i32⟩ : BufTy).Contents (Elt F)),
    binary main_v137 main_v143 main_v144 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_20 (constantI S_ 32 0#32),
    unary main_c_20 main_v145 (broadcastInDim S800000 ![] bcast_S_S800000 : (⟨S_, .i32⟩ : BufTy).Contents (Elt F) → (⟨S800000, .i32⟩ : BufTy).Contents (Elt F)),
    binary main_v7 main_v145 main_v146 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v147 (broadcastInDim S800000 ![] bcast_S_S800000 : (⟨S_, .i32⟩ : BufTy).Contents (Elt F) → (⟨S800000, .i32⟩ : BufTy).Contents (Elt F)),
    binary main_v7 main_v147 main_v148 (addi : (⟨S800000, .i32⟩ : BufTy).Contents (Elt F) → (⟨S800000, .i32⟩ : BufTy).Contents (Elt F) → (⟨S800000, .i32⟩ : BufTy).Contents (Elt F)),
    ternary main_v146 main_v148 main_v7 main_v149 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v149 main_v150 (broadcastInDim S800000x1 ![0] bcast_S800000_S800000x1_0 : (⟨S800000, .i32⟩ : BufTy).Contents (Elt F) → (⟨S800000x1, .i32⟩ : BufTy).Contents (Elt F)),
    binary main_v137 main_v150 main_v151 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

abbrev cB : List (HloOp τ sig (Elt F)) :=
  [ nary ![main_v144, main_v151, main_arg2] main_v152 (fun u => concatenate S800000x144 1 [⟨S800000x64, u 0⟩, ⟨S800000x64, u 1⟩, ⟨S800000x16, u 2⟩] concatenates_S800000x64_S800000x64_S800000x16_S800000x144_d1),
    binary main_v152 main_arg6 main_v153 ((fun l r => Host.dotGeneral dot_S800000x144_S144x64_S800000x64_1_0_0_1_n_n none l r) : (⟨S800000x144, .f32⟩ : BufTy).Contents (Elt F) → (⟨S144x64, .f32⟩ : BufTy).Contents (Elt F) → (⟨S800000x64, .f32⟩ : BufTy).Contents (Elt F)),
    unary main_arg7 main_v154 (broadcastInDim S1x64 ![1] bcast_S64_S1x64_1 : (⟨S64, .f32⟩ : BufTy).Contents (Elt F) → (⟨S1x64, .f32⟩ : BufTy).Contents (Elt F)),
    unary main_v154 main_v155 (broadcastInDim S800000x64 ![0, 1] bcast_S1x64_S800000x64_0_1 : (⟨S1x64, .f32⟩ : BufTy).Contents (Elt F) → (⟨S800000x64, .f32⟩ : BufTy).Contents (Elt F)),
    binary main_v153 main_v155 main_v156 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S800000x64, .f32⟩) main_call2_v0) (broadcastInDim S800000x64 ![] bcast_S_S800000x64),
    TRef.binary (TRef.of (T := ⟨S800000x64, .f32⟩) main_v156) (TRef.of (T := ⟨S800000x64, .f32⟩) main_call2_v0) (TRef.of (T := ⟨S800000x64, .f32⟩) main_v157) maximumf,
    binary main_v157 main_arg8 main_v158 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg9 main_v159 (broadcastInDim S1x64 ![1] bcast_S64_S1x64_1 : (⟨S64, .f32⟩ : BufTy).Contents (Elt F) → (⟨S1x64, .f32⟩ : BufTy).Contents (Elt F)),
    unary main_v159 main_v160 (broadcastInDim S800000x64 ![0, 1] bcast_S1x64_S800000x64_0_1 : (⟨S1x64, .f32⟩ : BufTy).Contents (Elt F) → (⟨S800000x64, .f32⟩ : BufTy).Contents (Elt F)),
    binary main_v158 main_v160 main_v161 (addf : (⟨S800000x64, .f32⟩ : BufTy).Contents (Elt F) → (⟨S800000x64, .f32⟩ : BufTy).Contents (Elt F) → (⟨S800000x64, .f32⟩ : BufTy).Contents (Elt F)),
    nullary main_cst_22 (constant S_ .f32 0x00000000#32),
    unary main_cst_22 main_v162 (broadcastInDim S50000x64 ![] bcast_S_S50000x64 : (⟨S_, .f32⟩ : BufTy).Contents (Elt F) → (⟨S50000x64, .f32⟩ : BufTy).Contents (Elt F)),
    unary main_v7 main_v163 (broadcastInDim S800000x1 ![0] bcast_S800000_S800000x1_0 : (⟨S800000, .i32⟩ : BufTy).Contents (Elt F) → (⟨S800000x1, .i32⟩ : BufTy).Contents (Elt F)),
    ternary main_v162 main_v163 main_v161 main_v164 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

abbrev cC : List (HloOp τ sig (Elt F)) :=
  [ unary main_arg10 main_v165 ((transpose S64x192 [1, 0] · transposes_S192x64_S64x192_1_0) : (⟨S192x64, .f32⟩ : BufTy).Contents (Elt F) → (⟨S64x192, .f32⟩ : BufTy).Contents (Elt F)),
    binary main_v164 main_v165 main_v166 ((fun l r => Host.dotGeneral dot_S50000x64_S64x192_S50000x192_1_0_0_1_n_n none l r) : (⟨S50000x64, .f32⟩ : BufTy).Contents (Elt F) → (⟨S64x192, .f32⟩ : BufTy).Contents (Elt F) → (⟨S50000x192, .f32⟩ : BufTy).Contents (Elt F)),
    unary main_arg11 main_v167 (broadcastInDim S1x192 ![1] bcast_S192_S1x192_1 : (⟨S192, .f32⟩ : BufTy).Contents (Elt F) → (⟨S1x192, .f32⟩ : BufTy).Contents (Elt F)),
    unary main_v167 main_v168 (broadcastInDim S50000x192 ![0, 1] bcast_S1x192_S50000x192_0_1 : (⟨S1x192, .f32⟩ : BufTy).Contents (Elt F) → (⟨S50000x192, .f32⟩ : BufTy).Contents (Elt F)),
    binary main_v166 main_v168 main_v169 (addf : (⟨S50000x192, .f32⟩ : BufTy).Contents (Elt F) → (⟨S50000x192, .f32⟩ : BufTy).Contents (Elt F) → (⟨S50000x192, .f32⟩ : BufTy).Contents (Elt F)),
    unary main_arg12 main_v170 ((transpose S64x192 [1, 0] · transposes_S192x64_S64x192_1_0) : (⟨S192x64, .f32⟩ : BufTy).Contents (Elt F) → (⟨S64x192, .f32⟩ : BufTy).Contents (Elt F)),
    binary main_v137 main_v170 main_v171 ((fun l r => Host.dotGeneral dot_S50000x64_S64x192_S50000x192_1_0_0_1_n_n none l r) : (⟨S50000x64, .f32⟩ : BufTy).Contents (Elt F) → (⟨S64x192, .f32⟩ : BufTy).Contents (Elt F) → (⟨S50000x192, .f32⟩ : BufTy).Contents (Elt F)),
    unary main_arg13 main_v172 (broadcastInDim S1x192 ![1] bcast_S192_S1x192_1 : (⟨S192, .f32⟩ : BufTy).Contents (Elt F) → (⟨S1x192, .f32⟩ : BufTy).Contents (Elt F)),
    unary main_v172 main_v173 (broadcastInDim S50000x192 ![0, 1] bcast_S1x192_S50000x192_0_1 : (⟨S1x192, .f32⟩ : BufTy).Contents (Elt F) → (⟨S50000x192, .f32⟩ : BufTy).Contents (Elt F)),
    binary main_v171 main_v173 main_v174 (addf : (⟨S50000x192, .f32⟩ : BufTy).Contents (Elt F) → (⟨S50000x192, .f32⟩ : BufTy).Contents (Elt F) → (⟨S50000x192, .f32⟩ : BufTy).Contents (Elt F)),
    unary main_v169 main_v175 ((extractStridedSlice S50000x64 ![0, 0] · slices_S50000x192_S50000x64_0_0) : (⟨S50000x192, .f32⟩ : BufTy).Contents (Elt F) → (⟨S50000x64, .f32⟩ : BufTy).Contents (Elt F)),
    unary main_v169 main_v176 ((extractStridedSlice S50000x64 ![0, 64] · slices_S50000x192_S50000x64_0_64) : (⟨S50000x192, .f32⟩ : BufTy).Contents (Elt F) → (⟨S50000x64, .f32⟩ : BufTy).Contents (Elt F)),
    unary main_v169 main_v177 ((extractStridedSlice S50000x64 ![0, 128] · slices_S50000x192_S50000x64_0_128) : (⟨S50000x192, .f32⟩ : BufTy).Contents (Elt F) → (⟨S50000x64, .f32⟩ : BufTy).Contents (Elt F)),
    unary main_v174 main_v178 ((extractStridedSlice S50000x64 ![0, 0] · slices_S50000x192_S50000x64_0_0) : (⟨S50000x192, .f32⟩ : BufTy).Contents (Elt F) → (⟨S50000x64, .f32⟩ : BufTy).Contents (Elt F)),
    unary main_v174 main_v179 ((extractStridedSlice S50000x64 ![0, 64] · slices_S50000x192_S50000x64_0_64) : (⟨S50000x192, .f32⟩ : BufTy).Contents (Elt F) → (⟨S50000x64, .f32⟩ : BufTy).Contents (Elt F)),
    unary main_v174 main_v180 ((extractStridedSlice S50000x64 ![0, 128] · slices_S50000x192_S50000x64_0_128) : (⟨S50000x192, .f32⟩ : BufTy).Contents (Elt F) → (⟨S50000x64, .f32⟩ : BufTy).Contents (Elt F)),
    binary main_v175 main_v178 main_v181 (addf : (⟨S50000x64, .f32⟩ : BufTy).Contents (Elt F) → (⟨S50000x64, .f32⟩ : BufTy).Contents (Elt F) → (⟨S50000x64, .f32⟩ : BufTy).Contents (Elt F)),
    unary main_v181 main_v182 (Host.negf : (⟨S50000x64, .f32⟩ : BufTy).Contents (Elt F) → (⟨S50000x64, .f32⟩ : BufTy).Contents (Elt F)),
    unary main_v182 main_v183 (Host.exp : (⟨S50000x64, .f32⟩ : BufTy).Contents (Elt F) → (⟨S50000x64, .f32⟩ : BufTy).Contents (Elt F)),
    nullary main_cst_23 (constant S_ .f32 0x3F800000#32),
    unary main_cst_23 main_v184 (broadcastInDim S50000x64 ![] bcast_S_S50000x64 : (⟨S_, .f32⟩ : BufTy).Contents (Elt F) → (⟨S50000x64, .f32⟩ : BufTy).Contents (Elt F)),
    binary main_v184 main_v183 main_v185 (addf : (⟨S50000x64, .f32⟩ : BufTy).Contents (Elt F) → (⟨S50000x64, .f32⟩ : BufTy).Contents (Elt F) → (⟨S50000x64, .f32⟩ : BufTy).Contents (Elt F)),
    nullary main_cst_24 (constant S_ .f32 0x3F800000#32),
    unary main_cst_24 main_v186 (broadcastInDim S50000x64 ![] bcast_S_S50000x64 : (⟨S_, .f32⟩ : BufTy).Contents (Elt F) → (⟨S50000x64, .f32⟩ : BufTy).Contents (Elt F)),
    binary main_v186 main_v185 main_v187 (Host.divf : (⟨S50000x64, .f32⟩ : BufTy).Contents (Elt F) → (⟨S50000x64, .f32⟩ : BufTy).Contents (Elt F) → (⟨S50000x64, .f32⟩ : BufTy).Contents (Elt F)),
    binary main_v176 main_v179 main_v188 (addf : (⟨S50000x64, .f32⟩ : BufTy).Contents (Elt F) → (⟨S50000x64, .f32⟩ : BufTy).Contents (Elt F) → (⟨S50000x64, .f32⟩ : BufTy).Contents (Elt F)),
    unary main_v188 main_v189 (Host.negf : (⟨S50000x64, .f32⟩ : BufTy).Contents (Elt F) → (⟨S50000x64, .f32⟩ : BufTy).Contents (Elt F)),
    unary main_v189 main_v190 (Host.exp : (⟨S50000x64, .f32⟩ : BufTy).Contents (Elt F) → (⟨S50000x64, .f32⟩ : BufTy).Contents (Elt F)),
    nullary main_cst_25 (constant S_ .f32 0x3F800000#32),
    unary main_cst_25 main_v191 (broadcastInDim S50000x64 ![] bcast_S_S50000x64 : (⟨S_, .f32⟩ : BufTy).Contents (Elt F) → (⟨S50000x64, .f32⟩ : BufTy).Contents (Elt F)),
    binary main_v191 main_v190 main_v192 (addf : (⟨S50000x64, .f32⟩ : BufTy).Contents (Elt F) → (⟨S50000x64, .f32⟩ : BufTy).Contents (Elt F) → (⟨S50000x64, .f32⟩ : BufTy).Contents (Elt F)),
    nullary main_cst_26 (constant S_ .f32 0x3F800000#32),
    unary main_cst_26 main_v193 (broadcastInDim S50000x64 ![] bcast_S_S50000x64 : (⟨S_, .f32⟩ : BufTy).Contents (Elt F) → (⟨S50000x64, .f32⟩ : BufTy).Contents (Elt F)),
    binary main_v193 main_v192 main_v194 (Host.divf : (⟨S50000x64, .f32⟩ : BufTy).Contents (Elt F) → (⟨S50000x64, .f32⟩ : BufTy).Contents (Elt F) → (⟨S50000x64, .f32⟩ : BufTy).Contents (Elt F)),
    binary main_v187 main_v180 main_v195 (mulf : (⟨S50000x64, .f32⟩ : BufTy).Contents (Elt F) → (⟨S50000x64, .f32⟩ : BufTy).Contents (Elt F) → (⟨S50000x64, .f32⟩ : BufTy).Contents (Elt F)),
    binary main_v177 main_v195 main_v196 (addf : (⟨S50000x64, .f32⟩ : BufTy).Contents (Elt F) → (⟨S50000x64, .f32⟩ : BufTy).Contents (Elt F) → (⟨S50000x64, .f32⟩ : BufTy).Contents (Elt F)),
    unary main_v196 main_v197 (Host.tanh : (⟨S50000x64, .f32⟩ : BufTy).Contents (Elt F) → (⟨S50000x64, .f32⟩ : BufTy).Contents (Elt F)),
    nullary main_cst_27 (constant S_ .f32 0x3F800000#32),
    unary main_cst_27 main_v198 (broadcastInDim S50000x64 ![] bcast_S_S50000x64 : (⟨S_, .f32⟩ : BufTy).Contents (Elt F) → (⟨S50000x64, .f32⟩ : BufTy).Contents (Elt F)),
    binary main_v198 main_v194 main_v199 (subf : (⟨S50000x64, .f32⟩ : BufTy).Contents (Elt F) → (⟨S50000x64, .f32⟩ : BufTy).Contents (Elt F) → (⟨S50000x64, .f32⟩ : BufTy).Contents (Elt F)),
    binary main_v199 main_v197 main_v200 (mulf : (⟨S50000x64, .f32⟩ : BufTy).Contents (Elt F) → (⟨S50000x64, .f32⟩ : BufTy).Contents (Elt F) → (⟨S50000x64, .f32⟩ : BufTy).Contents (Elt F)),
    binary main_v194 main_v137 main_v201 (mulf : (⟨S50000x64, .f32⟩ : BufTy).Contents (Elt F) → (⟨S50000x64, .f32⟩ : BufTy).Contents (Elt F) → (⟨S50000x64, .f32⟩ : BufTy).Contents (Elt F)),
    binary main_v200 main_v201 main_v202 (addf : (⟨S50000x64, .f32⟩ : BufTy).Contents (Elt F) → (⟨S50000x64, .f32⟩ : BufTy).Contents (Elt F) → (⟨S50000x64, .f32⟩ : BufTy).Contents (Elt F)) ]

abbrev c3 : List (HloOp τ sig (Elt F)) := cA ++ (cB ++ cC)

abbrev w3 : List (Ref sig .tc) := [main_c_18, main_v138, main_v139, main_c_19, main_v140, main_v141, main_v142, main_v143, main_v144, main_c_20, main_v145, main_v146, main_c_21, main_v147, main_v148, main_v149, main_v150, main_v151, main_v152, main_v153, main_v154, main_v155, main_v156, main_call2_cst, main_call2_v0, main_v157, main_v158, main_v159, main_v160, main_v161, main_cst_22, main_v162, main_v163, main_v164, main_v165, main_v166, main_v167, main_v168, main_v169, main_v170, main_v171, main_v172, main_v173, main_v174, main_v175, main_v176, main_v177, main_v178, main_v179, main_v180, main_v181, main_v182, main_v183, main_cst_23, main_v184, main_v185, main_cst_24, main_v186, main_v187, main_v188, main_v189, main_v190, main_cst_25, main_v191, main_v192, main_cst_26, main_v193, main_v194, main_v195, main_v196, main_v197, main_cst_27, main_v198, main_v199, main_v200, main_v201, main_v202]

theorem c3_writes : (c3 : List (HloOp τ sig (Elt F))).Forall fun op => op.writes ⊆ (w3.map (Proc.devRef (τ := τ) .tc)).toFinset := by
  simp only [c3, cA, cB, cC, List.cons_append, List.nil_append, List.Forall, nullary_writes, unary_writes, binary_writes, ternary_writes, nary_writes, Finset.singleton_subset_iff]
  repeat' apply And.intro
  all_goals exact List.mem_toFinset.mpr (List.mem_map.mpr ⟨_, by decide, rfl⟩)

theorem nary3_result' {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

variable (V : Valuation τ sig (Elt F)) (x0 : (⟨S50000x32, .f32⟩ : BufTy).Contents (Elt F)) (x1 : (⟨S2x800000, .i32⟩ : BufTy).Contents (Elt F)) (x2 : (⟨S800000x16, .f32⟩ : BufTy).Contents (Elt F)) (x4 : (⟨S32x64, .f32⟩ : BufTy).Contents (Elt F)) (x5 : (⟨S64, .f32⟩ : BufTy).Contents (Elt F)) (x6 : (⟨S144x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S192x64, .f32⟩ : BufTy).Contents (Elt F)) (x11 : (⟨S192, .f32⟩ : BufTy).Contents (Elt F)) (x12 : (⟨S192x64, .f32⟩ : BufTy).Contents (Elt F)) (x13 : (⟨S192, .f32⟩ : BufTy).Contents (Elt F))

theorem cA_v144 (hh : V (Proc.devRef .tc main_v137) = ReadP.val_main_v137 (F := F) x0 x1 x2 x4 x5 x6 x7 x8 x9 x10 x11 x12 x13) (h5 : V (Proc.devRef .tc main_v5) = ReadP.val_main_v5 (F := F) x1) :
    after cA V (Proc.devRef .tc main_v144) = ReadP.val_main_v144 (F := F) x0 x1 x2 x4 x5 x6 x7 x8 x9 x10 x11 x12 x13 := by
  after_results_simp
  rw [hh, h5]
  rfl

theorem cA_v151 (hh : V (Proc.devRef .tc main_v137) = ReadP.val_main_v137 (F := F) x0 x1 x2 x4 x5 x6 x7 x8 x9 x10 x11 x12 x13) (h7 : V (Proc.devRef .tc main_v7) = ReadP.val_main_v7 (F := F) x1) :
    after cA V (Proc.devRef .tc main_v151) = ReadP.val_main_v151 (F := F) x0 x1 x2 x4 x5 x6 x7 x8 x9 x10 x11 x12 x13 := by
  after_results_simp
  rw [hh, h7]
  rfl

theorem cB_v164 (h1 : V (Proc.devRef .tc main_v144) = ReadP.val_main_v144 (F := F) x0 x1 x2 x4 x5 x6 x7 x8 x9 x10 x11 x12 x13) (h2 : V (Proc.devRef .tc main_v151) = ReadP.val_main_v151 (F := F) x0 x1 x2 x4 x5 x6 x7 x8 x9 x10 x11 x12 x13) (h7 : V (Proc.devRef .tc main_v7) = ReadP.val_main_v7 (F := F) x1)
    (ha2 : V (Proc.devRef .tc main_arg2) = x2) (ha6 : V (Proc.devRef .tc main_arg6) = x6) (ha7 : V (Proc.devRef .tc main_arg7) = x7) (ha8 : V (Proc.devRef .tc main_arg8) = x8) (ha9 : V (Proc.devRef .tc main_arg9) = x9) :
    after cB V (Proc.devRef .tc main_v164) = ReadP.val_main_v164 (F := F) x0 x1 x2 x4 x5 x6 x7 x8 x9 x10 x11 x12 x13 := by
  simp (disch := decide) only [after_cons, after_nil, nullary_result', unary_result', binary_result', ternary_result',
    nary3_result', nullary_result_ne', unary_result_ne', binary_result_ne', ternary_result_ne', nary_result_ne']
  rw [h1, h2, h7, ha2, ha6, ha7, ha8, ha9]
  rfl

theorem cC_v202 (hs : V (Proc.devRef .tc main_v164) = ReadP.val_main_v164 (F := F) x0 x1 x2 x4 x5 x6 x7 x8 x9 x10 x11 x12 x13) (hh : V (Proc.devRef .tc main_v137) = ReadP.val_main_v137 (F := F) x0 x1 x2 x4 x5 x6 x7 x8 x9 x10 x11 x12 x13)
    (ha10 : V (Proc.devRef .tc main_arg10) = x10) (ha11 : V (Proc.devRef .tc main_arg11) = x11) (ha12 : V (Proc.devRef .tc main_arg12) = x12) (ha13 : V (Proc.devRef .tc main_arg13) = x13) :
    after cC V (Proc.devRef .tc main_v202) = ReadP.val_main_v202 (F := F) x0 x1 x2 x4 x5 x6 x7 x8 x9 x10 x11 x12 x13 := by
  after_results_simp
  rw [hs, hh, ha10, ha11, ha12, ha13]
  rfl

/-- One message-passing step: each part leaves alone every buffer a later part still reads from the entry. -/
theorem h_next (hh : V (Proc.devRef .tc main_v137) = ReadP.val_main_v137 (F := F) x0 x1 x2 x4 x5 x6 x7 x8 x9 x10 x11 x12 x13) (h5 : V (Proc.devRef .tc main_v5) = ReadP.val_main_v5 (F := F) x1) (h7 : V (Proc.devRef .tc main_v7) = ReadP.val_main_v7 (F := F) x1)
    (ha2 : V (Proc.devRef .tc main_arg2) = x2) (ha6 : V (Proc.devRef .tc main_arg6) = x6) (ha7 : V (Proc.devRef .tc main_arg7) = x7) (ha8 : V (Proc.devRef .tc main_arg8) = x8) (ha9 : V (Proc.devRef .tc main_arg9) = x9) (ha10 : V (Proc.devRef .tc main_arg10) = x10) (ha11 : V (Proc.devRef .tc main_arg11) = x11) (ha12 : V (Proc.devRef .tc main_arg12) = x12) (ha13 : V (Proc.devRef .tc main_arg13) = x13) :
    after c3 V (Proc.devRef .tc main_v202) = ReadP.val_main_v202 (F := F) x0 x1 x2 x4 x5 x6 x7 x8 x9 x10 x11 x12 x13 := by
  rw [after_append, after_append]
  have kA : ∀ r : Ref sig .tc, r ∉ w3 → after cA V (Proc.devRef .tc r) = V (Proc.devRef .tc r) :=
    fun r hr => after_of_writes_sub cA V (List.forall_append.mp c3_writes).1 hr
  have kB : ∀ r : Ref sig .tc, r ∉ w3 → after cB (after cA V) (Proc.devRef .tc r) = after cA V (Proc.devRef .tc r) :=
    fun r hr => after_of_writes_sub cB _ (List.forall_append.mp (List.forall_append.mp c3_writes).2).1 hr
  refine cC_v202 _ x0 x1 x2 x4 x5 x6 x7 x8 x9 x10 x11 x12 x13 ?_ ?_ ?_ ?_ ?_ ?_
  · refine cB_v164 _ x0 x1 x2 x4 x5 x6 x7 x8 x9 x10 x11 x12 x13 (cA_v144 V x0 x1 x2 x4 x5 x6 x7 x8 x9 x10 x11 x12 x13 hh h5) (cA_v151 V x0 x1 x2 x4 x5 x6 x7 x8 x9 x10 x11 x12 x13 hh h7) ?_ ?_ ?_ ?_ ?_ ?_
    · exact (kA main_v7 (by decide)).trans h7
    · exact (kA main_arg2 (by decide)).trans ha2
    · exact (kA main_arg6 (by decide)).trans ha6
    · exact (kA main_arg7 (by decide)).trans ha7
    · exact (kA main_arg8 (by decide)).trans ha8
    · exact (kA main_arg9 (by decide)).trans ha9
  · exact ((kB main_v137 (by decide)).trans (kA main_v137 (by decide))).trans hh
  · exact ((kB main_arg10 (by decide)).trans (kA main_arg10 (by decide))).trans ha10
  · exact ((kB main_arg11 (by decide)).trans (kA main_arg11 (by decide))).trans ha11
  · exact ((kB main_arg12 (by decide)).trans (kA main_arg12 (by decide))).trans ha12
  · exact ((kB main_arg13 (by decide)).trans (kA main_arg13 (by decide))).trans ha13

end Cert.ReferenceIdeal.RefC3

end
-- ==== Proof.RefC4.lean ====
import proofs.«423451_j81475529605767_1_alg».proof.Proof.ReadP
import Idealize.ShloMosaic.Lib.StableHlo.Run

noncomputable section

namespace Cert.ReferenceIdeal.RefC4

open Cert.ReferenceIdeal Cert.ReferenceIdeal.Gen Idealize.ShloMosaic Idealize.ShloMosaic.TcCoe Idealize.SL.Sem Idealize.ShloMosaic.StableHlo

variable {F : FTy → Type} [FloatOps F]

abbrev c4a : List (HloOp τ sig (Elt F)) :=
  [ nullary main_cst_28 (constant S_ .f32 0x00000000#32),
    unary main_cst_28 main_v203 (broadcastInDim S256x64 ![] bcast_S_S256x64 : (⟨S_, .f32⟩ : BufTy).Contents (Elt F) → (⟨S256x64, .f32⟩ : BufTy).Contents (Elt F)),
    unary main_arg3 main_v204 (broadcastInDim S50000x1 ![0] bcast_S50000_S50000x1_0 : (⟨S50000, .i32⟩ : BufTy).Contents (Elt F) → (⟨S50000x1, .i32⟩ : BufTy).Contents (Elt F)),
    ternary main_v203 main_v204 main_v202 main_v205 ((fun x i u => Host.scatterAdd scatter_S256x64_S50000x1_S50000x64_1_0_0_1 x i u) : (⟨S256x64, .f32⟩ : BufTy).Contents (Elt F) → (⟨S50000x1, .i32⟩ : BufTy).Contents (Elt F) → (⟨S50000x64, .f32⟩ : BufTy).Contents (Elt F) → (⟨S256x64, .f32⟩ : BufTy).Contents (Elt F)),
    nullary main_cst_29 (constant S_ .f32 0x3F800000#32),
    unary main_cst_29 main_v206 (broadcastInDim S50000 ![] bcast_S_S50000 : (⟨S_, .f32⟩ : BufTy).Contents (Elt F) → (⟨S50000, .f32⟩ : BufTy).Contents (Elt F)),
    nullary main_cst_30 (constant S_ .f32 0x00000000#32),
    unary main_cst_30 main_v207 (broadcastInDim S256 ![] bcast_S_S256 : (⟨S_, .f32⟩ : BufTy).Contents (Elt F) → (⟨S256, .f32⟩ : BufTy).Contents (Elt F)),
    unary main_arg3 main_v208 (broadcastInDim S50000x1 ![0] bcast_S50000_S50000x1_0 : (⟨S50000, .i32⟩ : BufTy).Contents (Elt F) → (⟨S50000x1, .i32⟩ : BufTy).Contents (Elt F)),
    ternary main_v207 main_v208 main_v206 main_v209 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    nullary main_cst_31 (constant S_ .f32 0x3F800000#32),
    unary main_cst_31 main_v210 (broadcastInDim S256 ![] bcast_S_S256 : (⟨S_, .f32⟩ : BufTy).Contents (Elt F) → (⟨S256, .f32⟩ : BufTy).Contents (Elt F)),
    binary main_v209 main_v210 main_v211 (maximumf : (⟨S256, .f32⟩ : BufTy).Contents (Elt F) → (⟨S256, .f32⟩ : BufTy).Contents (Elt F) → (⟨S256, .f32⟩ : BufTy).Contents (Elt F)),
    unary main_v211 main_v212 (broadcastInDim S256x1 ![0] bcast_S256_S256x1_0 : (⟨S256, .f32⟩ : BufTy).Contents (Elt F) → (⟨S256x1, .f32⟩ : BufTy).Contents (Elt F)),
    unary main_v212 main_v213 (broadcastInDim S256x64 ![0, 1] bcast_S256x1_S256x64_0_1 : (⟨S256x1, .f32⟩ : BufTy).Contents (Elt F) → (⟨S256x64, .f32⟩ : BufTy).Contents (Elt F)),
    binary main_v205 main_v213 main_v214 (Host.divf : (⟨S256x64, .f32⟩ : BufTy).Contents (Elt F) → (⟨S256x64, .f32⟩ : BufTy).Contents (Elt F) → (⟨S256x64, .f32⟩ : BufTy).Contents (Elt F)) ]

abbrev c4b : List (HloOp τ sig (Elt F)) :=
  [ binary main_v205 main_v214 main_v215 ((fun a b => concatenate S256x128 1 [⟨S256x64, a⟩, ⟨S256x64, b⟩] concatenates_S256x64_S256x64_S256x128_d1) : (⟨S256x64, .f32⟩ : BufTy).Contents (Elt F) → (⟨S256x64, .f32⟩ : BufTy).Contents (Elt F) → (⟨S256x128, .f32⟩ : BufTy).Contents (Elt F)),
    binary main_v215 main_arg14 main_v216 ((fun l r => Host.dotGeneral dot_S256x128_S128x64_S256x64_1_0_0_1_n_n none l r) : (⟨S256x128, .f32⟩ : BufTy).Contents (Elt F) → (⟨S128x64, .f32⟩ : BufTy).Contents (Elt F) → (⟨S256x64, .f32⟩ : BufTy).Contents (Elt F)),
    unary main_arg15 main_v217 (broadcastInDim S1x64 ![1] bcast_S64_S1x64_1 : (⟨S64, .f32⟩ : BufTy).Contents (Elt F) → (⟨S1x64, .f32⟩ : BufTy).Contents (Elt F)),
    unary main_v217 main_v218 (broadcastInDim S256x64 ![0, 1] bcast_S1x64_S256x64_0_1 : (⟨S1x64, .f32⟩ : BufTy).Contents (Elt F) → (⟨S256x64, .f32⟩ : BufTy).Contents (Elt F)),
    binary main_v216 main_v218 main_v219 (addf : (⟨S256x64, .f32⟩ : BufTy).Contents (Elt F) → (⟨S256x64, .f32⟩ : BufTy).Contents (Elt F) → (⟨S256x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S256x64, .f32⟩) main_call3_v0) (broadcastInDim S256x64 ![] bcast_S_S256x64),
    TRef.binary (TRef.of (T := ⟨S256x64, .f32⟩) main_v219) (TRef.of (T := ⟨S256x64, .f32⟩) main_call3_v0) (TRef.of (T := ⟨S256x64, .f32⟩) main_v220) maximumf,
    binary main_v220 main_arg16 main_v221 ((fun l r => Host.dotGeneral dot_S256x64_S64x1_S256x1_1_0_0_1_n_n none l r) : (⟨S256x64, .f32⟩ : BufTy).Contents (Elt F) → (⟨S64x1, .f32⟩ : BufTy).Contents (Elt F) → (⟨S256x1, .f32⟩ : BufTy).Contents (Elt F)),
    unary main_arg17 main_v222 (broadcastInDim S1x1 ![1] bcast_S1_S1x1_1 : (⟨S1, .f32⟩ : BufTy).Contents (Elt F) → (⟨S1x1, .f32⟩ : BufTy).Contents (Elt F)),
    unary main_v222 main_v223 (broadcastInDim S256x1 ![0, 1] bcast_S1x1_S256x1_0_1 : (⟨S1x1, .f32⟩ : BufTy).Contents (Elt F) → (⟨S256x1, .f32⟩ : BufTy).Contents (Elt F)),
    binary main_v221 main_v223 main_v224 (addf : (⟨S256x1, .f32⟩ : BufTy).Contents (Elt F) → (⟨S256x1, .f32⟩ : BufTy).Contents (Elt F) → (⟨S256x1, .f32⟩ : BufTy).Contents (Elt F)) ]

abbrev c4 : List (HloOp τ sig (Elt F)) := c4a ++ c4b

abbrev w4 : List (Ref sig .tc) := [main_cst_28, main_v203, main_v204, main_v205, main_cst_29, main_v206, main_cst_30, main_v207, main_v208, main_v209, main_cst_31, main_v210, main_v211, main_v212, main_v213, main_v214, main_v215, main_v216, main_v217, main_v218, main_v219, main_call3_cst, main_call3_v0, main_v220, main_v221, main_v222, main_v223, main_v224]

theorem c4_writes : (c4 : List (HloOp τ sig (Elt F))).Forall fun op => op.writes ⊆ (w4.map (Proc.devRef (τ := τ) .tc)).toFinset := by
  simp only [c4, c4a, c4b, List.cons_append, List.nil_append, List.Forall, nullary_writes, unary_writes, binary_writes, ternary_writes, Finset.singleton_subset_iff]
  repeat' apply And.intro
  all_goals exact List.mem_toFinset.mpr (List.mem_map.mpr ⟨_, by decide, rfl⟩)

section
variable (W : Valuation τ sig (Elt Ideal)) (x0 : (⟨S50000x32, .f32⟩ : BufTy).Contents (Elt Ideal)) (x1 : (⟨S2x800000, .i32⟩ : BufTy).Contents (Elt Ideal)) (x2 : (⟨S800000x16, .f32⟩ : BufTy).Contents (Elt Ideal)) (x3 : (⟨S50000, .i32⟩ : BufTy).Contents (Elt Ideal)) (x4 : (⟨S32x64, .f32⟩ : BufTy).Contents (Elt Ideal)) (x5 : (⟨S64, .f32⟩ : BufTy).Contents (Elt Ideal)) (x6 : (⟨S144x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S192x64, .f32⟩ : BufTy).Contents (Elt Ideal)) (x11 : (⟨S192, .f32⟩ : BufTy).Contents (Elt Ideal)) (x12 : (⟨S192x64, .f32⟩ : BufTy).Contents (Elt Ideal)) (x13 : (⟨S192, .f32⟩ : BufTy).Contents (Elt Ideal)) (x14 : (⟨S128x64, .f32⟩ : BufTy).Contents (Elt Ideal)) (x15 : (⟨S64, .f32⟩ : BufTy).Contents (Elt Ideal)) (x16 : (⟨S64x1, .f32⟩ : BufTy).Contents (Elt Ideal)) (x17 : (⟨S1, .f32⟩ : BufTy).Contents (Elt Ideal))

theorem a205 (hh : W (Proc.devRef .tc main_v202) = ReadP.val_main_v202 (F := Ideal) x0 x1 x2 x4 x5 x6 x7 x8 x9 x10 x11 x12 x13) (ha3 : W (Proc.devRef .tc main_arg3) = x3) :
    after c4a W (Proc.devRef .tc main_v205) = ReadP.val_main_v205 (F := Ideal) x0 x1 x2 x3 x4 x5 x6 x7 x8 x9 x10 x11 x12 x13 := by
  after_results_simp
  rw [hh, ha3]
  rfl

theorem a214 (hh : W (Proc.devRef .tc main_v202) = ReadP.val_main_v202 (F := Ideal) x0 x1 x2 x4 x5 x6 x7 x8 x9 x10 x11 x12 x13) (ha3 : W (Proc.devRef .tc main_arg3) = x3) :
    after c4a W (Proc.devRef .tc main_v214) = ReadP.val_main_v214 (F := Ideal) x0 x1 x2 x3 x4 x5 x6 x7 x8 x9 x10 x11 x12 x13 := by
  after_results_simp
  rw [hh, ha3]
  rfl

set_option maxRecDepth 8192 in
theorem b224 (h205 : W (Proc.devRef .tc main_v205) = ReadP.val_main_v205 (F := Ideal) x0 x1 x2 x3 x4 x5 x6 x7 x8 x9 x10 x11 x12 x13)
    (h214 : W (Proc.devRef .tc main_v214) = ReadP.val_main_v214 (F := Ideal) x0 x1 x2 x3 x4 x5 x6 x7 x8 x9 x10 x11 x12 x13)
    (ha14 : W (Proc.devRef .tc main_arg14) = x14) (ha15 : W (Proc.devRef .tc main_arg15) = x15) (ha16 : W (Proc.devRef .tc main_arg16) = x16) (ha17 : W (Proc.devRef .tc main_arg17) = x17) :
    after c4b W (Proc.devRef .tc main_v224) = ReadP.val_main_v224 (F := Ideal) x0 x1 x2 x3 x4 x5 x6 x7 x8 x9 x10 x11 x12 x13 x14 x15 x16 x17 := by
  after_results_simp
  rw [h205, h214, ha14, ha15, ha16, ha17]
  rfl

/-- The readout's first part writes none of the four arguments its second part reads. -/
theorem v224 (hh : W (Proc.devRef .tc main_v202) = ReadP.val_main_v202 (F := Ideal) x0 x1 x2 x4 x5 x6 x7 x8 x9 x10 x11 x12 x13)
    (ha3 : W (Proc.devRef .tc main_arg3) = x3) (ha14 : W (Proc.devRef .tc main_arg14) = x14) (ha15 : W (Proc.devRef .tc main_arg15) = x15) (ha16 : W (Proc.devRef .tc main_arg16) = x16) (ha17 : W (Proc.devRef .tc main_arg17) = x17) :
    after c4 W (Proc.devRef .tc main_v224) = ReadP.val_main_v224 (F := Ideal) x0 x1 x2 x3 x4 x5 x6 x7 x8 x9 x10 x11 x12 x13 x14 x15 x16 x17 := by
  rw [after_append]
  have k : ∀ r : Ref sig .tc, r ∉ w4 → after c4a W (Proc.devRef .tc r) = W (Proc.devRef .tc r) :=
    fun r hr => after_of_writes_sub c4a W (List.forall_append.mp c4_writes).1 hr
  exact b224 (after c4a W) x0 x1 x2 x3 x4 x5 x6 x7 x8 x9 x10 x11 x12 x13 x14 x15 x16 x17 (a205 W x0 x1 x2 x3 x4 x5 x6 x7 x8 x9 x10 x11 x12 x13 hh ha3) (a214 W x0 x1 x2 x3 x4 x5 x6 x7 x8 x9 x10 x11 x12 x13 hh ha3)
    ((k main_arg14 (by decide)).trans ha14) ((k main_arg15 (by decide)).trans ha15) ((k main_arg16 (by decide)).trans ha16) ((k main_arg17 (by decide)).trans ha17)
end

end Cert.ReferenceIdeal.RefC4

end
-- ==== Proof.RefRun.lean ====
import proofs.«423451_j81475529605767_1_alg».proof.Proof.RefC0
import proofs.«423451_j81475529605767_1_alg».proof.Proof.RefC1
import proofs.«423451_j81475529605767_1_alg».proof.Proof.RefC2
import proofs.«423451_j81475529605767_1_alg».proof.Proof.RefC3
import proofs.«423451_j81475529605767_1_alg».proof.Proof.RefC4
import proofs.«423451_j81475529605767_1_alg».proof.Proof.RunRawP

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP (ops run_raw)
open Cert.ReferenceIdeal.RefC0 (c0 c0_writes)
open Cert.ReferenceIdeal.RefC1 (c1 c1_writes)
open Cert.ReferenceIdeal.RefC2 (c2 c2_writes)
open Cert.ReferenceIdeal.RefC3 (c3 c3_writes)
open Cert.ReferenceIdeal.RefC4 (c4 c4_writes)

set_option maxRecDepth 8192 in
theorem ops_eq : (ops : List (HloOp τ sig (Elt Ideal))) = c0 ++ (c1 ++ (c2 ++ (c3 ++ c4))) := rfl

section Boundaries

variable (m : (ℓ : Loc nD τ sig) → Buf (Elt Ideal) ℓ) (c : Dev nD)

abbrev V0 : Valuation τ sig (Elt Ideal) := launchContents m c
abbrev V1 : Valuation τ sig (Elt Ideal) := after c0 (V0 m c)
abbrev V2 : Valuation τ sig (Elt Ideal) := after c1 (V1 m c)
abbrev V3 : Valuation τ sig (Elt Ideal) := after c2 (V2 m c)
abbrev V4 : Valuation τ sig (Elt Ideal) := after c3 (V3 m c)
abbrev V5 : Valuation τ sig (Elt Ideal) := after c4 (V4 m c)

theorem after_ops : after ops (launchContents m c) = V5 m c := by
  rw [ops_eq, after_append, after_append, after_append, after_append]

abbrev X (r : Ref sig .tc) := m ((c.tc : Thread nD τ).loc r)

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17]

def ArgsAt (V : Valuation τ sig (Elt Ideal)) : Prop := ∀ r ∈ args, V (Proc.devRef .tc r) = X m c r

/-- A stretch that writes no argument leaves every argument at its launch contents. -/
theorem keepArgs {l : List (HloOp τ sig (Elt Ideal))} {w : List (Ref sig .tc)}
    (hw : l.Forall fun op => op.writes ⊆ (w.map (Proc.devRef (τ := τ) .tc)).toFinset) (hd : ∀ r ∈ args, r ∉ w)
    (V : Valuation τ sig (Elt Ideal)) (h : ArgsAt m c V) : ArgsAt m c (after l V) :=
  fun r hr => (after_of_writes_sub l V hw (hd r hr)).trans (h r hr)

theorem args1 : ArgsAt m c (V1 m c) := keepArgs m c c0_writes (by decide) _ fun _ _ => rfl
theorem args2 : ArgsAt m c (V2 m c) := keepArgs m c c1_writes (by decide) _ (args1 m c)
theorem args3 : ArgsAt m c (V3 m c) := keepArgs m c c2_writes (by decide) _ (args2 m c)
theorem args4 : ArgsAt m c (V4 m c) := keepArgs m c c3_writes (by decide) _ (args3 m c)
theorem args5 : ArgsAt m c (V5 m c) := keepArgs m c c4_writes (by decide) _ (args4 m c)

theorem s3 : V1 m c (Proc.devRef .tc main_v3) = ReadP.val_main_v3 (F := Ideal) (X m c main_arg0) (X m c main_arg4) (X m c main_arg5) :=
  RefC0.v3 (V0 m c) _ _ _ rfl rfl rfl
theorem s5_1 : V1 m c (Proc.devRef .tc main_v5) = ReadP.val_main_v5 (F := Ideal) (X m c main_arg1) := RefC0.v5 (V0 m c) _ rfl
theorem s7_1 : V1 m c (Proc.devRef .tc main_v7) = ReadP.val_main_v7 (F := Ideal) (X m c main_arg1) := RefC0.v7 (V0 m c) _ rfl
theorem s5_2 : V2 m c (Proc.devRef .tc main_v5) = ReadP.val_main_v5 (F := Ideal) (X m c main_arg1) :=
  (after_of_writes_sub c1 _ c1_writes (by decide)).trans (s5_1 m c)
theorem s7_2 : V2 m c (Proc.devRef .tc main_v7) = ReadP.val_main_v7 (F := Ideal) (X m c main_arg1) :=
  (after_of_writes_sub c1 _ c1_writes (by decide)).trans (s7_1 m c)
theorem s5_3 : V3 m c (Proc.devRef .tc main_v5) = ReadP.val_main_v5 (F := Ideal) (X m c main_arg1) :=
  (after_of_writes_sub c2 _ c2_writes (by decide)).trans (s5_2 m c)
theorem s7_3 : V3 m c (Proc.devRef .tc main_v7) = ReadP.val_main_v7 (F := Ideal) (X m c main_arg1) :=
  (after_of_writes_sub c2 _ c2_writes (by decide)).trans (s7_2 m c)

theorem s72 : V2 m c (Proc.devRef .tc main_v72) = ReadP.val_main_v72 (F := Ideal) (X m c main_arg0) (X m c main_arg1) (X m c main_arg2) (X m c main_arg4) (X m c main_arg5) (X m c main_arg6) (X m c main_arg7) (X m c main_arg8) (X m c main_arg9) (X m c main_arg10) (X m c main_arg11) (X m c main_arg12) (X m c main_arg13) :=
  RefC1.h_next (F := Ideal) (V := V1 m c) (hh := s3 m c) (h5 := s5_1 m c) (h7 := s7_1 m c)
    (ha2 := args1 m c main_arg2 (by decide)) (ha6 := args1 m c main_arg6 (by decide)) (ha7 := args1 m c main_arg7 (by decide)) (ha8 := args1 m c main_arg8 (by decide)) (ha9 := args1 m c main_arg9 (by decide)) (ha10 := args1 m c main_arg10 (by decide)) (ha11 := args1 m c main_arg11 (by decide)) (ha12 := args1 m c main_arg12 (by decide)) (ha13 := args1 m c main_arg13 (by decide))
theorem s137 : V3 m c (Proc.devRef .tc main_v137) = ReadP.val_main_v137 (F := Ideal) (X m c main_arg0) (X m c main_arg1) (X m c main_arg2) (X m c main_arg4) (X m c main_arg5) (X m c main_arg6) (X m c main_arg7) (X m c main_arg8) (X m c main_arg9) (X m c main_arg10) (X m c main_arg11) (X m c main_arg12) (X m c main_arg13) :=
  RefC2.h_next (F := Ideal) (V := V2 m c) (hh := s72 m c) (h5 := s5_2 m c) (h7 := s7_2 m c)
    (ha2 := args2 m c main_arg2 (by decide)) (ha6 := args2 m c main_arg6 (by decide)) (ha7 := args2 m c main_arg7 (by decide)) (ha8 := args2 m c main_arg8 (by decide)) (ha9 := args2 m c main_arg9 (by decide)) (ha10 := args2 m c main_arg10 (by decide)) (ha11 := args2 m c main_arg11 (by decide)) (ha12 := args2 m c main_arg12 (by decide)) (ha13 := args2 m c main_arg13 (by decide))
theorem s202 : V4 m c (Proc.devRef .tc main_v202) = ReadP.val_main_v202 (F := Ideal) (X m c main_arg0) (X m c main_arg1) (X m c main_arg2) (X m c main_arg4) (X m c main_arg5) (X m c main_arg6) (X m c main_arg7) (X m c main_arg8) (X m c main_arg9) (X m c main_arg10) (X m c main_arg11) (X m c main_arg12) (X m c main_arg13) :=
  RefC3.h_next (F := Ideal) (V := V3 m c) (hh := s137 m c) (h5 := s5_3 m c) (h7 := s7_3 m c)
    (ha2 := args3 m c main_arg2 (by decide)) (ha6 := args3 m c main_arg6 (by decide)) (ha7 := args3 m c main_arg7 (by decide)) (ha8 := args3 m c main_arg8 (by decide)) (ha9 := args3 m c main_arg9 (by decide)) (ha10 := args3 m c main_arg10 (by decide)) (ha11 := args3 m c main_arg11 (by decide)) (ha12 := args3 m c main_arg12 (by decide)) (ha13 := args3 m c main_arg13 (by decide))
theorem s224 : V5 m c (Proc.devRef .tc main_v224) = ReadP.val_main_v224 (F := Ideal) (X m c main_arg0) (X m c main_arg1) (X m c main_arg2) (X m c main_arg3) (X m c main_arg4) (X m c main_arg5) (X m c main_arg6) (X m c main_arg7) (X m c main_arg8) (X m c main_arg9) (X m c main_arg10) (X m c main_arg11) (X m c main_arg12) (X m c main_arg13) (X m c main_arg14) (X m c main_arg15) (X m c main_arg16) (X m c main_arg17) :=
  RefC4.v224 (W := V4 m c) (hh := s202 m c) (ha3 := args4 m c main_arg3 (by decide)) (ha14 := args4 m c main_arg14 (by decide)) (ha15 := args4 m c main_arg15 (by decide)) (ha16 := args4 m c main_arg16 (by decide)) (ha17 := args4 m c main_arg17 (by decide))

end Boundaries

/-- Every run of the reference ends with the result at the whole program's staged value and every argument unchanged. -/
theorem run (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c.tc : Thread nD τ).loc main_v224) = Cert.ReferenceIdeal.ReadP.val_main_v224 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun r h c =>
      have e : ∀ b : Ref sig .tc, r.2.mem ((c.tc : Thread nD τ).loc b) = V5 m c (Proc.devRef .tc b) :=
        fun b => (h c b).trans (congrFun (after_ops m c) (Proc.devRef .tc b))
      have a : ∀ b ∈ args, r.2.mem ((c.tc : Thread nD τ).loc b) = m ((c.tc : Thread nD τ).loc b) :=
        fun b hb => (e b).trans (args5 m c b hb)
      ⟨(e main_v224).trans (s224 m c), a main_arg0 (by decide), a main_arg1 (by decide), a main_arg2 (by decide), a main_arg3 (by decide), a main_arg4 (by decide), a main_arg5 (by decide), a main_arg6 (by decide), a main_arg7 (by decide), a main_arg8 (by decide), a main_arg9 (by decide), a main_arg10 (by decide), a main_arg11 (by decide), a main_arg12 (by decide), a main_arg13 (by decide), a main_arg14 (by decide), a main_arg15 (by decide), a main_arg16 (by decide), a main_arg17 (by decide)⟩)
    (run_raw m ρ)

end Cert.ReferenceIdeal.RefRun

end
-- ==== Proof.Range.lean ====
import proofs.«423451_j81475529605767_1_alg».proof.Defs
import proofs.«423451_j81475529605767_1_alg».proof.Proof.Gen.Pre_finite_inputs
import Idealize.ShloMosaic.Lib.ReduceAll

noncomputable section

namespace Cert.KD.Range

open Idealize.ShloMosaic Idealize.SL.Sem

instance scalarIdx_subsingleton : Subsingleton Cert.Pre_finite_inputs.S_.Idx := ⟨fun a b => funext fun d => d.elim0⟩

theorem edge_in_range (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) (i : Cert.KernelIdeal.S2x800000.Idx) :
    IntOp.cmpi .sge (m ((c.tc : Thread Cert.KernelIdeal.nD Cert.KernelIdeal.τ).loc Cert.KernelIdeal.main_arg1) i) 0#32 = 1#1
    ∧ IntOp.cmpi .slt (m ((c.tc : Thread Cert.KernelIdeal.nD Cert.KernelIdeal.τ).loc Cert.KernelIdeal.main_arg1) i) 50000#32 = 1#1 := by

  have h := congrFun (hpre c) (fun d => d.elim0)
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h

  have hall := (IntOp.andi_eq_one.1 h).2

  have hi := Host.reduce_andi_all _ _ _ _ _ hall i

  obtain ⟨h0, h1⟩ := IntOp.andi_eq_one.1 hi
  exact ⟨h0, h1⟩

end Cert.KD.Range

end
-- ==== Proof.KDefs.lean ====
import proofs.«423451_j81475529605767_1_alg».proof.Proof.Gen.KernelIdeal
import proofs.«423451_j81475529605767_1_alg».proof.Proof.Gen.ReferenceIdeal

noncomputable section

namespace Cert.KD

open Idealize.ShloMosaic Cert.KernelIdeal Cert.KernelIdeal.Facts₀ Cert.KernelIdeal.Facts

variable {F : FTy → Type} [FloatOps F]

def wms (w : FVec F S144x64 .f32) : FVec F S64x64 .f32 := extractStridedSlice S64x64 ![0, 0] w slices_S144x64_S64x64_0_0

def wmd (w : FVec F S144x64 .f32) : FVec F S64x64 .f32 := extractStridedSlice S64x64 ![64, 0] w slices_S144x64_S64x64_64_0

def wme (w : FVec F S144x64 .f32) : FVec F S16x64 .f32 := extractStridedSlice S16x64 ![128, 0] w slices_S144x64_S16x64_128_0

def row (b : FVec F S64 .f32) : FVec F S1x64 .f32 := shapeCast _ b shapeCasts_S64_S1x64

def gT0 (w : FVec F S192x64 .f32) : FVec F S64x64 .f32 :=
  transpose S64x64 [1, 0] (extractStridedSlice S64x64 ![0, 0] w slices_S192x64_S64x64_0_0) transposes_S64x64_S64x64_1_0

def gT1 (w : FVec F S192x64 .f32) : FVec F S64x64 .f32 :=
  transpose S64x64 [1, 0] (extractStridedSlice S64x64 ![64, 0] w slices_S192x64_S64x64_64_0) transposes_S64x64_S64x64_1_0

def gT2 (w : FVec F S192x64 .f32) : FVec F S64x64 .f32 :=
  transpose S64x64 [1, 0] (extractStridedSlice S64x64 ![128, 0] w slices_S192x64_S64x64_128_0) transposes_S64x64_S64x64_1_0

def gb0 (b : FVec F S192 .f32) : FVec F S1x64 .f32 := shapeCast _ (extractStridedSlice S64 ![0] b slices_S192_S64_0) shapeCasts_S64_S1x64

def gb1 (b : FVec F S192 .f32) : FVec F S1x64 .f32 := shapeCast _ (extractStridedSlice S64 ![64] b slices_S192_S64_64) shapeCasts_S64_S1x64

def gb2 (b : FVec F S192 .f32) : FVec F S1x64 .f32 := shapeCast _ (extractStridedSlice S64 ![128] b slices_S192_S64_128) shapeCasts_S64_S1x64

def src (ei : IVec S2x800000 32) : IVec S800000 32 :=
  shapeCast _ (extractStridedSlice S1x800000 ![0, 0] ei slices_S2x800000_S1x800000_0_0) shapeCasts_S1x800000_S800000

def dst (ei : IVec S2x800000 32) : IVec S800000 32 :=
  shapeCast _ (extractStridedSlice S1x800000 ![1, 0] ei slices_S2x800000_S1x800000_1_0) shapeCasts_S1x800000_S800000

def wrap (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

def lookup (h : FVec F S50000x64 .f32) (idx : IVec S800000 32) : FVec F S800000x64 .f32 :=
  Host.gather gather_S50000x64_S800000x1_S800000x64_1_0_n_n_0_1_164 h (wrap idx)

def take (h : FVec F S50000x64 .f32) (idx : IVec S800000 32) : FVec F S800000x64 .f32 :=
  select
    (broadcastInDim S800000x64 ![0] bcast_S800000_S800000x64_0
      ((fun x v => Host.reduce IntOp.andi x v reducesTo_S800000x1_S800000_d1 h_S_)
        (andi (cmpi .sge (wrap idx) (broadcastInDim S800000x1 ![] bcast_S_S800000x1 (constantI S_ 32 0#32)))
              (cmpi .sle (wrap idx) (broadcastInDim S800000x1 ![0, 1] bcast_S1x1_S800000x1_0_1
                (broadcastInDim S1x1 ![1] bcast_S1_S1x1_1 (constantI S1 32 49999#32)))))
        (constantI S_ 1 1#1)))
    (lookup h idx)
    (broadcastInDim S800000x64 ![] bcast_S_S800000x64 (constant S_ .f32 0x7FC00000#32))

def RowInRange (idx : IVec S800000 32) : Prop :=
  ∀ e : S800000.Idx, IntOp.cmpi .sge (idx e) 0#32 = 1#1 ∧ IntOp.cmpi .slt (idx e) 50000#32 = 1#1

end Cert.KD

end
-- ==== Proof.LawTake.lean ====
import proofs.«423451_j81475529605767_1_alg».proof.Proof.KDefs
import Idealize.ShloMosaic.Lib.StableHlo.Predicate
import Idealize.ShloMosaic.Lib.ReduceAll
import Idealize.ShloMosaic.Lib.ValueIdx

noncomputable section

namespace Cert.KD

open Idealize.ShloMosaic Cert.KernelIdeal Cert.KernelIdeal.Facts₀ Cert.KernelIdeal.Facts
open Idealize.ShloMosaic.StableHlo.Predicate Idealize.ShloMosaic.ValueIdx

theorem slt_zero_of_sge {w : BitVec 32} (h : IntOp.cmpi .sge w 0#32 = 1#1) : IntOp.cmpi .slt w 0#32 = 0#1 := by
  have h' : BitVec.ofBool ((0#32 : BitVec 32).sle w) = 1#1 := h
  have h0 : (0#32 : BitVec 32).toInt = 0 := by decide
  rw [ofBool_eq_one_iff, BitVec.sle, decide_eq_true_eq, h0] at h'
  show BitVec.ofBool (w.slt 0#32) = 0#1
  have : w.slt 0#32 = false := by rw [BitVec.slt, h0]; exact decide_eq_false (by omega)
  rw [this]; rfl

theorem sle_of_slt {w : BitVec 32} (h : IntOp.cmpi .slt w 50000#32 = 1#1) : IntOp.cmpi .sle w 49999#32 = 1#1 := by
  have h' : BitVec.ofBool (w.slt 50000#32) = 1#1 := h
  have h0 : (50000#32 : BitVec 32).toInt = 50000 := by decide
  have h1 : (49999#32 : BitVec 32).toInt = 49999 := by decide
  rw [ofBool_eq_one_iff, BitVec.slt, decide_eq_true_eq, h0] at h'
  show BitVec.ofBool (w.sle 49999#32) = 1#1
  rw [ofBool_eq_one_iff, BitVec.sle, decide_eq_true_eq, h1]; omega

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

theorem sel_eq (idx : IVec S800000 32) (hr : RowInRange idx) :
    select (cmpi .slt idx (broadcastInDim S800000 ![] bcast_S_S800000 (constantI S_ 32 0#32)))
      (addi idx (broadcastInDim S800000 ![] bcast_S_S800000 (constantI S_ 32 50000#32))) idx = idx := by
  funext k
  show Scalar.select (IntOp.cmpi .slt (idx k) 0#32) (IntOp.addi (idx k) 50000#32) (idx k) = idx k
  rw [slt_zero_of_sge (hr k).1, select_zero]

theorem wrap_eq (idx : IVec S800000 32) (hr : RowInRange idx) :
    wrap idx = broadcastInDim S800000x1 ![0] bcast_S800000_S800000x1_0 idx := by
  unfold wrap; rw [sel_eq idx hr]

theorem wrap_mem (idx : IVec S800000 32) (hr : RowInRange idx) (i : S800000x1.Idx) : ∃ k, wrap idx i = idx k := by
  rw [wrap_eq idx hr]; exact ⟨_, rfl⟩

theorem inRange_one (idx : IVec S800000 32) (hr : RowInRange idx) (i : S800000x1.Idx) :
    andi (cmpi .sge (wrap idx) (broadcastInDim S800000x1 ![] bcast_S_S800000x1 (constantI S_ 32 0#32)))
         (cmpi .sle (wrap idx) (broadcastInDim S800000x1 ![0, 1] bcast_S1x1_S800000x1_0_1
           (broadcastInDim S1x1 ![1] bcast_S1_S1x1_1 (constantI S1 32 49999#32)))) i = 1#1 := by
  obtain ⟨k, hk⟩ := wrap_mem idx hr i
  show IntOp.andi (IntOp.cmpi .sge (wrap idx i) 0#32) (IntOp.cmpi .sle (wrap idx i) 49999#32) = 1#1
  rw [hk, (hr k).1, sle_of_slt (hr k).2]; decide

theorem mask_one (idx : IVec S800000 32) (hr : RowInRange idx) (e : S800000.Idx) :
    Host.reduce IntOp.andi
      (andi (cmpi .sge (wrap idx) (broadcastInDim S800000x1 ![] bcast_S_S800000x1 (constantI S_ 32 0#32)))
            (cmpi .sle (wrap idx) (broadcastInDim S800000x1 ![0, 1] bcast_S1x1_S800000x1_0_1
              (broadcastInDim S1x1 ![1] bcast_S1_S1x1_1 (constantI S1 32 49999#32)))))
      (constantI S_ 1 1#1) reducesTo_S800000x1_S800000_d1 h_S_ e = 1#1 := by
  rw [Host.reduce_eq_foldl]
  exact foldl_andi_one _ (inRange_one idx hr) _

theorem mask_vec (idx : IVec S800000 32) (hr : RowInRange idx) :
    Host.reduce IntOp.andi
      (andi (cmpi .sge (wrap idx) (broadcastInDim S800000x1 ![] bcast_S_S800000x1 (constantI S_ 32 0#32)))
            (cmpi .sle (wrap idx) (broadcastInDim S800000x1 ![0, 1] bcast_S1x1_S800000x1_0_1
              (broadcastInDim S1x1 ![1] bcast_S1_S1x1_1 (constantI S1 32 49999#32)))))
      (constantI S_ 1 1#1) reducesTo_S800000x1_S800000_d1 h_S_ = constantI S800000 1 1#1 :=
  funext fun e => mask_one idx hr e

theorem take_law (h : FVec Ideal S50000x64 .f32) (idx : IVec S800000 32) (hr : RowInRange idx) :
    take (F := Ideal) h idx = lookup h idx := by
  unfold take
  beta_reduce
  rw [mask_vec idx hr]
  funext j
  exact select_one _ _

theorem src_inRange (ei : IVec S2x800000 32)
    (hei : ∀ i : S2x800000.Idx, IntOp.cmpi .sge (ei i) 0#32 = 1#1 ∧ IntOp.cmpi .slt (ei i) 50000#32 = 1#1) :
    RowInRange (src ei) := fun _ => hei _

theorem dst_inRange (ei : IVec S2x800000 32)
    (hei : ∀ i : S2x800000.Idx, IntOp.cmpi .sge (ei i) 0#32 = 1#1 ∧ IntOp.cmpi .slt (ei i) 50000#32 = 1#1) :
    RowInRange (dst ei) := fun _ => hei _

end Cert.KD

end
-- ==== Proof.Args.lean ====
/- `X k c` is argument `k` of @main as core `c` holds it at launch. -/
import proofs.«423451_j81475529605767_1_alg».proof.Proof.Gen.KernelIdeal.Frame
import proofs.«423451_j81475529605767_1_alg».proof.Proof.KDefs
import Idealize.ShloMosaic.PureOps.Ideal

noncomputable section

namespace Cert.KD

open Idealize.ShloMosaic Idealize.ShloMosaic.TcCoe Idealize.SL.Sem Cert.KernelIdeal Cert.KernelIdeal.Gen

variable (m : (ℓ : Loc nD τ sig) → Buf (Elt Ideal) ℓ)

/-- Argument 0 of @main as launched on core `c`. -/
abbrev X0 (c : Dev nD) : FVec Ideal S50000x32 .f32 := m ((c : Thread nD τ).loc main_arg0)
/-- Argument 1 of @main as launched on core `c`. -/
abbrev X1 (c : Dev nD) : IVec S2x800000 32 := m ((c : Thread nD τ).loc main_arg1)
/-- Argument 2 of @main as launched on core `c`. -/
abbrev X2 (c : Dev nD) : FVec Ideal S800000x16 .f32 := m ((c : Thread nD τ).loc main_arg2)
/-- Argument 3 of @main as launched on core `c`. -/
abbrev X3 (c : Dev nD) : IVec S50000 32 := m ((c : Thread nD τ).loc main_arg3)
/-- Argument 4 of @main as launched on core `c`. -/
abbrev X4 (c : Dev nD) : FVec Ideal S32x64 .f32 := m ((c : Thread nD τ).loc main_arg4)
/-- Argument 5 of @main as launched on core `c`. -/
abbrev X5 (c : Dev nD) : FVec Ideal S64 .f32 := m ((c : Thread nD τ).loc main_arg5)
/-- Argument 6 of @main as launched on core `c`. -/
abbrev X6 (c : Dev nD) : FVec Ideal S144x64 .f32 := m ((c : Thread nD τ).loc main_arg6)
/-- Argument 7 of @main as launched on core `c`. -/
abbrev X7 (c : Dev nD) : FVec Ideal S64 .f32 := m ((c : Thread nD τ).loc main_arg7)
/-- Argument 8 of @main as launched on core `c`. -/
abbrev X8 (c : Dev nD) : FVec Ideal S64x64 .f32 := m ((c : Thread nD τ).loc main_arg8)
/-- Argument 9 of @main as launched on core `c`. -/
abbrev X9 (c : Dev nD) : FVec Ideal S64 .f32 := m ((c : Thread nD τ).loc main_arg9)
/-- Argument 10 of @main as launched on core `c`. -/
abbrev X10 (c : Dev nD) : FVec Ideal S192x64 .f32 := m ((c : Thread nD τ).loc main_arg10)
/-- Argument 11 of @main as launched on core `c`. -/
abbrev X11 (c : Dev nD) : FVec Ideal S192 .f32 := m ((c : Thread nD τ).loc main_arg11)
/-- Argument 12 of @main as launched on core `c`. -/
abbrev X12 (c : Dev nD) : FVec Ideal S192x64 .f32 := m ((c : Thread nD τ).loc main_arg12)
/-- Argument 13 of @main as launched on core `c`. -/
abbrev X13 (c : Dev nD) : FVec Ideal S192 .f32 := m ((c : Thread nD τ).loc main_arg13)
/-- Argument 14 of @main as launched on core `c`. -/
abbrev X14 (c : Dev nD) : FVec Ideal S128x64 .f32 := m ((c : Thread nD τ).loc main_arg14)
/-- Argument 15 of @main as launched on core `c`. -/
abbrev X15 (c : Dev nD) : FVec Ideal S64 .f32 := m ((c : Thread nD τ).loc main_arg15)
/-- Argument 16 of @main as launched on core `c`. -/
abbrev X16 (c : Dev nD) : FVec Ideal S64x1 .f32 := m ((c : Thread nD τ).loc main_arg16)
/-- Argument 17 of @main as launched on core `c`. -/
abbrev X17 (c : Dev nD) : FVec Ideal S1 .f32 := m ((c : Thread nD τ).loc main_arg17)

end Cert.KD

end
-- ==== Proof.Stages.lean ====
/- The reference program's stages (its generated read-back, one definition per operation) at the launch arguments:
  the embedded node states, then per message-passing step the gathered source and destination rows, the messages,
  their per-node sums and the updated node states, and last the graph readout. -/
import proofs.«423451_j81475529605767_1_alg».proof.Proof.Args
import proofs.«423451_j81475529605767_1_alg».proof.Proof.ReadP

noncomputable section

namespace Cert.KD

open Idealize.ShloMosaic Idealize.ShloMosaic.TcCoe Idealize.SL.Sem Cert.KernelIdeal Cert.KernelIdeal.Gen

variable (m : (ℓ : Loc nD τ sig) → Buf (Elt Ideal) ℓ)

/-- The reference's stage: the embedded node states. -/
abbrev H0 (c : Dev nD) : FVec Ideal S50000x64 .f32 := Cert.ReferenceIdeal.ReadP.val_main_v3 (F := Ideal) (X0 m c) (X4 m c) (X5 m c)
/-- The reference's stage: step 1: the source rows. -/
abbrev T1s (c : Dev nD) : FVec Ideal S800000x64 .f32 := Cert.ReferenceIdeal.ReadP.val_main_v14 (F := Ideal) (X0 m c) (X1 m c) (X4 m c) (X5 m c)
/-- The reference's stage: step 1: the destination rows. -/
abbrev T1d (c : Dev nD) : FVec Ideal S800000x64 .f32 := Cert.ReferenceIdeal.ReadP.val_main_v21 (F := Ideal) (X0 m c) (X1 m c) (X4 m c) (X5 m c)
/-- The reference's stage: step 1: the messages. -/
abbrev M1 (c : Dev nD) : FVec Ideal S800000x64 .f32 := Cert.ReferenceIdeal.ReadP.val_main_v31 (F := Ideal) (X0 m c) (X1 m c) (X2 m c) (X4 m c) (X5 m c) (X6 m c) (X7 m c) (X8 m c) (X9 m c)
/-- The reference's stage: step 1: the messages summed per destination node. -/
abbrev A1 (c : Dev nD) : FVec Ideal S50000x64 .f32 := Cert.ReferenceIdeal.ReadP.val_main_v34 (F := Ideal) (X0 m c) (X1 m c) (X2 m c) (X4 m c) (X5 m c) (X6 m c) (X7 m c) (X8 m c) (X9 m c)
/-- The reference's stage: the node states after step 1. -/
abbrev H1 (c : Dev nD) : FVec Ideal S50000x64 .f32 := Cert.ReferenceIdeal.ReadP.val_main_v72 (F := Ideal) (X0 m c) (X1 m c) (X2 m c) (X4 m c) (X5 m c) (X6 m c) (X7 m c) (X8 m c) (X9 m c) (X10 m c) (X11 m c) (X12 m c) (X13 m c)
/-- The reference's stage: step 2: the source rows. -/
abbrev T2s (c : Dev nD) : FVec Ideal S800000x64 .f32 := Cert.ReferenceIdeal.ReadP.val_main_v79 (F := Ideal) (X0 m c) (X1 m c) (X2 m c) (X4 m c) (X5 m c) (X6 m c) (X7 m c) (X8 m c) (X9 m c) (X10 m c) (X11 m c) (X12 m c) (X13 m c)
/-- The reference's stage: step 2: the destination rows. -/
abbrev T2d (c : Dev nD) : FVec Ideal S800000x64 .f32 := Cert.ReferenceIdeal.ReadP.val_main_v86 (F := Ideal) (X0 m c) (X1 m c) (X2 m c) (X4 m c) (X5 m c) (X6 m c) (X7 m c) (X8 m c) (X9 m c) (X10 m c) (X11 m c) (X12 m c) (X13 m c)
/-- The reference's stage: step 2: the messages. -/
abbrev M2 (c : Dev nD) : FVec Ideal S800000x64 .f32 := Cert.ReferenceIdeal.ReadP.val_main_v96 (F := Ideal) (X0 m c) (X1 m c) (X2 m c) (X4 m c) (X5 m c) (X6 m c) (X7 m c) (X8 m c) (X9 m c) (X10 m c) (X11 m c) (X12 m c) (X13 m c)
/-- The reference's stage: step 2: the summed messages. -/
abbrev A2 (c : Dev nD) : FVec Ideal S50000x64 .f32 := Cert.ReferenceIdeal.ReadP.val_main_v99 (F := Ideal) (X0 m c) (X1 m c) (X2 m c) (X4 m c) (X5 m c) (X6 m c) (X7 m c) (X8 m c) (X9 m c) (X10 m c) (X11 m c) (X12 m c) (X13 m c)
/-- The reference's stage: the node states after step 2. -/
abbrev H2 (c : Dev nD) : FVec Ideal S50000x64 .f32 := Cert.ReferenceIdeal.ReadP.val_main_v137 (F := Ideal) (X0 m c) (X1 m c) (X2 m c) (X4 m c) (X5 m c) (X6 m c) (X7 m c) (X8 m c) (X9 m c) (X10 m c) (X11 m c) (X12 m c) (X13 m c)
/-- The reference's stage: step 3: the source rows. -/
abbrev T3s (c : Dev nD) : FVec Ideal S800000x64 .f32 := Cert.ReferenceIdeal.ReadP.val_main_v144 (F := Ideal) (X0 m c) (X1 m c) (X2 m c) (X4 m c) (X5 m c) (X6 m c) (X7 m c) (X8 m c) (X9 m c) (X10 m c) (X11 m c) (X12 m c) (X13 m c)
/-- The reference's stage: step 3: the destination rows. -/
abbrev T3d (c : Dev nD) : FVec Ideal S800000x64 .f32 := Cert.ReferenceIdeal.ReadP.val_main_v151 (F := Ideal) (X0 m c) (X1 m c) (X2 m c) (X4 m c) (X5 m c) (X6 m c) (X7 m c) (X8 m c) (X9 m c) (X10 m c) (X11 m c) (X12 m c) (X13 m c)
/-- The reference's stage: step 3: the messages. -/
abbrev M3 (c : Dev nD) : FVec Ideal S800000x64 .f32 := Cert.ReferenceIdeal.ReadP.val_main_v161 (F := Ideal) (X0 m c) (X1 m c) (X2 m c) (X4 m c) (X5 m c) (X6 m c) (X7 m c) (X8 m c) (X9 m c) (X10 m c) (X11 m c) (X12 m c) (X13 m c)
/-- The reference's stage: step 3: the summed messages. -/
abbrev A3 (c : Dev nD) : FVec Ideal S50000x64 .f32 := Cert.ReferenceIdeal.ReadP.val_main_v164 (F := Ideal) (X0 m c) (X1 m c) (X2 m c) (X4 m c) (X5 m c) (X6 m c) (X7 m c) (X8 m c) (X9 m c) (X10 m c) (X11 m c) (X12 m c) (X13 m c)
/-- The reference's stage: the node states after step 3. -/
abbrev H3 (c : Dev nD) : FVec Ideal S50000x64 .f32 := Cert.ReferenceIdeal.ReadP.val_main_v202 (F := Ideal) (X0 m c) (X1 m c) (X2 m c) (X4 m c) (X5 m c) (X6 m c) (X7 m c) (X8 m c) (X9 m c) (X10 m c) (X11 m c) (X12 m c) (X13 m c)
/-- The reference's stage: the graph readout: the result. -/
abbrev OUT (c : Dev nD) : FVec Ideal S256x1 .f32 := Cert.ReferenceIdeal.ReadP.val_main_v224 (F := Ideal) (X0 m c) (X1 m c) (X2 m c) (X3 m c) (X4 m c) (X5 m c) (X6 m c) (X7 m c) (X8 m c) (X9 m c) (X10 m c) (X11 m c) (X12 m c) (X13 m c) (X14 m c) (X15 m c) (X16 m c) (X17 m c)

end Cert.KD

end
-- ==== Proof.Spec.lean ====
import Idealize.ShloMosaic.PureOps.Ideal
import Idealize.ShloMosaic.Lib.ValueIdx

noncomputable section

namespace Cert.MP

open Idealize.ShloMosaic Idealize.ShloMosaic.ValueIdx

abbrev Arr (a b : Nat) : Type := (⟨2, ![a, b]⟩ : Shape).Idx → EReal

def msgPre {E : Nat} (hs hd : Arr E 64) (ea : Arr E 16) (wms wmd : Arr 64 64) (wme : Arr 16 64) (bm1 : Arr 1 64)
    (e : Fin E) (k : Fin 64) : EReal :=
  (((∑ a : Fin 64, hs (ix2 e a) * wms (ix2 a k)) + (∑ a : Fin 64, hd (ix2 e a) * wmd (ix2 a k)))
    + (∑ b : Fin 16, ea (ix2 e b) * wme (ix2 b k))) + bm1 (ix2 0 k)

def msgRow {E : Nat} (hs hd : Arr E 64) (ea : Arr E 16) (wms wmd : Arr 64 64) (wme : Arr 16 64) (bm1 : Arr 1 64)
    (wm2 : Arr 64 64) (bm2 : Arr 1 64) (e : Fin E) (j : Fin 64) : EReal :=
  (∑ k : Fin 64, max (msgPre hs hd ea wms wmd wme bm1 e k) (Ideal.ofBits .f32 0x00000000#32) * wm2 (ix2 k j)) + bm2 (ix2 0 j)

def msgAt {E : Nat} (hs hd : Arr E 64) (ea : Arr E 16) (wms wmd : Arr 64 64) (wme : Arr 16 64) (bm1 : Arr 1 64)
    (wm2 : Arr 64 64) (bm2 : Arr 1 64) : Arr E 64 :=
  fun i => msgRow hs hd ea wms wmd wme bm1 wm2 bm2 (i 0) (i 1)

def lin {N : Nat} (x : Arr N 64) (w : Arr 64 64) (b : Arr 1 64) (n : Fin N) (j : Fin 64) : EReal :=
  (∑ k : Fin 64, x (ix2 n k) * w (ix2 k j)) + b (ix2 0 j)

def gruRow {N : Nat} (agg h : Arr N 64) (wir wiz win : Arr 64 64) (bir biz bin : Arr 1 64)
    (whr whz whn : Arr 64 64) (bhr bhz bhn : Arr 1 64) (n : Fin N) (j : Fin 64) : EReal :=
  let r := Ideal.logistic (lin agg wir bir n j + lin h whr bhr n j)
  let z := Ideal.logistic (lin agg wiz biz n j + lin h whz bhz n j)
  let c := Ideal.tanh (lin agg win bin n j + r * lin h whn bhn n j)
  (Ideal.ofBits .f32 0x3F800000#32 - z) * c + z * h (ix2 n j)

def gruAt {N : Nat} (agg h : Arr N 64) (wir wiz win : Arr 64 64) (bir biz bin : Arr 1 64)
    (whr whz whn : Arr 64 64) (bhr bhz bhn : Arr 1 64) : Arr N 64 :=
  fun i => gruRow agg h wir wiz win bir biz bin whr whz whn bhr bhz bhn (i 0) (i 1)

theorem msgRow_rows {E B : Nat} (hs hd : Arr E 64) (ea : Arr E 16) (hs' hd' : Arr B 64) (ea' : Arr B 16)
    (wms wmd : Arr 64 64) (wme : Arr 16 64) (bm1 : Arr 1 64) (wm2 : Arr 64 64) (bm2 : Arr 1 64)
    (e : Fin E) (p : Fin B) (q : Fin 64)
    (h1 : ∀ a, hs' (ix2 p a) = hs (ix2 e a)) (h2 : ∀ a, hd' (ix2 p a) = hd (ix2 e a)) (h3 : ∀ b, ea' (ix2 p b) = ea (ix2 e b)) :
    msgRow hs' hd' ea' wms wmd wme bm1 wm2 bm2 p q = msgRow hs hd ea wms wmd wme bm1 wm2 bm2 e q := by
  unfold msgRow msgPre
  simp only [h1, h2, h3]

theorem gruRow_rows {N B : Nat} (agg h : Arr N 64) (agg' h' : Arr B 64) (wir wiz win : Arr 64 64) (bir biz bin : Arr 1 64)
    (whr whz whn : Arr 64 64) (bhr bhz bhn : Arr 1 64) (n : Fin N) (p : Fin B) (q : Fin 64)
    (h1 : ∀ a, agg' (ix2 p a) = agg (ix2 n a)) (h2 : ∀ a, h' (ix2 p a) = h (ix2 n a)) :
    gruRow agg' h' wir wiz win bir biz bin whr whz whn bhr bhz bhn p q
      = gruRow agg h wir wiz win bir biz bin whr whz whn bhr bhz bhn n q := by
  unfold gruRow lin
  simp only [h1, h2]

end Cert.MP

end
-- ==== Proof.KStep.lean ====
import proofs.«423451_j81475529605767_1_alg».proof.Proof.Args
import proofs.«423451_j81475529605767_1_alg».proof.Proof.Spec

noncomputable section

namespace Cert.KD

open Idealize.ShloMosaic Idealize.ShloMosaic.TcCoe Idealize.SL.Sem Cert.KernelIdeal Cert.KernelIdeal.Facts₀ Cert.KernelIdeal.Facts

variable (m : (ℓ : Loc nD τ sig) → Buf (Elt Ideal) ℓ)

def embed (x : FVec Ideal S50000x32 .f32) (w : FVec Ideal S32x64 .f32) (b : FVec Ideal S64 .f32) : FVec Ideal S50000x64 .f32 :=
  addf (Host.dotGeneral dot_S50000x32_S32x64_S50000x64_1_0_0_1_n_n none x w)
    (broadcastInDim S50000x64 ![0, 1] bcast_S1x64_S50000x64_0_1 (broadcastInDim S1x64 ![1] bcast_S64_S1x64_1 b))

def scat (msg : FVec Ideal S800000x64 .f32) (d : IVec S800000 32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 d) msg

def readout (h : FVec Ideal S50000x64 .f32) (batch : IVec S50000 32) (wh1 : FVec Ideal S128x64 .f32) (bh1 : FVec Ideal S64 .f32)
    (wh2 : FVec Ideal S64x1 .f32) (bh2 : FVec Ideal S1 .f32) : FVec Ideal S256x1 .f32 :=
  let gs : FVec Ideal S256x64 .f32 := Host.scatterAdd scatter_S256x64_S50000x1_S50000x64_1_0_0_1
    (broadcastInDim S256x64 ![] bcast_S_S256x64 (constant S_ .f32 0x00000000#32))
    (broadcastInDim S50000x1 ![0] bcast_S50000_S50000x1_0 batch) h
  let cnt : FVec Ideal S256 .f32 := Host.scatterAdd scatter_S256_S50000x1_S50000_n_0_0_1
    (broadcastInDim S256 ![] bcast_S_S256 (constant S_ .f32 0x00000000#32))
    (broadcastInDim S50000x1 ![0] bcast_S50000_S50000x1_0 batch)
    (broadcastInDim S50000 ![] bcast_S_S50000 (constant S_ .f32 0x3F800000#32))
  let den : FVec Ideal S256x64 .f32 := broadcastInDim S256x64 ![0, 1] bcast_S256x1_S256x64_0_1
    (broadcastInDim S256x1 ![0] bcast_S256_S256x1_0
      (maximumf cnt (broadcastInDim S256 ![] bcast_S_S256 (constant S_ .f32 0x3F800000#32))))
  let g : FVec Ideal S256x128 .f32 := concatenate S256x128 1 [⟨S256x64, gs⟩, ⟨S256x64, Host.divf gs den⟩] concatenates_S256x64_S256x64_S256x128_d1
  let l1 : FVec Ideal S256x64 .f32 := addf (Host.dotGeneral dot_S256x128_S128x64_S256x64_1_0_0_1_n_n none g wh1)
    (broadcastInDim S256x64 ![0, 1] bcast_S1x64_S256x64_0_1 (broadcastInDim S1x64 ![1] bcast_S64_S1x64_1 bh1))
  let a1 : FVec Ideal S256x64 .f32 := maximumf l1 (broadcastInDim S256x64 ![] bcast_S_S256x64 (constant S_ .f32 0x00000000#32))
  addf (Host.dotGeneral dot_S256x64_S64x1_S256x1_1_0_0_1_n_n none a1 wh2)
    (broadcastInDim S256x1 ![0, 1] bcast_S1x1_S256x1_0_1 (broadcastInDim S1x1 ![1] bcast_S1_S1x1_1 bh2))

def kMsg (c : Dev nD) (h : FVec Ideal S50000x64 .f32) : FVec Ideal S800000x64 .f32 :=
  Cert.MP.msgAt (take h (src (X1 m c))) (take h (dst (X1 m c))) (X2 m c) (wms (X6 m c)) (wmd (X6 m c)) (wme (X6 m c))
    (row (X7 m c)) (X8 m c) (row (X9 m c))

def kStep (c : Dev nD) (h : FVec Ideal S50000x64 .f32) : FVec Ideal S50000x64 .f32 :=
  Cert.MP.gruAt (scat (kMsg m c h) (dst (X1 m c))) h
    (gT0 (X10 m c)) (gT1 (X10 m c)) (gT2 (X10 m c)) (gb0 (X11 m c)) (gb1 (X11 m c)) (gb2 (X11 m c))
    (gT0 (X12 m c)) (gT1 (X12 m c)) (gT2 (X12 m c)) (gb0 (X13 m c)) (gb1 (X13 m c)) (gb2 (X13 m c))

def K0 (c : Dev nD) : FVec Ideal S50000x64 .f32 := embed (X0 m c) (X4 m c) (X5 m c)
def K1 (c : Dev nD) : FVec Ideal S50000x64 .f32 := kStep m c (K0 m c)
def K2 (c : Dev nD) : FVec Ideal S50000x64 .f32 := kStep m c (K1 m c)
def K3 (c : Dev nD) : FVec Ideal S50000x64 .f32 := kStep m c (K2 m c)

def KOUT (c : Dev nD) : FVec Ideal S256x1 .f32 := readout (K3 m c) (X3 m c) (X14 m c) (X15 m c) (X16 m c) (X17 m c)

end Cert.KD

end
-- ==== Proof.LawMsg.lean ====
import proofs.«423451_j81475529605767_1_alg».proof.Proof.Spec
import proofs.«423451_j81475529605767_1_alg».proof.Proof.KDefs
import Idealize.ShloMosaic.Lib.Pipeline.Value
import Idealize.ShloMosaic.Lib.ValueIdx
import Idealize.ShloMosaic.PureOps.Ideal.Laws

noncomputable section

namespace Cert.KD

open Idealize.ShloMosaic Idealize.ShloMosaic.ValueIdx
open Cert.ReferenceIdeal Cert.ReferenceIdeal.Facts₀ Cert.ReferenceIdeal.Facts

def refMsg (hs hd : FVec Ideal Cert.ReferenceIdeal.S800000x64 .f32) (ea : FVec Ideal Cert.ReferenceIdeal.S800000x16 .f32)
    (w1 : FVec Ideal Cert.ReferenceIdeal.S144x64 .f32) (b1 : FVec Ideal Cert.ReferenceIdeal.S64 .f32)
    (w2 : FVec Ideal Cert.ReferenceIdeal.S64x64 .f32) (b2 : FVec Ideal Cert.ReferenceIdeal.S64 .f32) :
    FVec Ideal Cert.ReferenceIdeal.S800000x64 .f32 :=
  addf
    (Host.dotGeneral dot_S800000x64_S64x64_S800000x64_1_0_0_1_n_n none
      (maximumf
        (addf
          (Host.dotGeneral dot_S800000x144_S144x64_S800000x64_1_0_0_1_n_n none
            (concatenate S800000x144 1 [⟨S800000x64, hs⟩, ⟨S800000x64, hd⟩, ⟨S800000x16, ea⟩]
              concatenates_S800000x64_S800000x64_S800000x16_S800000x144_d1)
            w1)
          (broadcastInDim S800000x64 ![0, 1] bcast_S1x64_S800000x64_0_1 (broadcastInDim S1x64 ![1] bcast_S64_S1x64_1 b1)))
        (broadcastInDim S800000x64 ![] bcast_S_S800000x64 (constant (F := Ideal) S_ .f32 0x00000000#32)))
      w2)
    (broadcastInDim S800000x64 ![0, 1] bcast_S1x64_S800000x64_0_1 (broadcastInDim S1x64 ![1] bcast_S64_S1x64_1 b2))

section Layout

variable (hs hd : FVec Ideal Cert.ReferenceIdeal.S800000x64 .f32) (ea : FVec Ideal Cert.ReferenceIdeal.S800000x16 .f32)

theorem cat_src (e : Fin 800000) (t : Fin 144) (a : Fin 64) (h : t.val = a.val) :
    concatenate S800000x144 1 [⟨S800000x64, hs⟩, ⟨S800000x64, hd⟩, ⟨S800000x16, ea⟩]
      concatenates_S800000x64_S800000x64_S800000x16_S800000x144_d1 (ix2 e t) = hs (ix2 e a) := by
  refine concatenate_apply_piece (t := S800000x144) 1 _ _ (ix2 e t) 0 ?_ S800000x64 hs rfl rfl 0 rfl (ix2 e a) ?_ ?_
  · show (0 : Nat) < 3
    omega
  · intro b hb
    match b with
    | ⟨0, _⟩ => rfl
    | ⟨1, _⟩ => exact absurd rfl hb
  · show 0 + a.val = t.val
    omega

theorem cat_dst (e : Fin 800000) (t : Fin 144) (a : Fin 64) (h : t.val = 64 + a.val) :
    concatenate S800000x144 1 [⟨S800000x64, hs⟩, ⟨S800000x64, hd⟩, ⟨S800000x16, ea⟩]
      concatenates_S800000x64_S800000x64_S800000x16_S800000x144_d1 (ix2 e t) = hd (ix2 e a) := by
  refine concatenate_apply_piece (t := S800000x144) 1 _ _ (ix2 e t) 1 ?_ S800000x64 hd rfl rfl 64 rfl (ix2 e a) ?_ ?_
  · show (1 : Nat) < 3
    omega
  · intro b hb
    match b with
    | ⟨0, _⟩ => rfl
    | ⟨1, _⟩ => exact absurd rfl hb
  · show 64 + a.val = t.val
    omega

theorem cat_att (e : Fin 800000) (t : Fin 144) (b : Fin 16) (h : t.val = 128 + b.val) :
    concatenate S800000x144 1 [⟨S800000x64, hs⟩, ⟨S800000x64, hd⟩, ⟨S800000x16, ea⟩]
      concatenates_S800000x64_S800000x64_S800000x16_S800000x144_d1 (ix2 e t) = ea (ix2 e b) := by
  refine concatenate_apply_piece (t := S800000x144) 1 _ _ (ix2 e t) 2 ?_ S800000x16 ea rfl rfl 128 rfl (ix2 e b) ?_ ?_
  · show (2 : Nat) < 3
    omega
  · intro c hc
    match c with
    | ⟨0, _⟩ => rfl
    | ⟨1, _⟩ => exact absurd rfl hc
  · show 128 + b.val = t.val
    omega

end Layout

section Weights

variable (w1 : FVec Ideal Cert.ReferenceIdeal.S144x64 .f32)

theorem wms_apply (a k : Fin 64) (t : Fin 144) (h : t.val = a.val) : wms w1 (ix2 a k) = w1 (ix2 t k) := by
  unfold wms
  refine extractStridedSlice_apply _ w1 _ (ix2 a k) (ix2 t k) fun b => ?_
  match b with
  | ⟨0, _⟩ => show t.val = 0 + a.val; omega
  | ⟨1, _⟩ => show k.val = 0 + k.val; omega

theorem wmd_apply (a k : Fin 64) (t : Fin 144) (h : t.val = 64 + a.val) : wmd w1 (ix2 a k) = w1 (ix2 t k) := by
  unfold wmd
  refine extractStridedSlice_apply _ w1 _ (ix2 a k) (ix2 t k) fun b => ?_
  match b with
  | ⟨0, _⟩ => show t.val = 64 + a.val; omega
  | ⟨1, _⟩ => show k.val = 0 + k.val; omega

theorem wme_apply (b : Fin 16) (k : Fin 64) (t : Fin 144) (h : t.val = 128 + b.val) : wme w1 (ix2 b k) = w1 (ix2 t k) := by
  unfold wme
  refine extractStridedSlice_apply _ w1 _ (ix2 b k) (ix2 t k) fun c => ?_
  match c with
  | ⟨0, _⟩ => show t.val = 128 + b.val; omega
  | ⟨1, _⟩ => show k.val = 0 + k.val; omega

end Weights

section Bias

variable (b : FVec Ideal Cert.ReferenceIdeal.S64 .f32)

theorem row_apply (k : Fin 64) : row b (ix2 0 k) = b (ix1 k) := by
  unfold row
  refine shapeCast_apply b _ (ix2 0 k) (ix1 k) ?_
  rw [Shape.rowMajor_val_one, Shape.rowMajor_val_two]
  show k.val = 0 * 64 + k.val
  omega

theorem bias_apply (e : Fin 800000) (k : Fin 64) :
    broadcastInDim S800000x64 ![0, 1] bcast_S1x64_S800000x64_0_1 (broadcastInDim S1x64 ![1] bcast_S64_S1x64_1 b) (ix2 e k)
      = b (ix1 k) := by
  refine (broadcastInDim_apply _ bcast_S1x64_S800000x64_0_1 _ (ix2 e k) (ix2 0 k) fun a => ?_).trans
    (broadcastInDim_apply _ bcast_S64_S1x64_1 b (ix2 0 k) (ix1 k) fun a => ?_)
  · match a with
    | ⟨0, _⟩ => show 0 = if (1 : Nat) = 1 then 0 else e.val; rw [if_pos rfl]
    | ⟨1, _⟩ => show k.val = if (64 : Nat) = 1 then 0 else k.val; rw [if_neg (by decide)]
  · match a with
    | ⟨0, _⟩ => show k.val = if (64 : Nat) = 1 then 0 else k.val; rw [if_neg (by decide)]

end Bias

theorem zero_apply (i : S800000x64.Idx) :
    broadcastInDim S800000x64 ![] bcast_S_S800000x64 (constant (F := Ideal) S_ .f32 0x00000000#32) i
      = Ideal.ofBits .f32 0x00000000#32 :=
  broadcastInDim_apply _ bcast_S_S800000x64 _ i (fun a => a.elim0) (fun a => a.elim0)

theorem sum_144 {M : Type*} [AddCommMonoid M] (f : Fin 144 → M) :
    ∑ t, f t = ((∑ a : Fin 64, f ⟨a.val, by omega⟩) + ∑ a : Fin 64, f ⟨64 + a.val, by omega⟩)
      + ∑ b : Fin 16, f ⟨128 + b.val, by omega⟩ := by
  have h1 := Fin.sum_univ_add (a := 128) (b := 16) f
  have h2 := Fin.sum_univ_add (a := 64) (b := 64) fun i => f (Fin.castAdd 16 i)
  exact h1.trans (congrArg (· + _) h2)

section Dot1

theorem dot1_lhs0 (i : S800000x64.Idx) (q : dot_S800000x144_S144x64_S800000x64_1_0_0_1_n_n.contr.Idx) :
    (dot_S800000x144_S144x64_S800000x64_1_0_0_1_n_n.lhsIdx i q 0).val = (i 0).val := by
  unfold DotDims.lhsIdx
  rw [dif_neg (show ¬(0 : Fin S800000x144.rank) ∈ dot_S800000x144_S144x64_S800000x64_1_0_0_1_n_n.lhsBatch by decide),
    dif_pos (show (0 : Fin S800000x144.rank) ∈ dot_S800000x144_S144x64_S800000x64_1_0_0_1_n_n.lhsNonContracting by decide)]
  rfl

theorem dot1_rhs1 (i : S800000x64.Idx) (q : dot_S800000x144_S144x64_S800000x64_1_0_0_1_n_n.contr.Idx) :
    (dot_S800000x144_S144x64_S800000x64_1_0_0_1_n_n.rhsIdx i q 1).val = (i 1).val := by
  unfold DotDims.rhsIdx
  rw [dif_neg (show ¬(1 : Fin S144x64.rank) ∈ dot_S800000x144_S144x64_S800000x64_1_0_0_1_n_n.rhsBatch by decide),
    dif_pos (show (1 : Fin S144x64.rank) ∈ dot_S800000x144_S144x64_S800000x64_1_0_0_1_n_n.rhsNonContracting by decide)]
  rfl

theorem dot1_apply (x : FVec Ideal Cert.ReferenceIdeal.S800000x144 .f32) (w : FVec Ideal Cert.ReferenceIdeal.S144x64 .f32)
    (e : Fin 800000) (k : Fin 64) :
    Host.dotGeneral dot_S800000x144_S144x64_S800000x64_1_0_0_1_n_n none x w (ix2 e k)
      = ∑ t : Fin 144, x (ix2 e t) * w (ix2 t k) := by
  simp only [Host.dotGeneral]
  rw [Ideal.dotGeneral_apply, ← Equiv.sum_comp (contrEquiv1 dot_S800000x144_S144x64_S800000x64_1_0_0_1_n_n 144 rfl rfl).symm]
  refine Finset.sum_congr rfl fun t _ => ?_
  have ht := contrEquiv1_symm_val dot_S800000x144_S144x64_S800000x64_1_0_0_1_n_n 144 rfl rfl t
  have el : dot_S800000x144_S144x64_S800000x64_1_0_0_1_n_n.lhsIdx (ix2 e k)
      ((contrEquiv1 dot_S800000x144_S144x64_S800000x64_1_0_0_1_n_n 144 rfl rfl).symm t) = ix2 e t :=
    funext fun a => Fin.ext (by
      match a with
      | ⟨0, _⟩ => exact dot1_lhs0 _ _
      | ⟨1, _⟩ => exact (dot_S800000x144_S144x64_S800000x64_1_0_0_1_n_n.lhsIdx_val_of_single rfl _ _).trans ht)
  have er : dot_S800000x144_S144x64_S800000x64_1_0_0_1_n_n.rhsIdx (ix2 e k)
      ((contrEquiv1 dot_S800000x144_S144x64_S800000x64_1_0_0_1_n_n 144 rfl rfl).symm t) = ix2 t k :=
    funext fun a => Fin.ext (by
      match a with
      | ⟨0, _⟩ => exact (dot_S800000x144_S144x64_S800000x64_1_0_0_1_n_n.rhsIdx_val_of_single rfl _ _).trans ht
      | ⟨1, _⟩ => exact dot1_rhs1 _ _)
  rw [el, er]

end Dot1

section Dot2

theorem dot2_lhs0 (i : S800000x64.Idx) (q : dot_S800000x64_S64x64_S800000x64_1_0_0_1_n_n.contr.Idx) :
    (dot_S800000x64_S64x64_S800000x64_1_0_0_1_n_n.lhsIdx i q 0).val = (i 0).val := by
  unfold DotDims.lhsIdx
  rw [dif_neg (show ¬(0 : Fin S800000x64.rank) ∈ dot_S800000x64_S64x64_S800000x64_1_0_0_1_n_n.lhsBatch by decide),
    dif_pos (show (0 : Fin S800000x64.rank) ∈ dot_S800000x64_S64x64_S800000x64_1_0_0_1_n_n.lhsNonContracting by decide)]
  rfl

theorem dot2_rhs1 (i : S800000x64.Idx) (q : dot_S800000x64_S64x64_S800000x64_1_0_0_1_n_n.contr.Idx) :
    (dot_S800000x64_S64x64_S800000x64_1_0_0_1_n_n.rhsIdx i q 1).val = (i 1).val := by
  unfold DotDims.rhsIdx
  rw [dif_neg (show ¬(1 : Fin S64x64.rank) ∈ dot_S800000x64_S64x64_S800000x64_1_0_0_1_n_n.rhsBatch by decide),
    dif_pos (show (1 : Fin S64x64.rank) ∈ dot_S800000x64_S64x64_S800000x64_1_0_0_1_n_n.rhsNonContracting by decide)]
  rfl

theorem dot2_apply (x : FVec Ideal Cert.ReferenceIdeal.S800000x64 .f32) (w : FVec Ideal Cert.ReferenceIdeal.S64x64 .f32)
    (e : Fin 800000) (j : Fin 64) :
    Host.dotGeneral dot_S800000x64_S64x64_S800000x64_1_0_0_1_n_n none x w (ix2 e j)
      = ∑ k : Fin 64, x (ix2 e k) * w (ix2 k j) := by
  simp only [Host.dotGeneral]
  rw [Ideal.dotGeneral_apply, ← Equiv.sum_comp (contrEquiv1 dot_S800000x64_S64x64_S800000x64_1_0_0_1_n_n 64 rfl rfl).symm]
  refine Finset.sum_congr rfl fun k _ => ?_
  have hk := contrEquiv1_symm_val dot_S800000x64_S64x64_S800000x64_1_0_0_1_n_n 64 rfl rfl k
  have el : dot_S800000x64_S64x64_S800000x64_1_0_0_1_n_n.lhsIdx (ix2 e j)
      ((contrEquiv1 dot_S800000x64_S64x64_S800000x64_1_0_0_1_n_n 64 rfl rfl).symm k) = ix2 e k :=
    funext fun a => Fin.ext (by
      match a with
      | ⟨0, _⟩ => exact dot2_lhs0 _ _
      | ⟨1, _⟩ => exact (dot_S800000x64_S64x64_S800000x64_1_0_0_1_n_n.lhsIdx_val_of_single rfl _ _).trans hk)
  have er : dot_S800000x64_S64x64_S800000x64_1_0_0_1_n_n.rhsIdx (ix2 e j)
      ((contrEquiv1 dot_S800000x64_S64x64_S800000x64_1_0_0_1_n_n 64 rfl rfl).symm k) = ix2 k j :=
    funext fun a => Fin.ext (by
      match a with
      | ⟨0, _⟩ => exact (dot_S800000x64_S64x64_S800000x64_1_0_0_1_n_n.rhsIdx_val_of_single rfl _ _).trans hk
      | ⟨1, _⟩ => exact dot2_rhs1 _ _)
  rw [el, er]

end Dot2

theorem pre_eq (hs hd : FVec Ideal Cert.ReferenceIdeal.S800000x64 .f32) (ea : FVec Ideal Cert.ReferenceIdeal.S800000x16 .f32)
    (w1 : FVec Ideal Cert.ReferenceIdeal.S144x64 .f32) (b1 : FVec Ideal Cert.ReferenceIdeal.S64 .f32) (e : Fin 800000) (k : Fin 64) :
    Cert.MP.msgPre hs hd ea (wms w1) (wmd w1) (wme w1) (row b1) e k
      = (∑ t : Fin 144, concatenate S800000x144 1 [⟨S800000x64, hs⟩, ⟨S800000x64, hd⟩, ⟨S800000x16, ea⟩]
            concatenates_S800000x64_S800000x64_S800000x16_S800000x144_d1 (ix2 e t) * w1 (ix2 t k)) + b1 (ix1 k) := by
  unfold Cert.MP.msgPre
  rw [row_apply, sum_144]
  congr 1
  congr 1
  · congr 1
    · refine Finset.sum_congr rfl fun a _ => ?_
      rw [cat_src hs hd ea e ⟨a.val, by omega⟩ a rfl, wms_apply w1 a k ⟨a.val, by omega⟩ rfl]
    · refine Finset.sum_congr rfl fun a _ => ?_
      rw [cat_dst hs hd ea e ⟨64 + a.val, by omega⟩ a rfl, wmd_apply w1 a k ⟨64 + a.val, by omega⟩ rfl]
  · refine Finset.sum_congr rfl fun b _ => ?_
    rw [cat_att hs hd ea e ⟨128 + b.val, by omega⟩ b rfl, wme_apply w1 b k ⟨128 + b.val, by omega⟩ rfl]

theorem msg_stage (hs hd : FVec Ideal Cert.ReferenceIdeal.S800000x64 .f32) (ea : FVec Ideal Cert.ReferenceIdeal.S800000x16 .f32)
    (w1 : FVec Ideal Cert.ReferenceIdeal.S144x64 .f32) (b1 : FVec Ideal Cert.ReferenceIdeal.S64 .f32)
    (w2 : FVec Ideal Cert.ReferenceIdeal.S64x64 .f32) (b2 : FVec Ideal Cert.ReferenceIdeal.S64 .f32) :
    Cert.MP.msgAt hs hd ea (wms w1) (wmd w1) (wme w1) (row b1) w2 (row b2) = refMsg hs hd ea w1 b1 w2 b2 := by
  funext i
  obtain ⟨e, j, rfl⟩ : ∃ e j, i = ix2 e j := ⟨i 0, i 1, eq_ix2 i⟩
  show Cert.MP.msgRow hs hd ea (wms w1) (wmd w1) (wme w1) (row b1) w2 (row b2) e j = _
  unfold refMsg Cert.MP.msgRow
  rw [addf_apply, dot2_apply, bias_apply, row_apply]
  congr 1
  refine Finset.sum_congr rfl fun k _ => ?_
  rw [maximumf_apply, zero_apply, addf_apply, dot1_apply, bias_apply, pre_eq]

end Cert.KD

end
-- ==== Proof.LawGru.lean ====
import proofs.«423451_j81475529605767_1_alg».proof.Proof.Spec
import proofs.«423451_j81475529605767_1_alg».proof.Proof.KDefs
import Idealize.ShloMosaic.Lib.Pipeline.Value
import Idealize.ShloMosaic.Lib.ValueIdx
import Idealize.ShloMosaic.PureOps.Ideal.Laws

noncomputable section

namespace Cert.KD

open Idealize.ShloMosaic Idealize.ShloMosaic.ValueIdx
open Cert.ReferenceIdeal Cert.ReferenceIdeal.Facts₀ Cert.ReferenceIdeal.Facts

def refAff (x : FVec Ideal S50000x64 .f32) (w : FVec Ideal S192x64 .f32) (b : FVec Ideal S192 .f32) :
    FVec Ideal S50000x192 .f32 :=
  addf (Host.dotGeneral dot_S50000x64_S64x192_S50000x192_1_0_0_1_n_n none x (transpose S64x192 [1, 0] w transposes_S192x64_S64x192_1_0))
    (broadcastInDim S50000x192 ![0, 1] bcast_S1x192_S50000x192_0_1 (broadcastInDim S1x192 ![1] bcast_S192_S1x192_1 b))

def refOne : FVec Ideal S50000x64 .f32 :=
  broadcastInDim S50000x64 ![] bcast_S_S50000x64 (constant S_ .f32 0x3F800000#32)

def refSig (x : FVec Ideal S50000x64 .f32) : FVec Ideal S50000x64 .f32 :=
  Host.divf refOne (addf refOne (Host.exp (Host.negf x)))

def refGru (agg h : FVec Ideal S50000x64 .f32) (wih : FVec Ideal S192x64 .f32) (bih : FVec Ideal S192 .f32)
    (whh : FVec Ideal S192x64 .f32) (bhh : FVec Ideal S192 .f32) : FVec Ideal S50000x64 .f32 :=
  let gi := refAff agg wih bih
  let gh := refAff h whh bhh
  let r := refSig (addf (extractStridedSlice S50000x64 ![0, 0] gi slices_S50000x192_S50000x64_0_0)
    (extractStridedSlice S50000x64 ![0, 0] gh slices_S50000x192_S50000x64_0_0))
  let z := refSig (addf (extractStridedSlice S50000x64 ![0, 64] gi slices_S50000x192_S50000x64_0_64)
    (extractStridedSlice S50000x64 ![0, 64] gh slices_S50000x192_S50000x64_0_64))
  let c := Host.tanh (addf (extractStridedSlice S50000x64 ![0, 128] gi slices_S50000x192_S50000x64_0_128)
    (mulf r (extractStridedSlice S50000x64 ![0, 128] gh slices_S50000x192_S50000x64_0_128)))
  addf (mulf (subf refOne z) c) (mulf z h)

theorem ofBits_one : Ideal.ofBits .f32 0x3F800000#32 = 1 := by
  simp [Ideal.ofBits, Ideal.ieee, -EReal.coe_mul]; norm_num

theorem refOne_apply (i : S50000x64.Idx) : refOne i = Ideal.ofBits .f32 0x3F800000#32 := rfl

theorem refSig_apply (x : FVec Ideal S50000x64 .f32) (i : S50000x64.Idx) : refSig x i = Ideal.logistic (x i) := by
  show Ideal.div (Ideal.ofBits .f32 0x3F800000#32) (Ideal.ofBits .f32 0x3F800000#32 + Ideal.exp (-(x i)))
    = Ideal.div 1 (1 + Ideal.exp (-(x i)))
  rw [ofBits_one]

theorem hostTanh_apply (x : FVec Ideal S50000x64 .f32) (i : S50000x64.Idx) : Host.tanh x i = Ideal.tanh (x i) := rfl

abbrev gcol (o : Nat) (ho : o + 64 ≤ 192) (j : Fin 64) : Fin 192 := ⟨o + j.val, by have := j.isLt; omega⟩

theorem dot_lhs (n : Fin 50000) (c : Fin 192) (k : Fin 64) :
    dot_S50000x64_S64x192_S50000x192_1_0_0_1_n_n.lhsIdx (ix2 n c)
      ((contrEquiv1 dot_S50000x64_S64x192_S50000x192_1_0_0_1_n_n 64 rfl rfl).symm k) = ix2 n k := by
  funext a
  refine Fin.ext ?_
  match a with
  | ⟨0, _⟩ => rfl
  | ⟨1, _⟩ => rfl

theorem dot_rhs (n : Fin 50000) (c : Fin 192) (k : Fin 64) :
    dot_S50000x64_S64x192_S50000x192_1_0_0_1_n_n.rhsIdx (ix2 n c)
      ((contrEquiv1 dot_S50000x64_S64x192_S50000x192_1_0_0_1_n_n 64 rfl rfl).symm k) = ix2 k c := by
  funext a
  refine Fin.ext ?_
  match a with
  | ⟨0, _⟩ => rfl
  | ⟨1, _⟩ => rfl

theorem wT_apply (w : FVec Ideal S192x64 .f32) (k : Fin 64) (c : Fin 192) :
    transpose S64x192 [1, 0] w transposes_S192x64_S64x192_1_0 (ix2 k c) = w (ix2 c k) :=
  transpose_apply [1, 0] w transposes_S192x64_S64x192_1_0 (ix2 k c) (ix2 c k) (fun b => match b with
    | ⟨0, _⟩ => rfl
    | ⟨1, _⟩ => rfl)

theorem bB_apply (b : FVec Ideal S192 .f32) (n : Fin 50000) (c : Fin 192) :
    broadcastInDim S50000x192 ![0, 1] bcast_S1x192_S50000x192_0_1 (broadcastInDim S1x192 ![1] bcast_S192_S1x192_1 b) (ix2 n c)
      = b (ix1 c) := by
  refine (broadcastInDim_apply _ bcast_S1x192_S50000x192_0_1 _ (ix2 n c) (ix2 (0 : Fin 1) c) (fun a => match a with
    | ⟨0, _⟩ => by show 0 = if (1 : Nat) = 1 then 0 else n.val; rw [if_pos rfl]
    | ⟨1, _⟩ => by show c.val = if (192 : Nat) = 1 then 0 else c.val; rw [if_neg (by decide)])).trans ?_
  exact broadcastInDim_apply _ bcast_S192_S1x192_1 b (ix2 (0 : Fin 1) c) (ix1 c) (fun a => match a with
    | ⟨0, _⟩ => by show c.val = if (192 : Nat) = 1 then 0 else c.val; rw [if_neg (by decide)])

theorem refAff_apply (x : FVec Ideal S50000x64 .f32) (w : FVec Ideal S192x64 .f32) (b : FVec Ideal S192 .f32)
    (n : Fin 50000) (c : Fin 192) :
    refAff x w b (ix2 n c) = (∑ k : Fin 64, x (ix2 n k) * w (ix2 c k)) + b (ix1 c) := by
  unfold refAff
  rw [addf_apply, bB_apply]
  congr 1
  simp only [Host.dotGeneral]
  rw [Ideal.dotGeneral_apply,
    ← Equiv.sum_comp (contrEquiv1 dot_S50000x64_S64x192_S50000x192_1_0_0_1_n_n 64 rfl rfl).symm]
  refine Finset.sum_congr rfl fun k _ => ?_
  rw [dot_lhs, dot_rhs, wT_apply]

theorem colBlock_apply (o : Nat) (ho : o + 64 ≤ 192) (y : FVec Ideal S50000x192 .f32)
    (hs : S50000x192.Slices ![0, o] S50000x64) (n : Fin 50000) (j : Fin 64) :
    extractStridedSlice S50000x64 ![0, o] y hs (ix2 n j) = y (ix2 n (gcol o ho j)) :=
  extractStridedSlice_apply ![0, o] y hs (ix2 n j) (ix2 n (gcol o ho j)) (fun a => match a with
    | ⟨0, _⟩ => by show n.val = 0 + n.val; omega
    | ⟨1, _⟩ => rfl)

theorem rowBlockT_apply (o : Nat) (ho : o + 64 ≤ 192) (w : FVec Ideal S192x64 .f32)
    (hs : S192x64.Slices ![o, 0] S64x64) (ht : S64x64.Transposes [1, 0] S64x64) (k j : Fin 64) :
    transpose S64x64 [1, 0] (extractStridedSlice S64x64 ![o, 0] w hs) ht (ix2 k j) = w (ix2 (gcol o ho j) k) := by
  refine (transpose_apply [1, 0] _ ht (ix2 k j) (ix2 j k) (fun b => match b with
    | ⟨0, _⟩ => rfl
    | ⟨1, _⟩ => rfl)).trans ?_
  exact extractStridedSlice_apply ![o, 0] w hs (ix2 j k) (ix2 (gcol o ho j) k) (fun a => match a with
    | ⟨0, _⟩ => rfl
    | ⟨1, _⟩ => by show k.val = 0 + k.val; omega)

theorem seg_apply (o : Nat) (ho : o + 64 ≤ 192) (b : FVec Ideal S192 .f32)
    (hs : S192.Slices ![o] S64) (hc : S64.ShapeCasts S1x64) (j : Fin 64) :
    shapeCast S1x64 (extractStridedSlice S64 ![o] b hs) hc (ix2 (0 : Fin 1) j) = b (ix1 (gcol o ho j)) := by
  refine (shapeCast_apply _ hc (ix2 (0 : Fin 1) j) (ix1 j) ?_).trans ?_
  · rw [Shape.rowMajor_val_one, Shape.rowMajor_val_two]
    show j.val = 0 * 64 + j.val
    omega
  · exact extractStridedSlice_apply ![o] b hs (ix1 j) (ix1 (gcol o ho j)) (fun a => match a with
      | ⟨0, _⟩ => rfl)

theorem gate_lin (o : Nat) (ho : o + 64 ≤ 192) (x : FVec Ideal S50000x64 .f32) (w : FVec Ideal S192x64 .f32)
    (b : FVec Ideal S192 .f32) (wT : FVec Ideal S64x64 .f32) (bR : FVec Ideal S1x64 .f32)
    (hw : ∀ k j : Fin 64, wT (ix2 k j) = w (ix2 (gcol o ho j) k))
    (hb : ∀ j : Fin 64, bR (ix2 (0 : Fin 1) j) = b (ix1 (gcol o ho j))) (n : Fin 50000) (j : Fin 64) :
    refAff x w b (ix2 n (gcol o ho j)) = Cert.MP.lin x wT bR n j := by
  rw [refAff_apply]
  unfold Cert.MP.lin
  rw [hb j]
  exact congrArg (· + b (ix1 (gcol o ho j))) (Finset.sum_congr rfl fun k _ => by rw [hw k j])

theorem gate0 (x : FVec Ideal S50000x64 .f32) (w : FVec Ideal S192x64 .f32) (b : FVec Ideal S192 .f32)
    (n : Fin 50000) (j : Fin 64) :
    refAff x w b (ix2 n (gcol 0 (by decide) j)) = Cert.MP.lin x (gT0 w) (gb0 b) n j :=
  gate_lin 0 (by decide) x w b (gT0 w) (gb0 b) (fun k j => rowBlockT_apply 0 (by decide) w _ _ k j)
    (fun j => seg_apply 0 (by decide) b _ _ j) n j

theorem gate1 (x : FVec Ideal S50000x64 .f32) (w : FVec Ideal S192x64 .f32) (b : FVec Ideal S192 .f32)
    (n : Fin 50000) (j : Fin 64) :
    refAff x w b (ix2 n (gcol 64 (by decide) j)) = Cert.MP.lin x (gT1 w) (gb1 b) n j :=
  gate_lin 64 (by decide) x w b (gT1 w) (gb1 b) (fun k j => rowBlockT_apply 64 (by decide) w _ _ k j)
    (fun j => seg_apply 64 (by decide) b _ _ j) n j

theorem gate2 (x : FVec Ideal S50000x64 .f32) (w : FVec Ideal S192x64 .f32) (b : FVec Ideal S192 .f32)
    (n : Fin 50000) (j : Fin 64) :
    refAff x w b (ix2 n (gcol 128 (by decide) j)) = Cert.MP.lin x (gT2 w) (gb2 b) n j :=
  gate_lin 128 (by decide) x w b (gT2 w) (gb2 b) (fun k j => rowBlockT_apply 128 (by decide) w _ _ k j)
    (fun j => seg_apply 128 (by decide) b _ _ j) n j

theorem gru_stage (agg h : FVec Ideal Cert.ReferenceIdeal.S50000x64 .f32) (wih : FVec Ideal Cert.ReferenceIdeal.S192x64 .f32)
    (bih : FVec Ideal Cert.ReferenceIdeal.S192 .f32) (whh : FVec Ideal Cert.ReferenceIdeal.S192x64 .f32)
    (bhh : FVec Ideal Cert.ReferenceIdeal.S192 .f32) :
    Cert.MP.gruAt agg h (gT0 wih) (gT1 wih) (gT2 wih) (gb0 bih) (gb1 bih) (gb2 bih) (gT0 whh) (gT1 whh) (gT2 whh)
      (gb0 bhh) (gb1 bhh) (gb2 bhh) = refGru agg h wih bih whh bhh := by
  funext i
  obtain ⟨n, j, rfl⟩ : ∃ (n : Fin 50000) (j : Fin 64), i = ix2 n j := ⟨i 0, i 1, eq_ix2 i⟩
  unfold refGru
  simp only [addf_apply, mulf_apply, subf_apply, refOne_apply, refSig_apply, hostTanh_apply,
    colBlock_apply 0 (by decide), colBlock_apply 64 (by decide), colBlock_apply 128 (by decide),
    gate0, gate1, gate2]

  rfl

end Cert.KD

end
-- ==== Proof.RefStages.lean ====
import proofs.«423451_j81475529605767_1_alg».proof.Proof.Stages
import proofs.«423451_j81475529605767_1_alg».proof.Proof.KStep
import proofs.«423451_j81475529605767_1_alg».proof.Proof.LawMsg
import proofs.«423451_j81475529605767_1_alg».proof.Proof.LawGru

noncomputable section

namespace Cert.KD

open Idealize.ShloMosaic Idealize.ShloMosaic.TcCoe Idealize.SL.Sem Cert.KernelIdeal Cert.KernelIdeal.Facts₀ Cert.KernelIdeal.Facts

variable (m : (ℓ : Loc nD τ sig) → Buf (Elt Ideal) ℓ)

def EdgesInRange (c : Dev nD) : Prop := RowInRange (src (X1 m c)) ∧ RowInRange (dst (X1 m c))

theorem t1s_eq (c : Dev nD) : T1s m c = lookup (H0 m c) (src (X1 m c)) := rfl
theorem t1d_eq (c : Dev nD) : T1d m c = lookup (H0 m c) (dst (X1 m c)) := rfl
theorem t2s_eq (c : Dev nD) : T2s m c = lookup (H1 m c) (src (X1 m c)) := rfl
theorem t2d_eq (c : Dev nD) : T2d m c = lookup (H1 m c) (dst (X1 m c)) := rfl
theorem t3s_eq (c : Dev nD) : T3s m c = lookup (H2 m c) (src (X1 m c)) := rfl
theorem t3d_eq (c : Dev nD) : T3d m c = lookup (H2 m c) (dst (X1 m c)) := rfl

theorem m1_eq (c : Dev nD) : M1 m c = refMsg (T1s m c) (T1d m c) (X2 m c) (X6 m c) (X7 m c) (X8 m c) (X9 m c) := rfl
theorem m2_eq (c : Dev nD) : M2 m c = refMsg (T2s m c) (T2d m c) (X2 m c) (X6 m c) (X7 m c) (X8 m c) (X9 m c) := rfl
theorem m3_eq (c : Dev nD) : M3 m c = refMsg (T3s m c) (T3d m c) (X2 m c) (X6 m c) (X7 m c) (X8 m c) (X9 m c) := rfl

theorem a1_eq (c : Dev nD) : A1 m c = scat (M1 m c) (dst (X1 m c)) := rfl
theorem a2_eq (c : Dev nD) : A2 m c = scat (M2 m c) (dst (X1 m c)) := rfl
theorem a3_eq (c : Dev nD) : A3 m c = scat (M3 m c) (dst (X1 m c)) := rfl

theorem h1_eq (c : Dev nD) : H1 m c = refGru (A1 m c) (H0 m c) (X10 m c) (X11 m c) (X12 m c) (X13 m c) := rfl
theorem h2_eq (c : Dev nD) : H2 m c = refGru (A2 m c) (H1 m c) (X10 m c) (X11 m c) (X12 m c) (X13 m c) := rfl
theorem h3_eq (c : Dev nD) : H3 m c = refGru (A3 m c) (H2 m c) (X10 m c) (X11 m c) (X12 m c) (X13 m c) := rfl

theorem out_eq (c : Dev nD) : OUT m c = readout (H3 m c) (X3 m c) (X14 m c) (X15 m c) (X16 m c) (X17 m c) := rfl

end Cert.KD

end
-- ==== Proof.Bridge.lean ====
import proofs.«423451_j81475529605767_1_alg».proof.Proof.Stages
import proofs.«423451_j81475529605767_1_alg».proof.Proof.KStep
import proofs.«423451_j81475529605767_1_alg».proof.Proof.RefStages
import proofs.«423451_j81475529605767_1_alg».proof.Proof.LawTake
import proofs.«423451_j81475529605767_1_alg».proof.Proof.LawMsg
import proofs.«423451_j81475529605767_1_alg».proof.Proof.LawGru

noncomputable section

namespace Cert.KD

open Idealize.ShloMosaic Idealize.ShloMosaic.TcCoe Idealize.SL.Sem Cert.KernelIdeal

variable (m : (ℓ : Loc nD τ sig) → Buf (Elt Ideal) ℓ)

theorem kStep_eq (c : Dev nD) (hr : EdgesInRange m c) (h : FVec Ideal S50000x64 .f32) :
    kStep m c h = refGru (scat (refMsg (lookup h (src (X1 m c))) (lookup h (dst (X1 m c))) (X2 m c) (X6 m c) (X7 m c) (X8 m c) (X9 m c)) (dst (X1 m c)))
      h (X10 m c) (X11 m c) (X12 m c) (X13 m c) := by
  unfold kStep kMsg
  rw [take_law _ _ hr.1, take_law _ _ hr.2, msg_stage, gru_stage]

theorem k0_eq (c : Dev nD) : K0 m c = H0 m c := rfl

theorem k1_eq (c : Dev nD) (hr : EdgesInRange m c) : K1 m c = H1 m c := by
  unfold K1
  rw [kStep_eq m c hr, k0_eq, h1_eq, a1_eq, m1_eq, t1s_eq, t1d_eq]

theorem k2_eq (c : Dev nD) (hr : EdgesInRange m c) : K2 m c = H2 m c := by
  unfold K2
  rw [kStep_eq m c hr, k1_eq m c hr, h2_eq, a2_eq, m2_eq, t2s_eq, t2d_eq]

theorem k3_eq (c : Dev nD) (hr : EdgesInRange m c) : K3 m c = H3 m c := by
  unfold K3
  rw [kStep_eq m c hr, k2_eq m c hr, h3_eq, a3_eq, m3_eq, t3s_eq, t3d_eq]

theorem kout_eq (c : Dev nD) (hr : EdgesInRange m c) : KOUT m c = OUT m c := by
  unfold KOUT
  rw [k3_eq m c hr, out_eq]

end Cert.KD

end
-- ==== Proof.ChainA.lean ====
import proofs.«423451_j81475529605767_1_alg».proof.Proof.KStep

noncomputable section

namespace Cert.KD.Chain

open Idealize.ShloMosaic Idealize.ShloMosaic.TcCoe Idealize.SL.Sem Cert.KernelIdeal Cert.KernelIdeal.Gen Cert.KD

variable (m : (ℓ : Loc nD τ sig) → Buf (Elt Ideal) ℓ) (ρ : Dev nD → PrngReg)

def carried : List (Ref sig .tc) :=
  [main_arg2, main_v8, main_v9, main_v10, main_v11, main_arg8, main_v12, main_v5, main_v7, main_v14, main_v16, main_v18, main_v26, main_v28, main_v30, main_v20, main_v22, main_v24, main_v32, main_v34, main_v36, main_arg3, main_arg14, main_arg15, main_arg16, main_arg17]

private abbrev wr0 : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36]
private theorem hostOps0_writes : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

private abbrev wr1 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v37]
private theorem hostOps0_1_writes : (hostOps0_1 : List (HloOp τ sig (Elt Ideal))).Forall fun op => op.writes ⊆ (wr1.map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

private abbrev wr2 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v38]
private theorem hostOps0_2_writes : (hostOps0_2 : List (HloOp τ sig (Elt Ideal))).Forall fun op => op.writes ⊆ (wr2.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

private theorem keep1 (c : Dev nD) (r : Ref sig .tc) (h : r ∉ wr0) : W1 m ρ c (Proc.devRef .tc r) = W0 m ρ c (Proc.devRef .tc r) :=
  StableHlo.after_of_writes_sub hostOps0 _ hostOps0_writes h

private theorem keep2 (c : Dev nD) (r : Ref sig .tc) (h : r ∉ wr1) : W2 m ρ c (Proc.devRef .tc r) = W1 m ρ c (Proc.devRef .tc r) :=
  StableHlo.after_of_writes_sub hostOps0_1 _ hostOps0_1_writes h

private theorem keep3 (c : Dev nD) (r : Ref sig .tc) (h : r ∉ wr2) : W3 m ρ c (Proc.devRef .tc r) = W2 m ρ c (Proc.devRef .tc r) :=
  StableHlo.after_of_writes_sub hostOps0_2 _ hostOps0_2_writes h

private theorem keep_all (c : Dev nD) (r : Ref sig .tc) (h0 : r ∉ wr0) (h1 : r ∉ wr1) (h2 : r ∉ wr2) :
    W3 m ρ c (Proc.devRef .tc r) = W0 m ρ c (Proc.devRef .tc r) :=
  (keep3 m ρ c r h2).trans ((keep2 m ρ c r h1).trans (keep1 m ρ c r h0))

private theorem keep23 (c : Dev nD) (r : Ref sig .tc) (h1 : r ∉ wr1) (h2 : r ∉ wr2) :
    W3 m ρ c (Proc.devRef .tc r) = W1 m ρ c (Proc.devRef .tc r) :=
  (keep3 m ρ c r h2).trans (keep2 m ρ c r h1)

private theorem k1_v3 (c : Dev nD) : W1 m ρ c (Proc.devRef .tc main_v3) = K0 m c := by
  show StableHlo.after hostOps0 (W0 m ρ c) (Proc.devRef .tc main_v3) = _
  after_results
  rfl
private theorem k1_v8 (c : Dev nD) : W1 m ρ c (Proc.devRef .tc main_v8) = wms (X6 m c) := by
  show StableHlo.after hostOps0 (W0 m ρ c) (Proc.devRef .tc main_v8) = _
  after_results
  rfl
private theorem k1_v9 (c : Dev nD) : W1 m ρ c (Proc.devRef .tc main_v9) = wmd (X6 m c) := by
  show StableHlo.after hostOps0 (W0 m ρ c) (Proc.devRef .tc main_v9) = _
  after_results
  rfl
private theorem k1_v10 (c : Dev nD) : W1 m ρ c (Proc.devRef .tc main_v10) = wme (X6 m c) := by
  show StableHlo.after hostOps0 (W0 m ρ c) (Proc.devRef .tc main_v10) = _
  after_results
  rfl
private theorem k1_v11 (c : Dev nD) : W1 m ρ c (Proc.devRef .tc main_v11) = row (X7 m c) := by
  show StableHlo.after hostOps0 (W0 m ρ c) (Proc.devRef .tc main_v11) = _
  after_results
  rfl
private theorem k1_v12 (c : Dev nD) : W1 m ρ c (Proc.devRef .tc main_v12) = row (X9 m c) := by
  show StableHlo.after hostOps0 (W0 m ρ c) (Proc.devRef .tc main_v12) = _
  after_results
  rfl
private theorem k1_v5 (c : Dev nD) : W1 m ρ c (Proc.devRef .tc main_v5) = src (X1 m c) := by
  show StableHlo.after hostOps0 (W0 m ρ c) (Proc.devRef .tc main_v5) = _
  after_results
  rfl
private theorem k1_v7 (c : Dev nD) : W1 m ρ c (Proc.devRef .tc main_v7) = dst (X1 m c) := by
  show StableHlo.after hostOps0 (W0 m ρ c) (Proc.devRef .tc main_v7) = _
  after_results
  rfl
private theorem k1_v14 (c : Dev nD) : W1 m ρ c (Proc.devRef .tc main_v14) = gT0 (X10 m c) := by
  show StableHlo.after hostOps0 (W0 m ρ c) (Proc.devRef .tc main_v14) = _
  after_results
  rfl
private theorem k1_v16 (c : Dev nD) : W1 m ρ c (Proc.devRef .tc main_v16) = gT1 (X10 m c) := by
  show StableHlo.after hostOps0 (W0 m ρ c) (Proc.devRef .tc main_v16) = _
  after_results
  rfl
private theorem k1_v18 (c : Dev nD) : W1 m ρ c (Proc.devRef .tc main_v18) = gT2 (X10 m c) := by
  show StableHlo.after hostOps0 (W0 m ρ c) (Proc.devRef .tc main_v18) = _
  after_results
  rfl
private theorem k1_v26 (c : Dev nD) : W1 m ρ c (Proc.devRef .tc main_v26) = gb0 (X11 m c) := by
  show StableHlo.after hostOps0 (W0 m ρ c) (Proc.devRef .tc main_v26) = _
  after_results
  rfl
private theorem k1_v28 (c : Dev nD) : W1 m ρ c (Proc.devRef .tc main_v28) = gb1 (X11 m c) := by
  show StableHlo.after hostOps0 (W0 m ρ c) (Proc.devRef .tc main_v28) = _
  after_results
  rfl
private theorem k1_v30 (c : Dev nD) : W1 m ρ c (Proc.devRef .tc main_v30) = gb2 (X11 m c) := by
  show StableHlo.after hostOps0 (W0 m ρ c) (Proc.devRef .tc main_v30) = _
  after_results
  rfl
private theorem k1_v20 (c : Dev nD) : W1 m ρ c (Proc.devRef .tc main_v20) = gT0 (X12 m c) := by
  show StableHlo.after hostOps0 (W0 m ρ c) (Proc.devRef .tc main_v20) = _
  after_results
  rfl
private theorem k1_v22 (c : Dev nD) : W1 m ρ c (Proc.devRef .tc main_v22) = gT1 (X12 m c) := by
  show StableHlo.after hostOps0 (W0 m ρ c) (Proc.devRef .tc main_v22) = _
  after_results
  rfl
private theorem k1_v24 (c : Dev nD) : W1 m ρ c (Proc.devRef .tc main_v24) = gT2 (X12 m c) := by
  show StableHlo.after hostOps0 (W0 m ρ c) (Proc.devRef .tc main_v24) = _
  after_results
  rfl
private theorem k1_v32 (c : Dev nD) : W1 m ρ c (Proc.devRef .tc main_v32) = gb0 (X13 m c) := by
  show StableHlo.after hostOps0 (W0 m ρ c) (Proc.devRef .tc main_v32) = _
  after_results
  rfl
private theorem k1_v34 (c : Dev nD) : W1 m ρ c (Proc.devRef .tc main_v34) = gb1 (X13 m c) := by
  show StableHlo.after hostOps0 (W0 m ρ c) (Proc.devRef .tc main_v34) = _
  after_results
  rfl
private theorem k1_v36 (c : Dev nD) : W1 m ρ c (Proc.devRef .tc main_v36) = gb2 (X13 m c) := by
  show StableHlo.after hostOps0 (W0 m ρ c) (Proc.devRef .tc main_v36) = _
  after_results
  rfl

private theorem A_ofBuf_toBuf {T : BufTy} {Val : EltTy → Type} (x : StableHlo.TRef sig T) (v : T.Contents Val) :
    x.ofBuf (x.toBuf v) = v := by
  obtain ⟨r, rfl, _, _⟩ := x
  rfl

private theorem A_ofBuf_v3 {Val : EltTy → Type} (h1 h2 h3) (v : (⟨S50000x64, .f32⟩ : BufTy).Contents Val) :
    (StableHlo.TRef.of main_v3 h1 h2 h3 : StableHlo.TRef sig ⟨S50000x64, .f32⟩).ofBuf v = v := rfl
private theorem A_ofBuf_v5 {Val : EltTy → Type} (h1 h2 h3) (v : (⟨S800000, .i32⟩ : BufTy).Contents Val) :
    (StableHlo.TRef.of main_v5 h1 h2 h3 : StableHlo.TRef sig ⟨S800000, .i32⟩).ofBuf v = v := rfl
private theorem A_ofBuf_v7 {Val : EltTy → Type} (h1 h2 h3) (v : (⟨S800000, .i32⟩ : BufTy).Contents Val) :
    (StableHlo.TRef.of main_v7 h1 h2 h3 : StableHlo.TRef sig ⟨S800000, .i32⟩).ofBuf v = v := rfl
private theorem A_toBuf_v37 {Val : EltTy → Type} (h1 h2 h3) (v : (⟨S800000x64, .f32⟩ : BufTy).Contents Val) :
    (StableHlo.TRef.of main_v37 h1 h2 h3 : StableHlo.TRef sig ⟨S800000x64, .f32⟩).toBuf v = v := rfl
private theorem A_toBuf_v38 {Val : EltTy → Type} (h1 h2 h3) (v : (⟨S800000x64, .f32⟩ : BufTy).Contents Val) :
    (StableHlo.TRef.of main_v38 h1 h2 h3 : StableHlo.TRef sig ⟨S800000x64, .f32⟩).toBuf v = v := rfl

section
variable {F : FTy → Type} [FloatOps F]

private theorem take_after0_1 (V : Valuation τ sig (Elt F)) :
    StableHlo.after (hostOps0_1 (F := F)) V (Proc.devRef .tc main_v37)
      = take (F := F) (V (Proc.devRef .tc main_v3)) (V (Proc.devRef .tc main_v5)) := by
  after_results_simp
  simp only [A_ofBuf_toBuf, A_ofBuf_v3, A_ofBuf_v5, A_toBuf_v37, take, lookup, wrap] <;> rfl

private theorem take_after0_2 (V : Valuation τ sig (Elt F)) :
    StableHlo.after (hostOps0_2 (F := F)) V (Proc.devRef .tc main_v38)
      = take (F := F) (V (Proc.devRef .tc main_v3)) (V (Proc.devRef .tc main_v7)) := by
  after_results_simp
  simp only [A_ofBuf_toBuf, A_ofBuf_v3, A_ofBuf_v7, A_toBuf_v38, take, lookup, wrap] <;> rfl
end

private theorem k2_v37 (c : Dev nD) : W2 m ρ c (Proc.devRef .tc main_v37) = take (K0 m c) (src (X1 m c)) := by
  refine (take_after0_1 (W1 m ρ c)).trans ?_
  rw [k1_v3, k1_v5]

theorem k3_v3 (c : Dev nD) : W3 m ρ c (Proc.devRef .tc main_v3) = K0 m c :=
  (keep23 m ρ c main_v3 (by decide) (by decide)).trans (k1_v3 m ρ c)
theorem k3_v37 (c : Dev nD) : W3 m ρ c (Proc.devRef .tc main_v37) = take (K0 m c) (src (X1 m c)) :=
  (keep3 m ρ c main_v37 (by decide)).trans (k2_v37 m ρ c)
theorem k3_v38 (c : Dev nD) : W3 m ρ c (Proc.devRef .tc main_v38) = take (K0 m c) (dst (X1 m c)) := by
  refine (take_after0_2 (W2 m ρ c)).trans ?_
  rw [keep2 m ρ c main_v3 (by decide), keep2 m ρ c main_v7 (by decide), k1_v3, k1_v7]
theorem k3_arg2 (c : Dev nD) : W3 m ρ c (Proc.devRef .tc main_arg2) = X2 m c :=
  (keep_all m ρ c main_arg2 (by decide) (by decide) (by decide)).trans rfl
theorem k3_v8 (c : Dev nD) : W3 m ρ c (Proc.devRef .tc main_v8) = wms (X6 m c) :=
  (keep23 m ρ c main_v8 (by decide) (by decide)).trans (k1_v8 m ρ c)
theorem k3_v9 (c : Dev nD) : W3 m ρ c (Proc.devRef .tc main_v9) = wmd (X6 m c) :=
  (keep23 m ρ c main_v9 (by decide) (by decide)).trans (k1_v9 m ρ c)
theorem k3_v10 (c : Dev nD) : W3 m ρ c (Proc.devRef .tc main_v10) = wme (X6 m c) :=
  (keep23 m ρ c main_v10 (by decide) (by decide)).trans (k1_v10 m ρ c)
theorem k3_v11 (c : Dev nD) : W3 m ρ c (Proc.devRef .tc main_v11) = row (X7 m c) :=
  (keep23 m ρ c main_v11 (by decide) (by decide)).trans (k1_v11 m ρ c)
theorem k3_arg8 (c : Dev nD) : W3 m ρ c (Proc.devRef .tc main_arg8) = X8 m c :=
  (keep_all m ρ c main_arg8 (by decide) (by decide) (by decide)).trans rfl
theorem k3_v12 (c : Dev nD) : W3 m ρ c (Proc.devRef .tc main_v12) = row (X9 m c) :=
  (keep23 m ρ c main_v12 (by decide) (by decide)).trans (k1_v12 m ρ c)
theorem k3_v5 (c : Dev nD) : W3 m ρ c (Proc.devRef .tc main_v5) = src (X1 m c) :=
  (keep23 m ρ c main_v5 (by decide) (by decide)).trans (k1_v5 m ρ c)
theorem k3_v7 (c : Dev nD) : W3 m ρ c (Proc.devRef .tc main_v7) = dst (X1 m c) :=
  (keep23 m ρ c main_v7 (by decide) (by decide)).trans (k1_v7 m ρ c)
theorem k3_v14 (c : Dev nD) : W3 m ρ c (Proc.devRef .tc main_v14) = gT0 (X10 m c) :=
  (keep23 m ρ c main_v14 (by decide) (by decide)).trans (k1_v14 m ρ c)
theorem k3_v16 (c : Dev nD) : W3 m ρ c (Proc.devRef .tc main_v16) = gT1 (X10 m c) :=
  (keep23 m ρ c main_v16 (by decide) (by decide)).trans (k1_v16 m ρ c)
theorem k3_v18 (c : Dev nD) : W3 m ρ c (Proc.devRef .tc main_v18) = gT2 (X10 m c) :=
  (keep23 m ρ c main_v18 (by decide) (by decide)).trans (k1_v18 m ρ c)
theorem k3_v26 (c : Dev nD) : W3 m ρ c (Proc.devRef .tc main_v26) = gb0 (X11 m c) :=
  (keep23 m ρ c main_v26 (by decide) (by decide)).trans (k1_v26 m ρ c)
theorem k3_v28 (c : Dev nD) : W3 m ρ c (Proc.devRef .tc main_v28) = gb1 (X11 m c) :=
  (keep23 m ρ c main_v28 (by decide) (by decide)).trans (k1_v28 m ρ c)
theorem k3_v30 (c : Dev nD) : W3 m ρ c (Proc.devRef .tc main_v30) = gb2 (X11 m c) :=
  (keep23 m ρ c main_v30 (by decide) (by decide)).trans (k1_v30 m ρ c)
theorem k3_v20 (c : Dev nD) : W3 m ρ c (Proc.devRef .tc main_v20) = gT0 (X12 m c) :=
  (keep23 m ρ c main_v20 (by decide) (by decide)).trans (k1_v20 m ρ c)
theorem k3_v22 (c : Dev nD) : W3 m ρ c (Proc.devRef .tc main_v22) = gT1 (X12 m c) :=
  (keep23 m ρ c main_v22 (by decide) (by decide)).trans (k1_v22 m ρ c)
theorem k3_v24 (c : Dev nD) : W3 m ρ c (Proc.devRef .tc main_v24) = gT2 (X12 m c) :=
  (keep23 m ρ c main_v24 (by decide) (by decide)).trans (k1_v24 m ρ c)
theorem k3_v32 (c : Dev nD) : W3 m ρ c (Proc.devRef .tc main_v32) = gb0 (X13 m c) :=
  (keep23 m ρ c main_v32 (by decide) (by decide)).trans (k1_v32 m ρ c)
theorem k3_v34 (c : Dev nD) : W3 m ρ c (Proc.devRef .tc main_v34) = gb1 (X13 m c) :=
  (keep23 m ρ c main_v34 (by decide) (by decide)).trans (k1_v34 m ρ c)
theorem k3_v36 (c : Dev nD) : W3 m ρ c (Proc.devRef .tc main_v36) = gb2 (X13 m c) :=
  (keep23 m ρ c main_v36 (by decide) (by decide)).trans (k1_v36 m ρ c)
theorem k3_arg3 (c : Dev nD) : W3 m ρ c (Proc.devRef .tc main_arg3) = X3 m c :=
  (keep_all m ρ c main_arg3 (by decide) (by decide) (by decide)).trans rfl
theorem k3_arg14 (c : Dev nD) : W3 m ρ c (Proc.devRef .tc main_arg14) = X14 m c :=
  (keep_all m ρ c main_arg14 (by decide) (by decide) (by decide)).trans rfl
theorem k3_arg15 (c : Dev nD) : W3 m ρ c (Proc.devRef .tc main_arg15) = X15 m c :=
  (keep_all m ρ c main_arg15 (by decide) (by decide) (by decide)).trans rfl
theorem k3_arg16 (c : Dev nD) : W3 m ρ c (Proc.devRef .tc main_arg16) = X16 m c :=
  (keep_all m ρ c main_arg16 (by decide) (by decide) (by decide)).trans rfl
theorem k3_arg17 (c : Dev nD) : W3 m ρ c (Proc.devRef .tc main_arg17) = X17 m c :=
  (keep_all m ρ c main_arg17 (by decide) (by decide) (by decide)).trans rfl

end Cert.KD.Chain

end
-- ==== Proof.RegSpec.lean ====
import proofs.«423451_j81475529605767_1_alg».proof.Proof.Gen.KernelIdeal.Frame
import proofs.«423451_j81475529605767_1_alg».proof.Proof.Spec

noncomputable section

namespace Cert.KD

open Idealize.ShloMosaic Idealize.ShloMosaic.TcCoe Idealize.SL.Sem Cert.KernelIdeal Cert.KernelIdeal.Gen
open Idealize.ShloMosaic.Pipeline (Dat)

def MsgFinal0 : Prop := ∀ (V : (c : Dev nD) → (b : Ref sig .tc) → Buf (Elt Ideal) ((c : Thread nD τ).loc b)) (c : Dev nD),
  (dat0 (F := Ideal) V c).arrAt 9 cfg0.N = Cert.MP.msgAt (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8))

def GruFinal1 : Prop := ∀ (V : (c : Dev nD) → (b : Ref sig .tc) → Buf (Elt Ideal) ((c : Thread nD τ).loc b)) (c : Dev nD),
  (dat1 (F := Ideal) V c).arrAt 14 cfg1.N = Cert.MP.gruAt (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) (V c (Pipeline.arrRef spec1 12)) (V c (Pipeline.arrRef spec1 13))

def MsgFinal2 : Prop := ∀ (V : (c : Dev nD) → (b : Ref sig .tc) → Buf (Elt Ideal) ((c : Thread nD τ).loc b)) (c : Dev nD),
  (dat2 (F := Ideal) V c).arrAt 9 cfg2.N = Cert.MP.msgAt (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8))

def GruFinal3 : Prop := ∀ (V : (c : Dev nD) → (b : Ref sig .tc) → Buf (Elt Ideal) ((c : Thread nD τ).loc b)) (c : Dev nD),
  (dat3 (F := Ideal) V c).arrAt 14 cfg3.N = Cert.MP.gruAt (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) (V c (Pipeline.arrRef spec3 11)) (V c (Pipeline.arrRef spec3 12)) (V c (Pipeline.arrRef spec3 13))

def MsgFinal4 : Prop := ∀ (V : (c : Dev nD) → (b : Ref sig .tc) → Buf (Elt Ideal) ((c : Thread nD τ).loc b)) (c : Dev nD),
  (dat4 (F := Ideal) V c).arrAt 9 cfg4.N = Cert.MP.msgAt (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8))

def GruFinal5 : Prop := ∀ (V : (c : Dev nD) → (b : Ref sig .tc) → Buf (Elt Ideal) ((c : Thread nD τ).loc b)) (c : Dev nD),
  (dat5 (F := Ideal) V c).arrAt 14 cfg5.N = Cert.MP.gruAt (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) (V c (Pipeline.arrRef spec5 10)) (V c (Pipeline.arrRef spec5 11)) (V c (Pipeline.arrRef spec5 12)) (V c (Pipeline.arrRef spec5 13))

end Cert.KD

end
-- ==== Proof.ChainB.lean ====
import proofs.«423451_j81475529605767_1_alg».proof.Proof.ChainA
import proofs.«423451_j81475529605767_1_alg».proof.Proof.RegSpec

noncomputable section

namespace Cert.KD.Chain

open Idealize.ShloMosaic Idealize.ShloMosaic.TcCoe Idealize.SL.Sem Cert.KernelIdeal Cert.KernelIdeal.Gen Cert.KD

variable (m : (ℓ : Loc nD τ sig) → Buf (Elt Ideal) ℓ) (ρ : Dev nD → PrngReg)

private abbrev wr1 : List (Ref sig .tc) := [main_cst, main_v40, main_v41, main_v42]
private theorem wr1_sub : (hostOps1 : List (HloOp τ sig (Elt Ideal))).Forall fun op => op.writes ⊆ (wr1.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

private abbrev wr2 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v44]
private theorem wr2_sub : (hostOps2 : List (HloOp τ sig (Elt Ideal))).Forall fun op => op.writes ⊆ (wr2.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

private abbrev wr2_1 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v45]
private theorem wr2_1_sub : (hostOps2_1 : List (HloOp τ sig (Elt Ideal))).Forall fun op => op.writes ⊆ (wr2_1.map (Proc.devRef (τ := τ) .tc)).toFinset := by
  simp only [hostOps2_1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, Finset.singleton_subset_iff, List.mem_toFinset]; exact List.mem_map_of_mem (by decide))

private theorem W4_keep (c : Dev nD) (b : Ref sig .tc) (hb : b ≠ main_v39) :
    W4 m ρ c (Proc.devRef .tc b) = W3 m ρ c (Proc.devRef .tc b) := by
  by_cases h : ∃ w, Pipeline.arrRef spec0 w = b
  · obtain ⟨w, rfl⟩ := h
    have hin : (cfg0.win w).isOut = false :=
      (by decide : ∀ w : Fin cfg0.W, Pipeline.arrRef spec0 w ≠ main_v39 → (cfg0.win w).isOut = false) w hb
    exact (W4_arr m ρ c w).trans (((dat0 (V3 m ρ) c).arrAt_in w hin _).trans (A_eq0 (V3 m ρ) c w))
  · exact W4_of_ne m ρ c b fun w e => h ⟨w, e⟩

private theorem W6_keep (c : Dev nD) (b : Ref sig .tc) (hb : b ≠ main_v43) :
    W6 m ρ c (Proc.devRef .tc b) = W5 m ρ c (Proc.devRef .tc b) := by
  by_cases h : ∃ w, Pipeline.arrRef spec1 w = b
  · obtain ⟨w, rfl⟩ := h
    have hin : (cfg1.win w).isOut = false :=
      (by decide : ∀ w : Fin cfg1.W, Pipeline.arrRef spec1 w ≠ main_v43 → (cfg1.win w).isOut = false) w hb
    exact (W6_arr m ρ c w).trans (((dat1 (V5 m ρ) c).arrAt_in w hin _).trans (A_eq1 (V5 m ρ) c w))
  · exact W6_of_ne m ρ c b fun w e => h ⟨w, e⟩

private theorem scat_after (V : Valuation τ sig (Elt Ideal)) :
    StableHlo.after hostOps1 V (Proc.devRef .tc main_v42) = scat (V (Proc.devRef .tc main_v39)) (V (Proc.devRef .tc main_v7)) := by
  after_results
  rfl

private theorem B_ofBuf_toBuf {T : BufTy} {Val : EltTy → Type} (x : StableHlo.TRef sig T) (v : T.Contents Val) :
    x.ofBuf (x.toBuf v) = v := by
  obtain ⟨r, rfl, _, _⟩ := x
  rfl

private theorem B_ofBuf_v43 {Val : EltTy → Type} (h1 h2 h3) (v : (⟨S50000x64, .f32⟩ : BufTy).Contents Val) :
    (StableHlo.TRef.of main_v43 h1 h2 h3 : StableHlo.TRef sig ⟨S50000x64, .f32⟩).ofBuf v = v := rfl

private theorem B_ofBuf_v5 {Val : EltTy → Type} (h1 h2 h3) (v : (⟨S800000, .i32⟩ : BufTy).Contents Val) :
    (StableHlo.TRef.of main_v5 h1 h2 h3 : StableHlo.TRef sig ⟨S800000, .i32⟩).ofBuf v = v := rfl

private theorem B_ofBuf_v7 {Val : EltTy → Type} (h1 h2 h3) (v : (⟨S800000, .i32⟩ : BufTy).Contents Val) :
    (StableHlo.TRef.of main_v7 h1 h2 h3 : StableHlo.TRef sig ⟨S800000, .i32⟩).ofBuf v = v := rfl

private theorem B_toBuf_v44 {Val : EltTy → Type} (h1 h2 h3) (v : (⟨S800000x64, .f32⟩ : BufTy).Contents Val) :
    (StableHlo.TRef.of main_v44 h1 h2 h3 : StableHlo.TRef sig ⟨S800000x64, .f32⟩).toBuf v = v := rfl

private theorem B_toBuf_v45 {Val : EltTy → Type} (h1 h2 h3) (v : (⟨S800000x64, .f32⟩ : BufTy).Contents Val) :
    (StableHlo.TRef.of main_v45 h1 h2 h3 : StableHlo.TRef sig ⟨S800000x64, .f32⟩).toBuf v = v := rfl

section
variable {F : FTy → Type} [FloatOps F]

private theorem take_after2 (V : Valuation τ sig (Elt F)) :
    StableHlo.after (hostOps2 (F := F)) V (Proc.devRef .tc main_v44)
      = take (F := F) (V (Proc.devRef .tc main_v43)) (V (Proc.devRef .tc main_v5)) := by
  after_results_simp
  simp only [B_ofBuf_toBuf, B_ofBuf_v43, B_ofBuf_v5, B_toBuf_v44, take, lookup, wrap] <;> rfl

private theorem take_after2_1 (V : Valuation τ sig (Elt F)) :
    StableHlo.after (hostOps2_1 (F := F)) V (Proc.devRef .tc main_v45)
      = take (F := F) (V (Proc.devRef .tc main_v43)) (V (Proc.devRef .tc main_v7)) := by
  after_results_simp
  simp only [B_ofBuf_toBuf, B_ofBuf_v43, B_ofBuf_v7, B_toBuf_v45, take, lookup, wrap] <;> rfl
end

theorem carried5 (c : Dev nD) : ∀ b ∈ carried, W5 m ρ c (Proc.devRef .tc b) = W3 m ρ c (Proc.devRef .tc b) := by
  intro b hb
  have h1 : b ∉ wr1 := (by decide : ∀ b ∈ carried, b ∉ wr1) b hb
  have h2 : b ≠ main_v39 := (by decide : ∀ b ∈ carried, b ≠ main_v39) b hb
  exact (StableHlo.after_of_writes_sub hostOps1 _ wr1_sub h1).trans (W4_keep m ρ c b h2)
theorem k4_m1 (c : Dev nD) (h0 : MsgFinal0) : W4 m ρ c (Proc.devRef .tc main_v39) = kMsg m c (K0 m c) := by
  refine ((W4_arr m ρ c 9).trans (h0 (V3 m ρ) c)).trans ?_
  show Cert.MP.msgAt (W3 m ρ c (Proc.devRef .tc main_v37)) (W3 m ρ c (Proc.devRef .tc main_v38)) (W3 m ρ c (Proc.devRef .tc main_arg2))
    (W3 m ρ c (Proc.devRef .tc main_v8)) (W3 m ρ c (Proc.devRef .tc main_v9)) (W3 m ρ c (Proc.devRef .tc main_v10))
    (W3 m ρ c (Proc.devRef .tc main_v11)) (W3 m ρ c (Proc.devRef .tc main_arg8)) (W3 m ρ c (Proc.devRef .tc main_v12)) = _
  rw [k3_v37, k3_v38, k3_arg2, k3_v8, k3_v9, k3_v10, k3_v11, k3_arg8, k3_v12]
  rfl
theorem k5_v42 (c : Dev nD) (h0 : MsgFinal0) : W5 m ρ c (Proc.devRef .tc main_v42) = scat (kMsg m c (K0 m c)) (dst (X1 m c)) := by
  refine (scat_after (W4 m ρ c)).trans ?_
  rw [k4_m1 m ρ c h0, W4_keep m ρ c main_v7 (by decide), k3_v7]
theorem k5_v3 (c : Dev nD) : W5 m ρ c (Proc.devRef .tc main_v3) = K0 m c :=
  ((StableHlo.after_of_writes_sub hostOps1 _ wr1_sub (by decide)).trans (W4_keep m ρ c main_v3 (by decide))).trans (k3_v3 m ρ c)
theorem k6_h1 (c : Dev nD) (h0 : MsgFinal0) (h1 : GruFinal1) : W6 m ρ c (Proc.devRef .tc main_v43) = K1 m c := by
  refine ((W6_arr m ρ c 14).trans (h1 (V5 m ρ) c)).trans ?_
  show Cert.MP.gruAt (W5 m ρ c (Proc.devRef .tc main_v42)) (W5 m ρ c (Proc.devRef .tc main_v3))
    (W5 m ρ c (Proc.devRef .tc main_v14)) (W5 m ρ c (Proc.devRef .tc main_v16)) (W5 m ρ c (Proc.devRef .tc main_v18)) (W5 m ρ c (Proc.devRef .tc main_v26)) (W5 m ρ c (Proc.devRef .tc main_v28)) (W5 m ρ c (Proc.devRef .tc main_v30)) (W5 m ρ c (Proc.devRef .tc main_v20)) (W5 m ρ c (Proc.devRef .tc main_v22)) (W5 m ρ c (Proc.devRef .tc main_v24)) (W5 m ρ c (Proc.devRef .tc main_v32)) (W5 m ρ c (Proc.devRef .tc main_v34)) (W5 m ρ c (Proc.devRef .tc main_v36)) = _
  rw [k5_v42 m ρ c h0, k5_v3 m ρ c,
    (carried5 m ρ c main_v14 (by decide)).trans (k3_v14 m ρ c),
    (carried5 m ρ c main_v16 (by decide)).trans (k3_v16 m ρ c),
    (carried5 m ρ c main_v18 (by decide)).trans (k3_v18 m ρ c),
    (carried5 m ρ c main_v26 (by decide)).trans (k3_v26 m ρ c),
    (carried5 m ρ c main_v28 (by decide)).trans (k3_v28 m ρ c),
    (carried5 m ρ c main_v30 (by decide)).trans (k3_v30 m ρ c),
    (carried5 m ρ c main_v20 (by decide)).trans (k3_v20 m ρ c),
    (carried5 m ρ c main_v22 (by decide)).trans (k3_v22 m ρ c),
    (carried5 m ρ c main_v24 (by decide)).trans (k3_v24 m ρ c),
    (carried5 m ρ c main_v32 (by decide)).trans (k3_v32 m ρ c),
    (carried5 m ρ c main_v34 (by decide)).trans (k3_v34 m ρ c),
    (carried5 m ρ c main_v36 (by decide)).trans (k3_v36 m ρ c)]
  rfl
theorem carried8 (c : Dev nD) : ∀ b ∈ carried, W8 m ρ c (Proc.devRef .tc b) = W3 m ρ c (Proc.devRef .tc b) := by
  intro b hb
  have h1 : b ∉ wr2_1 := (by decide : ∀ b ∈ carried, b ∉ wr2_1) b hb
  have h2 : b ∉ wr2 := (by decide : ∀ b ∈ carried, b ∉ wr2) b hb
  have h3 : b ≠ main_v43 := (by decide : ∀ b ∈ carried, b ≠ main_v43) b hb
  exact (((StableHlo.after_of_writes_sub hostOps2_1 _ wr2_1_sub h1).trans (StableHlo.after_of_writes_sub hostOps2 _ wr2_sub h2)).trans
    (W6_keep m ρ c b h3)).trans (carried5 m ρ c b hb)
theorem k8_h1 (c : Dev nD) (h0 : MsgFinal0) (h1 : GruFinal1) : W8 m ρ c (Proc.devRef .tc main_v43) = K1 m c :=
  ((StableHlo.after_of_writes_sub hostOps2_1 _ wr2_1_sub (by decide)).trans (StableHlo.after_of_writes_sub hostOps2 _ wr2_sub (by decide))).trans
    (k6_h1 m ρ c h0 h1)
theorem k8_v44 (c : Dev nD) (h0 : MsgFinal0) (h1 : GruFinal1) : W8 m ρ c (Proc.devRef .tc main_v44) = take (K1 m c) (src (X1 m c)) := by
  refine (StableHlo.after_of_writes_sub hostOps2_1 _ wr2_1_sub (by decide)).trans ?_
  refine (take_after2 (F := Ideal) (W6 m ρ c)).trans ?_
  have e2 : W6 m ρ c (Proc.devRef .tc main_v5) = src (X1 m c) :=
    (W6_keep m ρ c main_v5 (by decide)).trans ((carried5 m ρ c main_v5 (by decide)).trans (k3_v5 m ρ c))
  rw [k6_h1 m ρ c h0 h1, e2]
theorem k8_v45 (c : Dev nD) (h0 : MsgFinal0) (h1 : GruFinal1) : W8 m ρ c (Proc.devRef .tc main_v45) = take (K1 m c) (dst (X1 m c)) := by
  refine (take_after2_1 (F := Ideal) (W7 m ρ c)).trans ?_
  have e1 : W7 m ρ c (Proc.devRef .tc main_v43) = K1 m c :=
    (StableHlo.after_of_writes_sub hostOps2 _ wr2_sub (by decide)).trans (k6_h1 m ρ c h0 h1)
  have e2 : W7 m ρ c (Proc.devRef .tc main_v7) = dst (X1 m c) :=
    ((StableHlo.after_of_writes_sub hostOps2 _ wr2_sub (by decide)).trans (W6_keep m ρ c main_v7 (by decide))).trans
      ((carried5 m ρ c main_v7 (by decide)).trans (k3_v7 m ρ c))
  rw [e1, e2]
theorem k9_m2 (c : Dev nD) (h0 : MsgFinal0) (h1 : GruFinal1) (h2 : MsgFinal2) : W9 m ρ c (Proc.devRef .tc main_v46) = kMsg m c (K1 m c) := by
  refine ((W9_arr m ρ c 9).trans (h2 (V8 m ρ) c)).trans ?_
  show Cert.MP.msgAt (W8 m ρ c (Proc.devRef .tc main_v44)) (W8 m ρ c (Proc.devRef .tc main_v45))
    (W8 m ρ c (Proc.devRef .tc main_arg2)) (W8 m ρ c (Proc.devRef .tc main_v8)) (W8 m ρ c (Proc.devRef .tc main_v9)) (W8 m ρ c (Proc.devRef .tc main_v10)) (W8 m ρ c (Proc.devRef .tc main_v11)) (W8 m ρ c (Proc.devRef .tc main_arg8)) (W8 m ρ c (Proc.devRef .tc main_v12)) = _
  rw [k8_v44 m ρ c h0 h1, k8_v45 m ρ c h0 h1,
    (carried8 m ρ c main_arg2 (by decide)).trans (k3_arg2 m ρ c),
    (carried8 m ρ c main_v8 (by decide)).trans (k3_v8 m ρ c),
    (carried8 m ρ c main_v9 (by decide)).trans (k3_v9 m ρ c),
    (carried8 m ρ c main_v10 (by decide)).trans (k3_v10 m ρ c),
    (carried8 m ρ c main_v11 (by decide)).trans (k3_v11 m ρ c),
    (carried8 m ρ c main_arg8 (by decide)).trans (k3_arg8 m ρ c),
    (carried8 m ρ c main_v12 (by decide)).trans (k3_v12 m ρ c)]
  rfl

end Cert.KD.Chain

end
-- ==== Proof.ChainC.lean ====
import proofs.«423451_j81475529605767_1_alg».proof.Proof.ChainB

noncomputable section

namespace Cert.KD.Chain

open Idealize.ShloMosaic Idealize.ShloMosaic.TcCoe Idealize.SL.Sem Cert.KernelIdeal Cert.KernelIdeal.Gen Cert.KD

variable (m : (ℓ : Loc nD τ sig) → Buf (Elt Ideal) ℓ) (ρ : Dev nD → PrngReg)

private theorem C_W9_keep (c : Dev nD) (b : Ref sig .tc) (hb : Pipeline.arrRef spec2 9 ≠ b) :
    W9 m ρ c (Proc.devRef .tc b) = W8 m ρ c (Proc.devRef .tc b) := by
  by_cases h : ∃ w, Pipeline.arrRef spec2 w = b
  · obtain ⟨w, rfl⟩ := h
    have hin : (cfg2.win w).isOut = false := by
      revert hb; revert w; decide
    exact (W9_arr m ρ c w).trans (((dat2 (V8 m ρ) c).arrAt_in w hin _).trans (A_eq2 (V8 m ρ) c w))
  · exact W9_of_ne m ρ c b (fun w e => h ⟨w, e⟩)

private theorem C_W10_keep (c : Dev nD) (b : Ref sig .tc) (hb : b ∉ [main_cst_0, main_v47, main_v48, main_v49]) :
    W10 m ρ c (Proc.devRef .tc b) = W9 m ρ c (Proc.devRef .tc b) :=
  StableHlo.after_of_writes_sub (W := [main_cst_0, main_v47, main_v48, main_v49]) _ _ (by
    simp only [hostOps3, List.Forall, StableHlo.nullary_writes, StableHlo.unary_writes, StableHlo.binary_writes, StableHlo.ternary_writes, StableHlo.quaternary_writes, StableHlo.reshape_writes, StableHlo.binaryIndexed_writes, Finset.singleton_subset_iff, List.mem_toFinset, List.map_cons, List.map_nil, List.mem_cons, List.mem_singleton, List.not_mem_nil, true_or, or_true, and_self]) hb

theorem carried10 (c : Dev nD) : ∀ b ∈ carried, W10 m ρ c (Proc.devRef .tc b) = W3 m ρ c (Proc.devRef .tc b) := by
  intro b hb
  have h1 : b ∉ [main_cst_0, main_v47, main_v48, main_v49] := by revert b; decide
  have h2 : Pipeline.arrRef spec2 9 ≠ b := by revert b; decide
  exact ((C_W10_keep m ρ c b h1).trans (C_W9_keep m ρ c b h2)).trans (carried8 m ρ c b hb)

theorem k10_v49 (c : Dev nD) (h0 : MsgFinal0) (h1 : GruFinal1) (h2 : MsgFinal2) : W10 m ρ c (Proc.devRef .tc main_v49) = scat (kMsg m c (K1 m c)) (dst (X1 m c)) := by
  have e7 : W9 m ρ c (Proc.devRef .tc main_v7) = dst (X1 m c) :=
    ((C_W9_keep m ρ c main_v7 (by decide)).trans (carried8 m ρ c main_v7 (by decide))).trans (k3_v7 m ρ c)
  have e46 := k9_m2 m ρ c h0 h1 h2
  show StableHlo.after hostOps3 (W9 m ρ c) (Proc.devRef .tc main_v49) = _
  after_results
  rw [e7, e46]
  rfl

theorem k10_h1 (c : Dev nD) (h0 : MsgFinal0) (h1 : GruFinal1) : W10 m ρ c (Proc.devRef .tc main_v43) = K1 m c :=
  ((C_W10_keep m ρ c main_v43 (by decide)).trans (C_W9_keep m ρ c main_v43 (by decide))).trans (k8_h1 m ρ c h0 h1)

private theorem C_v10_2 (c : Dev nD) : V10 m ρ c (Pipeline.arrRef spec3 2) = gT0 (X10 m c) := (carried10 m ρ c main_v14 (by decide)).trans (k3_v14 m ρ c)
private theorem C_v10_3 (c : Dev nD) : V10 m ρ c (Pipeline.arrRef spec3 3) = gT1 (X10 m c) := (carried10 m ρ c main_v16 (by decide)).trans (k3_v16 m ρ c)
private theorem C_v10_4 (c : Dev nD) : V10 m ρ c (Pipeline.arrRef spec3 4) = gT2 (X10 m c) := (carried10 m ρ c main_v18 (by decide)).trans (k3_v18 m ρ c)
private theorem C_v10_5 (c : Dev nD) : V10 m ρ c (Pipeline.arrRef spec3 5) = gb0 (X11 m c) := (carried10 m ρ c main_v26 (by decide)).trans (k3_v26 m ρ c)
private theorem C_v10_6 (c : Dev nD) : V10 m ρ c (Pipeline.arrRef spec3 6) = gb1 (X11 m c) := (carried10 m ρ c main_v28 (by decide)).trans (k3_v28 m ρ c)
private theorem C_v10_7 (c : Dev nD) : V10 m ρ c (Pipeline.arrRef spec3 7) = gb2 (X11 m c) := (carried10 m ρ c main_v30 (by decide)).trans (k3_v30 m ρ c)
private theorem C_v10_8 (c : Dev nD) : V10 m ρ c (Pipeline.arrRef spec3 8) = gT0 (X12 m c) := (carried10 m ρ c main_v20 (by decide)).trans (k3_v20 m ρ c)
private theorem C_v10_9 (c : Dev nD) : V10 m ρ c (Pipeline.arrRef spec3 9) = gT1 (X12 m c) := (carried10 m ρ c main_v22 (by decide)).trans (k3_v22 m ρ c)
private theorem C_v10_10 (c : Dev nD) : V10 m ρ c (Pipeline.arrRef spec3 10) = gT2 (X12 m c) := (carried10 m ρ c main_v24 (by decide)).trans (k3_v24 m ρ c)
private theorem C_v10_11 (c : Dev nD) : V10 m ρ c (Pipeline.arrRef spec3 11) = gb0 (X13 m c) := (carried10 m ρ c main_v32 (by decide)).trans (k3_v32 m ρ c)
private theorem C_v10_12 (c : Dev nD) : V10 m ρ c (Pipeline.arrRef spec3 12) = gb1 (X13 m c) := (carried10 m ρ c main_v34 (by decide)).trans (k3_v34 m ρ c)
private theorem C_v10_13 (c : Dev nD) : V10 m ρ c (Pipeline.arrRef spec3 13) = gb2 (X13 m c) := (carried10 m ρ c main_v36 (by decide)).trans (k3_v36 m ρ c)
private theorem C_v10_0 (c : Dev nD) (h0 : MsgFinal0) (h1 : GruFinal1) (h2 : MsgFinal2) : V10 m ρ c (Pipeline.arrRef spec3 0) = scat (kMsg m c (K1 m c)) (dst (X1 m c)) := k10_v49 m ρ c h0 h1 h2
private theorem C_v10_1 (c : Dev nD) (h0 : MsgFinal0) (h1 : GruFinal1) : V10 m ρ c (Pipeline.arrRef spec3 1) = K1 m c := k10_h1 m ρ c h0 h1

theorem k11_h2 (c : Dev nD) (h0 : MsgFinal0) (h1 : GruFinal1) (h2 : MsgFinal2) (h3 : GruFinal3) : W11 m ρ c (Proc.devRef .tc main_v50) = K2 m c := by
  have e := congr (congr (congr (congr (congr (congr (congr (congr (congr (congr (congr (congr (congr (congrArg Cert.MP.gruAt (C_v10_0 m ρ c h0 h1 h2)) (C_v10_1 m ρ c h0 h1)) (C_v10_2 m ρ c)) (C_v10_3 m ρ c)) (C_v10_4 m ρ c)) (C_v10_5 m ρ c)) (C_v10_6 m ρ c)) (C_v10_7 m ρ c)) (C_v10_8 m ρ c)) (C_v10_9 m ρ c)) (C_v10_10 m ρ c)) (C_v10_11 m ρ c)) (C_v10_12 m ρ c)) (C_v10_13 m ρ c)
  have e2 := ((W11_arr m ρ c 14).trans (h3 (V10 m ρ) c)).trans e
  exact e2

private theorem C_W11_keep (c : Dev nD) (b : Ref sig .tc) (hb : Pipeline.arrRef spec3 14 ≠ b) :
    W11 m ρ c (Proc.devRef .tc b) = W10 m ρ c (Proc.devRef .tc b) := by
  by_cases h : ∃ w, Pipeline.arrRef spec3 w = b
  · obtain ⟨w, rfl⟩ := h
    have hin : (cfg3.win w).isOut = false := by
      revert hb; revert w; decide
    exact (W11_arr m ρ c w).trans (((dat3 (V10 m ρ) c).arrAt_in w hin _).trans (A_eq3 (V10 m ρ) c w))
  · exact W11_of_ne m ρ c b (fun w e => h ⟨w, e⟩)

private theorem C_W12_keep (c : Dev nD) (b : Ref sig .tc) (hb : b ∉ [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v51]) :
    W12 m ρ c (Proc.devRef .tc b) = W11 m ρ c (Proc.devRef .tc b) :=
  StableHlo.after_of_writes_sub (W := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v51]) _ _ (by
    simp only [hostOps4, List.Forall, StableHlo.nullary_writes, StableHlo.unary_writes, StableHlo.binary_writes, StableHlo.ternary_writes, StableHlo.quaternary_writes, StableHlo.reshape_writes, StableHlo.binaryIndexed_writes, Finset.singleton_subset_iff, List.mem_toFinset, List.map_cons, List.map_nil, List.mem_cons, List.mem_singleton, List.not_mem_nil, true_or, or_true, and_self]) hb

private theorem C_W13_keep (c : Dev nD) (b : Ref sig .tc) (hb : b ∉ [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v52]) :
    W13 m ρ c (Proc.devRef .tc b) = W12 m ρ c (Proc.devRef .tc b) :=
  StableHlo.after_of_writes_sub (W := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v52]) _ _ (by
    simp only [hostOps4_1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset, List.map_cons, List.map_nil, List.mem_cons, List.mem_singleton, List.not_mem_nil, true_or, or_true, and_self]) hb

theorem carried13 (c : Dev nD) : ∀ b ∈ carried, W13 m ρ c (Proc.devRef .tc b) = W3 m ρ c (Proc.devRef .tc b) := by
  intro b hb
  have h1 : b ∉ [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v52] := by revert b; decide
  have h2 : b ∉ [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v51] := by revert b; decide
  have h3 : Pipeline.arrRef spec3 14 ≠ b := by revert b; decide
  exact (((C_W13_keep m ρ c b h1).trans (C_W12_keep m ρ c b h2)).trans (C_W11_keep m ρ c b h3)).trans (carried10 m ρ c b hb)

theorem k13_h2 (c : Dev nD) (h0 : MsgFinal0) (h1 : GruFinal1) (h2 : MsgFinal2) (h3 : GruFinal3) : W13 m ρ c (Proc.devRef .tc main_v50) = K2 m c :=
  ((C_W13_keep m ρ c main_v50 (by decide)).trans (C_W12_keep m ρ c main_v50 (by decide))).trans (k11_h2 m ρ c h0 h1 h2 h3)

private theorem C_ofBuf_toBuf {T : BufTy} {Val : EltTy → Type} (x : StableHlo.TRef sig T) (v : T.Contents Val) :
    x.ofBuf (x.toBuf v) = v := by
  obtain ⟨r, rfl, _, _⟩ := x
  rfl

private theorem C_ofBuf_v50 {Val : EltTy → Type} (h1 h2 h3) (v : (⟨S50000x64, .f32⟩ : BufTy).Contents Val) :
    (StableHlo.TRef.of main_v50 h1 h2 h3 : StableHlo.TRef sig ⟨S50000x64, .f32⟩).ofBuf v = v := rfl
private theorem C_ofBuf_v5 {Val : EltTy → Type} (h1 h2 h3) (v : (⟨S800000, .i32⟩ : BufTy).Contents Val) :
    (StableHlo.TRef.of main_v5 h1 h2 h3 : StableHlo.TRef sig ⟨S800000, .i32⟩).ofBuf v = v := rfl
private theorem C_ofBuf_v7 {Val : EltTy → Type} (h1 h2 h3) (v : (⟨S800000, .i32⟩ : BufTy).Contents Val) :
    (StableHlo.TRef.of main_v7 h1 h2 h3 : StableHlo.TRef sig ⟨S800000, .i32⟩).ofBuf v = v := rfl
private theorem C_toBuf_v51 {Val : EltTy → Type} (h1 h2 h3) (v : (⟨S800000x64, .f32⟩ : BufTy).Contents Val) :
    (StableHlo.TRef.of main_v51 h1 h2 h3 : StableHlo.TRef sig ⟨S800000x64, .f32⟩).toBuf v = v := rfl
private theorem C_toBuf_v52 {Val : EltTy → Type} (h1 h2 h3) (v : (⟨S800000x64, .f32⟩ : BufTy).Contents Val) :
    (StableHlo.TRef.of main_v52 h1 h2 h3 : StableHlo.TRef sig ⟨S800000x64, .f32⟩).toBuf v = v := rfl

section
variable {F : FTy → Type} [FloatOps F]

private theorem C_take_after4 (V : Valuation τ sig (Elt F)) :
    StableHlo.after (hostOps4 (F := F)) V (Proc.devRef .tc main_v51)
      = take (F := F) (V (Proc.devRef .tc main_v50)) (V (Proc.devRef .tc main_v5)) := by
  after_results_simp
  simp only [C_ofBuf_toBuf, C_ofBuf_v50, C_ofBuf_v5, C_toBuf_v51, take, lookup, wrap] <;> rfl

private theorem C_take_after4_1 (V : Valuation τ sig (Elt F)) :
    StableHlo.after (hostOps4_1 (F := F)) V (Proc.devRef .tc main_v52)
      = take (F := F) (V (Proc.devRef .tc main_v50)) (V (Proc.devRef .tc main_v7)) := by
  after_results_simp
  simp only [C_ofBuf_toBuf, C_ofBuf_v50, C_ofBuf_v7, C_toBuf_v52, take, lookup, wrap] <;> rfl
end

private theorem C_e11_v5 (c : Dev nD) : W11 m ρ c (Proc.devRef .tc main_v5) = src (X1 m c) :=
  ((C_W11_keep m ρ c main_v5 (by decide)).trans (carried10 m ρ c main_v5 (by decide))).trans (k3_v5 m ρ c)
private theorem C_e12_v7 (c : Dev nD) : W12 m ρ c (Proc.devRef .tc main_v7) = dst (X1 m c) :=
  (((C_W12_keep m ρ c main_v7 (by decide)).trans (C_W11_keep m ρ c main_v7 (by decide))).trans (carried10 m ρ c main_v7 (by decide))).trans (k3_v7 m ρ c)

theorem k13_v51 (c : Dev nD) (h0 : MsgFinal0) (h1 : GruFinal1) (h2 : MsgFinal2) (h3 : GruFinal3) : W13 m ρ c (Proc.devRef .tc main_v51) = take (K2 m c) (src (X1 m c)) := by
  refine (C_W13_keep m ρ c main_v51 (by decide)).trans ?_
  refine (C_take_after4 (W11 m ρ c)).trans ?_
  rw [k11_h2 m ρ c h0 h1 h2 h3, C_e11_v5 m ρ c]

theorem k13_v52 (c : Dev nD) (h0 : MsgFinal0) (h1 : GruFinal1) (h2 : MsgFinal2) (h3 : GruFinal3) : W13 m ρ c (Proc.devRef .tc main_v52) = take (K2 m c) (dst (X1 m c)) := by
  have e50 : W12 m ρ c (Proc.devRef .tc main_v50) = K2 m c :=
    (C_W12_keep m ρ c main_v50 (by decide)).trans (k11_h2 m ρ c h0 h1 h2 h3)
  refine (C_take_after4_1 (W12 m ρ c)).trans ?_
  rw [e50, C_e12_v7 m ρ c]

private theorem C_v13_2 (c : Dev nD) : V13 m ρ c (Pipeline.arrRef spec4 2) = X2 m c := (carried13 m ρ c main_arg2 (by decide)).trans (k3_arg2 m ρ c)
private theorem C_v13_3 (c : Dev nD) : V13 m ρ c (Pipeline.arrRef spec4 3) = wms (X6 m c) := (carried13 m ρ c main_v8 (by decide)).trans (k3_v8 m ρ c)
private theorem C_v13_4 (c : Dev nD) : V13 m ρ c (Pipeline.arrRef spec4 4) = wmd (X6 m c) := (carried13 m ρ c main_v9 (by decide)).trans (k3_v9 m ρ c)
private theorem C_v13_5 (c : Dev nD) : V13 m ρ c (Pipeline.arrRef spec4 5) = wme (X6 m c) := (carried13 m ρ c main_v10 (by decide)).trans (k3_v10 m ρ c)
private theorem C_v13_6 (c : Dev nD) : V13 m ρ c (Pipeline.arrRef spec4 6) = row (X7 m c) := (carried13 m ρ c main_v11 (by decide)).trans (k3_v11 m ρ c)
private theorem C_v13_7 (c : Dev nD) : V13 m ρ c (Pipeline.arrRef spec4 7) = X8 m c := (carried13 m ρ c main_arg8 (by decide)).trans (k3_arg8 m ρ c)
private theorem C_v13_8 (c : Dev nD) : V13 m ρ c (Pipeline.arrRef spec4 8) = row (X9 m c) := (carried13 m ρ c main_v12 (by decide)).trans (k3_v12 m ρ c)
private theorem C_v13_0 (c : Dev nD) (h0 : MsgFinal0) (h1 : GruFinal1) (h2 : MsgFinal2) (h3 : GruFinal3) : V13 m ρ c (Pipeline.arrRef spec4 0) = take (K2 m c) (src (X1 m c)) := k13_v51 m ρ c h0 h1 h2 h3
private theorem C_v13_1 (c : Dev nD) (h0 : MsgFinal0) (h1 : GruFinal1) (h2 : MsgFinal2) (h3 : GruFinal3) : V13 m ρ c (Pipeline.arrRef spec4 1) = take (K2 m c) (dst (X1 m c)) := k13_v52 m ρ c h0 h1 h2 h3

theorem k14_m3 (c : Dev nD) (h0 : MsgFinal0) (h1 : GruFinal1) (h2 : MsgFinal2) (h3 : GruFinal3) (h4 : MsgFinal4) : W14 m ρ c (Proc.devRef .tc main_v53) = kMsg m c (K2 m c) := by
  have e := congr (congr (congr (congr (congr (congr (congr (congr (congrArg Cert.MP.msgAt (C_v13_0 m ρ c h0 h1 h2 h3)) (C_v13_1 m ρ c h0 h1 h2 h3)) (C_v13_2 m ρ c)) (C_v13_3 m ρ c)) (C_v13_4 m ρ c)) (C_v13_5 m ρ c)) (C_v13_6 m ρ c)) (C_v13_7 m ρ c)) (C_v13_8 m ρ c)
  have e2 := ((W14_arr m ρ c 9).trans (h4 (V13 m ρ) c)).trans e
  exact e2

end Cert.KD.Chain

end
-- ==== Proof.ChainD.lean ====
import proofs.«423451_j81475529605767_1_alg».proof.Proof.ChainC

noncomputable section

namespace Cert.KD.Chain

open Idealize.ShloMosaic Idealize.ShloMosaic.TcCoe Idealize.SL.Sem Cert.KernelIdeal Cert.KernelIdeal.Gen Cert.KD

variable (m : (ℓ : Loc nD τ sig) → Buf (Elt Ideal) ℓ) (ρ : Dev nD → PrngReg)

abbrev D_hostOps5_W : List (Ref sig .tc) := [main_cst_1, main_v54, main_v55, main_v56]
theorem D_hostOps5_writes : (hostOps5 : List (HloOp τ sig (Elt Ideal))).Forall fun op => op.writes ⊆ (D_hostOps5_W.map (Proc.devRef (τ := τ) .tc)).toFinset := by
  simp only [List.Forall]
  refine ⟨?_, ?_, ?_, ?_⟩ <;>
    (simp only [StableHlo.nullary_writes, StableHlo.unary_writes, StableHlo.ternary_writes, Finset.singleton_subset_iff, List.mem_toFinset]
     exact List.mem_map_of_mem (by decide))

theorem D_W14_keep (c : Dev nD) (b : Ref sig .tc) (hb : b ≠ main_v53) :
    W14 m ρ c (Proc.devRef .tc b) = W13 m ρ c (Proc.devRef .tc b) := by
  by_cases h : ∃ w, Pipeline.arrRef spec4 w = b
  · obtain ⟨w, rfl⟩ := h
    have hw : (cfg4.win w).isOut = false := by
      revert hb; revert w; decide
    exact (W14_arr m ρ c w).trans (((dat4 (V13 m ρ) c).arrAt_in w hw _).trans (A_eq4 (V13 m ρ) c w))
  · exact W14_of_ne m ρ c b (fun w e => h ⟨w, e⟩)

theorem D_W16_keep (c : Dev nD) (b : Ref sig .tc) (hb : b ≠ main_v57) :
    W16 m ρ c (Proc.devRef .tc b) = W15 m ρ c (Proc.devRef .tc b) := by
  by_cases h : ∃ w, Pipeline.arrRef spec5 w = b
  · obtain ⟨w, rfl⟩ := h
    have hw : (cfg5.win w).isOut = false := by
      revert hb; revert w; decide
    exact (W16_arr m ρ c w).trans (((dat5 (V15 m ρ) c).arrAt_in w hw _).trans (A_eq5 (V15 m ρ) c w))
  · exact W16_of_ne m ρ c b (fun w e => h ⟨w, e⟩)

theorem carried15 (c : Dev nD) : ∀ b ∈ carried, W15 m ρ c (Proc.devRef .tc b) = W3 m ρ c (Proc.devRef .tc b) := by
  intro b hb
  have h1 : b ∉ D_hostOps5_W := (by decide : ∀ b ∈ carried, b ∉ D_hostOps5_W) b hb
  have h2 : b ≠ main_v53 := (by decide : ∀ b ∈ carried, b ≠ main_v53) b hb
  exact ((StableHlo.after_of_writes_sub hostOps5 _ D_hostOps5_writes h1).trans (D_W14_keep m ρ c b h2)).trans (carried13 m ρ c b hb)
theorem k15_v56 (c : Dev nD) (h0 : MsgFinal0) (h1 : GruFinal1) (h2 : MsgFinal2) (h3 : GruFinal3) (h4 : MsgFinal4) : W15 m ρ c (Proc.devRef .tc main_v56) = scat (kMsg m c (K2 m c)) (dst (X1 m c)) := by
  have e7 : W14 m ρ c (Proc.devRef .tc main_v7) = dst (X1 m c) :=
    ((D_W14_keep m ρ c main_v7 (by decide)).trans (carried13 m ρ c main_v7 (by decide))).trans (k3_v7 m ρ c)
  have e53 := k14_m3 m ρ c h0 h1 h2 h3 h4
  show StableHlo.after hostOps5 (W14 m ρ c) (Proc.devRef .tc main_v56) = _
  after_results
  rw [e7, e53]
  rfl
theorem k15_h2 (c : Dev nD) (h0 : MsgFinal0) (h1 : GruFinal1) (h2 : MsgFinal2) (h3 : GruFinal3) : W15 m ρ c (Proc.devRef .tc main_v50) = K2 m c :=
  ((StableHlo.after_of_writes_sub hostOps5 _ D_hostOps5_writes (by decide)).trans (D_W14_keep m ρ c main_v50 (by decide))).trans (k13_h2 m ρ c h0 h1 h2 h3)

theorem D_gruAt_congr {N : Nat} {a0 b0 a1 b1 : Cert.MP.Arr N 64} {a2 b2 a3 b3 a4 b4 : Cert.MP.Arr 64 64} {a5 b5 a6 b6 a7 b7 : Cert.MP.Arr 1 64}
    {a8 b8 a9 b9 a10 b10 : Cert.MP.Arr 64 64} {a11 b11 a12 b12 a13 b13 : Cert.MP.Arr 1 64}
    (e0 : a0 = b0) (e1 : a1 = b1) (e2 : a2 = b2) (e3 : a3 = b3) (e4 : a4 = b4) (e5 : a5 = b5) (e6 : a6 = b6) (e7 : a7 = b7)
    (e8 : a8 = b8) (e9 : a9 = b9) (e10 : a10 = b10) (e11 : a11 = b11) (e12 : a12 = b12) (e13 : a13 = b13) :
    Cert.MP.gruAt a0 a1 a2 a3 a4 a5 a6 a7 a8 a9 a10 a11 a12 a13 = Cert.MP.gruAt b0 b1 b2 b3 b4 b5 b6 b7 b8 b9 b10 b11 b12 b13 := by
  rw [e0, e1, e2, e3, e4, e5, e6, e7, e8, e9, e10, e11, e12, e13]
theorem k16_h3 (c : Dev nD) (h0 : MsgFinal0) (h1 : GruFinal1) (h2 : MsgFinal2) (h3 : GruFinal3) (h4 : MsgFinal4) (h5 : GruFinal5) : W16 m ρ c (Proc.devRef .tc main_v57) = K3 m c :=
  (W16_arr m ρ c 14).trans ((h5 (V15 m ρ) c).trans (D_gruAt_congr
    (k15_v56 m ρ c h0 h1 h2 h3 h4) (k15_h2 m ρ c h0 h1 h2 h3)
    ((carried15 m ρ c main_v14 (by decide)).trans (k3_v14 m ρ c))
    ((carried15 m ρ c main_v16 (by decide)).trans (k3_v16 m ρ c))
    ((carried15 m ρ c main_v18 (by decide)).trans (k3_v18 m ρ c))
    ((carried15 m ρ c main_v26 (by decide)).trans (k3_v26 m ρ c))
    ((carried15 m ρ c main_v28 (by decide)).trans (k3_v28 m ρ c))
    ((carried15 m ρ c main_v30 (by decide)).trans (k3_v30 m ρ c))
    ((carried15 m ρ c main_v20 (by decide)).trans (k3_v20 m ρ c))
    ((carried15 m ρ c main_v22 (by decide)).trans (k3_v22 m ρ c))
    ((carried15 m ρ c main_v24 (by decide)).trans (k3_v24 m ρ c))
    ((carried15 m ρ c main_v32 (by decide)).trans (k3_v32 m ρ c))
    ((carried15 m ρ c main_v34 (by decide)).trans (k3_v34 m ρ c))
    ((carried15 m ρ c main_v36 (by decide)).trans (k3_v36 m ρ c))))
theorem carried16 (c : Dev nD) : ∀ b ∈ carried, W16 m ρ c (Proc.devRef .tc b) = W3 m ρ c (Proc.devRef .tc b) := by
  intro b hb
  have h2 : b ≠ main_v57 := (by decide : ∀ b ∈ carried, b ≠ main_v57) b hb
  exact (D_W16_keep m ρ c b h2).trans (carried15 m ρ c b hb)
theorem k19_out (c : Dev nD) (h0 : MsgFinal0) (h1 : GruFinal1) (h2 : MsgFinal2) (h3 : GruFinal3) (h4 : MsgFinal4) (h5 : GruFinal5) : W19 m ρ c (Proc.devRef .tc main_v79) = KOUT m c := by
  have e57 := k16_h3 m ρ c h0 h1 h2 h3 h4 h5
  have e3 := (carried16 m ρ c main_arg3 (by decide)).trans (k3_arg3 m ρ c)
  have e14 := (carried16 m ρ c main_arg14 (by decide)).trans (k3_arg14 m ρ c)
  have e15 := (carried16 m ρ c main_arg15 (by decide)).trans (k3_arg15 m ρ c)
  have e16 := (carried16 m ρ c main_arg16 (by decide)).trans (k3_arg16 m ρ c)
  have e17 := (carried16 m ρ c main_arg17 (by decide)).trans (k3_arg17 m ρ c)
  show StableHlo.after hostOps6_2 (StableHlo.after hostOps6_1 (StableHlo.after hostOps6 (W16 m ρ c))) (Proc.devRef .tc main_v79) = _
  after_results_simp
  repeat (first
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))
  rw [e57, e3, e14, e15, e16, e17]
  rfl

end Cert.KD.Chain

end
-- ==== Proof.RegMsg0.lean ====
import proofs.«423451_j81475529605767_1_alg».proof.Proof.Gen.KernelIdeal.Frame
import proofs.«423451_j81475529605767_1_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.RegMsg0

open Cert.KernelIdeal Cert.KernelIdeal.Gen Idealize.ShloMosaic Idealize.ShloMosaic.TcCoe Idealize.SL.Sem
open Idealize.ShloMosaic.Pipeline (Dat)
open Idealize.ShloMosaic.ValueIdx

theorem mm64_l0 (i : S8000x64.Idx) (q : dot_S8000x64_S64x64_S8000x64_1_0_0_1_n_n.contr.Idx) : (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl

theorem mm64_l1 (i : S8000x64.Idx) (q : dot_S8000x64_S64x64_S8000x64_1_0_0_1_n_n.contr.Idx) : (dot_S8000x64_S64x64_S8000x64_1_0_0_1_n_n.lhsIdx i q 1).val = (q ⟨0, by decide⟩).val :=
  dot_S8000x64_S64x64_S8000x64_1_0_0_1_n_n.lhsIdx_val_of_single rfl i q

theorem mm64_r0 (i : S8000x64.Idx) (q : dot_S8000x64_S64x64_S8000x64_1_0_0_1_n_n.contr.Idx) : (dot_S8000x64_S64x64_S8000x64_1_0_0_1_n_n.rhsIdx i q 0).val = (q ⟨0, by decide⟩).val :=
  dot_S8000x64_S64x64_S8000x64_1_0_0_1_n_n.rhsIdx_val_of_single rfl i q

theorem mm64_r1 (i : S8000x64.Idx) (q : dot_S8000x64_S64x64_S8000x64_1_0_0_1_n_n.contr.Idx) : (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

theorem mm64 {φ₁ φ₂ : FTy} (a : FVec Ideal S8000x64 φ₁) (b : FVec Ideal S64x64 φ₂) (p : Fin 8000) (q : Fin 64) :
    matmul dot_S8000x64_S64x64_S8000x64_1_0_0_1_n_n none a b (constant S8000x64 .f32 0x00000000#32) (ix2 p q) = ∑ k : Fin 64, a (ix2 p k) * b (ix2 k q) := by
  simp only [matmul]
  rw [Ideal.matmul_constant_zero_apply, ← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx (ix2 p q) ((ValueIdx.contrEquiv1 dot_S8000x64_S64x64_S8000x64_1_0_0_1_n_n 64 rfl rfl).symm k) = ix2 p k := funext fun a => Fin.ext (by
    match a with
    | ⟨0, _⟩ => exact mm64_l0 _ _
    | ⟨1, _⟩ => exact (mm64_l1 _ _).trans hk)
  have er : dot_S8000x64_S64x64_S8000x64_1_0_0_1_n_n.rhsIdx (ix2 p q) ((ValueIdx.contrEquiv1 dot_S8000x64_S64x64_S8000x64_1_0_0_1_n_n 64 rfl rfl).symm k) = ix2 k q := funext fun a => Fin.ext (by
    match a with
    | ⟨0, _⟩ => exact (mm64_r0 _ _).trans hk
    | ⟨1, _⟩ => exact mm64_r1 _ _)
  rw [el, er]

theorem mm16_l0 (i : S8000x64.Idx) (q : dot_S8000x16_S16x64_S8000x64_1_0_0_1_n_n.contr.Idx) : (dot_S8000x16_S16x64_S8000x64_1_0_0_1_n_n.lhsIdx i q 0).val = (i 0).val := by
  unfold DotDims.lhsIdx
  rw [dif_neg (show ¬(0 : Fin S8000x16.rank) ∈ dot_S8000x16_S16x64_S8000x64_1_0_0_1_n_n.lhsBatch by decide), dif_pos (show (0 : Fin S8000x16.rank) ∈ dot_S8000x16_S16x64_S8000x64_1_0_0_1_n_n.lhsNonContracting by decide)]
  rfl

theorem mm16_l1 (i : S8000x64.Idx) (q : dot_S8000x16_S16x64_S8000x64_1_0_0_1_n_n.contr.Idx) : (dot_S8000x16_S16x64_S8000x64_1_0_0_1_n_n.lhsIdx i q 1).val = (q ⟨0, by decide⟩).val :=
  dot_S8000x16_S16x64_S8000x64_1_0_0_1_n_n.lhsIdx_val_of_single rfl i q

theorem mm16_r0 (i : S8000x64.Idx) (q : dot_S8000x16_S16x64_S8000x64_1_0_0_1_n_n.contr.Idx) : (dot_S8000x16_S16x64_S8000x64_1_0_0_1_n_n.rhsIdx i q 0).val = (q ⟨0, by decide⟩).val :=
  dot_S8000x16_S16x64_S8000x64_1_0_0_1_n_n.rhsIdx_val_of_single rfl i q

theorem mm16_r1 (i : S8000x64.Idx) (q : dot_S8000x16_S16x64_S8000x64_1_0_0_1_n_n.contr.Idx) : (dot_S8000x16_S16x64_S8000x64_1_0_0_1_n_n.rhsIdx i q 1).val = (i 1).val := by
  unfold DotDims.rhsIdx
  rw [dif_neg (show ¬(1 : Fin S16x64.rank) ∈ dot_S8000x16_S16x64_S8000x64_1_0_0_1_n_n.rhsBatch by decide), dif_pos (show (1 : Fin S16x64.rank) ∈ dot_S8000x16_S16x64_S8000x64_1_0_0_1_n_n.rhsNonContracting by decide)]
  rfl

theorem mm16 {φ₁ φ₂ : FTy} (a : FVec Ideal S8000x16 φ₁) (b : FVec Ideal S16x64 φ₂) (p : Fin 8000) (q : Fin 64) :
    matmul dot_S8000x16_S16x64_S8000x64_1_0_0_1_n_n none a b (constant S8000x64 .f32 0x00000000#32) (ix2 p q) = ∑ k : Fin 16, a (ix2 p k) * b (ix2 k q) := by
  simp only [matmul]
  rw [Ideal.matmul_constant_zero_apply, ← Equiv.sum_comp (ValueIdx.contrEquiv1 dot_S8000x16_S16x64_S8000x64_1_0_0_1_n_n 16 rfl rfl).symm]
  refine Finset.sum_congr rfl fun k _ => ?_
  have hk := ValueIdx.contrEquiv1_symm_val dot_S8000x16_S16x64_S8000x64_1_0_0_1_n_n 16 rfl rfl k
  have el : dot_S8000x16_S16x64_S8000x64_1_0_0_1_n_n.lhsIdx (ix2 p q) ((ValueIdx.contrEquiv1 dot_S8000x16_S16x64_S8000x64_1_0_0_1_n_n 16 rfl rfl).symm k) = ix2 p k := funext fun a => Fin.ext (by
    match a with
    | ⟨0, _⟩ => exact mm16_l0 _ _
    | ⟨1, _⟩ => exact (mm16_l1 _ _).trans hk)
  have er : dot_S8000x16_S16x64_S8000x64_1_0_0_1_n_n.rhsIdx (ix2 p q) ((ValueIdx.contrEquiv1 dot_S8000x16_S16x64_S8000x64_1_0_0_1_n_n 16 rfl rfl).symm k) = ix2 k q := funext fun a => Fin.ext (by
    match a with
    | ⟨0, _⟩ => exact (mm16_r0 _ _).trans hk
    | ⟨1, _⟩ => exact mm16_r1 _ _)
  rw [el, er]

theorem bias_apply (b : FVec Ideal S1x64 .f32) (p : Fin 8000) (q : Fin 64) :
    broadcastTo S8000x64 b broadcasts_S1x64_S8000x64 (ix2 p q) = b (ix2 0 q) :=
  broadcastTo_apply b broadcasts_S1x64_S8000x64 (ix2 p q) (ix2 0 q) (fun a => match a with
    | ⟨0, _⟩ => by show (0 : Nat) = if (1 : Nat) = 1 then 0 else _; rw [if_pos rfl]
    | ⟨1, _⟩ => by show q.val = if (64 : Nat) = 1 then 0 else q.val; rw [if_neg (by decide)])

theorem pay_apply (x0 x1 : Vec Ideal S8000x64 .f32) (x2 : Vec Ideal S8000x16 .f32) (x3 x4 : Vec Ideal S64x64 .f32)
    (x5 : Vec Ideal S16x64 .f32) (x6 : Vec Ideal S1x64 .f32) (x7 : Vec Ideal S64x64 .f32) (x8 : Vec Ideal S1x64 .f32)
    (p : Fin 8000) (q : Fin 64) :
    k0_pay1 (F := Ideal) x0 x1 x2 x3 x4 x5 x6 x7 x8 (ix2 p q) = Cert.MP.msgRow x0 x1 x2 x3 x4 x5 x6 x7 x8 p q := by
  unfold k0_pay1 Cert.MP.msgRow Cert.MP.msgPre
  simp only [shapeCast_self]
  rw [addf_apply, mm64, bias_apply]
  refine congrArg (· + x8 (ix2 0 q)) (Finset.sum_congr rfl fun k _ => ?_)
  rw [truncf_apply, truncf_apply, maximumf_apply, addf_apply, addf_apply, addf_apply, mm64, mm64, mm16, bias_apply, broadcast_apply]
  simp only [truncf_apply]
  rfl

theorem hz : (![0, 0] : Fin 2 → Nat) = fun _ => 0 := funext fun a => by fin_cases a <;> rfl

theorem out_apply (x0 x1 : Vec Ideal S8000x64 .f32) (x2 : Vec Ideal S8000x16 .f32) (x3 x4 : Vec Ideal S64x64 .f32)
    (x5 : Vec Ideal S16x64 .f32) (x6 : Vec Ideal S1x64 .f32) (x7 : Vec Ideal S64x64 .f32) (x8 : Vec Ideal S1x64 .f32)
    (p : Fin 8000) (q : Fin 64) :
    out0_9 (F := Ideal) x0 x1 x2 x3 x4 x5 x6 x7 x8 (ix2 p q) = Cert.MP.msgRow x0 x1 x2 x3 x4 x5 x6 x7 x8 p q := by
  unfold out0_9
  rw [View.canon_unit_zero hz]
  simp only [View.ld_unit_zero (S := S8000x64) hz, View.ld_unit_zero (S := S8000x16) hz, View.ld_unit_zero (S := S64x64) hz,
    View.ld_unit_zero (S := S16x64) hz, View.ld_unit_zero (S := S1x64) hz]
  exact pay_apply x0 x1 x2 x3 x4 x5 x6 x7 x8 p q

theorem idx_facts : ∀ t : Fin cfg0.N,
    win0_0.index t = ![t.val, 0] ∧ win0_1.index t = ![t.val, 0] ∧ win0_2.index t = ![t.val, 0] ∧ win0_9.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

theorem lt_100 (t : Fin cfg0.N) : t.val < 100 := lt_of_lt_of_eq t.isLt N_0

theorem rd0 (G : S800000x64.Idx → EReal) (t : Fin cfg0.N) (p : Fin 8000) (a : Fin 64) (hb : t.val * 8000 + p.val < 800000) :
    ((cfg0.win 0).blk t).view.read (Elt Ideal) G (ix2 p a) = G (ix2 ⟨t.val * 8000 + p.val, hb⟩ a) := by
  show G (((cfg0.win 0).blk t).view.emb (ix2 p a)) = _
  refine congrArg G (funext fun b => Fin.ext ?_)
  have e := (idx_facts t).1
  match b with
  | ⟨0, _⟩ => show win0_0.index t (0 : Fin 2) * 8000 + 1 * p.val = t.val * 8000 + p.val; rw [show win0_0.index t (0 : Fin 2) = t.val from congrFun e 0]; omega
  | ⟨1, _⟩ => show win0_0.index t (1 : Fin 2) * 64 + 1 * a.val = a.val; rw [show win0_0.index t (1 : Fin 2) = 0 from congrFun e 1]; omega

theorem rd1 (G : S800000x64.Idx → EReal) (t : Fin cfg0.N) (p : Fin 8000) (a : Fin 64) (hb : t.val * 8000 + p.val < 800000) :
    ((cfg0.win 1).blk t).view.read (Elt Ideal) G (ix2 p a) = G (ix2 ⟨t.val * 8000 + p.val, hb⟩ a) := by
  show G (((cfg0.win 1).blk t).view.emb (ix2 p a)) = _
  refine congrArg G (funext fun b => Fin.ext ?_)
  have e := (idx_facts t).2.1
  match b with
  | ⟨0, _⟩ => show win0_1.index t (0 : Fin 2) * 8000 + 1 * p.val = t.val * 8000 + p.val; rw [show win0_1.index t (0 : Fin 2) = t.val from congrFun e 0]; omega
  | ⟨1, _⟩ => show win0_1.index t (1 : Fin 2) * 64 + 1 * a.val = a.val; rw [show win0_1.index t (1 : Fin 2) = 0 from congrFun e 1]; omega

theorem rd2 (G : S800000x16.Idx → EReal) (t : Fin cfg0.N) (p : Fin 8000) (a : Fin 16) (hb : t.val * 8000 + p.val < 800000) :
    ((cfg0.win 2).blk t).view.read (Elt Ideal) G (ix2 p a) = G (ix2 ⟨t.val * 8000 + p.val, hb⟩ a) := by
  show G (((cfg0.win 2).blk t).view.emb (ix2 p a)) = _
  refine congrArg G (funext fun b => Fin.ext ?_)
  have e := (idx_facts t).2.2.1
  match b with
  | ⟨0, _⟩ => show win0_2.index t (0 : Fin 2) * 8000 + 1 * p.val = t.val * 8000 + p.val; rw [show win0_2.index t (0 : Fin 2) = t.val from congrFun e 0]; omega
  | ⟨1, _⟩ => show win0_2.index t (1 : Fin 2) * 16 + 1 * a.val = a.val; rw [show win0_2.index t (1 : Fin 2) = 0 from congrFun e 1]; omega

theorem rd3 (G : S64x64.Idx → EReal) (t : Fin cfg0.N) : ((cfg0.win 3).blk t).view.read (Elt Ideal) G = G := by
  funext i
  show G (((cfg0.win 3).blk t).view.emb i) = G i
  refine congrArg G (funext fun b => Fin.ext ?_)
  have e := (idx_facts t).2.2.2.2.1
  match b with
  | ⟨0, _⟩ => show win0_3.index t (0 : Fin 2) * 64 + 1 * (i 0).val = (i 0).val; rw [show win0_3.index t (0 : Fin 2) = 0 from congrFun e 0]; omega
  | ⟨1, _⟩ => show win0_3.index t (1 : Fin 2) * 64 + 1 * (i 1).val = (i 1).val; rw [show win0_3.index t (1 : Fin 2) = 0 from congrFun e 1]; omega

theorem rd4 (G : S64x64.Idx → EReal) (t : Fin cfg0.N) : ((cfg0.win 4).blk t).view.read (Elt Ideal) G = G := by
  funext i
  show G (((cfg0.win 4).blk t).view.emb i) = G i
  refine congrArg G (funext fun b => Fin.ext ?_)
  have e := (idx_facts t).2.2.2.2.2.1
  match b with
  | ⟨0, _⟩ => show win0_4.index t (0 : Fin 2) * 64 + 1 * (i 0).val = (i 0).val; rw [show win0_4.index t (0 : Fin 2) = 0 from congrFun e 0]; omega
  | ⟨1, _⟩ => show win0_4.index t (1 : Fin 2) * 64 + 1 * (i 1).val = (i 1).val; rw [show win0_4.index t (1 : Fin 2) = 0 from congrFun e 1]; omega

theorem rd5 (G : S16x64.Idx → EReal) (t : Fin cfg0.N) : ((cfg0.win 5).blk t).view.read (Elt Ideal) G = G := by
  funext i
  show G (((cfg0.win 5).blk t).view.emb i) = G i
  refine congrArg G (funext fun b => Fin.ext ?_)
  have e := (idx_facts t).2.2.2.2.2.2.1
  match b with
  | ⟨0, _⟩ => show win0_5.index t (0 : Fin 2) * 16 + 1 * (i 0).val = (i 0).val; rw [show win0_5.index t (0 : Fin 2) = 0 from congrFun e 0]; omega
  | ⟨1, _⟩ => show win0_5.index t (1 : Fin 2) * 64 + 1 * (i 1).val = (i 1).val; rw [show win0_5.index t (1 : Fin 2) = 0 from congrFun e 1]; omega

theorem rd6 (G : S1x64.Idx → EReal) (t : Fin cfg0.N) : ((cfg0.win 6).blk t).view.read (Elt Ideal) G = G := by
  funext i
  show G (((cfg0.win 6).blk t).view.emb i) = G i
  refine congrArg G (funext fun b => Fin.ext ?_)
  have e := (idx_facts t).2.2.2.2.2.2.2.1
  match b with
  | ⟨0, _⟩ => show win0_6.index t (0 : Fin 2) * 1 + 1 * (i 0).val = (i 0).val; rw [show win0_6.index t (0 : Fin 2) = 0 from congrFun e 0]; omega
  | ⟨1, _⟩ => show win0_6.index t (1 : Fin 2) * 64 + 1 * (i 1).val = (i 1).val; rw [show win0_6.index t (1 : Fin 2) = 0 from congrFun e 1]; omega

theorem rd7 (G : S64x64.Idx → EReal) (t : Fin cfg0.N) : ((cfg0.win 7).blk t).view.read (Elt Ideal) G = G := by
  funext i
  show G (((cfg0.win 7).blk t).view.emb i) = G i
  refine congrArg G (funext fun b => Fin.ext ?_)
  have e := (idx_facts t).2.2.2.2.2.2.2.2.1
  match b with
  | ⟨0, _⟩ => show win0_7.index t (0 : Fin 2) * 64 + 1 * (i 0).val = (i 0).val; rw [show win0_7.index t (0 : Fin 2) = 0 from congrFun e 0]; omega
  | ⟨1, _⟩ => show win0_7.index t (1 : Fin 2) * 64 + 1 * (i 1).val = (i 1).val; rw [show win0_7.index t (1 : Fin 2) = 0 from congrFun e 1]; omega

theorem rd8 (G : S1x64.Idx → EReal) (t : Fin cfg0.N) : ((cfg0.win 8).blk t).view.read (Elt Ideal) G = G := by
  funext i
  show G (((cfg0.win 8).blk t).view.emb i) = G i
  refine congrArg G (funext fun b => Fin.ext ?_)
  have e := (idx_facts t).2.2.2.2.2.2.2.2.2
  match b with
  | ⟨0, _⟩ => show win0_8.index t (0 : Fin 2) * 1 + 1 * (i 0).val = (i 0).val; rw [show win0_8.index t (0 : Fin 2) = 0 from congrFun e 0]; omega
  | ⟨1, _⟩ => show win0_8.index t (1 : Fin 2) * 64 + 1 * (i 1).val = (i 1).val; rw [show win0_8.index t (1 : Fin 2) = 0 from congrFun e 1]; omega

theorem emb9 (t : Fin cfg0.N) (p : Fin 8000) (q : Fin 64) (hb : t.val * 8000 + p.val < 800000) :
    ((cfg0.win 9).blk t).view.emb (ix2 p q) = (ix2 ⟨t.val * 8000 + p.val, hb⟩ q : S800000x64.Idx) := by
  refine funext fun b => Fin.ext ?_
  have e := (idx_facts t).2.2.2.1
  match b with
  | ⟨0, _⟩ => show win0_9.index t (0 : Fin 2) * 8000 + 1 * p.val = t.val * 8000 + p.val; rw [show win0_9.index t (0 : Fin 2) = t.val from congrFun e 0]; omega
  | ⟨1, _⟩ => show win0_9.index t (1 : Fin 2) * 64 + 1 * q.val = q.val; rw [show win0_9.index t (1 : Fin 2) = 0 from congrFun e 1]; omega

theorem block_eq (G0 G1 : S800000x64.Idx → EReal) (G2 : S800000x16.Idx → EReal) (G3 G4 : S64x64.Idx → EReal)
    (G5 : S16x64.Idx → EReal) (G6 : S1x64.Idx → EReal) (G7 : S64x64.Idx → EReal) (G8 : S1x64.Idx → EReal) (t : Fin cfg0.N) :
    (cfg0.win 9).cut (grid0.coords t) (out0_9 (F := Ideal) (((cfg0.win 0).blk t).view.read (Elt Ideal) G0) (((cfg0.win 1).blk t).view.read (Elt Ideal) G1) (((cfg0.win 2).blk t).view.read (Elt Ideal) G2) (((cfg0.win 3).blk t).view.read (Elt Ideal) G3) (((cfg0.win 4).blk t).view.read (Elt Ideal) G4) (((cfg0.win 5).blk t).view.read (Elt Ideal) G5) (((cfg0.win 6).blk t).view.read (Elt Ideal) G6) (((cfg0.win 7).blk t).view.read (Elt Ideal) G7) (((cfg0.win 8).blk t).view.read (Elt Ideal) G8))
      = ((cfg0.win 9).blk t).view.read (Elt Ideal) (Cert.MP.msgAt G0 G1 G2 G3 G4 G5 G6 G7 G8) := by
  funext j
  obtain ⟨p, q, rfl⟩ : ∃ (p : Fin 8000) (q : Fin 64), j = ix2 p q := ⟨j 0, j 1, eq_ix2 j⟩
  have hb : t.val * 8000 + p.val < 800000 := by have := lt_100 t; have := p.isLt; omega
  show out0_9 (((cfg0.win 0).blk t).view.read (Elt Ideal) G0) (((cfg0.win 1).blk t).view.read (Elt Ideal) G1) (((cfg0.win 2).blk t).view.read (Elt Ideal) G2) (((cfg0.win 3).blk t).view.read (Elt Ideal) G3) (((cfg0.win 4).blk t).view.read (Elt Ideal) G4) (((cfg0.win 5).blk t).view.read (Elt Ideal) G5) (((cfg0.win 6).blk t).view.read (Elt Ideal) G6) (((cfg0.win 7).blk t).view.read (Elt Ideal) G7) (((cfg0.win 8).blk t).view.read (Elt Ideal) G8) (ix2 p q) = Cert.MP.msgAt G0 G1 G2 G3 G4 G5 G6 G7 G8 (((cfg0.win 9).blk t).view.emb (ix2 p q))
  rw [out_apply, emb9 t p q hb, rd3 G3 t, rd4 G4 t, rd5 G5 t, rd6 G6 t, rd7 G7 t, rd8 G8 t]
  show _ = Cert.MP.msgRow G0 G1 G2 G3 G4 G5 G6 G7 G8 ⟨t.val * 8000 + p.val, hb⟩ q
  exact Cert.MP.msgRow_rows (E := 800000) (B := 8000) G0 G1 G2 _ _ _ G3 G4 G5 G6 G7 G8 ⟨t.val * 8000 + p.val, hb⟩ p q
    (fun a => rd0 G0 t p a hb) (fun a => rd1 G1 t p a hb) (fun b => rd2 G2 t p b hb)

theorem flushed_eq (V : (c : Dev nD) → (b : Ref sig .tc) → Buf (Elt Ideal) ((c : Thread nD τ).loc b)) (c : Dev nD) (t : Fin cfg0.N) :
    (dat0 (F := Ideal) V c).flushed 9 t = ((cfg0.win 9).blk t).view.read (Elt Ideal) (Cert.MP.msgAt (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8))) := by
  show (cfg0.win 9).cut (grid0.coords t) ((dat0 V c).after 9 t) = _
  rw [after0_9]
  exact block_eq _ _ _ _ _ _ _ _ _ t

theorem mem_blk (t : Fin cfg0.N) (i : S800000x64.Idx) :
    i ∈ ((cfg0.win 9).blk t).view.set ↔ ∀ a : Fin 2, win0_9.index t a * S8000x64.size a ≤ (i a).val ∧ (i a).val < win0_9.index t a * S8000x64.size a + S8000x64.size a := by
  show i ∈ ((View.whole main_v39).slice (win0_9.rect t)).set ↔ _
  rw [View.set_slice_whole, Rect.mem_set_unit]
  exact Iff.rfl

theorem covered (i : S800000x64.Idx) :
    ∃ t : Fin cfg0.N, (cfg0.win 9).flush t = true ∧ i ∈ ((cfg0.win 9).blk t).view.set := by
  have hi0 : (i 0).val < 800000 := (i 0).isLt
  have hi1 : (i 1).val < 64 := (i 1).isLt
  let t : Fin cfg0.N := ⟨(i 0).val / 8000, lt_of_lt_of_eq (show (i 0).val / 8000 < 100 by omega) N_0.symm⟩
  obtain ⟨-, -, -, e9, -⟩ := idx_facts t
  refine ⟨t, flush0_9 t, ?_⟩
  rw [mem_blk]
  intro a
  match a with
  | ⟨0, _⟩ =>
    show win0_9.index t (0 : Fin 2) * 8000 ≤ (i 0).val ∧ (i 0).val < win0_9.index t (0 : Fin 2) * 8000 + 8000
    rw [show win0_9.index t (0 : Fin 2) = (i 0).val / 8000 from congrFun e9 0]; omega
  | ⟨1, _⟩ =>
    show win0_9.index t (1 : Fin 2) * 64 ≤ (i 1).val ∧ (i 1).val < win0_9.index t (1 : Fin 2) * 64 + 64
    rw [show win0_9.index t (1 : Fin 2) = 0 from congrFun e9 1]; omega

theorem final (V : (c : Dev nD) → (b : Ref sig .tc) → Buf (Elt Ideal) ((c : Thread nD τ).loc b)) (c : Dev nD) :
    (dat0 (F := Ideal) V c).arrAt 9 cfg0.N
      = Cert.MP.msgAt (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (V c (Pipeline.arrRef spec0 6)) (V c (Pipeline.arrRef spec0 7)) (V c (Pipeline.arrRef spec0 8)) :=
  (dat0 (F := Ideal) V c).arrAt_eq_of_cover 9 _ (fun t _ => flushed_eq V c t) covered

end Cert.KernelIdeal.RegMsg0

end
-- ==== Proof.RegGru1.lean ====
import proofs.«423451_j81475529605767_1_alg».proof.Proof.Gen.KernelIdeal.Frame
import proofs.«423451_j81475529605767_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegGru1

open Cert.KernelIdeal Cert.KernelIdeal.Gen Idealize.ShloMosaic Idealize.ShloMosaic.TcCoe Idealize.SL.Sem
open Idealize.ShloMosaic.ValueIdx
open Idealize.ShloMosaic.Pipeline (Dat)

theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q

theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q

theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem mm_apply {φ₁ φ₂ : FTy} (a : FVec Ideal S5000x64 φ₁) (w : FVec Ideal S64x64 φ₂) (p : Fin 5000) (q : Fin 64) :
    matmul dot_S5000x64_S64x64_S5000x64_1_0_0_1_n_n none a w (constant S5000x64 .f32 0x00000000#32) (ix2 p q)
      = ∑ k : Fin 64, a (ix2 p k) * w (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_0 _ _
    | ⟨1, _⟩ => exact (lhs_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

theorem logistic_apply {s : Shape} {φ : FTy} (a : FVec Ideal s φ) (i : s.Idx) : logistic a i = Ideal.logistic (a i) := rfl

theorem tanh_apply {s : Shape} {φ : FTy} (a : FVec Ideal s φ) (i : s.Idx) : tanh a i = Ideal.tanh (a i) := rfl

theorem pay_apply (x0 x1 : Vec Ideal S5000x64 .f32) (x2 x3 x4 : Vec Ideal S64x64 .f32) (x5 x6 x7 : Vec Ideal S1x64 .f32)
    (x8 x9 x10 : Vec Ideal S64x64 .f32) (x11 x12 x13 : Vec Ideal S1x64 .f32) (p : Fin 5000) (q : Fin 64) :
    k1_pay1 (F := Ideal) (k1_pay3 x1) (k1_pay4 x8) (k1_pay5 x9) (k1_pay6 x10) (k1_pay7 x0 x2 x5) (k1_pay8 x0 x3 x6) (k1_pay9 x0 x4) x7 x11 x12 x13 x1 (ix2 p q)
      = Cert.MP.gruRow x0 x1 x2 x3 x4 x5 x6 x7 x8 x9 x10 x11 x12 x13 p q := by
  unfold Cert.MP.gruRow Cert.MP.lin
  unfold k1_pay1 k1_pay3 k1_pay4 k1_pay5 k1_pay6 k1_pay7 k1_pay8 k1_pay9 k1_pay2
  simp only [addf_apply, mulf_apply, subf_apply, logistic_apply, tanh_apply, broadcast_apply, mm_apply, shapeCast_self, broadcastTo_1b_ab_apply, truncf_apply]
  rfl

theorem hz : (![0, 0] : Fin 2 → Nat) = fun _ => 0 := funext fun a => by fin_cases a <;> rfl

theorem out_eq (x0 x1 : Vec Ideal S5000x64 .f32) (x2 x3 x4 : Vec Ideal S64x64 .f32) (x5 x6 x7 : Vec Ideal S1x64 .f32)
    (x8 x9 x10 : Vec Ideal S64x64 .f32) (x11 x12 x13 : Vec Ideal S1x64 .f32) :
    out1_14 (F := Ideal) x0 x1 x2 x3 x4 x5 x6 x7 x8 x9 x10 x11 x12 x13
      = fun j => Cert.MP.gruRow x0 x1 x2 x3 x4 x5 x6 x7 x8 x9 x10 x11 x12 x13 (j 0) (j 1) := by
  unfold out1_14
  rw [View.canon_unit_zero hz]
  simp only [View.ld_unit_zero (S := S5000x64) hz, View.ld_unit_zero (S := S64x64) hz, View.ld_unit_zero (S := S1x64) hz]
  funext j
  obtain ⟨p, q, rfl⟩ : ∃ p q, j = ix2 p q := ⟨j 0, j 1, eq_ix2 j⟩
  exact pay_apply x0 x1 x2 x3 x4 x5 x6 x7 x8 x9 x10 x11 x12 x13 p q

theorem idx_rows : ∀ t : Fin cfg1.N, win1_0.index t (0 : Fin 2) = t.val ∧ win1_0.index t (1 : Fin 2) = 0
    ∧ win1_1.index t (0 : Fin 2) = t.val ∧ win1_1.index t (1 : Fin 2) = 0
    ∧ win1_14.index t (0 : Fin 2) = t.val ∧ win1_14.index t (1 : Fin 2) = 0 :=
  (by decide +kernel : ∀ t : Fin grid1.N, _)

theorem idx_whole : ∀ t : Fin cfg1.N, (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0)
    ∧ (win1_13.index t (0 : Fin 2) = 0 ∧ win1_13.index t (1 : Fin 2) = 0) :=
  (by decide +kernel : ∀ t : Fin grid1.N, _)

variable (V : (c : Dev nD) → (b : Ref sig .tc) → Buf (Elt Ideal) ((c : Thread nD τ).loc b))

theorem whole_2 (c : Dev nD) (t : Fin cfg1.N) :
    (iblk1 (F := Ideal) V c 2 t : S64x64.Idx → EReal) = V c (Pipeline.arrRef spec1 2) := by
  funext j
  show V c (Pipeline.arrRef spec1 2) (((cfg1.win 2).blk t).view.emb j) = V c (Pipeline.arrRef spec1 2) j
  congr 1
  funext a; apply Fin.ext
  match a with
  | ⟨0, _⟩ => show win1_2.index t (0 : Fin 2) * 64 + 1 * (j 0).val = (j 0).val; rw [(idx_whole t).1.1]; omega
  | ⟨1, _⟩ => show win1_2.index t (1 : Fin 2) * 64 + 1 * (j 1).val = (j 1).val; rw [(idx_whole t).1.2]; omega

theorem whole_3 (c : Dev nD) (t : Fin cfg1.N) :
    (iblk1 (F := Ideal) V c 3 t : S64x64.Idx → EReal) = V c (Pipeline.arrRef spec1 3) := by
  funext j
  show V c (Pipeline.arrRef spec1 3) (((cfg1.win 3).blk t).view.emb j) = V c (Pipeline.arrRef spec1 3) j
  congr 1
  funext a; apply Fin.ext
  match a with
  | ⟨0, _⟩ => show win1_3.index t (0 : Fin 2) * 64 + 1 * (j 0).val = (j 0).val; rw [(idx_whole t).2.1.1]; omega
  | ⟨1, _⟩ => show win1_3.index t (1 : Fin 2) * 64 + 1 * (j 1).val = (j 1).val; rw [(idx_whole t).2.1.2]; omega

theorem whole_4 (c : Dev nD) (t : Fin cfg1.N) :
    (iblk1 (F := Ideal) V c 4 t : S64x64.Idx → EReal) = V c (Pipeline.arrRef spec1 4) := by
  funext j
  show V c (Pipeline.arrRef spec1 4) (((cfg1.win 4).blk t).view.emb j) = V c (Pipeline.arrRef spec1 4) j
  congr 1
  funext a; apply Fin.ext
  match a with
  | ⟨0, _⟩ => show win1_4.index t (0 : Fin 2) * 64 + 1 * (j 0).val = (j 0).val; rw [(idx_whole t).2.2.1.1]; omega
  | ⟨1, _⟩ => show win1_4.index t (1 : Fin 2) * 64 + 1 * (j 1).val = (j 1).val; rw [(idx_whole t).2.2.1.2]; omega

theorem whole_5 (c : Dev nD) (t : Fin cfg1.N) :
    (iblk1 (F := Ideal) V c 5 t : S1x64.Idx → EReal) = V c (Pipeline.arrRef spec1 5) := by
  funext j
  show V c (Pipeline.arrRef spec1 5) (((cfg1.win 5).blk t).view.emb j) = V c (Pipeline.arrRef spec1 5) j
  congr 1
  funext a; apply Fin.ext
  match a with
  | ⟨0, _⟩ => show win1_5.index t (0 : Fin 2) * 1 + 1 * (j 0).val = (j 0).val; rw [(idx_whole t).2.2.2.1.1]; omega
  | ⟨1, _⟩ => show win1_5.index t (1 : Fin 2) * 64 + 1 * (j 1).val = (j 1).val; rw [(idx_whole t).2.2.2.1.2]; omega

theorem whole_6 (c : Dev nD) (t : Fin cfg1.N) :
    (iblk1 (F := Ideal) V c 6 t : S1x64.Idx → EReal) = V c (Pipeline.arrRef spec1 6) := by
  funext j
  show V c (Pipeline.arrRef spec1 6) (((cfg1.win 6).blk t).view.emb j) = V c (Pipeline.arrRef spec1 6) j
  congr 1
  funext a; apply Fin.ext
  match a with
  | ⟨0, _⟩ => show win1_6.index t (0 : Fin 2) * 1 + 1 * (j 0).val = (j 0).val; rw [(idx_whole t).2.2.2.2.1.1]; omega
  | ⟨1, _⟩ => show win1_6.index t (1 : Fin 2) * 64 + 1 * (j 1).val = (j 1).val; rw [(idx_whole t).2.2.2.2.1.2]; omega

theorem whole_7 (c : Dev nD) (t : Fin cfg1.N) :
    (iblk1 (F := Ideal) V c 7 t : S1x64.Idx → EReal) = V c (Pipeline.arrRef spec1 7) := by
  funext j
  show V c (Pipeline.arrRef spec1 7) (((cfg1.win 7).blk t).view.emb j) = V c (Pipeline.arrRef spec1 7) j
  congr 1
  funext a; apply Fin.ext
  match a with
  | ⟨0, _⟩ => show win1_7.index t (0 : Fin 2) * 1 + 1 * (j 0).val = (j 0).val; rw [(idx_whole t).2.2.2.2.2.1.1]; omega
  | ⟨1, _⟩ => show win1_7.index t (1 : Fin 2) * 64 + 1 * (j 1).val = (j 1).val; rw [(idx_whole t).2.2.2.2.2.1.2]; omega

theorem whole_8 (c : Dev nD) (t : Fin cfg1.N) :
    (iblk1 (F := Ideal) V c 8 t : S64x64.Idx → EReal) = V c (Pipeline.arrRef spec1 8) := by
  funext j
  show V c (Pipeline.arrRef spec1 8) (((cfg1.win 8).blk t).view.emb j) = V c (Pipeline.arrRef spec1 8) j
  congr 1
  funext a; apply Fin.ext
  match a with
  | ⟨0, _⟩ => show win1_8.index t (0 : Fin 2) * 64 + 1 * (j 0).val = (j 0).val; rw [(idx_whole t).2.2.2.2.2.2.1.1]; omega
  | ⟨1, _⟩ => show win1_8.index t (1 : Fin 2) * 64 + 1 * (j 1).val = (j 1).val; rw [(idx_whole t).2.2.2.2.2.2.1.2]; omega

theorem whole_9 (c : Dev nD) (t : Fin cfg1.N) :
    (iblk1 (F := Ideal) V c 9 t : S64x64.Idx → EReal) = V c (Pipeline.arrRef spec1 9) := by
  funext j
  show V c (Pipeline.arrRef spec1 9) (((cfg1.win 9).blk t).view.emb j) = V c (Pipeline.arrRef spec1 9) j
  congr 1
  funext a; apply Fin.ext
  match a with
  | ⟨0, _⟩ => show win1_9.index t (0 : Fin 2) * 64 + 1 * (j 0).val = (j 0).val; rw [(idx_whole t).2.2.2.2.2.2.2.1.1]; omega
  | ⟨1, _⟩ => show win1_9.index t (1 : Fin 2) * 64 + 1 * (j 1).val = (j 1).val; rw [(idx_whole t).2.2.2.2.2.2.2.1.2]; omega

theorem whole_10 (c : Dev nD) (t : Fin cfg1.N) :
    (iblk1 (F := Ideal) V c 10 t : S64x64.Idx → EReal) = V c (Pipeline.arrRef spec1 10) := by
  funext j
  show V c (Pipeline.arrRef spec1 10) (((cfg1.win 10).blk t).view.emb j) = V c (Pipeline.arrRef spec1 10) j
  congr 1
  funext a; apply Fin.ext
  match a with
  | ⟨0, _⟩ => show win1_10.index t (0 : Fin 2) * 64 + 1 * (j 0).val = (j 0).val; rw [(idx_whole t).2.2.2.2.2.2.2.2.1.1]; omega
  | ⟨1, _⟩ => show win1_10.index t (1 : Fin 2) * 64 + 1 * (j 1).val = (j 1).val; rw [(idx_whole t).2.2.2.2.2.2.2.2.1.2]; omega

theorem whole_11 (c : Dev nD) (t : Fin cfg1.N) :
    (iblk1 (F := Ideal) V c 11 t : S1x64.Idx → EReal) = V c (Pipeline.arrRef spec1 11) := by
  funext j
  show V c (Pipeline.arrRef spec1 11) (((cfg1.win 11).blk t).view.emb j) = V c (Pipeline.arrRef spec1 11) j
  congr 1
  funext a; apply Fin.ext
  match a with
  | ⟨0, _⟩ => show win1_11.index t (0 : Fin 2) * 1 + 1 * (j 0).val = (j 0).val; rw [(idx_whole t).2.2.2.2.2.2.2.2.2.1.1]; omega
  | ⟨1, _⟩ => show win1_11.index t (1 : Fin 2) * 64 + 1 * (j 1).val = (j 1).val; rw [(idx_whole t).2.2.2.2.2.2.2.2.2.1.2]; omega

theorem whole_12 (c : Dev nD) (t : Fin cfg1.N) :
    (iblk1 (F := Ideal) V c 12 t : S1x64.Idx → EReal) = V c (Pipeline.arrRef spec1 12) := by
  funext j
  show V c (Pipeline.arrRef spec1 12) (((cfg1.win 12).blk t).view.emb j) = V c (Pipeline.arrRef spec1 12) j
  congr 1
  funext a; apply Fin.ext
  match a with
  | ⟨0, _⟩ => show win1_12.index t (0 : Fin 2) * 1 + 1 * (j 0).val = (j 0).val; rw [(idx_whole t).2.2.2.2.2.2.2.2.2.2.1.1]; omega
  | ⟨1, _⟩ => show win1_12.index t (1 : Fin 2) * 64 + 1 * (j 1).val = (j 1).val; rw [(idx_whole t).2.2.2.2.2.2.2.2.2.2.1.2]; omega

theorem whole_13 (c : Dev nD) (t : Fin cfg1.N) :
    (iblk1 (F := Ideal) V c 13 t : S1x64.Idx → EReal) = V c (Pipeline.arrRef spec1 13) := by
  funext j
  show V c (Pipeline.arrRef spec1 13) (((cfg1.win 13).blk t).view.emb j) = V c (Pipeline.arrRef spec1 13) j
  congr 1
  funext a; apply Fin.ext
  match a with
  | ⟨0, _⟩ => show win1_13.index t (0 : Fin 2) * 1 + 1 * (j 0).val = (j 0).val; rw [(idx_whole t).2.2.2.2.2.2.2.2.2.2.2.1]; omega
  | ⟨1, _⟩ => show win1_13.index t (1 : Fin 2) * 64 + 1 * (j 1).val = (j 1).val; rw [(idx_whole t).2.2.2.2.2.2.2.2.2.2.2.2]; omega

theorem rows_0 (c : Dev nD) (t : Fin cfg1.N) (p : Fin 5000) (n : Fin 50000) (hn : n.val = t.val * 5000 + p.val) (a : Fin 64) :
    (iblk1 (F := Ideal) V c 0 t : S5000x64.Idx → EReal) (ix2 p a)
      = (V c (Pipeline.arrRef spec1 0) : S50000x64.Idx → EReal) (ix2 n a) := by
  show V c (Pipeline.arrRef spec1 0) (((cfg1.win 0).blk t).view.emb (ix2 p a)) = V c (Pipeline.arrRef spec1 0) (ix2 n a)
  congr 1
  funext ax; apply Fin.ext
  match ax with
  | ⟨0, _⟩ => show win1_0.index t (0 : Fin 2) * 5000 + 1 * p.val = n.val; rw [(idx_rows t).1]; omega
  | ⟨1, _⟩ => show win1_0.index t (1 : Fin 2) * 64 + 1 * a.val = a.val; rw [(idx_rows t).2.1]; omega

theorem rows_1 (c : Dev nD) (t : Fin cfg1.N) (p : Fin 5000) (n : Fin 50000) (hn : n.val = t.val * 5000 + p.val) (a : Fin 64) :
    (iblk1 (F := Ideal) V c 1 t : S5000x64.Idx → EReal) (ix2 p a)
      = (V c (Pipeline.arrRef spec1 1) : S50000x64.Idx → EReal) (ix2 n a) := by
  show V c (Pipeline.arrRef spec1 1) (((cfg1.win 1).blk t).view.emb (ix2 p a)) = V c (Pipeline.arrRef spec1 1) (ix2 n a)
  congr 1
  funext ax; apply Fin.ext
  match ax with
  | ⟨0, _⟩ => show win1_1.index t (0 : Fin 2) * 5000 + 1 * p.val = n.val; rw [(idx_rows t).2.2.1]; omega
  | ⟨1, _⟩ => show win1_1.index t (1 : Fin 2) * 64 + 1 * a.val = a.val; rw [(idx_rows t).2.2.2.1]; omega

theorem gru_congr {N B : Nat} (agg h : Cert.MP.Arr N 64) (agg' h' : Cert.MP.Arr B 64)
    (wir wiz win wir' wiz' win' : Cert.MP.Arr 64 64) (bir biz bin bir' biz' bin' : Cert.MP.Arr 1 64)
    (whr whz whn whr' whz' whn' : Cert.MP.Arr 64 64) (bhr bhz bhn bhr' bhz' bhn' : Cert.MP.Arr 1 64)
    (n : Fin N) (p : Fin B) (q q' : Fin 64)
    (h1 : ∀ a, agg' (ix2 p a) = agg (ix2 n a)) (h2 : ∀ a, h' (ix2 p a) = h (ix2 n a))
    (e2 : wir' = wir) (e3 : wiz' = wiz) (e4 : win' = win) (e5 : bir' = bir) (e6 : biz' = biz) (e7 : bin' = bin)
    (e8 : whr' = whr) (e9 : whz' = whz) (e10 : whn' = whn) (e11 : bhr' = bhr) (e12 : bhz' = bhz) (e13 : bhn' = bhn)
    (eq : q' = q) :
    Cert.MP.gruRow agg' h' wir' wiz' win' bir' biz' bin' whr' whz' whn' bhr' bhz' bhn' p q
      = Cert.MP.gruRow agg h wir wiz win bir biz bin whr whz whn bhr bhz bhn n q' := by
  subst e2 e3 e4 e5 e6 e7 e8 e9 e10 e11 e12 e13 eq
  exact Cert.MP.gruRow_rows agg h agg' h' _ _ _ _ _ _ _ _ _ _ _ _ n p _ h1 h2

abbrev G (c : Dev nD) : S50000x64.Idx → EReal :=
  Cert.MP.gruAt (V c (Pipeline.arrRef spec1 0)) (V c (Pipeline.arrRef spec1 1))
    (V c (Pipeline.arrRef spec1 2)) (V c (Pipeline.arrRef spec1 3)) (V c (Pipeline.arrRef spec1 4))
    (V c (Pipeline.arrRef spec1 5)) (V c (Pipeline.arrRef spec1 6)) (V c (Pipeline.arrRef spec1 7))
    (V c (Pipeline.arrRef spec1 8)) (V c (Pipeline.arrRef spec1 9)) (V c (Pipeline.arrRef spec1 10))
    (V c (Pipeline.arrRef spec1 11)) (V c (Pipeline.arrRef spec1 12)) (V c (Pipeline.arrRef spec1 13))

theorem flushed_eq (c : Dev nD) (t : Fin cfg1.N) :
    (dat1 (F := Ideal) V c).flushed 14 t = ((cfg1.win 14).blk t).view.read (Elt Ideal) (G V c) := by
  show (cfg1.win 14).cut (grid1.coords t) ((dat1 (F := Ideal) V c).after 14 t) = _
  rw [after1_14, out_eq]
  funext j
  show Cert.MP.gruRow (iblk1 (F := Ideal) V c 0 t) (iblk1 (F := Ideal) V c 1 t) (iblk1 (F := Ideal) V c 2 t) (iblk1 (F := Ideal) V c 3 t)
      (iblk1 (F := Ideal) V c 4 t) (iblk1 (F := Ideal) V c 5 t) (iblk1 (F := Ideal) V c 6 t) (iblk1 (F := Ideal) V c 7 t)
      (iblk1 (F := Ideal) V c 8 t) (iblk1 (F := Ideal) V c 9 t) (iblk1 (F := Ideal) V c 10 t) (iblk1 (F := Ideal) V c 11 t)
      (iblk1 (F := Ideal) V c 12 t) (iblk1 (F := Ideal) V c 13 t) (j 0) (j 1)
    = Cert.MP.gruRow (V c (Pipeline.arrRef spec1 0)) (V c (Pipeline.arrRef spec1 1))
      (V c (Pipeline.arrRef spec1 2)) (V c (Pipeline.arrRef spec1 3)) (V c (Pipeline.arrRef spec1 4))
      (V c (Pipeline.arrRef spec1 5)) (V c (Pipeline.arrRef spec1 6)) (V c (Pipeline.arrRef spec1 7))
      (V c (Pipeline.arrRef spec1 8)) (V c (Pipeline.arrRef spec1 9)) (V c (Pipeline.arrRef spec1 10))
      (V c (Pipeline.arrRef spec1 11)) (V c (Pipeline.arrRef spec1 12)) (V c (Pipeline.arrRef spec1 13))
      ((((cfg1.win 14).blk t).view.emb j) 0) ((((cfg1.win 14).blk t).view.emb j) 1)
  have hn : ((((cfg1.win 14).blk t).view.emb j) 0 : Fin 50000).val = t.val * 5000 + (j 0).val := by
    show win1_14.index t (0 : Fin 2) * 5000 + 1 * (j 0).val = t.val * 5000 + (j 0).val
    rw [(idx_rows t).2.2.2.2.1]; omega
  have hq : ((((cfg1.win 14).blk t).view.emb j) 1 : Fin 64) = j 1 := Fin.ext (by
    show win1_14.index t (1 : Fin 2) * 64 + 1 * (j 1).val = (j 1).val
    rw [(idx_rows t).2.2.2.2.2]; omega)
  exact gru_congr _ _ _ _ _ _ _ _ _ _ _ _ _ _ _ _ _ _ _ _ _ _ _ _ _ _ _ _ _ _ _ _
    (fun a => rows_0 V c t (j 0) _ hn a) (fun a => rows_1 V c t (j 0) _ hn a)
    (whole_2 V c t) (whole_3 V c t) (whole_4 V c t) (whole_5 V c t) (whole_6 V c t) (whole_7 V c t)
    (whole_8 V c t) (whole_9 V c t) (whole_10 V c t) (whole_11 V c t) (whole_12 V c t) (whole_13 V c t) hq

theorem mem_blk (t : Fin cfg1.N) (i : S50000x64.Idx) :
    i ∈ ((cfg1.win 14).blk t).view.set ↔ ∀ a : Fin 2, win1_14.index t a * S5000x64.size a ≤ (i a).val ∧ (i a).val < win1_14.index t a * S5000x64.size a + S5000x64.size a := by
  show i ∈ ((View.whole main_v43).slice (win1_14.rect t)).set ↔ _
  rw [View.set_slice_whole, Rect.mem_set_unit]
  exact Iff.rfl

theorem cover (i : S50000x64.Idx) :
    ∃ t : Fin cfg1.N, (cfg1.win 14).flush t = true ∧ i ∈ ((cfg1.win 14).blk t).view.set := by
  have hi0 : (i 0).val < 50000 := (i 0).isLt
  have hi1 : (i 1).val < 64 := (i 1).isLt
  have ht : (i 0).val / 5000 < cfg1.N := by show (i 0).val / 5000 < 10; omega
  refine ⟨⟨(i 0).val / 5000, ht⟩, flush1_14 _, ?_⟩
  rw [mem_blk]
  obtain ⟨-, -, -, -, e0, e1⟩ := idx_rows ⟨(i 0).val / 5000, ht⟩
  intro a
  match a with
  | ⟨0, _⟩ =>
    show win1_14.index ⟨(i 0).val / 5000, ht⟩ (0 : Fin 2) * 5000 ≤ (i 0).val ∧ (i 0).val < win1_14.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_14.index ⟨(i 0).val / 5000, ht⟩ (1 : Fin 2) * 64 ≤ (i 1).val ∧ (i 1).val < win1_14.index ⟨(i 0).val / 5000, ht⟩ (1 : Fin 2) * 64 + 64
    rw [e1]; omega

theorem final (V : (c : Dev nD) → (b : Ref sig .tc) → Buf (Elt Ideal) ((c : Thread nD τ).loc b)) (c : Dev nD) :
    (dat1 (F := Ideal) V c).arrAt 14 cfg1.N
      = Cert.MP.gruAt (V c (Pipeline.arrRef spec1 0)) (V c (Pipeline.arrRef spec1 1))
          (V c (Pipeline.arrRef spec1 2)) (V c (Pipeline.arrRef spec1 3)) (V c (Pipeline.arrRef spec1 4))
          (V c (Pipeline.arrRef spec1 5)) (V c (Pipeline.arrRef spec1 6)) (V c (Pipeline.arrRef spec1 7))
          (V c (Pipeline.arrRef spec1 8)) (V c (Pipeline.arrRef spec1 9)) (V c (Pipeline.arrRef spec1 10))
          (V c (Pipeline.arrRef spec1 11)) (V c (Pipeline.arrRef spec1 12)) (V c (Pipeline.arrRef spec1 13)) :=
  (dat1 (F := Ideal) V c).arrAt_eq_of_cover 14 (G V c) (fun t _ => flushed_eq V c t) cover

end Cert.KernelIdeal.RegGru1

end
-- ==== Proof.RegMsg2.lean ====
import proofs.«423451_j81475529605767_1_alg».proof.Proof.Gen.KernelIdeal.Frame
import proofs.«423451_j81475529605767_1_alg».proof.Proof.Spec
import proofs.«423451_j81475529605767_1_alg».proof.Proof.RegMsg0
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.RegMsg2

open Cert.KernelIdeal Cert.KernelIdeal.Gen Idealize.ShloMosaic Idealize.ShloMosaic.TcCoe Idealize.SL.Sem
open Idealize.ShloMosaic.Pipeline (Dat)
open Idealize.ShloMosaic.ValueIdx

theorem idx_facts : ∀ t : Fin cfg2.N,
    win2_0.index t = ![t.val, 0] ∧ win2_1.index t = ![t.val, 0] ∧ win2_2.index t = ![t.val, 0] ∧ win2_9.index t = ![t.val, 0]
    ∧ win2_3.index t = ![0, 0] ∧ win2_4.index t = ![0, 0] ∧ win2_5.index t = ![0, 0] ∧ win2_6.index t = ![0, 0]
    ∧ win2_7.index t = ![0, 0] ∧ win2_8.index t = ![0, 0] :=
  (by decide +kernel : ∀ t : Fin grid2.N, _)

theorem lt_100 (t : Fin cfg2.N) : t.val < 100 := lt_of_lt_of_eq t.isLt N_2

theorem rd0 (G : S800000x64.Idx → EReal) (t : Fin cfg2.N) (p : Fin 8000) (a : Fin 64) (hb : t.val * 8000 + p.val < 800000) :
    ((cfg2.win 0).blk t).view.read (Elt Ideal) G (ix2 p a) = G (ix2 ⟨t.val * 8000 + p.val, hb⟩ a) := by
  show G (((cfg2.win 0).blk t).view.emb (ix2 p a)) = _
  refine congrArg G (funext fun b => Fin.ext ?_)
  have e := (idx_facts t).1
  match b with
  | ⟨0, _⟩ => show win2_0.index t (0 : Fin 2) * 8000 + 1 * p.val = t.val * 8000 + p.val; rw [show win2_0.index t (0 : Fin 2) = t.val from congrFun e 0]; omega
  | ⟨1, _⟩ => show win2_0.index t (1 : Fin 2) * 64 + 1 * a.val = a.val; rw [show win2_0.index t (1 : Fin 2) = 0 from congrFun e 1]; omega

theorem rd1 (G : S800000x64.Idx → EReal) (t : Fin cfg2.N) (p : Fin 8000) (a : Fin 64) (hb : t.val * 8000 + p.val < 800000) :
    ((cfg2.win 1).blk t).view.read (Elt Ideal) G (ix2 p a) = G (ix2 ⟨t.val * 8000 + p.val, hb⟩ a) := by
  show G (((cfg2.win 1).blk t).view.emb (ix2 p a)) = _
  refine congrArg G (funext fun b => Fin.ext ?_)
  have e := (idx_facts t).2.1
  match b with
  | ⟨0, _⟩ => show win2_1.index t (0 : Fin 2) * 8000 + 1 * p.val = t.val * 8000 + p.val; rw [show win2_1.index t (0 : Fin 2) = t.val from congrFun e 0]; omega
  | ⟨1, _⟩ => show win2_1.index t (1 : Fin 2) * 64 + 1 * a.val = a.val; rw [show win2_1.index t (1 : Fin 2) = 0 from congrFun e 1]; omega

theorem rd2 (G : S800000x16.Idx → EReal) (t : Fin cfg2.N) (p : Fin 8000) (a : Fin 16) (hb : t.val * 8000 + p.val < 800000) :
    ((cfg2.win 2).blk t).view.read (Elt Ideal) G (ix2 p a) = G (ix2 ⟨t.val * 8000 + p.val, hb⟩ a) := by
  show G (((cfg2.win 2).blk t).view.emb (ix2 p a)) = _
  refine congrArg G (funext fun b => Fin.ext ?_)
  have e := (idx_facts t).2.2.1
  match b with
  | ⟨0, _⟩ => show win2_2.index t (0 : Fin 2) * 8000 + 1 * p.val = t.val * 8000 + p.val; rw [show win2_2.index t (0 : Fin 2) = t.val from congrFun e 0]; omega
  | ⟨1, _⟩ => show win2_2.index t (1 : Fin 2) * 16 + 1 * a.val = a.val; rw [show win2_2.index t (1 : Fin 2) = 0 from congrFun e 1]; omega

theorem rd3 (G : S64x64.Idx → EReal) (t : Fin cfg2.N) : ((cfg2.win 3).blk t).view.read (Elt Ideal) G = G := by
  funext i
  show G (((cfg2.win 3).blk t).view.emb i) = G i
  refine congrArg G (funext fun b => Fin.ext ?_)
  have e := (idx_facts t).2.2.2.2.1
  match b with
  | ⟨0, _⟩ => show win2_3.index t (0 : Fin 2) * 64 + 1 * (i 0).val = (i 0).val; rw [show win2_3.index t (0 : Fin 2) = 0 from congrFun e 0]; omega
  | ⟨1, _⟩ => show win2_3.index t (1 : Fin 2) * 64 + 1 * (i 1).val = (i 1).val; rw [show win2_3.index t (1 : Fin 2) = 0 from congrFun e 1]; omega

theorem rd4 (G : S64x64.Idx → EReal) (t : Fin cfg2.N) : ((cfg2.win 4).blk t).view.read (Elt Ideal) G = G := by
  funext i
  show G (((cfg2.win 4).blk t).view.emb i) = G i
  refine congrArg G (funext fun b => Fin.ext ?_)
  have e := (idx_facts t).2.2.2.2.2.1
  match b with
  | ⟨0, _⟩ => show win2_4.index t (0 : Fin 2) * 64 + 1 * (i 0).val = (i 0).val; rw [show win2_4.index t (0 : Fin 2) = 0 from congrFun e 0]; omega
  | ⟨1, _⟩ => show win2_4.index t (1 : Fin 2) * 64 + 1 * (i 1).val = (i 1).val; rw [show win2_4.index t (1 : Fin 2) = 0 from congrFun e 1]; omega

theorem rd5 (G : S16x64.Idx → EReal) (t : Fin cfg2.N) : ((cfg2.win 5).blk t).view.read (Elt Ideal) G = G := by
  funext i
  show G (((cfg2.win 5).blk t).view.emb i) = G i
  refine congrArg G (funext fun b => Fin.ext ?_)
  have e := (idx_facts t).2.2.2.2.2.2.1
  match b with
  | ⟨0, _⟩ => show win2_5.index t (0 : Fin 2) * 16 + 1 * (i 0).val = (i 0).val; rw [show win2_5.index t (0 : Fin 2) = 0 from congrFun e 0]; omega
  | ⟨1, _⟩ => show win2_5.index t (1 : Fin 2) * 64 + 1 * (i 1).val = (i 1).val; rw [show win2_5.index t (1 : Fin 2) = 0 from congrFun e 1]; omega

theorem rd6 (G : S1x64.Idx → EReal) (t : Fin cfg2.N) : ((cfg2.win 6).blk t).view.read (Elt Ideal) G = G := by
  funext i
  show G (((cfg2.win 6).blk t).view.emb i) = G i
  refine congrArg G (funext fun b => Fin.ext ?_)
  have e := (idx_facts t).2.2.2.2.2.2.2.1
  match b with
  | ⟨0, _⟩ => show win2_6.index t (0 : Fin 2) * 1 + 1 * (i 0).val = (i 0).val; rw [show win2_6.index t (0 : Fin 2) = 0 from congrFun e 0]; omega
  | ⟨1, _⟩ => show win2_6.index t (1 : Fin 2) * 64 + 1 * (i 1).val = (i 1).val; rw [show win2_6.index t (1 : Fin 2) = 0 from congrFun e 1]; omega

theorem rd7 (G : S64x64.Idx → EReal) (t : Fin cfg2.N) : ((cfg2.win 7).blk t).view.read (Elt Ideal) G = G := by
  funext i
  show G (((cfg2.win 7).blk t).view.emb i) = G i
  refine congrArg G (funext fun b => Fin.ext ?_)
  have e := (idx_facts t).2.2.2.2.2.2.2.2.1
  match b with
  | ⟨0, _⟩ => show win2_7.index t (0 : Fin 2) * 64 + 1 * (i 0).val = (i 0).val; rw [show win2_7.index t (0 : Fin 2) = 0 from congrFun e 0]; omega
  | ⟨1, _⟩ => show win2_7.index t (1 : Fin 2) * 64 + 1 * (i 1).val = (i 1).val; rw [show win2_7.index t (1 : Fin 2) = 0 from congrFun e 1]; omega

theorem rd8 (G : S1x64.Idx → EReal) (t : Fin cfg2.N) : ((cfg2.win 8).blk t).view.read (Elt Ideal) G = G := by
  funext i
  show G (((cfg2.win 8).blk t).view.emb i) = G i
  refine congrArg G (funext fun b => Fin.ext ?_)
  have e := (idx_facts t).2.2.2.2.2.2.2.2.2
  match b with
  | ⟨0, _⟩ => show win2_8.index t (0 : Fin 2) * 1 + 1 * (i 0).val = (i 0).val; rw [show win2_8.index t (0 : Fin 2) = 0 from congrFun e 0]; omega
  | ⟨1, _⟩ => show win2_8.index t (1 : Fin 2) * 64 + 1 * (i 1).val = (i 1).val; rw [show win2_8.index t (1 : Fin 2) = 0 from congrFun e 1]; omega

theorem emb9 (t : Fin cfg2.N) (p : Fin 8000) (q : Fin 64) (hb : t.val * 8000 + p.val < 800000) :
    ((cfg2.win 9).blk t).view.emb (ix2 p q) = (ix2 ⟨t.val * 8000 + p.val, hb⟩ q : S800000x64.Idx) := by
  refine funext fun b => Fin.ext ?_
  have e := (idx_facts t).2.2.2.1
  match b with
  | ⟨0, _⟩ => show win2_9.index t (0 : Fin 2) * 8000 + 1 * p.val = t.val * 8000 + p.val; rw [show win2_9.index t (0 : Fin 2) = t.val from congrFun e 0]; omega
  | ⟨1, _⟩ => show win2_9.index t (1 : Fin 2) * 64 + 1 * q.val = q.val; rw [show win2_9.index t (1 : Fin 2) = 0 from congrFun e 1]; omega

theorem block_eq (G0 G1 : S800000x64.Idx → EReal) (G2 : S800000x16.Idx → EReal) (G3 G4 : S64x64.Idx → EReal)
    (G5 : S16x64.Idx → EReal) (G6 : S1x64.Idx → EReal) (G7 : S64x64.Idx → EReal) (G8 : S1x64.Idx → EReal) (t : Fin cfg2.N) :
    (cfg2.win 9).cut (grid2.coords t) (out2_9 (F := Ideal) (((cfg2.win 0).blk t).view.read (Elt Ideal) G0) (((cfg2.win 1).blk t).view.read (Elt Ideal) G1) (((cfg2.win 2).blk t).view.read (Elt Ideal) G2) (((cfg2.win 3).blk t).view.read (Elt Ideal) G3) (((cfg2.win 4).blk t).view.read (Elt Ideal) G4) (((cfg2.win 5).blk t).view.read (Elt Ideal) G5) (((cfg2.win 6).blk t).view.read (Elt Ideal) G6) (((cfg2.win 7).blk t).view.read (Elt Ideal) G7) (((cfg2.win 8).blk t).view.read (Elt Ideal) G8))
      = ((cfg2.win 9).blk t).view.read (Elt Ideal) (Cert.MP.msgAt G0 G1 G2 G3 G4 G5 G6 G7 G8) := by
  funext j
  obtain ⟨p, q, rfl⟩ : ∃ (p : Fin 8000) (q : Fin 64), j = ix2 p q := ⟨j 0, j 1, eq_ix2 j⟩
  have hb : t.val * 8000 + p.val < 800000 := by have := lt_100 t; have := p.isLt; omega
  show out0_9 (((cfg2.win 0).blk t).view.read (Elt Ideal) G0) (((cfg2.win 1).blk t).view.read (Elt Ideal) G1) (((cfg2.win 2).blk t).view.read (Elt Ideal) G2) (((cfg2.win 3).blk t).view.read (Elt Ideal) G3) (((cfg2.win 4).blk t).view.read (Elt Ideal) G4) (((cfg2.win 5).blk t).view.read (Elt Ideal) G5) (((cfg2.win 6).blk t).view.read (Elt Ideal) G6) (((cfg2.win 7).blk t).view.read (Elt Ideal) G7) (((cfg2.win 8).blk t).view.read (Elt Ideal) G8) (ix2 p q) = Cert.MP.msgAt G0 G1 G2 G3 G4 G5 G6 G7 G8 (((cfg2.win 9).blk t).view.emb (ix2 p q))
  rw [RegMsg0.out_apply, emb9 t p q hb, rd3 G3 t, rd4 G4 t, rd5 G5 t, rd6 G6 t, rd7 G7 t, rd8 G8 t]
  show _ = Cert.MP.msgRow G0 G1 G2 G3 G4 G5 G6 G7 G8 ⟨t.val * 8000 + p.val, hb⟩ q
  exact Cert.MP.msgRow_rows (E := 800000) (B := 8000) G0 G1 G2 _ _ _ G3 G4 G5 G6 G7 G8 ⟨t.val * 8000 + p.val, hb⟩ p q
    (fun a => rd0 G0 t p a hb) (fun a => rd1 G1 t p a hb) (fun b => rd2 G2 t p b hb)

theorem flushed_eq (V : (c : Dev nD) → (b : Ref sig .tc) → Buf (Elt Ideal) ((c : Thread nD τ).loc b)) (c : Dev nD) (t : Fin cfg2.N) :
    (dat2 (F := Ideal) V c).flushed 9 t = ((cfg2.win 9).blk t).view.read (Elt Ideal) (Cert.MP.msgAt (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8))) := by
  show (cfg2.win 9).cut (grid2.coords t) ((dat2 V c).after 9 t) = _
  rw [after2_9]
  exact block_eq _ _ _ _ _ _ _ _ _ t

theorem mem_blk (t : Fin cfg2.N) (i : S800000x64.Idx) :
    i ∈ ((cfg2.win 9).blk t).view.set ↔ ∀ a : Fin 2, win2_9.index t a * S8000x64.size a ≤ (i a).val ∧ (i a).val < win2_9.index t a * S8000x64.size a + S8000x64.size a := by
  show i ∈ ((View.whole main_v46).slice (win2_9.rect t)).set ↔ _
  rw [View.set_slice_whole, Rect.mem_set_unit]
  exact Iff.rfl

theorem covered (i : S800000x64.Idx) :
    ∃ t : Fin cfg2.N, (cfg2.win 9).flush t = true ∧ i ∈ ((cfg2.win 9).blk t).view.set := by
  have hi0 : (i 0).val < 800000 := (i 0).isLt
  have hi1 : (i 1).val < 64 := (i 1).isLt
  let t : Fin cfg2.N := ⟨(i 0).val / 8000, lt_of_lt_of_eq (show (i 0).val / 8000 < 100 by omega) N_2.symm⟩
  obtain ⟨-, -, -, e9, -⟩ := idx_facts t
  refine ⟨t, flush2_9 t, ?_⟩
  rw [mem_blk]
  intro a
  match a with
  | ⟨0, _⟩ =>
    show win2_9.index t (0 : Fin 2) * 8000 ≤ (i 0).val ∧ (i 0).val < win2_9.index t (0 : Fin 2) * 8000 + 8000
    rw [show win2_9.index t (0 : Fin 2) = (i 0).val / 8000 from congrFun e9 0]; omega
  | ⟨1, _⟩ =>
    show win2_9.index t (1 : Fin 2) * 64 ≤ (i 1).val ∧ (i 1).val < win2_9.index t (1 : Fin 2) * 64 + 64
    rw [show win2_9.index t (1 : Fin 2) = 0 from congrFun e9 1]; omega

theorem final (V : (c : Dev nD) → (b : Ref sig .tc) → Buf (Elt Ideal) ((c : Thread nD τ).loc b)) (c : Dev nD) :
    (dat2 (F := Ideal) V c).arrAt 9 cfg2.N
      = Cert.MP.msgAt (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5))
          (V c (Pipeline.arrRef spec2 6)) (V c (Pipeline.arrRef spec2 7)) (V c (Pipeline.arrRef spec2 8)) :=
  (dat2 (F := Ideal) V c).arrAt_eq_of_cover 9 _ (fun t _ => flushed_eq V c t) covered

end Cert.KernelIdeal.RegMsg2

end
-- ==== Proof.RegGru3.lean ====
import proofs.«423451_j81475529605767_1_alg».proof.Proof.Gen.KernelIdeal.Frame
import proofs.«423451_j81475529605767_1_alg».proof.Proof.Spec
import proofs.«423451_j81475529605767_1_alg».proof.Proof.RegGru1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegGru3

open Cert.KernelIdeal Cert.KernelIdeal.Gen Idealize.ShloMosaic Idealize.ShloMosaic.TcCoe Idealize.SL.Sem
open Idealize.ShloMosaic.ValueIdx
open Idealize.ShloMosaic.Pipeline (Dat)

theorem idx_rows : ∀ t : Fin cfg3.N, win3_0.index t (0 : Fin 2) = t.val ∧ win3_0.index t (1 : Fin 2) = 0
    ∧ win3_1.index t (0 : Fin 2) = t.val ∧ win3_1.index t (1 : Fin 2) = 0
    ∧ win3_14.index t (0 : Fin 2) = t.val ∧ win3_14.index t (1 : Fin 2) = 0 :=
  (by decide +kernel : ∀ t : Fin grid3.N, _)

theorem idx_whole : ∀ t : Fin cfg3.N, (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = 0 ∧ win3_9.index t (1 : Fin 2) = 0)
    ∧ (win3_10.index t (0 : Fin 2) = 0 ∧ win3_10.index t (1 : Fin 2) = 0)
    ∧ (win3_11.index t (0 : Fin 2) = 0 ∧ win3_11.index t (1 : Fin 2) = 0)
    ∧ (win3_12.index t (0 : Fin 2) = 0 ∧ win3_12.index t (1 : Fin 2) = 0)
    ∧ (win3_13.index t (0 : Fin 2) = 0 ∧ win3_13.index t (1 : Fin 2) = 0) :=
  (by decide +kernel : ∀ t : Fin grid3.N, _)

variable (V : (c : Dev nD) → (b : Ref sig .tc) → Buf (Elt Ideal) ((c : Thread nD τ).loc b))

theorem whole_2 (c : Dev nD) (t : Fin cfg3.N) :
    (iblk3 (F := Ideal) V c 2 t : S64x64.Idx → EReal) = V c (Pipeline.arrRef spec3 2) := by
  funext j
  show V c (Pipeline.arrRef spec3 2) (((cfg3.win 2).blk t).view.emb j) = V c (Pipeline.arrRef spec3 2) j
  congr 1
  funext a; apply Fin.ext
  match a with
  | ⟨0, _⟩ => show win3_2.index t (0 : Fin 2) * 64 + 1 * (j 0).val = (j 0).val; rw [(idx_whole t).1.1]; omega
  | ⟨1, _⟩ => show win3_2.index t (1 : Fin 2) * 64 + 1 * (j 1).val = (j 1).val; rw [(idx_whole t).1.2]; omega

theorem whole_3 (c : Dev nD) (t : Fin cfg3.N) :
    (iblk3 (F := Ideal) V c 3 t : S64x64.Idx → EReal) = V c (Pipeline.arrRef spec3 3) := by
  funext j
  show V c (Pipeline.arrRef spec3 3) (((cfg3.win 3).blk t).view.emb j) = V c (Pipeline.arrRef spec3 3) j
  congr 1
  funext a; apply Fin.ext
  match a with
  | ⟨0, _⟩ => show win3_3.index t (0 : Fin 2) * 64 + 1 * (j 0).val = (j 0).val; rw [(idx_whole t).2.1.1]; omega
  | ⟨1, _⟩ => show win3_3.index t (1 : Fin 2) * 64 + 1 * (j 1).val = (j 1).val; rw [(idx_whole t).2.1.2]; omega

theorem whole_4 (c : Dev nD) (t : Fin cfg3.N) :
    (iblk3 (F := Ideal) V c 4 t : S64x64.Idx → EReal) = V c (Pipeline.arrRef spec3 4) := by
  funext j
  show V c (Pipeline.arrRef spec3 4) (((cfg3.win 4).blk t).view.emb j) = V c (Pipeline.arrRef spec3 4) j
  congr 1
  funext a; apply Fin.ext
  match a with
  | ⟨0, _⟩ => show win3_4.index t (0 : Fin 2) * 64 + 1 * (j 0).val = (j 0).val; rw [(idx_whole t).2.2.1.1]; omega
  | ⟨1, _⟩ => show win3_4.index t (1 : Fin 2) * 64 + 1 * (j 1).val = (j 1).val; rw [(idx_whole t).2.2.1.2]; omega

theorem whole_5 (c : Dev nD) (t : Fin cfg3.N) :
    (iblk3 (F := Ideal) V c 5 t : S1x64.Idx → EReal) = V c (Pipeline.arrRef spec3 5) := by
  funext j
  show V c (Pipeline.arrRef spec3 5) (((cfg3.win 5).blk t).view.emb j) = V c (Pipeline.arrRef spec3 5) j
  congr 1
  funext a; apply Fin.ext
  match a with
  | ⟨0, _⟩ => show win3_5.index t (0 : Fin 2) * 1 + 1 * (j 0).val = (j 0).val; rw [(idx_whole t).2.2.2.1.1]; omega
  | ⟨1, _⟩ => show win3_5.index t (1 : Fin 2) * 64 + 1 * (j 1).val = (j 1).val; rw [(idx_whole t).2.2.2.1.2]; omega

theorem whole_6 (c : Dev nD) (t : Fin cfg3.N) :
    (iblk3 (F := Ideal) V c 6 t : S1x64.Idx → EReal) = V c (Pipeline.arrRef spec3 6) := by
  funext j
  show V c (Pipeline.arrRef spec3 6) (((cfg3.win 6).blk t).view.emb j) = V c (Pipeline.arrRef spec3 6) j
  congr 1
  funext a; apply Fin.ext
  match a with
  | ⟨0, _⟩ => show win3_6.index t (0 : Fin 2) * 1 + 1 * (j 0).val = (j 0).val; rw [(idx_whole t).2.2.2.2.1.1]; omega
  | ⟨1, _⟩ => show win3_6.index t (1 : Fin 2) * 64 + 1 * (j 1).val = (j 1).val; rw [(idx_whole t).2.2.2.2.1.2]; omega

theorem whole_7 (c : Dev nD) (t : Fin cfg3.N) :
    (iblk3 (F := Ideal) V c 7 t : S1x64.Idx → EReal) = V c (Pipeline.arrRef spec3 7) := by
  funext j
  show V c (Pipeline.arrRef spec3 7) (((cfg3.win 7).blk t).view.emb j) = V c (Pipeline.arrRef spec3 7) j
  congr 1
  funext a; apply Fin.ext
  match a with
  | ⟨0, _⟩ => show win3_7.index t (0 : Fin 2) * 1 + 1 * (j 0).val = (j 0).val; rw [(idx_whole t).2.2.2.2.2.1.1]; omega
  | ⟨1, _⟩ => show win3_7.index t (1 : Fin 2) * 64 + 1 * (j 1).val = (j 1).val; rw [(idx_whole t).2.2.2.2.2.1.2]; omega

theorem whole_8 (c : Dev nD) (t : Fin cfg3.N) :
    (iblk3 (F := Ideal) V c 8 t : S64x64.Idx → EReal) = V c (Pipeline.arrRef spec3 8) := by
  funext j
  show V c (Pipeline.arrRef spec3 8) (((cfg3.win 8).blk t).view.emb j) = V c (Pipeline.arrRef spec3 8) j
  congr 1
  funext a; apply Fin.ext
  match a with
  | ⟨0, _⟩ => show win3_8.index t (0 : Fin 2) * 64 + 1 * (j 0).val = (j 0).val; rw [(idx_whole t).2.2.2.2.2.2.1.1]; omega
  | ⟨1, _⟩ => show win3_8.index t (1 : Fin 2) * 64 + 1 * (j 1).val = (j 1).val; rw [(idx_whole t).2.2.2.2.2.2.1.2]; omega

theorem whole_9 (c : Dev nD) (t : Fin cfg3.N) :
    (iblk3 (F := Ideal) V c 9 t : S64x64.Idx → EReal) = V c (Pipeline.arrRef spec3 9) := by
  funext j
  show V c (Pipeline.arrRef spec3 9) (((cfg3.win 9).blk t).view.emb j) = V c (Pipeline.arrRef spec3 9) j
  congr 1
  funext a; apply Fin.ext
  match a with
  | ⟨0, _⟩ => show win3_9.index t (0 : Fin 2) * 64 + 1 * (j 0).val = (j 0).val; rw [(idx_whole t).2.2.2.2.2.2.2.1.1]; omega
  | ⟨1, _⟩ => show win3_9.index t (1 : Fin 2) * 64 + 1 * (j 1).val = (j 1).val; rw [(idx_whole t).2.2.2.2.2.2.2.1.2]; omega

theorem whole_10 (c : Dev nD) (t : Fin cfg3.N) :
    (iblk3 (F := Ideal) V c 10 t : S64x64.Idx → EReal) = V c (Pipeline.arrRef spec3 10) := by
  funext j
  show V c (Pipeline.arrRef spec3 10) (((cfg3.win 10).blk t).view.emb j) = V c (Pipeline.arrRef spec3 10) j
  congr 1
  funext a; apply Fin.ext
  match a with
  | ⟨0, _⟩ => show win3_10.index t (0 : Fin 2) * 64 + 1 * (j 0).val = (j 0).val; rw [(idx_whole t).2.2.2.2.2.2.2.2.1.1]; omega
  | ⟨1, _⟩ => show win3_10.index t (1 : Fin 2) * 64 + 1 * (j 1).val = (j 1).val; rw [(idx_whole t).2.2.2.2.2.2.2.2.1.2]; omega

theorem whole_11 (c : Dev nD) (t : Fin cfg3.N) :
    (iblk3 (F := Ideal) V c 11 t : S1x64.Idx → EReal) = V c (Pipeline.arrRef spec3 11) := by
  funext j
  show V c (Pipeline.arrRef spec3 11) (((cfg3.win 11).blk t).view.emb j) = V c (Pipeline.arrRef spec3 11) j
  congr 1
  funext a; apply Fin.ext
  match a with
  | ⟨0, _⟩ => show win3_11.index t (0 : Fin 2) * 1 + 1 * (j 0).val = (j 0).val; rw [(idx_whole t).2.2.2.2.2.2.2.2.2.1.1]; omega
  | ⟨1, _⟩ => show win3_11.index t (1 : Fin 2) * 64 + 1 * (j 1).val = (j 1).val; rw [(idx_whole t).2.2.2.2.2.2.2.2.2.1.2]; omega

theorem whole_12 (c : Dev nD) (t : Fin cfg3.N) :
    (iblk3 (F := Ideal) V c 12 t : S1x64.Idx → EReal) = V c (Pipeline.arrRef spec3 12) := by
  funext j
  show V c (Pipeline.arrRef spec3 12) (((cfg3.win 12).blk t).view.emb j) = V c (Pipeline.arrRef spec3 12) j
  congr 1
  funext a; apply Fin.ext
  match a with
  | ⟨0, _⟩ => show win3_12.index t (0 : Fin 2) * 1 + 1 * (j 0).val = (j 0).val; rw [(idx_whole t).2.2.2.2.2.2.2.2.2.2.1.1]; omega
  | ⟨1, _⟩ => show win3_12.index t (1 : Fin 2) * 64 + 1 * (j 1).val = (j 1).val; rw [(idx_whole t).2.2.2.2.2.2.2.2.2.2.1.2]; omega

theorem whole_13 (c : Dev nD) (t : Fin cfg3.N) :
    (iblk3 (F := Ideal) V c 13 t : S1x64.Idx → EReal) = V c (Pipeline.arrRef spec3 13) := by
  funext j
  show V c (Pipeline.arrRef spec3 13) (((cfg3.win 13).blk t).view.emb j) = V c (Pipeline.arrRef spec3 13) j
  congr 1
  funext a; apply Fin.ext
  match a with
  | ⟨0, _⟩ => show win3_13.index t (0 : Fin 2) * 1 + 1 * (j 0).val = (j 0).val; rw [(idx_whole t).2.2.2.2.2.2.2.2.2.2.2.1]; omega
  | ⟨1, _⟩ => show win3_13.index t (1 : Fin 2) * 64 + 1 * (j 1).val = (j 1).val; rw [(idx_whole t).2.2.2.2.2.2.2.2.2.2.2.2]; omega

theorem rows_0 (c : Dev nD) (t : Fin cfg3.N) (p : Fin 5000) (n : Fin 50000) (hn : n.val = t.val * 5000 + p.val) (a : Fin 64) :
    (iblk3 (F := Ideal) V c 0 t : S5000x64.Idx → EReal) (ix2 p a)
      = (V c (Pipeline.arrRef spec3 0) : S50000x64.Idx → EReal) (ix2 n a) := by
  show V c (Pipeline.arrRef spec3 0) (((cfg3.win 0).blk t).view.emb (ix2 p a)) = V c (Pipeline.arrRef spec3 0) (ix2 n a)
  congr 1
  funext ax; apply Fin.ext
  match ax with
  | ⟨0, _⟩ => show win3_0.index t (0 : Fin 2) * 5000 + 1 * p.val = n.val; rw [(idx_rows t).1]; omega
  | ⟨1, _⟩ => show win3_0.index t (1 : Fin 2) * 64 + 1 * a.val = a.val; rw [(idx_rows t).2.1]; omega

theorem rows_1 (c : Dev nD) (t : Fin cfg3.N) (p : Fin 5000) (n : Fin 50000) (hn : n.val = t.val * 5000 + p.val) (a : Fin 64) :
    (iblk3 (F := Ideal) V c 1 t : S5000x64.Idx → EReal) (ix2 p a)
      = (V c (Pipeline.arrRef spec3 1) : S50000x64.Idx → EReal) (ix2 n a) := by
  show V c (Pipeline.arrRef spec3 1) (((cfg3.win 1).blk t).view.emb (ix2 p a)) = V c (Pipeline.arrRef spec3 1) (ix2 n a)
  congr 1
  funext ax; apply Fin.ext
  match ax with
  | ⟨0, _⟩ => show win3_1.index t (0 : Fin 2) * 5000 + 1 * p.val = n.val; rw [(idx_rows t).2.2.1]; omega
  | ⟨1, _⟩ => show win3_1.index t (1 : Fin 2) * 64 + 1 * a.val = a.val; rw [(idx_rows t).2.2.2.1]; omega

theorem gru_congr {N B : Nat} (agg h : Cert.MP.Arr N 64) (agg' h' : Cert.MP.Arr B 64)
    (wir wiz win wir' wiz' win' : Cert.MP.Arr 64 64) (bir biz bin bir' biz' bin' : Cert.MP.Arr 1 64)
    (whr whz whn whr' whz' whn' : Cert.MP.Arr 64 64) (bhr bhz bhn bhr' bhz' bhn' : Cert.MP.Arr 1 64)
    (n : Fin N) (p : Fin B) (q q' : Fin 64)
    (h1 : ∀ a, agg' (ix2 p a) = agg (ix2 n a)) (h2 : ∀ a, h' (ix2 p a) = h (ix2 n a))
    (e2 : wir' = wir) (e3 : wiz' = wiz) (e4 : win' = win) (e5 : bir' = bir) (e6 : biz' = biz) (e7 : bin' = bin)
    (e8 : whr' = whr) (e9 : whz' = whz) (e10 : whn' = whn) (e11 : bhr' = bhr) (e12 : bhz' = bhz) (e13 : bhn' = bhn)
    (eq : q' = q) :
    Cert.MP.gruRow agg' h' wir' wiz' win' bir' biz' bin' whr' whz' whn' bhr' bhz' bhn' p q
      = Cert.MP.gruRow agg h wir wiz win bir biz bin whr whz whn bhr bhz bhn n q' := by
  subst e2 e3 e4 e5 e6 e7 e8 e9 e10 e11 e12 e13 eq
  exact Cert.MP.gruRow_rows agg h agg' h' _ _ _ _ _ _ _ _ _ _ _ _ n p _ h1 h2

abbrev G (c : Dev nD) : S50000x64.Idx → EReal :=
  Cert.MP.gruAt (V c (Pipeline.arrRef spec3 0)) (V c (Pipeline.arrRef spec3 1))
    (V c (Pipeline.arrRef spec3 2)) (V c (Pipeline.arrRef spec3 3)) (V c (Pipeline.arrRef spec3 4))
    (V c (Pipeline.arrRef spec3 5)) (V c (Pipeline.arrRef spec3 6)) (V c (Pipeline.arrRef spec3 7))
    (V c (Pipeline.arrRef spec3 8)) (V c (Pipeline.arrRef spec3 9)) (V c (Pipeline.arrRef spec3 10))
    (V c (Pipeline.arrRef spec3 11)) (V c (Pipeline.arrRef spec3 12)) (V c (Pipeline.arrRef spec3 13))

theorem flushed_eq (c : Dev nD) (t : Fin cfg3.N) :
    (dat3 (F := Ideal) V c).flushed 14 t = ((cfg3.win 14).blk t).view.read (Elt Ideal) (G V c) := by
  show (cfg3.win 14).cut (grid3.coords t) ((dat3 (F := Ideal) V c).after 14 t) = _
  rw [after3_14, show @out3_14 = @out1_14 from rfl, RegGru1.out_eq]
  funext j
  show Cert.MP.gruRow (iblk3 (F := Ideal) V c 0 t) (iblk3 (F := Ideal) V c 1 t) (iblk3 (F := Ideal) V c 2 t) (iblk3 (F := Ideal) V c 3 t)
      (iblk3 (F := Ideal) V c 4 t) (iblk3 (F := Ideal) V c 5 t) (iblk3 (F := Ideal) V c 6 t) (iblk3 (F := Ideal) V c 7 t)
      (iblk3 (F := Ideal) V c 8 t) (iblk3 (F := Ideal) V c 9 t) (iblk3 (F := Ideal) V c 10 t) (iblk3 (F := Ideal) V c 11 t)
      (iblk3 (F := Ideal) V c 12 t) (iblk3 (F := Ideal) V c 13 t) (j 0) (j 1)
    = Cert.MP.gruRow (V c (Pipeline.arrRef spec3 0)) (V c (Pipeline.arrRef spec3 1))
      (V c (Pipeline.arrRef spec3 2)) (V c (Pipeline.arrRef spec3 3)) (V c (Pipeline.arrRef spec3 4))
      (V c (Pipeline.arrRef spec3 5)) (V c (Pipeline.arrRef spec3 6)) (V c (Pipeline.arrRef spec3 7))
      (V c (Pipeline.arrRef spec3 8)) (V c (Pipeline.arrRef spec3 9)) (V c (Pipeline.arrRef spec3 10))
      (V c (Pipeline.arrRef spec3 11)) (V c (Pipeline.arrRef spec3 12)) (V c (Pipeline.arrRef spec3 13))
      ((((cfg3.win 14).blk t).view.emb j) 0) ((((cfg3.win 14).blk t).view.emb j) 1)
  have hn : ((((cfg3.win 14).blk t).view.emb j) 0 : Fin 50000).val = t.val * 5000 + (j 0).val := by
    show win3_14.index t (0 : Fin 2) * 5000 + 1 * (j 0).val = t.val * 5000 + (j 0).val
    rw [(idx_rows t).2.2.2.2.1]; omega
  have hq : ((((cfg3.win 14).blk t).view.emb j) 1 : Fin 64) = j 1 := Fin.ext (by
    show win3_14.index t (1 : Fin 2) * 64 + 1 * (j 1).val = (j 1).val
    rw [(idx_rows t).2.2.2.2.2]; omega)
  exact gru_congr _ _ _ _ _ _ _ _ _ _ _ _ _ _ _ _ _ _ _ _ _ _ _ _ _ _ _ _ _ _ _ _
    (fun a => rows_0 V c t (j 0) _ hn a) (fun a => rows_1 V c t (j 0) _ hn a)
    (whole_2 V c t) (whole_3 V c t) (whole_4 V c t) (whole_5 V c t) (whole_6 V c t) (whole_7 V c t)
    (whole_8 V c t) (whole_9 V c t) (whole_10 V c t) (whole_11 V c t) (whole_12 V c t) (whole_13 V c t) hq

theorem mem_blk (t : Fin cfg3.N) (i : S50000x64.Idx) :
    i ∈ ((cfg3.win 14).blk t).view.set ↔ ∀ a : Fin 2, win3_14.index t a * S5000x64.size a ≤ (i a).val ∧ (i a).val < win3_14.index t a * S5000x64.size a + S5000x64.size a := by
  show i ∈ ((View.whole main_v50).slice (win3_14.rect t)).set ↔ _
  rw [View.set_slice_whole, Rect.mem_set_unit]
  exact Iff.rfl

theorem cover (i : S50000x64.Idx) :
    ∃ t : Fin cfg3.N, (cfg3.win 14).flush t = true ∧ i ∈ ((cfg3.win 14).blk t).view.set := by
  have hi0 : (i 0).val < 50000 := (i 0).isLt
  have hi1 : (i 1).val < 64 := (i 1).isLt
  have ht : (i 0).val / 5000 < cfg3.N := by show (i 0).val / 5000 < 10; omega
  refine ⟨⟨(i 0).val / 5000, ht⟩, flush3_14 _, ?_⟩
  rw [mem_blk]
  obtain ⟨-, -, -, -, e0, e1⟩ := idx_rows ⟨(i 0).val / 5000, ht⟩
  intro a
  match a with
  | ⟨0, _⟩ =>
    show win3_14.index ⟨(i 0).val / 5000, ht⟩ (0 : Fin 2) * 5000 ≤ (i 0).val ∧ (i 0).val < win3_14.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_14.index ⟨(i 0).val / 5000, ht⟩ (1 : Fin 2) * 64 ≤ (i 1).val ∧ (i 1).val < win3_14.index ⟨(i 0).val / 5000, ht⟩ (1 : Fin 2) * 64 + 64
    rw [e1]; omega

theorem final (V : (c : Dev nD) → (b : Ref sig .tc) → Buf (Elt Ideal) ((c : Thread nD τ).loc b)) (c : Dev nD) :
    (dat3 (F := Ideal) V c).arrAt 14 cfg3.N
      = Cert.MP.gruAt (V c (Pipeline.arrRef spec3 0)) (V c (Pipeline.arrRef spec3 1))
          (V c (Pipeline.arrRef spec3 2)) (V c (Pipeline.arrRef spec3 3)) (V c (Pipeline.arrRef spec3 4))
          (V c (Pipeline.arrRef spec3 5)) (V c (Pipeline.arrRef spec3 6)) (V c (Pipeline.arrRef spec3 7))
          (V c (Pipeline.arrRef spec3 8)) (V c (Pipeline.arrRef spec3 9)) (V c (Pipeline.arrRef spec3 10))
          (V c (Pipeline.arrRef spec3 11)) (V c (Pipeline.arrRef spec3 12)) (V c (Pipeline.arrRef spec3 13)) :=
  (dat3 (F := Ideal) V c).arrAt_eq_of_cover 14 (G V c) (fun t _ => flushed_eq V c t) cover

end Cert.KernelIdeal.RegGru3

end
-- ==== Proof.RegMsg4.lean ====
import proofs.«423451_j81475529605767_1_alg».proof.Proof.Gen.KernelIdeal.Frame
import proofs.«423451_j81475529605767_1_alg».proof.Proof.Spec
import proofs.«423451_j81475529605767_1_alg».proof.Proof.RegMsg0
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.RegMsg4

open Cert.KernelIdeal Cert.KernelIdeal.Gen Idealize.ShloMosaic Idealize.ShloMosaic.TcCoe Idealize.SL.Sem
open Idealize.ShloMosaic.Pipeline (Dat)
open Idealize.ShloMosaic.ValueIdx

theorem idx_facts : ∀ t : Fin cfg4.N,
    win4_0.index t = ![t.val, 0] ∧ win4_1.index t = ![t.val, 0] ∧ win4_2.index t = ![t.val, 0] ∧ win4_9.index t = ![t.val, 0]
    ∧ win4_3.index t = ![0, 0] ∧ win4_4.index t = ![0, 0] ∧ win4_5.index t = ![0, 0] ∧ win4_6.index t = ![0, 0]
    ∧ win4_7.index t = ![0, 0] ∧ win4_8.index t = ![0, 0] :=
  (by decide +kernel : ∀ t : Fin grid4.N, _)

theorem lt_100 (t : Fin cfg4.N) : t.val < 100 := lt_of_lt_of_eq t.isLt N_4

theorem rd0 (G : S800000x64.Idx → EReal) (t : Fin cfg4.N) (p : Fin 8000) (a : Fin 64) (hb : t.val * 8000 + p.val < 800000) :
    ((cfg4.win 0).blk t).view.read (Elt Ideal) G (ix2 p a) = G (ix2 ⟨t.val * 8000 + p.val, hb⟩ a) := by
  show G (((cfg4.win 0).blk t).view.emb (ix2 p a)) = _
  refine congrArg G (funext fun b => Fin.ext ?_)
  have e := (idx_facts t).1
  match b with
  | ⟨0, _⟩ => show win4_0.index t (0 : Fin 2) * 8000 + 1 * p.val = t.val * 8000 + p.val; rw [show win4_0.index t (0 : Fin 2) = t.val from congrFun e 0]; omega
  | ⟨1, _⟩ => show win4_0.index t (1 : Fin 2) * 64 + 1 * a.val = a.val; rw [show win4_0.index t (1 : Fin 2) = 0 from congrFun e 1]; omega

theorem rd1 (G : S800000x64.Idx → EReal) (t : Fin cfg4.N) (p : Fin 8000) (a : Fin 64) (hb : t.val * 8000 + p.val < 800000) :
    ((cfg4.win 1).blk t).view.read (Elt Ideal) G (ix2 p a) = G (ix2 ⟨t.val * 8000 + p.val, hb⟩ a) := by
  show G (((cfg4.win 1).blk t).view.emb (ix2 p a)) = _
  refine congrArg G (funext fun b => Fin.ext ?_)
  have e := (idx_facts t).2.1
  match b with
  | ⟨0, _⟩ => show win4_1.index t (0 : Fin 2) * 8000 + 1 * p.val = t.val * 8000 + p.val; rw [show win4_1.index t (0 : Fin 2) = t.val from congrFun e 0]; omega
  | ⟨1, _⟩ => show win4_1.index t (1 : Fin 2) * 64 + 1 * a.val = a.val; rw [show win4_1.index t (1 : Fin 2) = 0 from congrFun e 1]; omega

theorem rd2 (G : S800000x16.Idx → EReal) (t : Fin cfg4.N) (p : Fin 8000) (a : Fin 16) (hb : t.val * 8000 + p.val < 800000) :
    ((cfg4.win 2).blk t).view.read (Elt Ideal) G (ix2 p a) = G (ix2 ⟨t.val * 8000 + p.val, hb⟩ a) := by
  show G (((cfg4.win 2).blk t).view.emb (ix2 p a)) = _
  refine congrArg G (funext fun b => Fin.ext ?_)
  have e := (idx_facts t).2.2.1
  match b with
  | ⟨0, _⟩ => show win4_2.index t (0 : Fin 2) * 8000 + 1 * p.val = t.val * 8000 + p.val; rw [show win4_2.index t (0 : Fin 2) = t.val from congrFun e 0]; omega
  | ⟨1, _⟩ => show win4_2.index t (1 : Fin 2) * 16 + 1 * a.val = a.val; rw [show win4_2.index t (1 : Fin 2) = 0 from congrFun e 1]; omega

theorem rd3 (G : S64x64.Idx → EReal) (t : Fin cfg4.N) : ((cfg4.win 3).blk t).view.read (Elt Ideal) G = G := by
  funext i
  show G (((cfg4.win 3).blk t).view.emb i) = G i
  refine congrArg G (funext fun b => Fin.ext ?_)
  have e := (idx_facts t).2.2.2.2.1
  match b with
  | ⟨0, _⟩ => show win4_3.index t (0 : Fin 2) * 64 + 1 * (i 0).val = (i 0).val; rw [show win4_3.index t (0 : Fin 2) = 0 from congrFun e 0]; omega
  | ⟨1, _⟩ => show win4_3.index t (1 : Fin 2) * 64 + 1 * (i 1).val = (i 1).val; rw [show win4_3.index t (1 : Fin 2) = 0 from congrFun e 1]; omega

theorem rd4 (G : S64x64.Idx → EReal) (t : Fin cfg4.N) : ((cfg4.win 4).blk t).view.read (Elt Ideal) G = G := by
  funext i
  show G (((cfg4.win 4).blk t).view.emb i) = G i
  refine congrArg G (funext fun b => Fin.ext ?_)
  have e := (idx_facts t).2.2.2.2.2.1
  match b with
  | ⟨0, _⟩ => show win4_4.index t (0 : Fin 2) * 64 + 1 * (i 0).val = (i 0).val; rw [show win4_4.index t (0 : Fin 2) = 0 from congrFun e 0]; omega
  | ⟨1, _⟩ => show win4_4.index t (1 : Fin 2) * 64 + 1 * (i 1).val = (i 1).val; rw [show win4_4.index t (1 : Fin 2) = 0 from congrFun e 1]; omega

theorem rd5 (G : S16x64.Idx → EReal) (t : Fin cfg4.N) : ((cfg4.win 5).blk t).view.read (Elt Ideal) G = G := by
  funext i
  show G (((cfg4.win 5).blk t).view.emb i) = G i
  refine congrArg G (funext fun b => Fin.ext ?_)
  have e := (idx_facts t).2.2.2.2.2.2.1
  match b with
  | ⟨0, _⟩ => show win4_5.index t (0 : Fin 2) * 16 + 1 * (i 0).val = (i 0).val; rw [show win4_5.index t (0 : Fin 2) = 0 from congrFun e 0]; omega
  | ⟨1, _⟩ => show win4_5.index t (1 : Fin 2) * 64 + 1 * (i 1).val = (i 1).val; rw [show win4_5.index t (1 : Fin 2) = 0 from congrFun e 1]; omega

theorem rd6 (G : S1x64.Idx → EReal) (t : Fin cfg4.N) : ((cfg4.win 6).blk t).view.read (Elt Ideal) G = G := by
  funext i
  show G (((cfg4.win 6).blk t).view.emb i) = G i
  refine congrArg G (funext fun b => Fin.ext ?_)
  have e := (idx_facts t).2.2.2.2.2.2.2.1
  match b with
  | ⟨0, _⟩ => show win4_6.index t (0 : Fin 2) * 1 + 1 * (i 0).val = (i 0).val; rw [show win4_6.index t (0 : Fin 2) = 0 from congrFun e 0]; omega
  | ⟨1, _⟩ => show win4_6.index t (1 : Fin 2) * 64 + 1 * (i 1).val = (i 1).val; rw [show win4_6.index t (1 : Fin 2) = 0 from congrFun e 1]; omega

theorem rd7 (G : S64x64.Idx → EReal) (t : Fin cfg4.N) : ((cfg4.win 7).blk t).view.read (Elt Ideal) G = G := by
  funext i
  show G (((cfg4.win 7).blk t).view.emb i) = G i
  refine congrArg G (funext fun b => Fin.ext ?_)
  have e := (idx_facts t).2.2.2.2.2.2.2.2.1
  match b with
  | ⟨0, _⟩ => show win4_7.index t (0 : Fin 2) * 64 + 1 * (i 0).val = (i 0).val; rw [show win4_7.index t (0 : Fin 2) = 0 from congrFun e 0]; omega
  | ⟨1, _⟩ => show win4_7.index t (1 : Fin 2) * 64 + 1 * (i 1).val = (i 1).val; rw [show win4_7.index t (1 : Fin 2) = 0 from congrFun e 1]; omega

theorem rd8 (G : S1x64.Idx → EReal) (t : Fin cfg4.N) : ((cfg4.win 8).blk t).view.read (Elt Ideal) G = G := by
  funext i
  show G (((cfg4.win 8).blk t).view.emb i) = G i
  refine congrArg G (funext fun b => Fin.ext ?_)
  have e := (idx_facts t).2.2.2.2.2.2.2.2.2
  match b with
  | ⟨0, _⟩ => show win4_8.index t (0 : Fin 2) * 1 + 1 * (i 0).val = (i 0).val; rw [show win4_8.index t (0 : Fin 2) = 0 from congrFun e 0]; omega
  | ⟨1, _⟩ => show win4_8.index t (1 : Fin 2) * 64 + 1 * (i 1).val = (i 1).val; rw [show win4_8.index t (1 : Fin 2) = 0 from congrFun e 1]; omega

theorem emb9 (t : Fin cfg4.N) (p : Fin 8000) (q : Fin 64) (hb : t.val * 8000 + p.val < 800000) :
    ((cfg4.win 9).blk t).view.emb (ix2 p q) = (ix2 ⟨t.val * 8000 + p.val, hb⟩ q : S800000x64.Idx) := by
  refine funext fun b => Fin.ext ?_
  have e := (idx_facts t).2.2.2.1
  match b with
  | ⟨0, _⟩ => show win4_9.index t (0 : Fin 2) * 8000 + 1 * p.val = t.val * 8000 + p.val; rw [show win4_9.index t (0 : Fin 2) = t.val from congrFun e 0]; omega
  | ⟨1, _⟩ => show win4_9.index t (1 : Fin 2) * 64 + 1 * q.val = q.val; rw [show win4_9.index t (1 : Fin 2) = 0 from congrFun e 1]; omega

theorem block_eq (G0 G1 : S800000x64.Idx → EReal) (G2 : S800000x16.Idx → EReal) (G3 G4 : S64x64.Idx → EReal)
    (G5 : S16x64.Idx → EReal) (G6 : S1x64.Idx → EReal) (G7 : S64x64.Idx → EReal) (G8 : S1x64.Idx → EReal) (t : Fin cfg4.N) :
    (cfg4.win 9).cut (grid4.coords t) (out4_9 (F := Ideal) (((cfg4.win 0).blk t).view.read (Elt Ideal) G0) (((cfg4.win 1).blk t).view.read (Elt Ideal) G1) (((cfg4.win 2).blk t).view.read (Elt Ideal) G2) (((cfg4.win 3).blk t).view.read (Elt Ideal) G3) (((cfg4.win 4).blk t).view.read (Elt Ideal) G4) (((cfg4.win 5).blk t).view.read (Elt Ideal) G5) (((cfg4.win 6).blk t).view.read (Elt Ideal) G6) (((cfg4.win 7).blk t).view.read (Elt Ideal) G7) (((cfg4.win 8).blk t).view.read (Elt Ideal) G8))
      = ((cfg4.win 9).blk t).view.read (Elt Ideal) (Cert.MP.msgAt G0 G1 G2 G3 G4 G5 G6 G7 G8) := by
  funext j
  obtain ⟨p, q, rfl⟩ : ∃ (p : Fin 8000) (q : Fin 64), j = ix2 p q := ⟨j 0, j 1, eq_ix2 j⟩
  have hb : t.val * 8000 + p.val < 800000 := by have := lt_100 t; have := p.isLt; omega
  show out0_9 (((cfg4.win 0).blk t).view.read (Elt Ideal) G0) (((cfg4.win 1).blk t).view.read (Elt Ideal) G1) (((cfg4.win 2).blk t).view.read (Elt Ideal) G2) (((cfg4.win 3).blk t).view.read (Elt Ideal) G3) (((cfg4.win 4).blk t).view.read (Elt Ideal) G4) (((cfg4.win 5).blk t).view.read (Elt Ideal) G5) (((cfg4.win 6).blk t).view.read (Elt Ideal) G6) (((cfg4.win 7).blk t).view.read (Elt Ideal) G7) (((cfg4.win 8).blk t).view.read (Elt Ideal) G8) (ix2 p q) = Cert.MP.msgAt G0 G1 G2 G3 G4 G5 G6 G7 G8 (((cfg4.win 9).blk t).view.emb (ix2 p q))
  rw [RegMsg0.out_apply, emb9 t p q hb, rd3 G3 t, rd4 G4 t, rd5 G5 t, rd6 G6 t, rd7 G7 t, rd8 G8 t]
  show _ = Cert.MP.msgRow G0 G1 G2 G3 G4 G5 G6 G7 G8 ⟨t.val * 8000 + p.val, hb⟩ q
  exact Cert.MP.msgRow_rows (E := 800000) (B := 8000) G0 G1 G2 _ _ _ G3 G4 G5 G6 G7 G8 ⟨t.val * 8000 + p.val, hb⟩ p q
    (fun a => rd0 G0 t p a hb) (fun a => rd1 G1 t p a hb) (fun b => rd2 G2 t p b hb)

theorem flushed_eq (V : (c : Dev nD) → (b : Ref sig .tc) → Buf (Elt Ideal) ((c : Thread nD τ).loc b)) (c : Dev nD) (t : Fin cfg4.N) :
    (dat4 (F := Ideal) V c).flushed 9 t = ((cfg4.win 9).blk t).view.read (Elt Ideal) (Cert.MP.msgAt (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8))) := by
  show (cfg4.win 9).cut (grid4.coords t) ((dat4 V c).after 9 t) = _
  rw [after4_9]
  exact block_eq _ _ _ _ _ _ _ _ _ t

theorem mem_blk (t : Fin cfg4.N) (i : S800000x64.Idx) :
    i ∈ ((cfg4.win 9).blk t).view.set ↔ ∀ a : Fin 2, win4_9.index t a * S8000x64.size a ≤ (i a).val ∧ (i a).val < win4_9.index t a * S8000x64.size a + S8000x64.size a := by
  show i ∈ ((View.whole main_v53).slice (win4_9.rect t)).set ↔ _
  rw [View.set_slice_whole, Rect.mem_set_unit]
  exact Iff.rfl

theorem covered (i : S800000x64.Idx) :
    ∃ t : Fin cfg4.N, (cfg4.win 9).flush t = true ∧ i ∈ ((cfg4.win 9).blk t).view.set := by
  have hi0 : (i 0).val < 800000 := (i 0).isLt
  have hi1 : (i 1).val < 64 := (i 1).isLt
  let t : Fin cfg4.N := ⟨(i 0).val / 8000, lt_of_lt_of_eq (show (i 0).val / 8000 < 100 by omega) N_4.symm⟩
  obtain ⟨-, -, -, e9, -⟩ := idx_facts t
  refine ⟨t, flush4_9 t, ?_⟩
  rw [mem_blk]
  intro a
  match a with
  | ⟨0, _⟩ =>
    show win4_9.index t (0 : Fin 2) * 8000 ≤ (i 0).val ∧ (i 0).val < win4_9.index t (0 : Fin 2) * 8000 + 8000
    rw [show win4_9.index t (0 : Fin 2) = (i 0).val / 8000 from congrFun e9 0]; omega
  | ⟨1, _⟩ =>
    show win4_9.index t (1 : Fin 2) * 64 ≤ (i 1).val ∧ (i 1).val < win4_9.index t (1 : Fin 2) * 64 + 64
    rw [show win4_9.index t (1 : Fin 2) = 0 from congrFun e9 1]; omega

theorem final (V : (c : Dev nD) → (b : Ref sig .tc) → Buf (Elt Ideal) ((c : Thread nD τ).loc b)) (c : Dev nD) :
    (dat4 (F := Ideal) V c).arrAt 9 cfg4.N
      = Cert.MP.msgAt (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5))
          (V c (Pipeline.arrRef spec4 6)) (V c (Pipeline.arrRef spec4 7)) (V c (Pipeline.arrRef spec4 8)) :=
  (dat4 (F := Ideal) V c).arrAt_eq_of_cover 9 _ (fun t _ => flushed_eq V c t) covered

end Cert.KernelIdeal.RegMsg4

end
-- ==== Proof.RegGru5.lean ====
import proofs.«423451_j81475529605767_1_alg».proof.Proof.Gen.KernelIdeal.Frame
import proofs.«423451_j81475529605767_1_alg».proof.Proof.Spec
import proofs.«423451_j81475529605767_1_alg».proof.Proof.RegGru1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegGru5

open Cert.KernelIdeal Cert.KernelIdeal.Gen Idealize.ShloMosaic Idealize.ShloMosaic.TcCoe Idealize.SL.Sem
open Idealize.ShloMosaic.ValueIdx
open Idealize.ShloMosaic.Pipeline (Dat)

theorem idx_rows : ∀ t : Fin cfg5.N, win5_0.index t (0 : Fin 2) = t.val ∧ win5_0.index t (1 : Fin 2) = 0
    ∧ win5_1.index t (0 : Fin 2) = t.val ∧ win5_1.index t (1 : Fin 2) = 0
    ∧ win5_14.index t (0 : Fin 2) = t.val ∧ win5_14.index t (1 : Fin 2) = 0 :=
  (by decide +kernel : ∀ t : Fin grid5.N, _)

theorem idx_whole : ∀ t : Fin cfg5.N, (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = 0 ∧ win5_6.index t (1 : Fin 2) = 0)
    ∧ (win5_7.index t (0 : Fin 2) = 0 ∧ win5_7.index t (1 : Fin 2) = 0)
    ∧ (win5_8.index t (0 : Fin 2) = 0 ∧ win5_8.index t (1 : Fin 2) = 0)
    ∧ (win5_9.index t (0 : Fin 2) = 0 ∧ win5_9.index t (1 : Fin 2) = 0)
    ∧ (win5_10.index t (0 : Fin 2) = 0 ∧ win5_10.index t (1 : Fin 2) = 0)
    ∧ (win5_11.index t (0 : Fin 2) = 0 ∧ win5_11.index t (1 : Fin 2) = 0)
    ∧ (win5_12.index t (0 : Fin 2) = 0 ∧ win5_12.index t (1 : Fin 2) = 0)
    ∧ (win5_13.index t (0 : Fin 2) = 0 ∧ win5_13.index t (1 : Fin 2) = 0) :=
  (by decide +kernel : ∀ t : Fin grid5.N, _)

variable (V : (c : Dev nD) → (b : Ref sig .tc) → Buf (Elt Ideal) ((c : Thread nD τ).loc b))

theorem whole_2 (c : Dev nD) (t : Fin cfg5.N) :
    (iblk5 (F := Ideal) V c 2 t : S64x64.Idx → EReal) = V c (Pipeline.arrRef spec5 2) := by
  funext j
  show V c (Pipeline.arrRef spec5 2) (((cfg5.win 2).blk t).view.emb j) = V c (Pipeline.arrRef spec5 2) j
  congr 1
  funext a; apply Fin.ext
  match a with
  | ⟨0, _⟩ => show win5_2.index t (0 : Fin 2) * 64 + 1 * (j 0).val = (j 0).val; rw [(idx_whole t).1.1]; omega
  | ⟨1, _⟩ => show win5_2.index t (1 : Fin 2) * 64 + 1 * (j 1).val = (j 1).val; rw [(idx_whole t).1.2]; omega

theorem whole_3 (c : Dev nD) (t : Fin cfg5.N) :
    (iblk5 (F := Ideal) V c 3 t : S64x64.Idx → EReal) = V c (Pipeline.arrRef spec5 3) := by
  funext j
  show V c (Pipeline.arrRef spec5 3) (((cfg5.win 3).blk t).view.emb j) = V c (Pipeline.arrRef spec5 3) j
  congr 1
  funext a; apply Fin.ext
  match a with
  | ⟨0, _⟩ => show win5_3.index t (0 : Fin 2) * 64 + 1 * (j 0).val = (j 0).val; rw [(idx_whole t).2.1.1]; omega
  | ⟨1, _⟩ => show win5_3.index t (1 : Fin 2) * 64 + 1 * (j 1).val = (j 1).val; rw [(idx_whole t).2.1.2]; omega

theorem whole_4 (c : Dev nD) (t : Fin cfg5.N) :
    (iblk5 (F := Ideal) V c 4 t : S64x64.Idx → EReal) = V c (Pipeline.arrRef spec5 4) := by
  funext j
  show V c (Pipeline.arrRef spec5 4) (((cfg5.win 4).blk t).view.emb j) = V c (Pipeline.arrRef spec5 4) j
  congr 1
  funext a; apply Fin.ext
  match a with
  | ⟨0, _⟩ => show win5_4.index t (0 : Fin 2) * 64 + 1 * (j 0).val = (j 0).val; rw [(idx_whole t).2.2.1.1]; omega
  | ⟨1, _⟩ => show win5_4.index t (1 : Fin 2) * 64 + 1 * (j 1).val = (j 1).val; rw [(idx_whole t).2.2.1.2]; omega

theorem whole_5 (c : Dev nD) (t : Fin cfg5.N) :
    (iblk5 (F := Ideal) V c 5 t : S1x64.Idx → EReal) = V c (Pipeline.arrRef spec5 5) := by
  funext j
  show V c (Pipeline.arrRef spec5 5) (((cfg5.win 5).blk t).view.emb j) = V c (Pipeline.arrRef spec5 5) j
  congr 1
  funext a; apply Fin.ext
  match a with
  | ⟨0, _⟩ => show win5_5.index t (0 : Fin 2) * 1 + 1 * (j 0).val = (j 0).val; rw [(idx_whole t).2.2.2.1.1]; omega
  | ⟨1, _⟩ => show win5_5.index t (1 : Fin 2) * 64 + 1 * (j 1).val = (j 1).val; rw [(idx_whole t).2.2.2.1.2]; omega

theorem whole_6 (c : Dev nD) (t : Fin cfg5.N) :
    (iblk5 (F := Ideal) V c 6 t : S1x64.Idx → EReal) = V c (Pipeline.arrRef spec5 6) := by
  funext j
  show V c (Pipeline.arrRef spec5 6) (((cfg5.win 6).blk t).view.emb j) = V c (Pipeline.arrRef spec5 6) j
  congr 1
  funext a; apply Fin.ext
  match a with
  | ⟨0, _⟩ => show win5_6.index t (0 : Fin 2) * 1 + 1 * (j 0).val = (j 0).val; rw [(idx_whole t).2.2.2.2.1.1]; omega
  | ⟨1, _⟩ => show win5_6.index t (1 : Fin 2) * 64 + 1 * (j 1).val = (j 1).val; rw [(idx_whole t).2.2.2.2.1.2]; omega

theorem whole_7 (c : Dev nD) (t : Fin cfg5.N) :
    (iblk5 (F := Ideal) V c 7 t : S1x64.Idx → EReal) = V c (Pipeline.arrRef spec5 7) := by
  funext j
  show V c (Pipeline.arrRef spec5 7) (((cfg5.win 7).blk t).view.emb j) = V c (Pipeline.arrRef spec5 7) j
  congr 1
  funext a; apply Fin.ext
  match a with
  | ⟨0, _⟩ => show win5_7.index t (0 : Fin 2) * 1 + 1 * (j 0).val = (j 0).val; rw [(idx_whole t).2.2.2.2.2.1.1]; omega
  | ⟨1, _⟩ => show win5_7.index t (1 : Fin 2) * 64 + 1 * (j 1).val = (j 1).val; rw [(idx_whole t).2.2.2.2.2.1.2]; omega

theorem whole_8 (c : Dev nD) (t : Fin cfg5.N) :
    (iblk5 (F := Ideal) V c 8 t : S64x64.Idx → EReal) = V c (Pipeline.arrRef spec5 8) := by
  funext j
  show V c (Pipeline.arrRef spec5 8) (((cfg5.win 8).blk t).view.emb j) = V c (Pipeline.arrRef spec5 8) j
  congr 1
  funext a; apply Fin.ext
  match a with
  | ⟨0, _⟩ => show win5_8.index t (0 : Fin 2) * 64 + 1 * (j 0).val = (j 0).val; rw [(idx_whole t).2.2.2.2.2.2.1.1]; omega
  | ⟨1, _⟩ => show win5_8.index t (1 : Fin 2) * 64 + 1 * (j 1).val = (j 1).val; rw [(idx_whole t).2.2.2.2.2.2.1.2]; omega

theorem whole_9 (c : Dev nD) (t : Fin cfg5.N) :
    (iblk5 (F := Ideal) V c 9 t : S64x64.Idx → EReal) = V c (Pipeline.arrRef spec5 9) := by
  funext j
  show V c (Pipeline.arrRef spec5 9) (((cfg5.win 9).blk t).view.emb j) = V c (Pipeline.arrRef spec5 9) j
  congr 1
  funext a; apply Fin.ext
  match a with
  | ⟨0, _⟩ => show win5_9.index t (0 : Fin 2) * 64 + 1 * (j 0).val = (j 0).val; rw [(idx_whole t).2.2.2.2.2.2.2.1.1]; omega
  | ⟨1, _⟩ => show win5_9.index t (1 : Fin 2) * 64 + 1 * (j 1).val = (j 1).val; rw [(idx_whole t).2.2.2.2.2.2.2.1.2]; omega

theorem whole_10 (c : Dev nD) (t : Fin cfg5.N) :
    (iblk5 (F := Ideal) V c 10 t : S64x64.Idx → EReal) = V c (Pipeline.arrRef spec5 10) := by
  funext j
  show V c (Pipeline.arrRef spec5 10) (((cfg5.win 10).blk t).view.emb j) = V c (Pipeline.arrRef spec5 10) j
  congr 1
  funext a; apply Fin.ext
  match a with
  | ⟨0, _⟩ => show win5_10.index t (0 : Fin 2) * 64 + 1 * (j 0).val = (j 0).val; rw [(idx_whole t).2.2.2.2.2.2.2.2.1.1]; omega
  | ⟨1, _⟩ => show win5_10.index t (1 : Fin 2) * 64 + 1 * (j 1).val = (j 1).val; rw [(idx_whole t).2.2.2.2.2.2.2.2.1.2]; omega

theorem whole_11 (c : Dev nD) (t : Fin cfg5.N) :
    (iblk5 (F := Ideal) V c 11 t : S1x64.Idx → EReal) = V c (Pipeline.arrRef spec5 11) := by
  funext j
  show V c (Pipeline.arrRef spec5 11) (((cfg5.win 11).blk t).view.emb j) = V c (Pipeline.arrRef spec5 11) j
  congr 1
  funext a; apply Fin.ext
  match a with
  | ⟨0, _⟩ => show win5_11.index t (0 : Fin 2) * 1 + 1 * (j 0).val = (j 0).val; rw [(idx_whole t).2.2.2.2.2.2.2.2.2.1.1]; omega
  | ⟨1, _⟩ => show win5_11.index t (1 : Fin 2) * 64 + 1 * (j 1).val = (j 1).val; rw [(idx_whole t).2.2.2.2.2.2.2.2.2.1.2]; omega

theorem whole_12 (c : Dev nD) (t : Fin cfg5.N) :
    (iblk5 (F := Ideal) V c 12 t : S1x64.Idx → EReal) = V c (Pipeline.arrRef spec5 12) := by
  funext j
  show V c (Pipeline.arrRef spec5 12) (((cfg5.win 12).blk t).view.emb j) = V c (Pipeline.arrRef spec5 12) j
  congr 1
  funext a; apply Fin.ext
  match a with
  | ⟨0, _⟩ => show win5_12.index t (0 : Fin 2) * 1 + 1 * (j 0).val = (j 0).val; rw [(idx_whole t).2.2.2.2.2.2.2.2.2.2.1.1]; omega
  | ⟨1, _⟩ => show win5_12.index t (1 : Fin 2) * 64 + 1 * (j 1).val = (j 1).val; rw [(idx_whole t).2.2.2.2.2.2.2.2.2.2.1.2]; omega

theorem whole_13 (c : Dev nD) (t : Fin cfg5.N) :
    (iblk5 (F := Ideal) V c 13 t : S1x64.Idx → EReal) = V c (Pipeline.arrRef spec5 13) := by
  funext j
  show V c (Pipeline.arrRef spec5 13) (((cfg5.win 13).blk t).view.emb j) = V c (Pipeline.arrRef spec5 13) j
  congr 1
  funext a; apply Fin.ext
  match a with
  | ⟨0, _⟩ => show win5_13.index t (0 : Fin 2) * 1 + 1 * (j 0).val = (j 0).val; rw [(idx_whole t).2.2.2.2.2.2.2.2.2.2.2.1]; omega
  | ⟨1, _⟩ => show win5_13.index t (1 : Fin 2) * 64 + 1 * (j 1).val = (j 1).val; rw [(idx_whole t).2.2.2.2.2.2.2.2.2.2.2.2]; omega

theorem rows_0 (c : Dev nD) (t : Fin cfg5.N) (p : Fin 5000) (n : Fin 50000) (hn : n.val = t.val * 5000 + p.val) (a : Fin 64) :
    (iblk5 (F := Ideal) V c 0 t : S5000x64.Idx → EReal) (ix2 p a)
      = (V c (Pipeline.arrRef spec5 0) : S50000x64.Idx → EReal) (ix2 n a) := by
  show V c (Pipeline.arrRef spec5 0) (((cfg5.win 0).blk t).view.emb (ix2 p a)) = V c (Pipeline.arrRef spec5 0) (ix2 n a)
  congr 1
  funext ax; apply Fin.ext
  match ax with
  | ⟨0, _⟩ => show win5_0.index t (0 : Fin 2) * 5000 + 1 * p.val = n.val; rw [(idx_rows t).1]; omega
  | ⟨1, _⟩ => show win5_0.index t (1 : Fin 2) * 64 + 1 * a.val = a.val; rw [(idx_rows t).2.1]; omega

theorem rows_1 (c : Dev nD) (t : Fin cfg5.N) (p : Fin 5000) (n : Fin 50000) (hn : n.val = t.val * 5000 + p.val) (a : Fin 64) :
    (iblk5 (F := Ideal) V c 1 t : S5000x64.Idx → EReal) (ix2 p a)
      = (V c (Pipeline.arrRef spec5 1) : S50000x64.Idx → EReal) (ix2 n a) := by
  show V c (Pipeline.arrRef spec5 1) (((cfg5.win 1).blk t).view.emb (ix2 p a)) = V c (Pipeline.arrRef spec5 1) (ix2 n a)
  congr 1
  funext ax; apply Fin.ext
  match ax with
  | ⟨0, _⟩ => show win5_1.index t (0 : Fin 2) * 5000 + 1 * p.val = n.val; rw [(idx_rows t).2.2.1]; omega
  | ⟨1, _⟩ => show win5_1.index t (1 : Fin 2) * 64 + 1 * a.val = a.val; rw [(idx_rows t).2.2.2.1]; omega

theorem gru_congr {N B : Nat} (agg h : Cert.MP.Arr N 64) (agg' h' : Cert.MP.Arr B 64)
    (wir wiz win wir' wiz' win' : Cert.MP.Arr 64 64) (bir biz bin bir' biz' bin' : Cert.MP.Arr 1 64)
    (whr whz whn whr' whz' whn' : Cert.MP.Arr 64 64) (bhr bhz bhn bhr' bhz' bhn' : Cert.MP.Arr 1 64)
    (n : Fin N) (p : Fin B) (q q' : Fin 64)
    (h1 : ∀ a, agg' (ix2 p a) = agg (ix2 n a)) (h2 : ∀ a, h' (ix2 p a) = h (ix2 n a))
    (e2 : wir' = wir) (e3 : wiz' = wiz) (e4 : win' = win) (e5 : bir' = bir) (e6 : biz' = biz) (e7 : bin' = bin)
    (e8 : whr' = whr) (e9 : whz' = whz) (e10 : whn' = whn) (e11 : bhr' = bhr) (e12 : bhz' = bhz) (e13 : bhn' = bhn)
    (eq : q' = q) :
    Cert.MP.gruRow agg' h' wir' wiz' win' bir' biz' bin' whr' whz' whn' bhr' bhz' bhn' p q
      = Cert.MP.gruRow agg h wir wiz win bir biz bin whr whz whn bhr bhz bhn n q' := by
  subst e2 e3 e4 e5 e6 e7 e8 e9 e10 e11 e12 e13 eq
  exact Cert.MP.gruRow_rows agg h agg' h' _ _ _ _ _ _ _ _ _ _ _ _ n p _ h1 h2

abbrev G (c : Dev nD) : S50000x64.Idx → EReal :=
  Cert.MP.gruAt (V c (Pipeline.arrRef spec5 0)) (V c (Pipeline.arrRef spec5 1))
    (V c (Pipeline.arrRef spec5 2)) (V c (Pipeline.arrRef spec5 3)) (V c (Pipeline.arrRef spec5 4))
    (V c (Pipeline.arrRef spec5 5)) (V c (Pipeline.arrRef spec5 6)) (V c (Pipeline.arrRef spec5 7))
    (V c (Pipeline.arrRef spec5 8)) (V c (Pipeline.arrRef spec5 9)) (V c (Pipeline.arrRef spec5 10))
    (V c (Pipeline.arrRef spec5 11)) (V c (Pipeline.arrRef spec5 12)) (V c (Pipeline.arrRef spec5 13))

theorem flushed_eq (c : Dev nD) (t : Fin cfg5.N) :
    (dat5 (F := Ideal) V c).flushed 14 t = ((cfg5.win 14).blk t).view.read (Elt Ideal) (G V c) := by
  show (cfg5.win 14).cut (grid5.coords t) ((dat5 (F := Ideal) V c).after 14 t) = _
  rw [after5_14, show @out5_14 = @out1_14 from rfl, RegGru1.out_eq]
  funext j
  show Cert.MP.gruRow (iblk5 (F := Ideal) V c 0 t) (iblk5 (F := Ideal) V c 1 t) (iblk5 (F := Ideal) V c 2 t) (iblk5 (F := Ideal) V c 3 t)
      (iblk5 (F := Ideal) V c 4 t) (iblk5 (F := Ideal) V c 5 t) (iblk5 (F := Ideal) V c 6 t) (iblk5 (F := Ideal) V c 7 t)
      (iblk5 (F := Ideal) V c 8 t) (iblk5 (F := Ideal) V c 9 t) (iblk5 (F := Ideal) V c 10 t) (iblk5 (F := Ideal) V c 11 t)
      (iblk5 (F := Ideal) V c 12 t) (iblk5 (F := Ideal) V c 13 t) (j 0) (j 1)
    = Cert.MP.gruRow (V c (Pipeline.arrRef spec5 0)) (V c (Pipeline.arrRef spec5 1))
      (V c (Pipeline.arrRef spec5 2)) (V c (Pipeline.arrRef spec5 3)) (V c (Pipeline.arrRef spec5 4))
      (V c (Pipeline.arrRef spec5 5)) (V c (Pipeline.arrRef spec5 6)) (V c (Pipeline.arrRef spec5 7))
      (V c (Pipeline.arrRef spec5 8)) (V c (Pipeline.arrRef spec5 9)) (V c (Pipeline.arrRef spec5 10))
      (V c (Pipeline.arrRef spec5 11)) (V c (Pipeline.arrRef spec5 12)) (V c (Pipeline.arrRef spec5 13))
      ((((cfg5.win 14).blk t).view.emb j) 0) ((((cfg5.win 14).blk t).view.emb j) 1)
  have hn : ((((cfg5.win 14).blk t).view.emb j) 0 : Fin 50000).val = t.val * 5000 + (j 0).val := by
    show win5_14.index t (0 : Fin 2) * 5000 + 1 * (j 0).val = t.val * 5000 + (j 0).val
    rw [(idx_rows t).2.2.2.2.1]; omega
  have hq : ((((cfg5.win 14).blk t).view.emb j) 1 : Fin 64) = j 1 := Fin.ext (by
    show win5_14.index t (1 : Fin 2) * 64 + 1 * (j 1).val = (j 1).val
    rw [(idx_rows t).2.2.2.2.2]; omega)
  exact gru_congr _ _ _ _ _ _ _ _ _ _ _ _ _ _ _ _ _ _ _ _ _ _ _ _ _ _ _ _ _ _ _ _
    (fun a => rows_0 V c t (j 0) _ hn a) (fun a => rows_1 V c t (j 0) _ hn a)
    (whole_2 V c t) (whole_3 V c t) (whole_4 V c t) (whole_5 V c t) (whole_6 V c t) (whole_7 V c t)
    (whole_8 V c t) (whole_9 V c t) (whole_10 V c t) (whole_11 V c t) (whole_12 V c t) (whole_13 V c t) hq

theorem mem_blk (t : Fin cfg5.N) (i : S50000x64.Idx) :
    i ∈ ((cfg5.win 14).blk t).view.set ↔ ∀ a : Fin 2, win5_14.index t a * S5000x64.size a ≤ (i a).val ∧ (i a).val < win5_14.index t a * S5000x64.size a + S5000x64.size a := by
  show i ∈ ((View.whole main_v57).slice (win5_14.rect t)).set ↔ _
  rw [View.set_slice_whole, Rect.mem_set_unit]
  exact Iff.rfl

theorem cover (i : S50000x64.Idx) :
    ∃ t : Fin cfg5.N, (cfg5.win 14).flush t = true ∧ i ∈ ((cfg5.win 14).blk t).view.set := by
  have hi0 : (i 0).val < 50000 := (i 0).isLt
  have hi1 : (i 1).val < 64 := (i 1).isLt
  have ht : (i 0).val / 5000 < cfg5.N := by show (i 0).val / 5000 < 10; omega
  refine ⟨⟨(i 0).val / 5000, ht⟩, flush5_14 _, ?_⟩
  rw [mem_blk]
  obtain ⟨-, -, -, -, e0, e1⟩ := idx_rows ⟨(i 0).val / 5000, ht⟩
  intro a
  match a with
  | ⟨0, _⟩ =>
    show win5_14.index ⟨(i 0).val / 5000, ht⟩ (0 : Fin 2) * 5000 ≤ (i 0).val ∧ (i 0).val < win5_14.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win5_14.index ⟨(i 0).val / 5000, ht⟩ (1 : Fin 2) * 64 ≤ (i 1).val ∧ (i 1).val < win5_14.index ⟨(i 0).val / 5000, ht⟩ (1 : Fin 2) * 64 + 64
    rw [e1]; omega

theorem final (V : (c : Dev nD) → (b : Ref sig .tc) → Buf (Elt Ideal) ((c : Thread nD τ).loc b)) (c : Dev nD) :
    (dat5 (F := Ideal) V c).arrAt 14 cfg5.N
      = Cert.MP.gruAt (V c (Pipeline.arrRef spec5 0)) (V c (Pipeline.arrRef spec5 1))
          (V c (Pipeline.arrRef spec5 2)) (V c (Pipeline.arrRef spec5 3)) (V c (Pipeline.arrRef spec5 4))
          (V c (Pipeline.arrRef spec5 5)) (V c (Pipeline.arrRef spec5 6)) (V c (Pipeline.arrRef spec5 7))
          (V c (Pipeline.arrRef spec5 8)) (V c (Pipeline.arrRef spec5 9)) (V c (Pipeline.arrRef spec5 10))
          (V c (Pipeline.arrRef spec5 11)) (V c (Pipeline.arrRef spec5 12)) (V c (Pipeline.arrRef spec5 13)) :=
  (dat5 (F := Ideal) V c).arrAt_eq_of_cover 14 (G V c) (fun t _ => flushed_eq V c t) cover

end Cert.KernelIdeal.RegGru5

end
-- ==== Proof.lean ====
import proofs.«423451_j81475529605767_1_alg».proof.Defs
import proofs.«423451_j81475529605767_1_alg».proof.Proof.Gen.Kernel
import proofs.«423451_j81475529605767_1_alg».proof.Proof.Gen.Kernel.Frame
import proofs.«423451_j81475529605767_1_alg».proof.Proof.Gen.KernelIdeal
import proofs.«423451_j81475529605767_1_alg».proof.Proof.Gen.KernelIdeal.Frame
import proofs.«423451_j81475529605767_1_alg».proof.Proof.Gen.ReferenceIdeal
import proofs.«423451_j81475529605767_1_alg».proof.Proof.RefRun
import proofs.«423451_j81475529605767_1_alg».proof.Proof.Gen.Pre_finite_inputs
import proofs.«423451_j81475529605767_1_alg».proof.Proof.KernelRun
import proofs.«423451_j81475529605767_1_alg».proof.Proof.Range
import proofs.«423451_j81475529605767_1_alg».proof.Proof.LawTake
import proofs.«423451_j81475529605767_1_alg».proof.Proof.Bridge
import proofs.«423451_j81475529605767_1_alg».proof.Proof.ChainD
import proofs.«423451_j81475529605767_1_alg».proof.Proof.RegMsg0
import proofs.«423451_j81475529605767_1_alg».proof.Proof.RegGru1
import proofs.«423451_j81475529605767_1_alg».proof.Proof.RegMsg2
import proofs.«423451_j81475529605767_1_alg».proof.Proof.RegGru3
import proofs.«423451_j81475529605767_1_alg».proof.Proof.RegMsg4
import proofs.«423451_j81475529605767_1_alg».proof.Proof.RegGru5
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

/-- The precondition's added conjunct puts every entry of the edge index in [0, 50000); both rows inherit it. -/
theorem edges_in_range (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    Cert.KD.EdgesInRange m c :=
  ⟨Cert.KD.src_inRange _ (Cert.KD.Range.edge_in_range m hpre c), Cert.KD.dst_inRange _ (Cert.KD.Range.edge_in_range m hpre c)⟩

/-- Both results are one function of the arguments; the index range makes the kernel's guarded row lookup the plain one. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KD.OUT m c, ?_, ?_⟩
  · refine (θ_run Cert.KernelIdeal.defs _ _).mono (fun r h c => ⟨(h c).1.trans ?_, (h c).2⟩)
      (Cert.KernelIdeal.GenRun.run_named (F := Ideal) m ρ)
    exact (Cert.KD.Chain.k19_out m ρ c Cert.KernelIdeal.RegMsg0.final Cert.KernelIdeal.RegGru1.final
      Cert.KernelIdeal.RegMsg2.final Cert.KernelIdeal.RegGru3.final Cert.KernelIdeal.RegMsg4.final
      Cert.KernelIdeal.RegGru5.final).trans (Cert.KD.kout_eq m c (edges_in_range m hpre c))
  · refine (θ_run Cert.ReferenceIdeal.defs _ _).mono (fun r h c => ⟨(h c).1.trans ?_, (h c).2⟩)
      (Cert.ReferenceIdeal.RefRun.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
